-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x78 : Shape := ⟨2, ![100000, 78]⟩
abbrev S2x3200000 : Shape := ⟨2, ![2, 3200000]⟩
abbrev S100000 : Shape := ⟨1, ![100000]⟩
abbrev S78x32 : Shape := ⟨2, ![78, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S5x32 : Shape := ⟨2, ![5, 32]⟩
abbrev S32x128 : Shape := ⟨2, ![32, 128]⟩
abbrev S128 : Shape := ⟨1, ![128]⟩
abbrev S_ : Shape := ⟨0, ![]⟩

class Facts : Prop where
  bcast_S_S100000x78 : S_.BroadcastsInDim S100000x78 (![] : Fin 0 → Fin S100000x78.rank)
  reducesTo_S100000x78_S_d0_1 : S100000x78.ReducesTo [0, 1] S_
  h_S_ : 0 < S_.numel
  bcast_S_S78x32 : S_.BroadcastsInDim S78x32 (![] : Fin 0 → Fin S78x32.rank)
  reducesTo_S78x32_S_d0_1 : S78x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S4x32 : S_.BroadcastsInDim S4x32 (![] : Fin 0 → Fin S4x32.rank)
  reducesTo_S4x32_S_d0_1 : S4x32.ReducesTo [0, 1] S_
  bcast_S_S5x32 : S_.BroadcastsInDim S5x32 (![] : Fin 0 → Fin S5x32.rank)
  reducesTo_S5x32_S_d0_1 : S5x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S32x128 .f32) (main_arg14 : FVec F S128 .f32) (main_v48 : IVec S_ 1) (main_v49 : FVec F S5x32 .f32) (main_v50 : FVec F S5x32 .f32) : IVec S_ 1 :=
  let main_v51 : IVec S5x32 1 := cmpf .olt main_v49 main_v50
  let main_c_19 : IVec S_ 1 := constantI S_ 1 1#1
  let main_v52 : IVec S_ 1 := (fun x v => Host.reduce IntOp.andi x v reducesTo_S5x32_S_d0_1 h_S_) main_v51 main_c_19
  let main_v53 : IVec S_ 1 := andi main_v48 main_v52
  let main_v54 : FVec F S32x128 .f32 := Host.absf main_arg13
  let main_cst_20 : FVec F S_ .f32 := constant S_ .f32 0x7F800000#32
  let main_v55 : FVec F S32x128 .f32 := broadcastInDim S32x128 ![] bcast_S_S32x128 main_cst_20
  let main_v56 : IVec S32x128 1 := cmpf .olt main_v54 main_v55
  let main_c_21 : IVec S_ 1 := constantI S_ 1 1#1
  let main_v57 : IVec S_ 1 := (fun x v => Host.reduce IntOp.andi x v reducesTo_S32x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S4x32x32 .f32) (main_arg10 : FVec F S4x32 .f32) (main_arg11 : FVec F S5x32 .f32) (main_arg12 : FVec F S5x32 .f32) (main_arg13 : FVec F S32x128 .f32) (main_arg14 : FVec F S128 .f32) (main_v33 : IVec S_ 1) : IVec S_ 1 :=
  let main_v34 : FVec F S4x32x32 .f32 := Host.absf main_arg9
  let main_cst_12 : FVec F S_ .f32 := constant S_ .f32 0x7F800000#32
  let main_v35 : FVec F S4x32x32 .f32 := broadcastInDim S4x32x32 ![] bcast_S_S4x32x32 main_cst_12
  let main_v36 : IVec S4x32x32 1 := cmpf .olt main_v34 main_v35
  let main_c_13 : IVec S_ 1 := constantI S_ 1 1#1
  let main_v37 : IVec S_ 1 := (fun x v => Host.reduce IntOp.andi x v reducesTo_S4x32x32_S_d0_1_2 h_S_) main_v36 main_c_13
  let main_v38 : IVec S_ 1 := andi main_v33 main_v37
  let main_v39 : FVec F S4x32 .f32 := Host.absf main_arg10
  let main_cst_14 : FVec F S_ .f32 := constant S_ .f32 0x7F800000#32
  let main_v40 : FVec F S4x32 .f32 := broadcastInDim S4x32 ![] bcast_S_S4x32 main_cst_14
  let main_v41 : IVec S4x32 1 := cmpf .olt main_v39 main_v40
  let main_c_15 : IVec S_ 1 := constantI S_ 1 1#1
  let main_v42 : IVec S_ 1 := (fun x v => Host.reduce IntOp.andi x v reducesTo_S4x32_S_d0_1 h_S_) main_v41 main_c_15
  let main_v43 : IVec S_ 1 := andi main_v38 main_v42
  let main_v44 : FVec F S5x32 .f32 := Host.absf main_arg11
  let main_cst_16 : FVec F S_ .f32 := constant S_ .f32 0x7F800000#32
  let main_v45 : FVec F S5x32 .f32 := broadcastInDim S5x32 ![] bcast_S_S5x32 main_cst_16
  let main_v46 : IVec S5x32 1 := cmpf .olt main_v44 main_v45
  let main_c_17 : IVec S_ 1 := constantI S_ 1 1#1
  let main_v47 : IVec S_ 1 := (fun x v => Host.reduce IntOp.andi x v reducesTo_S5x32_S_d0_1 h_S_) main_v46 main_c_17
  let main_v48 : IVec S_ 1 := andi main_v43 main_v47
  let main_v49 : FVec F S5x32 .f32 := Host.absf main_arg12
  let main_cst_18 : FVec F S_ .f32 := constant S_ .f32 0x7F800000#32
  let main_v50 : FVec F S5x32 .f32 := broadcastInDim S5x32 ![] bcast_S_S5x32 main_cst_18
  fn_part3 (F := F) main_arg13 main_arg14 main_v48 main_v49 main_v50

def fn_part1 {F : FTy → Type} [FloatOps F] (main_arg6 : FVec F S32 .f32) (main_arg7 : FVec F S4x32x32 .f32) (main_arg8 : FVec F S4x32 .f32) (main_arg9 : FVec F S4x32x32 .f32) (main_arg10 : FVec F S4x32 .f32) (main_arg11 : FVec F S5x32 .f32) (main_arg12 : FVec F S5x32 .f32) (main_arg13 : FVec F S32x128 .f32) (main_arg14 : FVec F S128 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4x32x32 .f32 := Host.absf main_arg7
  let main_cst_8 : FVec F S_ .f32 := constant S_ .f32 0x7F800000#32
  let main_v25 : FVec F S4x32x32 .f32 := broadcastInDim S4x32x32 ![] bcast_S_S4x32x32 main_cst_8
  let main_v26 : IVec S4x32x32 1 := cmpf .olt main_v24 main_v25
  let main_c_9 : IVec S_ 1 := constantI S_ 1 1#1
  let main_v27 : IVec S_ 1 := (fun x v => Host.reduce IntOp.andi x v reducesTo_S4x32x32_S_d0_1_2 h_S_) main_v26 main_c_9
  let main_v28 : IVec S_ 1 := andi main_v23 main_v27
  let main_v29 : FVec F S4x32 .f32 := Host.absf main_arg8
  let main_cst_10 : FVec F S_ .f32 := constant S_ .f32 0x7F800000#32
  let main_v30 : FVec F S4x32 .f32 := broadcastInDim S4x32 ![] bcast_S_S4x32 main_cst_10
  let main_v31 : IVec S4x32 1 := cmpf .olt main_v29 main_v30
  let main_c_11 : IVec S_ 1 := constantI S_ 1 1#1
  let main_v32 : IVec S_ 1 := (fun x v => Host.reduce IntOp.andi x v reducesTo_S4x32_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x78 .f32) (main_arg1 : IVec S2x3200000 32) (main_arg2 : IVec S100000 32) (main_arg3 : FVec F S78x32 .f32) (main_arg4 : FVec F S32 .f32) (main_arg5 : FVec F S32x32 .f32) (main_arg6 : FVec F S32 .f32) (main_arg7 : FVec F S4x32x32 .f32) (main_arg8 : FVec F S4x32 .f32) (main_arg9 : FVec F S4x32x32 .f32) (main_arg10 : FVec F S4x32 .f32) (main_arg11 : FVec F S5x32 .f32) (main_arg12 : FVec F S5x32 .f32) (main_arg13 : FVec F S32x128 .f32) (main_arg14 : FVec F S128 .f32) : IVec S_ 1 :=
  let main_v0 : FVec F S100000x78 .f32 := Host.absf main_arg0
  let main_cst : FVec F S_ .f32 := constant S_ .f32 0x7F800000#32
  let main_v1 : FVec F S100000x78 .f32 := broadcastInDim S100000x78 ![] bcast_S_S100000x78 main_cst
  let main_v2 : IVec S100000x78 1 := cmpf .olt main_v0 main_v1
  let main_c : IVec S_ 1 := constantI S_ 1 1#1
  let main_v3 : IVec S_ 1 := (fun x v => Host.reduce IntOp.andi x v reducesTo_S100000x78_S_d0_1 h_S_) main_v2 main_c
  let main_v4 : FVec F S78x32 .f32 := Host.absf main_arg3
  let main_cst_0 : FVec F S_ .f32 := constant S_ .f32 0x7F800000#32
  let main_v5 : FVec F S78x32 .f32 := broadcastInDim S78x32 ![] bcast_S_S78x32 main_cst_0
  let main_v6 : IVec S78x32 1 := cmpf .olt main_v4 main_v5
  let main_c_1 : IVec S_ 1 := constantI S_ 1 1#1
  let main_v7 : IVec S_ 1 := (fun x v => Host.reduce IntOp.andi x v reducesTo_S78x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_v13 main_v16
-- ==== Kernel.lean ====
abbrev S100000x78 : Shape := ⟨2, ![100000, 78]⟩
abbrev S2x3200000 : Shape := ⟨2, ![2, 3200000]⟩
abbrev S100000 : Shape := ⟨1, ![100000]⟩
abbrev S78x32 : Shape := ⟨2, ![78, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S5x32 : Shape := ⟨2, ![5, 32]⟩
abbrev S32x128 : Shape := ⟨2, ![32, 128]⟩
abbrev S128 : Shape := ⟨1, ![128]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x78 : Shape := ⟨2, ![3200000, 78]⟩
abbrev S1x32 : Shape := ⟨2, ![1, 32]⟩
abbrev S100000x32 : Shape := ⟨2, ![100000, 32]⟩
abbrev S10000x78 : Shape := ⟨2, ![10000, 78]⟩
abbrev S10000x32 : Shape := ⟨2, ![10000, 32]⟩
abbrev S3200000x32 : Shape := ⟨2, ![3200000, 32]⟩
abbrev S1x32x32 : Shape := ⟨3, ![1, 32, 32]⟩
abbrev S100000x1 : Shape := ⟨2, ![100000, 1]⟩
abbrev S1x128 : Shape := ⟨2, ![1, 128]⟩
abbrev S2048x128 : Shape := ⟨2, ![2048, 128]⟩
abbrev S1000x32 : Shape := ⟨2, ![1000, 32]⟩
abbrev S1000x1 : Shape := ⟨2, ![1000, 1]⟩
abbrev S2048x32 : Shape := ⟨2, ![2048, 32]⟩
abbrev S1000x2048 : Shape := ⟨2, ![1000, 2048]⟩

abbrev nBuf : Space → Nat
  | .hbm => 224
  | .vmem => 108
  | .smem => 0
  | _ => 0

abbrev hbmTy0_0 (i : Nat) : BufTy := match i % 128 with
  | 0 => ⟨S100000x78, .f32⟩
  | 1 => ⟨S2x3200000, .i32⟩
  | 2 => ⟨S100000, .i32⟩
  | 3 => ⟨S78x32, .f32⟩
  | 4 => ⟨S32, .f32⟩
  | 5 => ⟨S32x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S5x32, .f32⟩
  | 12 => ⟨S5x32, .f32⟩
  | 13 => ⟨S32x128, .f32⟩
  | 14 => ⟨S128, .f32⟩
  | 15 => ⟨S1x3200000, .i32⟩
  | 16 => ⟨S3200000, .i32⟩
  | 17 => ⟨S1x3200000, .i32⟩
  | 18 => ⟨S3200000, .i32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x78, .f32⟩
  | 28 => ⟨S_, .f32⟩
  | 29 => ⟨S100000x78, .f32⟩
  | 30 => ⟨S3200000x1, .i32⟩
  | 31 => ⟨S100000x78, .f32⟩
  | 32 => ⟨S100000x78, .f32⟩
  | 33 => ⟨S1x32, .f32⟩
  | 34 => ⟨S32, .f32⟩
  | 35 => ⟨S1x32, .f32⟩
  | 36 => ⟨S32, .f32⟩
  | 37 => ⟨S1x32, .f32⟩
  | 38 => ⟨S1x32, .f32⟩
  | 39 => ⟨S100000x32, .f32⟩
  | 40 => ⟨S1x32, .f32⟩
  | 41 => ⟨S1x32, .f32⟩
  | 42 => ⟨S_, .f32⟩
  | 43 => ⟨S1x32, .f32⟩
  | 44 => ⟨S1x32, .f32⟩
  | 45 => ⟨S_, .f32⟩
  | 46 => ⟨S1x32, .f32⟩
  | 47 => ⟨S1x32, .f32⟩
  | 48 => ⟨S1x32, .f32⟩
  | 49 => ⟨S1x32, .f32⟩
  | 50 => ⟨S1x32, .f32⟩
  | 51 => ⟨S1x32, .f32⟩
  | 52 => ⟨S100000x32, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x32, .f32⟩
  | 62 => ⟨S_, .f32⟩
  | 63 => ⟨S100000x32, .f32⟩
  | 64 => ⟨S3200000x1, .i32⟩
  | 65 => ⟨S100000x32, .f32⟩
  | 66 => ⟨S100000x32, .f32⟩
  | 67 => ⟨S1x32x32, .f32⟩
  | 68 => ⟨S32x32, .f32⟩
  | 69 => ⟨S1x32, .f32⟩
  | 70 => ⟨S32, .f32⟩
  | 71 => ⟨S1x32x32, .f32⟩
  | 72 => ⟨S32x32, .f32⟩
  | 73 => ⟨S1x32, .f32⟩
  | 74 => ⟨S32, .f32⟩
  | 75 => ⟨S1x32, .f32⟩
  | 76 => ⟨S32, .f32⟩
  | 77 => ⟨S1x32, .f32⟩
  | 78 => ⟨S32, .f32⟩
  | 79 => ⟨S1x32, .f32⟩
  | 80 => ⟨S1x32, .f32⟩
  | 81 => ⟨S100000x32, .f32⟩
  | 82 => ⟨S1x32, .f32⟩
  | 83 => ⟨S1x32, .f32⟩
  | 84 => ⟨S_, .f32⟩
  | 85 => ⟨S1x32, .f32⟩
  | 86 => ⟨S1x32, .f32⟩
  | 87 => ⟨S_, .f32⟩
  | 88 => ⟨S1x32, .f32⟩
  | 89 => ⟨S1x32, .f32⟩
  | 90 => ⟨S1x32, .f32⟩
  | 91 => ⟨S1x32, .f32⟩
  | 92 => ⟨S1x32, .f32⟩
  | 93 => ⟨S1x32, .f32⟩
  | 94 => ⟨S100000x32, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x32, .f32⟩
  | 104 => ⟨S_, .f32⟩
  | 105 => ⟨S100000x32, .f32⟩
  | 106 => ⟨S3200000x1, .i32⟩
  | 107 => ⟨S100000x32, .f32⟩
  | 108 => ⟨S100000x32, .f32⟩
  | 109 => ⟨S1x32x32, .f32⟩
  | 110 => ⟨S32x32, .f32⟩
  | 111 => ⟨S1x32, .f32⟩
  | 112 => ⟨S32, .f32⟩
  | 113 => ⟨S1x32x32, .f32⟩
  | 114 => ⟨S32x32, .f32⟩
  | 115 => ⟨S1x32, .f32⟩
  | 116 => ⟨S32, .f32⟩
  | 117 => ⟨S1x32, .f32⟩
  | 118 => ⟨S32, .f32⟩
  | 119 => ⟨S1x32, .f32⟩
  | 120 => ⟨S32, .f32⟩
  | 121 => ⟨S1x32, .f32⟩
  | 122 => ⟨S1x32, .f32⟩
  | 123 => ⟨S100000x32, .f32⟩
  | 124 => ⟨S1x32, .f32⟩
  | 125 => ⟨S1x32, .f32⟩
  | 126 => ⟨S_, .f32⟩
  | 127 => ⟨S1x32, .f32⟩
  | _ => ⟨S100000x78, .f32⟩

abbrev hbmTy0_1 (i : Nat) : BufTy := match i % 128 with
  | 0 => ⟨S1x32, .f32⟩
  | 1 => ⟨S_, .f32⟩
  | 2 => ⟨S1x32, .f32⟩
  | 3 => ⟨S1x32, .f32⟩
  | 4 => ⟨S1x32, .f32⟩
  | 5 => ⟨S1x32, .f32⟩
  | 6 => ⟨S1x32, .f32⟩
  | 7 => ⟨S1x32, .f32⟩
  | 8 => ⟨S100000x32, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S3200000x32, .f32⟩
  | 18 => ⟨S_, .f32⟩
  | 19 => ⟨S100000x32, .f32⟩
  | 20 => ⟨S3200000x1, .i32⟩
  | 21 => ⟨S100000x32, .f32⟩
  | 22 => ⟨S100000x32, .f32⟩
  | 23 => ⟨S1x32x32, .f32⟩
  | 24 => ⟨S32x32, .f32⟩
  | 25 => ⟨S1x32, .f32⟩
  | 26 => ⟨S32, .f32⟩
  | 27 => ⟨S1x32x32, .f32⟩
  | 28 => ⟨S32x32, .f32⟩
  | 29 => ⟨S1x32, .f32⟩
  | 30 => ⟨S32, .f32⟩
  | 31 => ⟨S1x32, .f32⟩
  | 32 => ⟨S32, .f32⟩
  | 33 => ⟨S1x32, .f32⟩
  | 34 => ⟨S32, .f32⟩
  | 35 => ⟨S1x32, .f32⟩
  | 36 => ⟨S1x32, .f32⟩
  | 37 => ⟨S100000x32, .f32⟩
  | 38 => ⟨S1x32, .f32⟩
  | 39 => ⟨S1x32, .f32⟩
  | 40 => ⟨S_, .f32⟩
  | 41 => ⟨S1x32, .f32⟩
  | 42 => ⟨S1x32, .f32⟩
  | 43 => ⟨S_, .f32⟩
  | 44 => ⟨S1x32, .f32⟩
  | 45 => ⟨S1x32, .f32⟩
  | 46 => ⟨S1x32, .f32⟩
  | 47 => ⟨S1x32, .f32⟩
  | 48 => ⟨S1x32, .f32⟩
  | 49 => ⟨S1x32, .f32⟩
  | 50 => ⟨S100000x32, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x32, .f32⟩
  | 60 => ⟨S_, .f32⟩
  | 61 => ⟨S100000x32, .f32⟩
  | 62 => ⟨S3200000x1, .i32⟩
  | 63 => ⟨S100000x32, .f32⟩
  | 64 => ⟨S100000x32, .f32⟩
  | 65 => ⟨S1x32x32, .f32⟩
  | 66 => ⟨S32x32, .f32⟩
  | 67 => ⟨S1x32, .f32⟩
  | 68 => ⟨S32, .f32⟩
  | 69 => ⟨S1x32x32, .f32⟩
  | 70 => ⟨S32x32, .f32⟩
  | 71 => ⟨S1x32, .f32⟩
  | 72 => ⟨S32, .f32⟩
  | 73 => ⟨S1x32, .f32⟩
  | 74 => ⟨S32, .f32⟩
  | 75 => ⟨S1x32, .f32⟩
  | 76 => ⟨S32, .f32⟩
  | 77 => ⟨S1x32, .f32⟩
  | 78 => ⟨S1x32, .f32⟩
  | 79 => ⟨S100000x32, .f32⟩
  | 80 => ⟨S1x32, .f32⟩
  | 81 => ⟨S1x32, .f32⟩
  | 82 => ⟨S_, .f32⟩
  | 83 => ⟨S1x32, .f32⟩
  | 84 => ⟨S1x32, .f32⟩
  | 85 => ⟨S_, .f32⟩
  | 86 => ⟨S1x32, .f32⟩
  | 87 => ⟨S1x32, .f32⟩
  | 88 => ⟨S1x32, .f32⟩
  | 89 => ⟨S1x32, .f32⟩
  | 90 => ⟨S1x32, .f32⟩
  | 91 => ⟨S1x32, .f32⟩
  | 92 => ⟨S100000x32, .f32⟩
  | 93 => ⟨S100000x1, .i32⟩
  | 94 => ⟨S1x128, .f32⟩
  | 95 => ⟨S2048x128, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | .local _ .vmem, ⟨0, _⟩ => ⟨S10000x78, .f32⟩
  | .local _ .vmem, ⟨1, _⟩ => ⟨S10000x78, .f32⟩
  | .local _ .vmem, ⟨2, _⟩ => ⟨S78x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S1x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S10000x32, .f32⟩
  | .local _ .vmem, ⟨33, _⟩ => ⟨S10000x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S32x32, .f32⟩
  | .local _ .vmem, ⟨43, _⟩ => ⟨S1x32, .f32⟩
  | .local _ .vmem, ⟨44, _⟩ => ⟨S32x32, .f32⟩
  | .local _ .vmem, ⟨45, _⟩ => ⟨S1x32, .f32⟩
  | .local _ .vmem, ⟨46, _⟩ => ⟨S10000x32, .f32⟩
  | .local _ .vmem, ⟨47, _⟩ => ⟨S10000x32, .f32⟩
  | .local _ .vmem, ⟨48, _⟩ => ⟨S1x32, .f32⟩
  | .local _ .vmem, ⟨49, _⟩ => ⟨S1x32, .f32⟩
  | .local _ .vmem, ⟨50, _⟩ => ⟨S1x32, .f32⟩
  | .local _ .vmem, ⟨51, _⟩ => ⟨S1x32, .f32⟩
  | .local _ .vmem, ⟨52, _⟩ => ⟨S10000x32, .f32⟩
  | .local _ .vmem, ⟨53, _⟩ => ⟨S10000x32, .f32⟩
  | .local _ .vmem, ⟨54, _⟩ => ⟨S1x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S10000x32, .f32⟩
  | .local _ .vmem, ⟨59, _⟩ => ⟨S10000x32, .f32⟩
  | .local _ .vmem, ⟨60, _⟩ => ⟨S10000x32, .f32⟩
  | .local _ .vmem, ⟨61, _⟩ => ⟨S10000x32, .f32⟩
  | .local _ .vmem, ⟨62, _⟩ => ⟨S32x32, .f32⟩
  | .local _ .vmem, ⟨63, _⟩ => ⟨S1x32, .f32⟩
  | .local _ .vmem, ⟨64, _⟩ => ⟨S32x32, .f32⟩
  | .local _ .vmem, ⟨65, _⟩ => ⟨S1x32, .f32⟩
  | .local _ .vmem, ⟨66, _⟩ => ⟨S10000x32, .f32⟩
  | .local _ .vmem, ⟨67, _⟩ => ⟨S10000x32, .f32⟩
  | .local _ .vmem, ⟨68, _⟩ => ⟨S1x32, .f32⟩
  | .local _ .vmem, ⟨69, _⟩ => ⟨S1x32, .f32⟩
  | .local _ .vmem, ⟨70, _⟩ => ⟨S1x32, .f32⟩
  | .local _ .vmem, ⟨71, _⟩ => ⟨S1x32, .f32⟩
  | .local _ .vmem, ⟨72, _⟩ => ⟨S10000x32, .f32⟩
  | .local _ .vmem, ⟨73, _⟩ => ⟨S10000x32, .f32⟩
  | .local _ .vmem, ⟨74, _⟩ => ⟨S1x32, .f32⟩
  | .local _ .vmem, ⟨75, _⟩ => ⟨S1x32, .f32⟩
  | .local _ .vmem, ⟨76, _⟩ => ⟨S1x32, .f32⟩
  | .local _ .vmem, ⟨77, _⟩ => ⟨S1x32, .f32⟩
  | .local _ .vmem, ⟨78, _⟩ => ⟨S10000x32, .f32⟩
  | .local _ .vmem, ⟨79, _⟩ => ⟨S10000x32, .f32⟩
  | .local _ .vmem, ⟨80, _⟩ => ⟨S10000x32, .f32⟩
  | .local _ .vmem, ⟨81, _⟩ => ⟨S10000x32, .f32⟩
  | .local _ .vmem, ⟨82, _⟩ => ⟨S32x32, .f32⟩
  | .local _ .vmem, ⟨83, _⟩ => ⟨S1x32, .f32⟩
  | .local _ .vmem, ⟨84, _⟩ => ⟨S32x32, .f32⟩
  | .local _ .vmem, ⟨85, _⟩ => ⟨S1x32, .f32⟩
  | .local _ .vmem, ⟨86, _⟩ => ⟨S10000x32, .f32⟩
  | .local _ .vmem, ⟨87, _⟩ => ⟨S10000x32, .f32⟩
  | .local _ .vmem, ⟨88, _⟩ => ⟨S1x32, .f32⟩
  | .local _ .vmem, ⟨89, _⟩ => ⟨S1x32, .f32⟩
  | .local _ .vmem, ⟨90, _⟩ => ⟨S1x32, .f32⟩
  | .local _ .vmem, ⟨91, _⟩ => ⟨S1x32, .f32⟩
  | .local _ .vmem, ⟨92, _⟩ => ⟨S10000x32, .f32⟩
  | .local _ .vmem, ⟨93, _⟩ => ⟨S10000x32, .f32⟩
  | .local _ .vmem, ⟨94, _⟩ => ⟨S1x32, .f32⟩
  | .local _ .vmem, ⟨95, _⟩ => ⟨S1x32, .f32⟩
  | .local _ .vmem, ⟨96, _⟩ => ⟨S1x32, .f32⟩
  | .local _ .vmem, ⟨97, _⟩ => ⟨S1x32, .f32⟩
  | .local _ .vmem, ⟨98, _⟩ => ⟨S10000x32, .f32⟩
  | .local _ .vmem, ⟨99, _⟩ => ⟨S10000x32, .f32⟩
  | .local _ .vmem, ⟨100, _⟩ => ⟨S1000x32, .f32⟩
  | .local _ .vmem, ⟨101, _⟩ => ⟨S1000x32, .f32⟩
  | .local _ .vmem, ⟨102, _⟩ => ⟨S1000x1, .i32⟩
  | .local _ .vmem, ⟨103, _⟩ => ⟨S1000x1, .i32⟩
  | .local _ .vmem, ⟨104, _⟩ => ⟨S32x128, .f32⟩
  | .local _ .vmem, ⟨105, _⟩ => ⟨S1x128, .f32⟩
  | .local _ .vmem, ⟨106, _⟩ => ⟨S2048x128, .f32⟩
  | .local _ .vmem, ⟨107, _⟩ => ⟨S2048x32, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56_0 : Ref sig .tc := ⟨.hbm, 81, rfl⟩
abbrev main_v56_1 : Ref sig .tc := ⟨.hbm, 82, rfl⟩
abbrev main_v56_2 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_8 : Ref sig .tc := ⟨.hbm, 95, rfl⟩
abbrev main_v66 : Ref sig .tc := ⟨.hbm, 96, rfl⟩
abbrev main_v67 : Ref sig .tc := ⟨.hbm, 97, rfl⟩
abbrev main_c_9 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91_0 : Ref sig .tc := ⟨.hbm, 123, rfl⟩
abbrev main_v91_1 : Ref sig .tc := ⟨.hbm, 124, rfl⟩
abbrev main_v91_2 : Ref sig .tc := ⟨.hbm, 125, rfl⟩
abbrev main_cst_11 : Ref sig .tc := ⟨.hbm, 126, rfl⟩
abbrev main_v92 : Ref sig .tc := ⟨.hbm, 127, rfl⟩
abbrev main_v93 : Ref sig .tc := ⟨.hbm, 128, rfl⟩
abbrev main_cst_12 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_13 : Ref sig .tc := ⟨.hbm, 137, rfl⟩
abbrev main_v101 : Ref sig .tc := ⟨.hbm, 138, rfl⟩
abbrev main_v102 : Ref sig .tc := ⟨.hbm, 139, rfl⟩
abbrev main_c_14 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_15 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126_0 : Ref sig .tc := ⟨.hbm, 165, rfl⟩
abbrev main_v126_1 : Ref sig .tc := ⟨.hbm, 166, rfl⟩
abbrev main_v126_2 : Ref sig .tc := ⟨.hbm, 167, rfl⟩
abbrev main_cst_16 : Ref sig .tc := ⟨.hbm, 168, rfl⟩
abbrev main_v127 : Ref sig .tc := ⟨.hbm, 169, rfl⟩
abbrev main_v128 : Ref sig .tc := ⟨.hbm, 170, rfl⟩
abbrev main_cst_17 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_18 : Ref sig .tc := ⟨.hbm, 179, rfl⟩
abbrev main_v136 : Ref sig .tc := ⟨.hbm, 180, rfl⟩
abbrev main_v137 : Ref sig .tc := ⟨.hbm, 181, rfl⟩
abbrev main_c_19 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_20 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161_0 : Ref sig .tc := ⟨.hbm, 207, rfl⟩
abbrev main_v161_1 : Ref sig .tc := ⟨.hbm, 208, rfl⟩
abbrev main_v161_2 : Ref sig .tc := ⟨.hbm, 209, rfl⟩
abbrev main_cst_21 : Ref sig .tc := ⟨.hbm, 210, rfl⟩
abbrev main_v162 : Ref sig .tc := ⟨.hbm, 211, rfl⟩
abbrev main_v163 : Ref sig .tc := ⟨.hbm, 212, rfl⟩
abbrev main_cst_22 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg7_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc8_stg6_0 : Ref sig .tc := ⟨.vmem, 88, rfl⟩
abbrev cc8_stg7_0 : Ref sig .tc := ⟨.vmem, 89, rfl⟩
abbrev cc8_scratch0 : Ref sig .tc := ⟨.vmem, 90, rfl⟩
abbrev cc8_scratch1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg5_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg4_0 : Ref sig .tc := ⟨.vmem, 106, rfl⟩
abbrev cc10_scratch0 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem4_0 : DmaSem sig := 77
abbrev cc8_sem5_0 : DmaSem sig := 78
abbrev cc8_sem5_1 : DmaSem sig := 79
abbrev cc8_sem6_0 : DmaSem sig := 80
abbrev cc8_sem7_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem3_0 : DmaSem sig := 95
abbrev cc10_sem4_0 : DmaSem sig := 96

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x32 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x32 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x32 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![100], ![false]⟩

def k10_cond2 (i : grid10.Coords) : BitVec 1 :=
  let arg0 : BitVec 32 := BitVec.ofNat 32 (i 0).val
  let c99_i32 : BitVec 32 := 99#32
  let v20 : BitVec 1 := Scalar.cmpi .eq arg0 c99_i32
  let v21 : BitVec 32 := Scalar.extui v20
  let c0_i32_8 : BitVec 32 := 0#32
  let v22 : BitVec 1 := Scalar.cmpi .ne v21 c0_i32_8
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S32x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S2048x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x78 : S_.BroadcastsInDim S100000x78 (![] : Fin 0 → Fin S100000x78.rank)
  slices_S5x32_S1x32_0_0 : S5x32.Slices ![0, 0] S1x32
  shapeCasts_S1x32_S32 : S1x32.ShapeCasts S32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S10000x78_S10000x78_0_0 : ∀ a, (![0, 0] : Fin 2 → Nat) a + S10000x78.size a ≤ S10000x78.size a
  h_S10000x78 : 0 < S10000x78.numel
  shapeCasts_S10000x78_S10000x78 : S10000x78.ShapeCasts S10000x78
  bitsLt_bf16_f32 : FTy.bits .bf16 < FTy.bits .f32
  inb_S78x32_S78x32_0_0 : ∀ a, (![0, 0] : Fin 2 → Nat) a + S78x32.size a ≤ S78x32.size a
  h_S78x32 : 0 < S78x32.numel
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  reduces_S10000x32_S32 : S10000x32.Reduces [0] S32
  bcast_S_S1x32 : S_.BroadcastsInDim S1x32 (![] : Fin 0 → Fin S1x32.rank)
  shapeCasts_S10000x32_S10000x32 : S10000x32.ShapeCasts S10000x32
  bcast_S_S100000x32 : S_.BroadcastsInDim S100000x32 (![] : Fin 0 → Fin S100000x32.rank)
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  slices_S5x32_S1x32_1_0 : S5x32.Slices ![1, 0] S1x32
  shapeCasts_S32x32_S32x32 : S32x32.ShapeCasts S32x32
  slices_S4x32x32_S1x32x32_1_0_0 : S4x32x32.Slices ![1, 0, 0] S1x32x32
  slices_S4x32_S1x32_1_0 : S4x32.Slices ![1, 0] S1x32
  slices_S5x32_S1x32_2_0 : S5x32.Slices ![2, 0] S1x32
  slices_S4x32x32_S1x32x32_2_0_0 : S4x32x32.Slices ![2, 0, 0] S1x32x32
  slices_S4x32_S1x32_2_0 : S4x32.Slices ![2, 0] S1x32
  slices_S5x32_S1x32_3_0 : S5x32.Slices ![3, 0] S1x32
  slices_S4x32x32_S1x32x32_3_0_0 : S4x32x32.Slices ![3, 0, 0] S1x32x32
  slices_S4x32_S1x32_3_0 : S4x32.Slices ![3, 0] S1x32
  slices_S5x32_S1x32_4_0 : S5x32.Slices ![4, 0] S1x32
  shapeCasts_S100000_S100000x1 : S100000.ShapeCasts S100000x1
  shapeCasts_S128_S1x128 : S128.ShapeCasts S1x128
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x2048_d1_w32 : S1000x2048.Iotas .tc 32 [1]
  broadcasts_S1000x1_S1000x2048 : S1000x1.Broadcasts S1000x2048
  natLt_1_32 : 1 < 32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  gather_S100000x78_S3200000x1_S3200000x78_1_0_n_n_0_1_178_wf : GatherDims.WF S100000x78 S3200000x1 S3200000x78 [1] [0] [] [0] [] 1 ![1, 78]
  scatter_S100000x78_S3200000x1_S3200000x78_1_0_0_1_wf : ScatterDims.WF S100000x78 S3200000x1 S3200000x78 [1] [0] [0] 1
  dot_S10000x78_S78x32_S10000x32_1_0_0_1_n_n_wf : DotDims.WF S10000x78 S78x32 S10000x32 [1] [0] [0] [1] [] []
  dot_S10000x32_S32x32_S10000x32_1_0_0_1_n_n_wf : DotDims.WF S10000x32 S32x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S1000x2048_S1000x32_S2048x32_0_0_1_1_n_n_wf : DotDims.WF S1000x2048 S1000x32 S2048x32 [0] [0] [1] [1] [] []
  dot_S2048x32_S32x128_S2048x128_1_0_0_1_n_n_wf : DotDims.WF S2048x32 S32x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x78.size a ≤ S100000x78.size a
  hwx0_0 : ∀ i : grid0.Coords, EltTy.bits .f32 = 32 ∨ (Rect.block (s := S100000x78) S10000x78.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x32.size a ≤ S78x32.size a
  hwx0_1 : ∀ i : grid0.Coords, EltTy.bits .f32 = 32 ∨ (Rect.block (s := S78x32) S78x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x32.size a ≤ S100000x32.size a
  hwx4_5 : ∀ i : grid4.Coords, EltTy.bits .f32 = 32 ∨ (Rect.block (s := S100000x32) S10000x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S100000x32.size a
  hwx5_5 : ∀ i : grid5.Coords, EltTy.bits .f32 = 32 ∨ (Rect.block (s := S100000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x32.size a ≤ S100000x32.size a
  hwx6_5 : ∀ i : grid6.Coords, EltTy.bits .f32 = 32 ∨ (Rect.block (s := S100000x32) S10000x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x32.size a ≤ S1x32.size a
  hwx6_7 : ∀ i : grid6.Coords, EltTy.bits .f32 = 32 ∨ (Rect.block (s := S1x32) S1x32.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x32.size a ≤ S100000x32.size a
  hwx7_5 : ∀ i : grid7.Coords, EltTy.bits .f32 = 32 ∨ (Rect.block (s := S100000x32) S10000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x32.size a ≤ S32x32.size a
  hwx8_3 : ∀ i : grid8.Coords, EltTy.bits .f32 = 32 ∨ (Rect.block (s := S32x32) S32x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x32.size a ≤ S100000x32.size a
  hwx8_5 : ∀ i : grid8.Coords, EltTy.bits .f32 = 32 ∨ (Rect.block (s := S100000x32) S10000x32.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x32.size a ≤ S1x32.size a
  hwx8_6 : ∀ i : grid8.Coords, EltTy.bits .f32 = 32 ∨ (Rect.block (s := S1x32) S1x32.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x32.size a ≤ S1x32.size a
  hwx8_7 : ∀ i : grid8.Coords, EltTy.bits .f32 = 32 ∨ (Rect.block (s := S1x32) S1x32.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x32.size a ≤ S1x32.size a
  hwx9_3 : ∀ i : grid9.Coords, EltTy.bits .f32 = 32 ∨ (Rect.block (s := S1x32) S1x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x32.size a ≤ S100000x32.size a
  hwx9_5 : ∀ i : grid9.Coords, EltTy.bits .f32 = 32 ∨ (Rect.block (s := S100000x32) S10000x32.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x32.size a ≤ S100000x32.size a
  hwx10_0 : ∀ i : grid10.Coords, EltTy.bits .f32 = 32 ∨ (Rect.block (s := S100000x32) S1000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1000x1.size a ≤ S100000x1.size a
  hwx10_1 : ∀ i : grid10.Coords, EltTy.bits .i32 = 32 ∨ (Rect.block (s := S100000x1) S1000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S32x128.size a ≤ S32x128.size a
  hwx10_2 : ∀ i : grid10.Coords, EltTy.bits .f32 = 32 ∨ (Rect.block (s := S32x128) S32x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S2048x128.size a ≤ S2048x128.size a
  hwx10_4 : ∀ i : grid10.Coords, EltTy.bits .f32 = 32 ∨ (Rect.block (s := S2048x128) S2048x128.size (cc10_transform_4 i) (hinb10_4 i)).WholeWords (EltTy.packing .f32)

variable [Facts₀]

def gather_S100000x78_S3200000x1_S3200000x78_1_0_n_n_0_1_178 : GatherDims S100000x78 S3200000x1 S3200000x78 where
  offsetDims := [1]
  collapsedSliceDims := [0]
  operandBatchingDims := []
  startIndicesBatchingDims := []
  startIndexMap := [0]
  indexVectorDim := 1
  sliceSizes := ![1, 78]
  wf := gather_S100000x78_S3200000x1_S3200000x78_1_0_n_n_0_1_178_wf
def scatter_S100000x78_S3200000x1_S3200000x78_1_0_0_1 : ScatterDims S100000x78 S3200000x1 S3200000x78 where
  updateWindowDims := [1]
  insertedWindowDims := [0]
  scatterDimsToOperandDims := [0]
  indexVectorDim := 1
  wf := scatter_S100000x78_S3200000x1_S3200000x78_1_0_0_1_wf
def dot_S10000x78_S78x32_S10000x32_1_0_0_1_n_n : DotDims S10000x78 S78x32 S10000x32 where
  lhsContracting := [1]
  rhsContracting := [0]
  lhsNonContracting := [0]
  rhsNonContracting := [1]
  lhsBatch := []
  rhsBatch := []
  wf := dot_S10000x78_S78x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S1000x2048_S1000x32_S2048x32_0_0_1_1_n_n : DotDims S1000x2048 S1000x32 S2048x32 where
  lhsContracting := [0]
  rhsContracting := [0]
  lhsNonContracting := [1]
  rhsNonContracting := [1]
  lhsBatch := []
  rhsBatch := []
  wf := dot_S1000x2048_S1000x32_S2048x32_0_0_1_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf

abbrev win0_0 : Pipeline.Window sig grid0 :=
  Pipeline.Window.ofSpec (Memref.whole main_v14) S10000x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S78x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S10000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x32.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S1x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v21_0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S10000x32.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S1x32.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56_2) S1x32.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v56_0) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91_0) S10000x32.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v91_1) S1x32.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v91_2) S1x32.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v91_0) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v111) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v113) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v124) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v117) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126_0) S10000x32.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v126_1) S1x32.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v126_2) S1x32.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun i => !(k6_cond2 i == 1#1) | 7 => fun i => !(k6_cond2 i == 1#1) | ⟨_ + 8, h⟩ => absurd h (Nat.not_lt.2 (Nat.le_add_left _ _))

abbrev win7_0 : Pipeline.Window sig grid7 :=
  Pipeline.Window.ofSpec (Memref.whole main_v126_0) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v128) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v132) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v133) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v134) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v135) S10000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v146) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v159) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v152) S32x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v160) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v161_0) S10000x32.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v161_1) S1x32.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v161_2) S1x32.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev idle8 : Fin 8 → grid8.Coords → Bool := fun | 0 => fun _ => false | 1 => fun _ => false | 2 => fun _ => false | 3 => fun _ => false | 4 => fun _ => false | 5 => fun _ => false | 6 => fun i => !(k8_cond2 i == 1#1) | 7 => fun i => !(k8_cond2 i == 1#1) | ⟨_ + 8, h⟩ => absurd h (Nat.not_lt.2 (Nat.le_add_left _ _))

abbrev win9_0 : Pipeline.Window sig grid9 :=
  Pipeline.Window.ofSpec (Memref.whole main_v161_0) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v163) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v167) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v168) S1x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v169) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v170) S10000x32.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v170) S1000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v171) S1000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg13) S32x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v172) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v173) S2048x128.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun _ => false | 4 => fun i => !(k10_cond2 i == 1#1) | ⟨_ + 5, h⟩ => absurd h (Nat.not_lt.2 (Nat.le_add_left _ _))

class Facts : Prop extends Facts₀ where

variable [Facts]
-- ==== ReferenceIdeal.lean ====
abbrev S100000x78 : Shape := ⟨2, ![100000, 78]⟩
abbrev S2x3200000 : Shape := ⟨2, ![2, 3200000]⟩
abbrev S100000 : Shape := ⟨1, ![100000]⟩
abbrev S78x32 : Shape := ⟨2, ![78, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S5x32 : Shape := ⟨2, ![5, 32]⟩
abbrev S32x128 : Shape := ⟨2, ![32, 128]⟩
abbrev S128 : Shape := ⟨1, ![128]⟩
abbrev S1x3200000 : Shape := ⟨2, ![1, 3200000]⟩
abbrev S3200000 : Shape := ⟨1, ![3200000]⟩
abbrev S1x32 : Shape := ⟨2, ![1, 32]⟩
abbrev S_ : Shape := ⟨0, ![]⟩
abbrev S3200000x1 : Shape := ⟨2, ![3200000, 1]⟩
abbrev S3200000x78 : Shape := ⟨2, ![3200000, 78]⟩
abbrev S100000x32 : Shape := ⟨2, ![100000, 32]⟩
abbrev S1x32x32 : Shape := ⟨3, ![1, 32, 32]⟩
abbrev S3200000x32 : Shape := ⟨2, ![3200000, 32]⟩
abbrev S2048x32 : Shape := ⟨2, ![2048, 32]⟩
abbrev S100000x1 : Shape := ⟨2, ![100000, 1]⟩
abbrev S2048x128 : Shape := ⟨2, ![2048, 128]⟩
abbrev S1x128 : Shape := ⟨2, ![1, 128]⟩

abbrev nBuf : Space → Nat
  | .hbm => 372
  | .vmem => 0
  | .smem => 0
  | _ => 0

abbrev hbmTy0_0 (i : Nat) : BufTy := match i % 128 with
  | 0 => ⟨S100000x78, .f32⟩
  | 1 => ⟨S2x3200000, .i32⟩
  | 2 => ⟨S100000, .i32⟩
  | 3 => ⟨S78x32, .f32⟩
  | 4 => ⟨S32, .f32⟩
  | 5 => ⟨S32x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S5x32, .f32⟩
  | 12 => ⟨S5x32, .f32⟩
  | 13 => ⟨S32x128, .f32⟩
  | 14 => ⟨S128, .f32⟩
  | 15 => ⟨S1x3200000, .i32⟩
  | 16 => ⟨S3200000, .i32⟩
  | 17 => ⟨S1x3200000, .i32⟩
  | 18 => ⟨S3200000, .i32⟩
  | 19 => ⟨S1x32, .f32⟩
  | 20 => ⟨S32, .f32⟩
  | 21 => ⟨S1x32, .f32⟩
  | 22 => ⟨S32, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x78, .f32⟩
  | 32 => ⟨S_, .f32⟩
  | 33 => ⟨S100000x78, .f32⟩
  | 34 => ⟨S3200000x1, .i32⟩
  | 35 => ⟨S100000x78, .f32⟩
  | 36 => ⟨S100000x78, .f32⟩
  | 37 => ⟨S100000x32, .f32⟩
  | 38 => ⟨S1x32, .f32⟩
  | 39 => ⟨S100000x32, .f32⟩
  | 40 => ⟨S100000x32, .f32⟩
  | 41 => ⟨S_, .f32⟩
  | 42 => ⟨S100000x32, .f32⟩
  | 43 => ⟨S100000x32, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S_, .f32⟩
  | 52 => ⟨S32, .f32⟩
  | 53 => ⟨S_, .f32⟩
  | 54 => ⟨S32, .f32⟩
  | 55 => ⟨S32, .f32⟩
  | 56 => ⟨S1x32, .f32⟩
  | 57 => ⟨S100000x32, .f32⟩
  | 58 => ⟨S100000x32, .f32⟩
  | 59 => ⟨S100000x32, .f32⟩
  | 60 => ⟨S_, .f32⟩
  | 61 => ⟨S32, .f32⟩
  | 62 => ⟨S_, .f32⟩
  | 63 => ⟨S32, .f32⟩
  | 64 => ⟨S32, .f32⟩
  | 65 => ⟨S1x32, .f32⟩
  | 66 => ⟨S100000x32, .f32⟩
  | 67 => ⟨S100000x32, .f32⟩
  | 68 => ⟨S_, .f32⟩
  | 69 => ⟨S32, .f32⟩
  | 70 => ⟨S32, .f32⟩
  | 71 => ⟨S32, .f32⟩
  | 72 => ⟨S1x32, .f32⟩
  | 73 => ⟨S100000x32, .f32⟩
  | 74 => ⟨S100000x32, .f32⟩
  | 75 => ⟨S1x32, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S1x32x32, .f32⟩
  | 82 => ⟨S32x32, .f32⟩
  | 83 => ⟨S1x32, .f32⟩
  | 84 => ⟨S32, .f32⟩
  | 85 => ⟨S1x32x32, .f32⟩
  | 86 => ⟨S32x32, .f32⟩
  | 87 => ⟨S1x32, .f32⟩
  | 88 => ⟨S32, .f32⟩
  | 89 => ⟨S1x32, .f32⟩
  | 90 => ⟨S32, .f32⟩
  | 91 => ⟨S1x32, .f32⟩
  | 92 => ⟨S32, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000x32, .f32⟩
  | 102 => ⟨S_, .f32⟩
  | 103 => ⟨S100000x32, .f32⟩
  | 104 => ⟨S3200000x1, .i32⟩
  | 105 => ⟨S100000x32, .f32⟩
  | 106 => ⟨S100000x32, .f32⟩
  | 107 => ⟨S100000x32, .f32⟩
  | 108 => ⟨S1x32, .f32⟩
  | 109 => ⟨S100000x32, .f32⟩
  | 110 => ⟨S100000x32, .f32⟩
  | 111 => ⟨S_, .f32⟩
  | 112 => ⟨S100000x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S_, .f32⟩
  | 122 => ⟨S32, .f32⟩
  | 123 => ⟨S_, .f32⟩
  | 124 => ⟨S32, .f32⟩
  | 125 => ⟨S32, .f32⟩
  | 126 => ⟨S1x32, .f32⟩
  | 127 => ⟨S100000x32, .f32⟩
  | _ => ⟨S100000x78, .f32⟩

abbrev hbmTy0_1 (i : Nat) : BufTy := match i % 128 with
  | 0 => ⟨S100000x32, .f32⟩
  | 1 => ⟨S100000x32, .f32⟩
  | 2 => ⟨S_, .f32⟩
  | 3 => ⟨S32, .f32⟩
  | 4 => ⟨S_, .f32⟩
  | 5 => ⟨S32, .f32⟩
  | 6 => ⟨S32, .f32⟩
  | 7 => ⟨S1x32, .f32⟩
  | 8 => ⟨S100000x32, .f32⟩
  | 9 => ⟨S100000x32, .f32⟩
  | 10 => ⟨S_, .f32⟩
  | 11 => ⟨S32, .f32⟩
  | 12 => ⟨S32, .f32⟩
  | 13 => ⟨S32, .f32⟩
  | 14 => ⟨S1x32, .f32⟩
  | 15 => ⟨S100000x32, .f32⟩
  | 16 => ⟨S100000x32, .f32⟩
  | 17 => ⟨S1x32, .f32⟩
  | 18 => ⟨S100000x32, .f32⟩
  | 19 => ⟨S100000x32, .f32⟩
  | 20 => ⟨S1x32, .f32⟩
  | 21 => ⟨S100000x32, .f32⟩
  | 22 => ⟨S100000x32, .f32⟩
  | 23 => ⟨S1x32x32, .f32⟩
  | 24 => ⟨S32x32, .f32⟩
  | 25 => ⟨S1x32, .f32⟩
  | 26 => ⟨S32, .f32⟩
  | 27 => ⟨S1x32x32, .f32⟩
  | 28 => ⟨S32x32, .f32⟩
  | 29 => ⟨S1x32, .f32⟩
  | 30 => ⟨S32, .f32⟩
  | 31 => ⟨S1x32, .f32⟩
  | 32 => ⟨S32, .f32⟩
  | 33 => ⟨S1x32, .f32⟩
  | 34 => ⟨S32, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000x32, .f32⟩
  | 44 => ⟨S_, .f32⟩
  | 45 => ⟨S100000x32, .f32⟩
  | 46 => ⟨S3200000x1, .i32⟩
  | 47 => ⟨S100000x32, .f32⟩
  | 48 => ⟨S100000x32, .f32⟩
  | 49 => ⟨S100000x32, .f32⟩
  | 50 => ⟨S1x32, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x32, .f32⟩
  | 57 => ⟨S1x32, .f32⟩
  | 58 => ⟨S100000x32, .f32⟩
  | 59 => ⟨S100000x32, .f32⟩
  | 60 => ⟨S_, .f32⟩
  | 61 => ⟨S100000x32, .f32⟩
  | 62 => ⟨S100000x32, .f32⟩
  | 63 => ⟨S_, .f32⟩
  | 64 => ⟨S32, .f32⟩
  | 65 => ⟨S_, .f32⟩
  | 66 => ⟨S32, .f32⟩
  | 67 => ⟨S32, .f32⟩
  | 68 => ⟨S1x32, .f32⟩
  | 69 => ⟨S100000x32, .f32⟩
  | 70 => ⟨S100000x32, .f32⟩
  | 71 => ⟨S100000x32, .f32⟩
  | 72 => ⟨S_, .f32⟩
  | 73 => ⟨S32, .f32⟩
  | 74 => ⟨S_, .f32⟩
  | 75 => ⟨S32, .f32⟩
  | 76 => ⟨S32, .f32⟩
  | 77 => ⟨S1x32, .f32⟩
  | 78 => ⟨S100000x32, .f32⟩
  | 79 => ⟨S100000x32, .f32⟩
  | 80 => ⟨S_, .f32⟩
  | 81 => ⟨S32, .f32⟩
  | 82 => ⟨S32, .f32⟩
  | 83 => ⟨S32, .f32⟩
  | 84 => ⟨S1x32, .f32⟩
  | 85 => ⟨S100000x32, .f32⟩
  | 86 => ⟨S100000x32, .f32⟩
  | 87 => ⟨S1x32, .f32⟩
  | 88 => ⟨S100000x32, .f32⟩
  | 89 => ⟨S100000x32, .f32⟩
  | 90 => ⟨S1x32, .f32⟩
  | 91 => ⟨S100000x32, .f32⟩
  | 92 => ⟨S100000x32, .f32⟩
  | 93 => ⟨S1x32x32, .f32⟩
  | 94 => ⟨S32x32, .f32⟩
  | 95 => ⟨S1x32, .f32⟩
  | 96 => ⟨S32, .f32⟩
  | 97 => ⟨S1x32x32, .f32⟩
  | 98 => ⟨S32x32, .f32⟩
  | 99 => ⟨S1x32, .f32⟩
  | 100 => ⟨S32, .f32⟩
  | 101 => ⟨S1x32, .f32⟩
  | 102 => ⟨S32, .f32⟩
  | 103 => ⟨S1x32, .f32⟩
  | 104 => ⟨S32, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x32, .f32⟩
  | 114 => ⟨S_, .f32⟩
  | 115 => ⟨S100000x32, .f32⟩
  | 116 => ⟨S3200000x1, .i32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x32, .f32⟩
  | 127 => ⟨S1x32, .f32⟩
  | _ => ⟨S100000x78, .f32⟩

abbrev hbmTy0_2 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S_, .f32⟩
  | 6 => ⟨S32, .f32⟩
  | 7 => ⟨S_, .f32⟩
  | 8 => ⟨S32, .f32⟩
  | 9 => ⟨S32, .f32⟩
  | 10 => ⟨S1x32, .f32⟩
  | 11 => ⟨S100000x32, .f32⟩
  | 12 => ⟨S100000x32, .f32⟩
  | 13 => ⟨S100000x32, .f32⟩
  | 14 => ⟨S_, .f32⟩
  | 15 => ⟨S32, .f32⟩
  | 16 => ⟨S_, .f32⟩
  | 17 => ⟨S32, .f32⟩
  | 18 => ⟨S32, .f32⟩
  | 19 => ⟨S1x32, .f32⟩
  | 20 => ⟨S100000x32, .f32⟩
  | 21 => ⟨S100000x32, .f32⟩
  | 22 => ⟨S_, .f32⟩
  | 23 => ⟨S32, .f32⟩
  | 24 => ⟨S32, .f32⟩
  | 25 => ⟨S32, .f32⟩
  | 26 => ⟨S1x32, .f32⟩
  | 27 => ⟨S100000x32, .f32⟩
  | 28 => ⟨S100000x32, .f32⟩
  | 29 => ⟨S1x32, .f32⟩
  | 30 => ⟨S100000x32, .f32⟩
  | 31 => ⟨S100000x32, .f32⟩
  | 32 => ⟨S1x32, .f32⟩
  | 33 => ⟨S100000x32, .f32⟩
  | 34 => ⟨S100000x32, .f32⟩
  | 35 => ⟨S1x32x32, .f32⟩
  | 36 => ⟨S32x32, .f32⟩
  | 37 => ⟨S1x32, .f32⟩
  | 38 => ⟨S32, .f32⟩
  | 39 => ⟨S1x32x32, .f32⟩
  | 40 => ⟨S32x32, .f32⟩
  | 41 => ⟨S1x32, .f32⟩
  | 42 => ⟨S32, .f32⟩
  | 43 => ⟨S1x32, .f32⟩
  | 44 => ⟨S32, .f32⟩
  | 45 => ⟨S1x32, .f32⟩
  | 46 => ⟨S32, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x32, .f32⟩
  | 56 => ⟨S_, .f32⟩
  | 57 => ⟨S100000x32, .f32⟩
  | 58 => ⟨S3200000x1, .i32⟩
  | 59 => ⟨S100000x32, .f32⟩
  | 60 => ⟨S100000x32, .f32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S_, .f32⟩
  | 76 => ⟨S32, .f32⟩
  | 77 => ⟨S_, .f32⟩
  | 78 => ⟨S32, .f32⟩
  | 79 => ⟨S32, .f32⟩
  | 80 => ⟨S1x32, .f32⟩
  | 81 => ⟨S100000x32, .f32⟩
  | 82 => ⟨S100000x32, .f32⟩
  | 83 => ⟨S100000x32, .f32⟩
  | 84 => ⟨S_, .f32⟩
  | 85 => ⟨S32, .f32⟩
  | 86 => ⟨S_, .f32⟩
  | 87 => ⟨S32, .f32⟩
  | 88 => ⟨S32, .f32⟩
  | 89 => ⟨S1x32, .f32⟩
  | 90 => ⟨S100000x32, .f32⟩
  | 91 => ⟨S100000x32, .f32⟩
  | 92 => ⟨S_, .f32⟩
  | 93 => ⟨S32, .f32⟩
  | 94 => ⟨S32, .f32⟩
  | 95 => ⟨S32, .f32⟩
  | 96 => ⟨S1x32, .f32⟩
  | 97 => ⟨S100000x32, .f32⟩
  | 98 => ⟨S100000x32, .f32⟩
  | 99 => ⟨S1x32, .f32⟩
  | 100 => ⟨S100000x32, .f32⟩
  | 101 => ⟨S100000x32, .f32⟩
  | 102 => ⟨S1x32, .f32⟩
  | 103 => ⟨S100000x32, .f32⟩
  | 104 => ⟨S100000x32, .f32⟩
  | 105 => ⟨S_, .f32⟩
  | 106 => ⟨S2048x32, .f32⟩
  | 107 => ⟨S100000x1, .i32⟩
  | 108 => ⟨S2048x32, .f32⟩
  | 109 => ⟨S2048x128, .f32⟩
  | 110 => ⟨S1x128, .f32⟩
  | 111 => ⟨S2048x128, .f32⟩
  | 112 => ⟨S2048x128, .f32⟩
  | 113 => ⟨S_, .f32⟩
  | 114 => ⟨S2048x128, .f32⟩
  | 115 => ⟨S2048x128, .f32⟩
  | _ => ⟨S100000x78, .f32⟩

abbrev hbmTy (i : Nat) : BufTy := match i / 128 with
  | 0 => hbmTy0_0 i
  | 1 => hbmTy0_1 i
  | 2 => hbmTy0_2 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_c_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_12 : Ref sig .tc := ⟨.hbm, 118, rfl⟩
abbrev main_v89 : Ref sig .tc := ⟨.hbm, 119, rfl⟩
abbrev main_v90 : Ref sig .tc := ⟨.hbm, 120, rfl⟩
abbrev main_cst_13 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_15 : Ref sig .tc := ⟨.hbm, 130, rfl⟩
abbrev main_v98 : Ref sig .tc := ⟨.hbm, 131, rfl⟩
abbrev main_cst_16 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_17 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_c_18 : Ref sig .tc := ⟨.hbm, 163, rfl⟩
abbrev main_v128 : Ref sig .tc := ⟨.hbm, 164, rfl⟩
abbrev main_v129 : Ref sig .tc := ⟨.hbm, 165, rfl⟩
abbrev main_c_19 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_20 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_21 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_22 : Ref sig .tc := ⟨.hbm, 188, rfl⟩
abbrev main_v149 : Ref sig .tc := ⟨.hbm, 189, rfl⟩
abbrev main_v150 : Ref sig .tc := ⟨.hbm, 190, rfl⟩
abbrev main_cst_23 : Ref sig .tc := ⟨.hbm, 191, rfl⟩
abbrev main_v151 : Ref sig .tc := ⟨.hbm, 192, rfl⟩
abbrev main_cst_24 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_25 : Ref sig .tc := ⟨.hbm, 200, rfl⟩
abbrev main_v158 : Ref sig .tc := ⟨.hbm, 201, rfl⟩
abbrev main_cst_26 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_27 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_c_28 : Ref sig .tc := ⟨.hbm, 233, rfl⟩
abbrev main_v188 : Ref sig .tc := ⟨.hbm, 234, rfl⟩
abbrev main_v189 : Ref sig .tc := ⟨.hbm, 235, rfl⟩
abbrev main_c_29 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_cst_30 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_cst_31 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_cst_32 : Ref sig .tc := ⟨.hbm, 258, rfl⟩
abbrev main_v209 : Ref sig .tc := ⟨.hbm, 259, rfl⟩
abbrev main_v210 : Ref sig .tc := ⟨.hbm, 260, rfl⟩
abbrev main_cst_33 : Ref sig .tc := ⟨.hbm, 261, rfl⟩
abbrev main_v211 : Ref sig .tc := ⟨.hbm, 262, rfl⟩
abbrev main_cst_34 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_cst_35 : Ref sig .tc := ⟨.hbm, 270, rfl⟩
abbrev main_v218 : Ref sig .tc := ⟨.hbm, 271, rfl⟩
abbrev main_cst_36 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_cst_37 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_c_38 : Ref sig .tc := ⟨.hbm, 303, rfl⟩
abbrev main_v248 : Ref sig .tc := ⟨.hbm, 304, rfl⟩
abbrev main_v249 : Ref sig .tc := ⟨.hbm, 305, rfl⟩
abbrev main_c_39 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_cst_40 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_cst_41 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_cst_42 : Ref sig .tc := ⟨.hbm, 328, rfl⟩
abbrev main_v269 : Ref sig .tc := ⟨.hbm, 329, rfl⟩
abbrev main_v270 : Ref sig .tc := ⟨.hbm, 330, rfl⟩
abbrev main_cst_43 : Ref sig .tc := ⟨.hbm, 331, rfl⟩
abbrev main_v271 : Ref sig .tc := ⟨.hbm, 332, rfl⟩
abbrev main_cst_44 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_cst_45 : Ref sig .tc := ⟨.hbm, 340, rfl⟩
abbrev main_v278 : Ref sig .tc := ⟨.hbm, 341, rfl⟩
abbrev main_cst_46 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_cst_47 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_cst_48 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_cst_49 : Ref sig .tc := ⟨.hbm, 369, rfl⟩
abbrev main_v303 : Ref sig .tc := ⟨.hbm, 370, rfl⟩
abbrev main_v304 : Ref sig .tc := ⟨.hbm, 371, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S5x32_S1x32_0_0 : S5x32.Slices ![0, 0] S1x32
  shapeCasts_S1x32_S32 : S1x32.ShapeCasts S32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x78 : S_.BroadcastsInDim S100000x78 (![] : Fin 0 → Fin S100000x78.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S32_d0 : S100000x32.ReducesTo [0] S32
  h_S_ : 0 < S_.numel
  bcast_S_S32 : S_.BroadcastsInDim S32 (![] : Fin 0 → Fin S32.rank)
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  slices_S5x32_S1x32_1_0 : S5x32.Slices ![1, 0] S1x32
  slices_S4x32x32_S1x32x32_1_0_0 : S4x32x32.Slices ![1, 0, 0] S1x32x32
  slices_S4x32_S1x32_1_0 : S4x32.Slices ![1, 0] S1x32
  slices_S5x32_S1x32_2_0 : S5x32.Slices ![2, 0] S1x32
  slices_S4x32x32_S1x32x32_2_0_0 : S4x32x32.Slices ![2, 0, 0] S1x32x32
  slices_S4x32_S1x32_2_0 : S4x32.Slices ![2, 0] S1x32
  slices_S5x32_S1x32_3_0 : S5x32.Slices ![3, 0] S1x32
  slices_S4x32x32_S1x32x32_3_0_0 : S4x32x32.Slices ![3, 0, 0] S1x32x32
  slices_S4x32_S1x32_3_0 : S4x32.Slices ![3, 0] S1x32
  slices_S5x32_S1x32_4_0 : S5x32.Slices ![4, 0] S1x32
  bcast_S_S2048x32 : S_.BroadcastsInDim S2048x32 (![] : Fin 0 → Fin S2048x32.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  gather_S100000x78_S3200000x1_S3200000x78_1_0_n_n_0_1_178_wf : GatherDims.WF S100000x78 S3200000x1 S3200000x78 [1] [0] [] [0] [] 1 ![1, 78]
  scatter_S100000x78_S3200000x1_S3200000x78_1_0_0_1_wf : ScatterDims.WF S100000x78 S3200000x1 S3200000x78 [1] [0] [0] 1
  dot_S100000x78_S78x32_S100000x32_1_0_0_1_n_n_wf : DotDims.WF S100000x78 S78x32 S100000x32 [1] [0] [0] [1] [] []
  dot_S100000x32_S32x32_S100000x32_1_0_0_1_n_n_wf : DotDims.WF S100000x32 S32x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S2048x32_S100000x1_S100000x32_1_0_0_1_wf : ScatterDims.WF S2048x32 S100000x1 S100000x32 [1] [0] [0] 1
  dot_S2048x32_S32x128_S2048x128_1_0_0_1_n_n_wf : DotDims.WF S2048x32 S32x128 S2048x128 [1] [0] [0] [1] [] []

variable [Facts₀]

def gather_S100000x78_S3200000x1_S3200000x78_1_0_n_n_0_1_178 : GatherDims S100000x78 S3200000x1 S3200000x78 where
  offsetDims := [1]
  collapsedSliceDims := [0]
  operandBatchingDims := []
  startIndicesBatchingDims := []
  startIndexMap := [0]
  indexVectorDim := 1
  sliceSizes := ![1, 78]
  wf := gather_S100000x78_S3200000x1_S3200000x78_1_0_n_n_0_1_178_wf
def scatter_S100000x78_S3200000x1_S3200000x78_1_0_0_1 : ScatterDims S100000x78 S3200000x1 S3200000x78 where
  updateWindowDims := [1]
  insertedWindowDims := [0]
  scatterDimsToOperandDims := [0]
  indexVectorDim := 1
  wf := scatter_S100000x78_S3200000x1_S3200000x78_1_0_0_1_wf
def dot_S100000x78_S78x32_S100000x32_1_0_0_1_n_n : DotDims S100000x78 S78x32 S100000x32 where
  lhsContracting := [1]
  rhsContracting := [0]
  lhsNonContracting := [0]
  rhsNonContracting := [1]
  lhsBatch := []
  rhsBatch := []
  wf := dot_S100000x78_S78x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S2048x32_S100000x1_S100000x32_1_0_0_1 : ScatterDims S2048x32 S100000x1 S100000x32 where
  updateWindowDims := [1]
  insertedWindowDims := [0]
  scatterDimsToOperandDims := [0]
  indexVectorDim := 1
  wf := scatter_S2048x32_S100000x1_S100000x32_1_0_0_1_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf

class Facts : Prop extends Facts₀ where

variable [Facts]
-- ==== Proof.KBMlp0.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

theorem hz0 : (![0, 0] : Fin 2 → Nat) = fun _ => 0 := funext fun a => by fin_cases a <;> rfl

section Kernel0
variable (c : Dev nD) (E : Set ℕ) (i : grid0.Coords) (arg1 : Memref sig .tc .vmem S10000x78 .f32) (harg1 : arg1.IsWhole) (arg2 : Memref sig .tc .vmem S78x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole)

set_option maxHeartbeats 4000000 in
theorem sound_kernel0_A (hc0 : cond0_0 i) (hc1 : ¬cond0_1 i) (x0 : Vec F S10000x78 .f32) (x1 : Vec F S78x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg9 fullShare (k0_pay5 x0 x1 x2 x3 x4 (k0_pay2 (F := F)))
            ∗ owns (c : Thread nD τ) arg10 fullShare (k0_pay1 (k0_pay4 x0 x1 x2 x3 x4) (k0_pay3 (F := F)))) -∗ K ⟨⟩))
      ⊢ wp frame (wpE (defs₀ (F := F)) Variants.none c none) E (cc0_mlp_bn_stats_kernel i arg1 harg1 arg2 harg2 arg3 harg3 arg4 harg4 arg5 harg5 arg6 harg6 arg7 harg7 arg8 harg8 arg9 harg9 arg10 harg10) K := by
  simp only [cc0_mlp_bn_stats_kernel_eq_skeleton]; unfold cc0_mlp_bn_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf0; subst hf1; subst hf2; subst hf3; subst hf4
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_cons.mpr (Or.inl rfl), View.mem_set_unit_zero hz0 inb_S1x32_S1x32_0_0 y⟩), View.canon_cons_unit_zero (S := S1x32) hz0] | rw [View.read_writes_eq_canon _ _ _ (fun y => ⟨_, List.mem_singleton_self _, View.mem_set_unit_zero hz0 inb_S10000x32_S10000x32_0_0 y⟩), View.canon_unit_zero hz0]); simp only [View.readAt_eq_ld, View.ld_unit_zero (S := S10000x32) hz0, View.ld_unit_zero (S := S10000x78) hz0, View.ld_unit_zero (S := S78x32) hz0, View.ld_unit_zero (S := S32x32) hz0, View.ld_unit_zero (S := S1x32) hz0, View.readCov_unit_zero (S := S1x32) _ hz0])
  all_goals rfl

set_option maxHeartbeats 4000000 in
theorem sound_kernel0_B (hc0 : ¬cond0_0 i) (hc1 : ¬cond0_1 i) (x0 : Vec F S10000x78 .f32) (x1 : Vec F S78x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg9 fullShare (k0_pay5 x0 x1 x2 x3 x4 s0)
            ∗ owns (c : Thread nD τ) arg10 fullShare (k0_pay1 (k0_pay4 x0 x1 x2 x3 x4) s1)) -∗ K ⟨⟩))
      ⊢ wp frame (wpE (defs₀ (F := F)) Variants.none c none) E (cc0_mlp_bn_stats_kernel i arg1 harg1 arg2 harg2 arg3 harg3 arg4 harg4 arg5 harg5 arg6 harg6 arg7 harg7 arg8 harg8 arg9 harg9 arg10 harg10) K := by
  simp only [cc0_mlp_bn_stats_kernel_eq_skeleton]; unfold cc0_mlp_bn_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_singleton_self _, View.mem_set_unit_zero hz0 inb_S1x32_S1x32_0_0 y⟩), View.canon_unit_zero hz0] | rw [View.read_writes_eq_canon _ _ _ (fun y => ⟨_, List.mem_singleton_self _, View.mem_set_unit_zero hz0 inb_S10000x32_S10000x32_0_0 y⟩), View.canon_unit_zero hz0]); simp only [View.readAt_eq_ld, View.ld_unit_zero (S := S10000x32) hz0, View.ld_unit_zero (S := S10000x78) hz0, View.ld_unit_zero (S := S78x32) hz0, View.ld_unit_zero (S := S32x32) hz0, View.ld_unit_zero (S := S1x32) hz0, View.readCov_unit_zero (S := S1x32) _ hz0])
  all_goals rfl

set_option maxHeartbeats 4000000 in
theorem sound_kernel0_C (hc0 : ¬cond0_0 i) (hc1 : cond0_1 i) (x0 : Vec F S10000x78 .f32) (x1 : Vec F S78x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg7 fullShare (k0_pay5 x0 x1 x2 x3 x4 s0)
            ∗ owns (c : Thread nD τ) arg8 fullShare (k0_pay1 (k0_pay4 x0 x1 x2 x3 x4) s1)
            ∗ owns (c : Thread nD τ) arg9 fullShare (k0_pay5 x0 x1 x2 x3 x4 s0)
            ∗ owns (c : Thread nD τ) arg10 fullShare (k0_pay1 (k0_pay4 x0 x1 x2 x3 x4) s1)) -∗ K ⟨⟩))
      ⊢ wp frame (wpE (defs₀ (F := F)) Variants.none c none) E (cc0_mlp_bn_stats_kernel i arg1 harg1 arg2 harg2 arg3 harg3 arg4 harg4 arg5 harg5 arg6 harg6 arg7 harg7 arg8 harg8 arg9 harg9 arg10 harg10) K := by
  simp only [cc0_mlp_bn_stats_kernel_eq_skeleton]; unfold cc0_mlp_bn_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap
  all_goals (iexists _; isplitr; swap; iassumption; ipureintro)
  iterate 5 (sl_unfold_words; (first | rw [View.read_writes_eq_canon _ _ _ (fun y => ⟨_, List.mem_singleton_self _, View.mem_set_unit_zero hz0 inb_S1x32_S1x32_0_0 y⟩), View.canon_unit_zero hz0] | rw [View.read_writes_eq_canon _ _ _ (fun y => ⟨_, List.mem_singleton_self _, View.mem_set_unit_zero hz0 inb_S10000x32_S10000x32_0_0 y⟩), View.canon_unit_zero hz0]); simp only [View.readAt_eq_ld, View.ld_unit_zero (S := S10000x32) hz0, View.ld_unit_zero (S := S10000x78) hz0, View.ld_unit_zero (S := S78x32) hz0, View.ld_unit_zero (S := S32x32) hz0, View.ld_unit_zero (S := S1x32) hz0, View.readCov_unit_zero (S := S1x32) _ hz0])
  all_goals rfl

end Kernel0

section Region0
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable def hblk0 (c : Dev nD) (t : Fin cfg0.N) : Vec F S10000x32 .f32 :=
  k0_pay4 (iblk0 V c 0 t) (iblk0 V c 1 t) (iblk0 V c 2 t) (iblk0 V c 3 t) (iblk0 V c 4 t)

noncomputable def accS0 (c : Dev nD) : (n : ℕ) → n < cfg0.N → Vec F S1x32 .f32
  | 0, h => k0_pay5 (iblk0 V c 0 ⟨0, h⟩) (iblk0 V c 1 ⟨0, h⟩) (iblk0 V c 2 ⟨0, h⟩) (iblk0 V c 3 ⟨0, h⟩) (iblk0 V c 4 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accS0 c n (Nat.lt_of_succ_lt h))

noncomputable def accQ0 (c : Dev nD) : (n : ℕ) → n < cfg0.N → Vec F S1x32 .f32
  | 0, h => k0_pay1 (hblk0 V c ⟨0, h⟩) (k0_pay3 (F := F))
  | n + 1, h => k0_pay1 (hblk0 V c ⟨n + 1, h⟩) (accQ0 c n (Nat.lt_of_succ_lt h))

theorem hblk0_eq (c : Dev nD) (t : Fin cfg0.N) : hblk0 V c t = k0_pay4 (iblk0 V c 0 t) (iblk0 V c 1 t) (iblk0 V c 2 t) (iblk0 V c 3 t) (iblk0 V c 4 t) := rfl
theorem accS0_first (c : Dev nD) (t : Fin cfg0.N) (h0 : t.val = 0) :
    accS0 V c t.val t.isLt = k0_pay5 (iblk0 V c 0 t) (iblk0 V c 1 t) (iblk0 V c 2 t) (iblk0 V c 3 t) (iblk0 V c 4 t) (k0_pay2 (F := F)) := by
  obtain ⟨_ | n, hn⟩ := t
  exacts [rfl, absurd h0 (Nat.succ_ne_zero n)]
theorem accQ0_first (c : Dev nD) (t : Fin cfg0.N) (h0 : t.val = 0) :
    accQ0 V c t.val t.isLt = k0_pay1 (hblk0 V c t) (k0_pay3 (F := F)) := by
  obtain ⟨_ | n, hn⟩ := t
  exacts [rfl, absurd h0 (Nat.succ_ne_zero n)]
theorem accS0_pos (c : Dev nD) (t : Fin cfg0.N) (h0 : t.val ≠ 0) :
    accS0 V c t.val t.isLt = k0_pay5 (iblk0 V c 0 t) (iblk0 V c 1 t) (iblk0 V c 2 t) (iblk0 V c 3 t) (iblk0 V c 4 t) (accS0 V c (t.val - 1) (Nat.lt_of_le_of_lt (Nat.sub_le _ _) t.isLt)) := by
  obtain ⟨_ | n, hn⟩ := t
  exacts [absurd rfl h0, rfl]
theorem accQ0_pos (c : Dev nD) (t : Fin cfg0.N) (h0 : t.val ≠ 0) :
    accQ0 V c t.val t.isLt = k0_pay1 (hblk0 V c t) (accQ0 V c (t.val - 1) (Nat.lt_of_le_of_lt (Nat.sub_le _ _) t.isLt)) := by
  obtain ⟨_ | n, hn⟩ := t
  exacts [absurd rfl h0, rfl]

abbrev scM0_0 : Memref sig .tc .vmem S1x32 .f32 := Memref.whole cc0_scratch0
abbrev scM0_1 : Memref sig .tc .vmem S1x32 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

noncomputable def PhiS0 (c : Dev nD) : (n : ℕ) → n ≤ cfg0.N → sProp 𝕄
  | 0, _ => Pipeline.ΦA spec0 c
  | n + 1, hn => iprop(iprop(iprop(owns (c : Thread nD τ) scM0_0 fullShare (accS0 V c n hn) ∗ owns (c : Thread nD τ) scM0_1 fullShare (accQ0 V c n hn)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accS0 V c n hn) ∗ owns (c : Thread nD τ) scM0_1 fullShare (accQ0 V c n hn)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accS0 V c (n - 1) (by omega)) ∗ owns (c : Thread nD τ) scM0_1 fullShare (accQ0 V c (n - 1) (by omega))) ∗ rest0 (F := F) c) ∗ (∃ r, prngReg c r)) := by
  cases n
  exacts [absurd rfl hz, rfl]

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk0 V c t
    | ⟨6, _⟩ => accS0 V c t.val t.isLt
    | ⟨7, _⟩ => accQ0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_in (c : Dev nD) (t : Fin cfg0.N) :
    (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t := ⟨rfl, rfl, rfl, rfl, rfl⟩
theorem after0_5 (c : Dev nD) (t : Fin cfg0.N) : (dat0 V c).after 5 t = hblk0 V c t := by dsimp only [dat0]
theorem after0_6 (c : Dev nD) (t : Fin cfg0.N) : (dat0 V c).after 6 t = accS0 V c t.val t.isLt := by dsimp only [dat0]
theorem after0_7 (c : Dev nD) (t : Fin cfg0.N) : (dat0 V c).after 7 t = accQ0 V c t.val t.isLt := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
  exact ((dat0 V c).before_in_eq_fetched _ rfl (fun _ => rfl) (fun _ _ _ => rfl) (fun _ => rfl) t d).trans rfl

theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2, b3, b4⟩ := before0 V c t
  obtain ⟨a0, a1, a2, a3, a4⟩ := after0_in V c t
  simp only [b0, b1, b2, b3, b4]
  rw [show (dat0 V c).owesAt () t.succ = (dat0 V c).owesAt () t.castSucc from rfl]
  rw [show (dat0 V c).Φ t.succ = PhiS0 V c (t.val + 1) t.isLt from rfl, PhiS0_succ, PhiS0_castSucc V c t]
  have hN : t.val < 10 := lt_of_lt_of_eq t.isLt (show cfg0.N = 10 from N_0)
  rw [leaves0_live V c 0 t rfl, leaves0_live V c 1 t rfl, leaves0_live V c 2 t rfl, leaves0_live V c 3 t rfl, leaves0_live V c 4 t rfl, leaves0_live V c 5 t rfl,
    a0, a1, a2, a3, a4, after0_5]
  simp only [hblk0_eq]
  by_cases h9 : t.val = 9
  · have h0 : t.val ≠ 0 := by omega
    have c1 := (hcond0_1 t).mpr h9
    rw [leaves0_live V c 6 t (liveAt0_6 t c1), leaves0_live V c 7 t (liveAt0_7 t c1), after0_6, after0_7,
      accS0_pos V c t h0, accQ0_pos V c t h0, PhiS0_pos V c _ _ h0]
    simp only [hblk0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_C c Set.univ (grid0.coords t) _ (hstage0_0 _) _ (hstage0_1 _) _ (hstage0_2 _) _ (hstage0_3 _) _ (hstage0_4 _) _ (hstage0_5 _) _ (hstage0_6 _) _ (hstage0_7 _) _ (Memref.isWhole_whole _) _ (Memref.isWhole_whole _) (fun h => h0 ((hcond0_0 t).mp h)) c1 (iblk0 V c 0 t) (iblk0 V c 1 t) (iblk0 V c 2 t) (iblk0 V c 3 t) (iblk0 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond0_1 (grid0.coords t) := fun h => h9 ((hcond0_1 t).mp h)
    rw [Dat.leavesExact_idle (dat0 V c) 6 t (idleAt0_6 t c1) (noFlush0_6 t c1), Dat.leavesExact_idle (dat0 V c) 7 t (idleAt0_7 t c1) (noFlush0_7 t c1)]
    by_cases h0 : t.val = 0
    on_goal 1 => rw [accS0_first V c t h0, accQ0_first V c t h0, PhiS0_zero V c _ _ h0, PhiA0_eq]
    on_goal 2 => rw [accS0_pos V c t h0, accQ0_pos V c t h0, PhiS0_pos V c _ _ h0]
    all_goals (simp only [hblk0_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel0_A c Set.univ (grid0.coords t) _ (hstage0_0 _) _ (hstage0_1 _) _ (hstage0_2 _) _ (hstage0_3 _) _ (hstage0_4 _) _ (hstage0_5 _) _ (hstage0_6 _) _ (hstage0_7 _) _ (Memref.isWhole_whole _) _ (Memref.isWhole_whole _) ((hcond0_0 t).mpr h0) c1 (iblk0 V c 0 t) (iblk0 V c 1 t) (iblk0 V c 2 t) (iblk0 V c 3 t) (iblk0 V c 4 t) _)
    on_goal 2 => iapply (sound_kernel0_B c Set.univ (grid0.coords t) _ (hstage0_0 _) _ (hstage0_1 _) _ (hstage0_2 _) _ (hstage0_3 _) _ (hstage0_4 _) _ (hstage0_5 _) _ (hstage0_6 _) _ (hstage0_7 _) _ (Memref.isWhole_whole _) _ (Memref.isWhole_whole _) (fun h => h0 ((hcond0_0 t).mp h)) c1 (iblk0 V c 0 t) (iblk0 V c 1 t) (iblk0 V c 2 t) (iblk0 V c 3 t) (iblk0 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Region0

end Cert.Kernel.Gen

end
-- ==== Proof.KBBn1.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0

def out1_5 (x0 : Vec F S10000x32 .f32) (x1 x2 x3 x4 : Vec F S1x32 .f32) : Vec F S10000x32 .f32 :=
  View.canon [⟨r1_0, k1_pay1 (View.ld x0 r1_0) (View.ld x2 r1_1) (View.ld x1 r1_1) (View.ld x3 r1_1) (View.ld x4 r1_1)⟩]

theorem out1_5_eq (x0 : Vec F S10000x32 .f32) (x1 x2 x3 x4 : Vec F S1x32 .f32) :
    out1_5 x0 x1 x2 x3 x4 = k1_pay1 x0 x2 x1 x3 x4 := by
  have hz : (![0, 0] : Fin 2 → Nat) = fun _ => 0 := by funext a; fin_cases a <;> rfl
  unfold out1_5
  rw [View.canon_unit_zero hz]
  simp only [View.ld_unit_zero (S := S10000x32) hz, View.ld_unit_zero (S := S1x32) hz]

set_option maxHeartbeats 1000000 in
theorem sound_kernel1 (c : Dev nD) (E : Set ℕ) (i : grid1.Coords)
    (arg0 : Memref sig .tc .vmem S10000x32 .f32) (harg0 : arg0.IsWhole) (arg1 : Memref sig .tc .vmem S1x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S10000x32 .f32) (harg5 : arg5.IsWhole)
    (x0 : Vec F S10000x32 .f32) (x1 x2 x3 x4 : Vec F S1x32 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1_bn_norm_kernel i arg0 harg0 arg1 harg1 arg2 harg2 arg3 harg3 arg4 harg4 arg5 harg5) K := by
  simp only [cc1_bn_norm_kernel_eq_skeleton]; unfold cc1_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨r1_0, _⟩] S10000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ (w : Fin cfg1.W) (d), w ≠ 5 → (dat1 V c).before w t d = (dat1 V c).after w t
  | ⟨0, _⟩, d, _ | ⟨1, _⟩, d, _ | ⟨2, _⟩, d, _ | ⟨3, _⟩, d, _ | ⟨4, _⟩, d, _ =>
    ((dat1 V c).before_in_eq_fetched _ rfl (fun _ => rfl) (fun _ _ _ => rfl) (fun _ => by dsimp only [dat1]; rfl) t d).trans
      (by unfold Dat.fetched Dat.blockOf; dsimp only [dat1]; rfl)
  | ⟨5, _⟩, _, h => absurd rfl h

theorem body_obligation1 (c : Dev nD) : BodyObligation (dat1 (F := F) V c) (defs₀ (F := F)) Variants.none () Set.univ := fun t => by
  rw [bigSep_W1, bigSep_W1]
  dsimp only
  show _ ⊢ wp frame _ _ (bodyAt1 t) _
  iintro ⟨HΦ, Ho, ⟨%d0, H0⟩, ⟨%d1, H1⟩, ⟨%d2, H2⟩, ⟨%d3, H3⟩, ⟨%d4, H4⟩, ⟨%d5, H5⟩⟩
  rw [before1 V c t 0 d0 (by decide), before1 V c t 1 d1 (by decide), before1 V c t 2 d2 (by decide), before1 V c t 3 d3 (by decide),
    before1 V c t 4 d4 (by decide)]
  dsimp only [dat1]
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe
  iexact Ho

theorem hin1 (c : Dev nD) : Pipeline.ΦA spec1 c ⊢ (dat1 (F := F) V c).Φ 0 := by
  dsimp only [dat1]; exact BI.Entails.refl _
theorem hout1 (c : Dev nD) : (dat1 (F := F) V c).Φ (Fin.last cfg1.N) ⊢ Pipeline.ΦA spec1 c := by
  dsimp only [dat1]; exact BI.Entails.refl _

end Region1

end Cert.Kernel.Gen

end
-- ==== Proof.KBMlp2.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

theorem hz2 : (![0, 0] : Fin 2 → Nat) = fun _ => 0 := funext fun a => by fin_cases a <;> rfl

section Kernel2
variable (c : Dev nD) (E : Set ℕ) (i : grid2.Coords) (arg1 : Memref sig .tc .vmem S10000x32 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole)

set_option maxHeartbeats 4000000 in
theorem sound_kernel2_A (hc0 : cond2_0 i) (hc1 : ¬cond2_1 i) (x0 : Vec F S10000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg9 fullShare (k2_pay1 (k2_pay6 x0 x1 x2 x3 x4 (k2_pay3 (F := F))))
            ∗ owns (c : Thread nD τ) arg10 fullShare (k2_pay2 (k2_pay5 x0 x1 x2 x3 x4) (k2_pay4 (F := F)))) -∗ K ⟨⟩))
      ⊢ wp frame (wpE (defs₀ (F := F)) Variants.none c none) E (cc2_mlp_bn_stats_kernel i arg1 harg1 arg2 harg2 arg3 harg3 arg4 harg4 arg5 harg5 arg6 harg6 arg7 harg7 arg8 harg8 arg9 harg9 arg10 harg10) K := by
  simp only [cc2_mlp_bn_stats_kernel_eq_skeleton]; unfold cc2_mlp_bn_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf0; subst hf1; subst hf2; subst hf3; subst hf4
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_cons.mpr (Or.inl rfl), View.mem_set_unit_zero hz2 inb_S1x32_S1x32_0_0 y⟩), View.canon_cons_unit_zero (S := S1x32) hz2] | rw [View.read_writes_eq_canon _ _ _ (fun y => ⟨_, List.mem_singleton_self _, View.mem_set_unit_zero hz2 inb_S10000x32_S10000x32_0_0 y⟩), View.canon_unit_zero hz2]); simp only [View.readAt_eq_ld, View.ld_unit_zero (S := S10000x32) hz2, View.ld_unit_zero (S := S32x32) hz2, View.ld_unit_zero (S := S1x32) hz2, View.readCov_unit_zero (S := S1x32) _ hz2])
  all_goals rfl

set_option maxHeartbeats 4000000 in
theorem sound_kernel2_B (hc0 : ¬cond2_0 i) (hc1 : ¬cond2_1 i) (x0 : Vec F S10000x32 .f32) (x1 : Vec F S32x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg9 fullShare (k2_pay1 (k2_pay6 x0 x1 x2 x3 x4 s0))
            ∗ owns (c : Thread nD τ) arg10 fullShare (k2_pay2 (k2_pay5 x0 x1 x2 x3 x4) s1)) -∗ K ⟨⟩))
      ⊢ wp frame (wpE (defs₀ (F := F)) Variants.none c none) E (cc2_mlp_bn_stats_kernel i arg1 harg1 arg2 harg2 arg3 harg3 arg4 harg4 arg5 harg5 arg6 harg6 arg7 harg7 arg8 harg8 arg9 harg9 arg10 harg10) K := by
  simp only [cc2_mlp_bn_stats_kernel_eq_skeleton]; unfold cc2_mlp_bn_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_singleton_self _, View.mem_set_unit_zero hz2 inb_S1x32_S1x32_0_0 y⟩), View.canon_unit_zero hz2] | rw [View.read_writes_eq_canon _ _ _ (fun y => ⟨_, List.mem_singleton_self _, View.mem_set_unit_zero hz2 inb_S10000x32_S10000x32_0_0 y⟩), View.canon_unit_zero hz2]); simp only [View.readAt_eq_ld, View.ld_unit_zero (S := S10000x32) hz2, View.ld_unit_zero (S := S32x32) hz2, View.ld_unit_zero (S := S1x32) hz2, View.readCov_unit_zero (S := S1x32) _ hz2])
  all_goals rfl

set_option maxHeartbeats 4000000 in
theorem sound_kernel2_C (hc0 : ¬cond2_0 i) (hc1 : cond2_1 i) (x0 : Vec F S10000x32 .f32) (x1 : Vec F S32x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg7 fullShare (k2_pay1 (k2_pay6 x0 x1 x2 x3 x4 s0))
            ∗ owns (c : Thread nD τ) arg8 fullShare (k2_pay2 (k2_pay5 x0 x1 x2 x3 x4) s1)
            ∗ owns (c : Thread nD τ) arg9 fullShare (k2_pay1 (k2_pay6 x0 x1 x2 x3 x4 s0))
            ∗ owns (c : Thread nD τ) arg10 fullShare (k2_pay2 (k2_pay5 x0 x1 x2 x3 x4) s1)) -∗ K ⟨⟩))
      ⊢ wp frame (wpE (defs₀ (F := F)) Variants.none c none) E (cc2_mlp_bn_stats_kernel i arg1 harg1 arg2 harg2 arg3 harg3 arg4 harg4 arg5 harg5 arg6 harg6 arg7 harg7 arg8 harg8 arg9 harg9 arg10 harg10) K := by
  simp only [cc2_mlp_bn_stats_kernel_eq_skeleton]; unfold cc2_mlp_bn_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap
  all_goals (iexists _; isplitr; swap; iassumption; ipureintro)
  iterate 5 (sl_unfold_words; (first | rw [View.read_writes_eq_canon _ _ _ (fun y => ⟨_, List.mem_singleton_self _, View.mem_set_unit_zero hz2 inb_S1x32_S1x32_0_0 y⟩), View.canon_unit_zero hz2] | rw [View.read_writes_eq_canon _ _ _ (fun y => ⟨_, List.mem_singleton_self _, View.mem_set_unit_zero hz2 inb_S10000x32_S10000x32_0_0 y⟩), View.canon_unit_zero hz2]); simp only [View.readAt_eq_ld, View.ld_unit_zero (S := S10000x32) hz2, View.ld_unit_zero (S := S32x32) hz2, View.ld_unit_zero (S := S1x32) hz2, View.readCov_unit_zero (S := S1x32) _ hz2])
  all_goals rfl

end Kernel2

section Region2
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def hblk2 (c : Dev nD) (t : Fin cfg2.N) : Vec F S10000x32 .f32 :=
  k2_pay5 (iblk2 V c 0 t) (iblk2 V c 1 t) (iblk2 V c 2 t) (iblk2 V c 3 t) (iblk2 V c 4 t)

noncomputable def accS2 (c : Dev nD) : (n : ℕ) → n < cfg2.N → Vec F S1x32 .f32
  | 0, h => k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) (k2_pay3 (F := F)))
  | n + 1, h => k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accS2 c n (Nat.lt_of_succ_lt h)))

noncomputable def accQ2 (c : Dev nD) : (n : ℕ) → n < cfg2.N → Vec F S1x32 .f32
  | 0, h => k2_pay2 (hblk2 V c ⟨0, h⟩) (k2_pay4 (F := F))
  | n + 1, h => k2_pay2 (hblk2 V c ⟨n + 1, h⟩) (accQ2 c n (Nat.lt_of_succ_lt h))

theorem hblk2_eq (c : Dev nD) (t : Fin cfg2.N) : hblk2 V c t = k2_pay5 (iblk2 V c 0 t) (iblk2 V c 1 t) (iblk2 V c 2 t) (iblk2 V c 3 t) (iblk2 V c 4 t) := rfl
theorem accS2_first (c : Dev nD) (t : Fin cfg2.N) (h0 : t.val = 0) :
    accS2 V c t.val t.isLt = k2_pay1 (k2_pay6 (iblk2 V c 0 t) (iblk2 V c 1 t) (iblk2 V c 2 t) (iblk2 V c 3 t) (iblk2 V c 4 t) (k2_pay3 (F := F))) := by
  obtain ⟨_ | n, hn⟩ := t
  exacts [rfl, absurd h0 (Nat.succ_ne_zero n)]
theorem accQ2_first (c : Dev nD) (t : Fin cfg2.N) (h0 : t.val = 0) :
    accQ2 V c t.val t.isLt = k2_pay2 (hblk2 V c t) (k2_pay4 (F := F)) := by
  obtain ⟨_ | n, hn⟩ := t
  exacts [rfl, absurd h0 (Nat.succ_ne_zero n)]
theorem accS2_pos (c : Dev nD) (t : Fin cfg2.N) (h0 : t.val ≠ 0) :
    accS2 V c t.val t.isLt = k2_pay1 (k2_pay6 (iblk2 V c 0 t) (iblk2 V c 1 t) (iblk2 V c 2 t) (iblk2 V c 3 t) (iblk2 V c 4 t) (accS2 V c (t.val - 1) (Nat.lt_of_le_of_lt (Nat.sub_le _ _) t.isLt))) := by
  obtain ⟨_ | n, hn⟩ := t
  exacts [absurd rfl h0, rfl]
theorem accQ2_pos (c : Dev nD) (t : Fin cfg2.N) (h0 : t.val ≠ 0) :
    accQ2 V c t.val t.isLt = k2_pay2 (hblk2 V c t) (accQ2 V c (t.val - 1) (Nat.lt_of_le_of_lt (Nat.sub_le _ _) t.isLt)) := by
  obtain ⟨_ | n, hn⟩ := t
  exacts [absurd rfl h0, rfl]

abbrev scM2_0 : Memref sig .tc .vmem S1x32 .f32 := Memref.whole cc2_scratch0
abbrev scM2_1 : Memref sig .tc .vmem S1x32 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

noncomputable def PhiS2 (c : Dev nD) : (n : ℕ) → n ≤ cfg2.N → sProp 𝕄
  | 0, _ => Pipeline.ΦA spec2 c
  | n + 1, hn => iprop(iprop(iprop(owns (c : Thread nD τ) scM2_0 fullShare (accS2 V c n hn) ∗ owns (c : Thread nD τ) scM2_1 fullShare (accQ2 V c n hn)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accS2 V c n hn) ∗ owns (c : Thread nD τ) scM2_1 fullShare (accQ2 V c n hn)) ∗ rest2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accS2 V c (n - 1) (by omega)) ∗ owns (c : Thread nD τ) scM2_1 fullShare (accQ2 V c (n - 1) (by omega))) ∗ rest2 (F := F) c) ∗ (∃ r, prngReg c r)) := by
  cases n
  exacts [absurd rfl hz, rfl]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hblk2 V c t
    | ⟨6, _⟩ => accS2 V c t.val t.isLt
    | ⟨7, _⟩ => accQ2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_in (c : Dev nD) (t : Fin cfg2.N) :
    (dat2 V c).after 0 t = iblk2 V c 0 t ∧ (dat2 V c).after 1 t = iblk2 V c 1 t ∧ (dat2 V c).after 2 t = iblk2 V c 2 t
      ∧ (dat2 V c).after 3 t = iblk2 V c 3 t ∧ (dat2 V c).after 4 t = iblk2 V c 4 t := ⟨rfl, rfl, rfl, rfl, rfl⟩
theorem after2_5 (c : Dev nD) (t : Fin cfg2.N) : (dat2 V c).after 5 t = hblk2 V c t := by dsimp only [dat2]
theorem after2_6 (c : Dev nD) (t : Fin cfg2.N) : (dat2 V c).after 6 t = accS2 V c t.val t.isLt := by dsimp only [dat2]
theorem after2_7 (c : Dev nD) (t : Fin cfg2.N) : (dat2 V c).after 7 t = accQ2 V c t.val t.isLt := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> intro d <;>
  exact ((dat2 V c).before_in_eq_fetched _ rfl (fun _ => rfl) (fun _ _ _ => rfl) (fun _ => rfl) t d).trans rfl

theorem leaves2_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4⟩ := before2 V c t
  obtain ⟨a0, a1, a2, a3, a4⟩ := after2_in V c t
  simp only [b0, b1, b2, b3, b4]
  rw [show (dat2 V c).owesAt () t.succ = (dat2 V c).owesAt () t.castSucc from rfl]
  rw [show (dat2 V c).Φ t.succ = PhiS2 V c (t.val + 1) t.isLt from rfl, PhiS2_succ, PhiS2_castSucc V c t]
  have hN : t.val < 10 := lt_of_lt_of_eq t.isLt (show cfg2.N = 10 from N_2)
  rw [leaves2_live V c 0 t rfl, leaves2_live V c 1 t rfl, leaves2_live V c 2 t rfl, leaves2_live V c 3 t rfl, leaves2_live V c 4 t rfl, leaves2_live V c 5 t rfl,
    a0, a1, a2, a3, a4, after2_5]
  simp only [hblk2_eq]
  by_cases h9 : t.val = 9
  · have h0 : t.val ≠ 0 := by omega
    have c1 := (hcond2_1 t).mpr h9
    rw [leaves2_live V c 6 t (liveAt2_6 t c1), leaves2_live V c 7 t (liveAt2_7 t c1), after2_6, after2_7,
      accS2_pos V c t h0, accQ2_pos V c t h0, PhiS2_pos V c _ _ h0]
    simp only [hblk2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid2.coords t) _ (hstage2_0 _) _ (hstage2_1 _) _ (hstage2_2 _) _ (hstage2_3 _) _ (hstage2_4 _) _ (hstage2_5 _) _ (hstage2_6 _) _ (hstage2_7 _) _ (Memref.isWhole_whole _) _ (Memref.isWhole_whole _) (fun h => h0 ((hcond2_0 t).mp h)) c1 (iblk2 V c 0 t) (iblk2 V c 1 t) (iblk2 V c 2 t) (iblk2 V c 3 t) (iblk2 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid2.coords t) := fun h => h9 ((hcond2_1 t).mp h)
    rw [Dat.leavesExact_idle (dat2 V c) 6 t (idleAt2_6 t c1) (noFlush2_6 t c1), Dat.leavesExact_idle (dat2 V c) 7 t (idleAt2_7 t c1) (noFlush2_7 t c1)]
    by_cases h0 : t.val = 0
    on_goal 1 => rw [accS2_first V c t h0, accQ2_first V c t h0, PhiS2_zero V c _ _ h0, PhiA2_eq]
    on_goal 2 => rw [accS2_pos V c t h0, accQ2_pos V c t h0, PhiS2_pos V c _ _ h0]
    all_goals (simp only [hblk2_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid2.coords t) _ (hstage2_0 _) _ (hstage2_1 _) _ (hstage2_2 _) _ (hstage2_3 _) _ (hstage2_4 _) _ (hstage2_5 _) _ (hstage2_6 _) _ (hstage2_7 _) _ (Memref.isWhole_whole _) _ (Memref.isWhole_whole _) ((hcond2_0 t).mpr h0) c1 (iblk2 V c 0 t) (iblk2 V c 1 t) (iblk2 V c 2 t) (iblk2 V c 3 t) (iblk2 V c 4 t) _)
    on_goal 2 => iapply (sound_kernel2_B c Set.univ (grid2.coords t) _ (hstage2_0 _) _ (hstage2_1 _) _ (hstage2_2 _) _ (hstage2_3 _) _ (hstage2_4 _) _ (hstage2_5 _) _ (hstage2_6 _) _ (hstage2_7 _) _ (Memref.isWhole_whole _) _ (Memref.isWhole_whole _) (fun h => h0 ((hcond2_0 t).mp h)) c1 (iblk2 V c 0 t) (iblk2 V c 1 t) (iblk2 V c 2 t) (iblk2 V c 3 t) (iblk2 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 10 := N_2; omega)

end Region2

end Cert.Kernel.Gen

end
-- ==== Proof.KBBn3.lean ====
import proofs.«421428_j45019847197002_2_alg».proof.Proof.KBBn1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_5 (x0 : Vec F S10000x32 .f32) (x1 x2 x3 x4 : Vec F S1x32 .f32) : Vec F S10000x32 .f32 := out1_5 x0 x1 x2 x3 x4

theorem out3_5_eq (x0 : Vec F S10000x32 .f32) (x1 x2 x3 x4 : Vec F S1x32 .f32) :
    out3_5 x0 x1 x2 x3 x4 = k3_pay1 x0 x2 x1 x3 x4 := out1_5_eq x0 x1 x2 x3 x4

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) : ∀ (w : Fin cfg3.W) (d), w ≠ 5 → (dat3 V c).before w t d = (dat3 V c).after w t
  | ⟨0, _⟩, d, _ | ⟨1, _⟩, d, _ | ⟨2, _⟩, d, _ | ⟨3, _⟩, d, _ | ⟨4, _⟩, d, _ =>
    ((dat3 V c).before_in_eq_fetched _ rfl (fun _ => rfl) (fun _ _ _ => rfl) (fun _ => by dsimp only [dat3]; rfl) t d).trans
      (by unfold Dat.fetched Dat.blockOf; dsimp only [dat3]; rfl)
  | ⟨5, _⟩, _, h => absurd rfl h

theorem body_obligation3 (c : Dev nD) : BodyObligation (dat3 (F := F) V c) (defs₀ (F := F)) Variants.none () Set.univ := fun t => by
  rw [bigSep_W3, bigSep_W3]
  dsimp only
  show _ ⊢ wp frame _ _ (bodyAt3 t) _
  unfold bodyAt3
  rw [show cc3_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before3 V c t 0 d0 (by decide), before3 V c t 1 d1 (by decide), before3 V c t 2 d2 (by decide), before3 V c t 3 d3 (by decide),
    before3 V c t 4 d4 (by decide)]
  dsimp only [dat3, out3_5]
  iapply (sound_kernel1 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe
  iexact Ho

theorem hin3 (c : Dev nD) : Pipeline.ΦA spec3 c ⊢ (dat3 (F := F) V c).Φ 0 := by
  dsimp only [dat3]; exact BI.Entails.refl _
theorem hout3 (c : Dev nD) : (dat3 (F := F) V c).Φ (Fin.last cfg3.N) ⊢ Pipeline.ΦA spec3 c := by
  dsimp only [dat3]; exact BI.Entails.refl _

end Region3

end Cert.Kernel.Gen

end
-- ==== Proof.KBMlp4.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import proofs.«421428_j45019847197002_2_alg».proof.Proof.KBMlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def hblk4 (c : Dev nD) (t : Fin cfg4.N) : Vec F S10000x32 .f32 :=
  k4_pay5 (iblk4 V c 0 t) (iblk4 V c 1 t) (iblk4 V c 2 t) (iblk4 V c 3 t) (iblk4 V c 4 t)

noncomputable def accS4 (c : Dev nD) : (n : ℕ) → n < cfg4.N → Vec F S1x32 .f32
  | 0, h => k4_pay1 (k4_pay6 (iblk4 V c 0 ⟨0, h⟩) (iblk4 V c 1 ⟨0, h⟩) (iblk4 V c 2 ⟨0, h⟩) (iblk4 V c 3 ⟨0, h⟩) (iblk4 V c 4 ⟨0, h⟩) (k4_pay3 (F := F)))
  | n + 1, h => k4_pay1 (k4_pay6 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accS4 c n (Nat.lt_of_succ_lt h)))

noncomputable def accQ4 (c : Dev nD) : (n : ℕ) → n < cfg4.N → Vec F S1x32 .f32
  | 0, h => k4_pay2 (hblk4 V c ⟨0, h⟩) (k4_pay4 (F := F))
  | n + 1, h => k4_pay2 (hblk4 V c ⟨n + 1, h⟩) (accQ4 c n (Nat.lt_of_succ_lt h))

theorem hblk4_eq (c : Dev nD) (t : Fin cfg4.N) : hblk4 V c t = k2_pay5 (iblk4 V c 0 t) (iblk4 V c 1 t) (iblk4 V c 2 t) (iblk4 V c 3 t) (iblk4 V c 4 t) := rfl
theorem accS4_first (c : Dev nD) (t : Fin cfg4.N) (h0 : t.val = 0) :
    accS4 V c t.val t.isLt = k2_pay1 (k2_pay6 (iblk4 V c 0 t) (iblk4 V c 1 t) (iblk4 V c 2 t) (iblk4 V c 3 t) (iblk4 V c 4 t) (k2_pay3 (F := F))) := by
  obtain ⟨_ | n, hn⟩ := t
  exacts [rfl, absurd h0 (Nat.succ_ne_zero n)]
theorem accQ4_first (c : Dev nD) (t : Fin cfg4.N) (h0 : t.val = 0) :
    accQ4 V c t.val t.isLt = k2_pay2 (hblk4 V c t) (k2_pay4 (F := F)) := by
  obtain ⟨_ | n, hn⟩ := t
  exacts [rfl, absurd h0 (Nat.succ_ne_zero n)]
theorem accS4_pos (c : Dev nD) (t : Fin cfg4.N) (h0 : t.val ≠ 0) :
    accS4 V c t.val t.isLt = k2_pay1 (k2_pay6 (iblk4 V c 0 t) (iblk4 V c 1 t) (iblk4 V c 2 t) (iblk4 V c 3 t) (iblk4 V c 4 t) (accS4 V c (t.val - 1) (Nat.lt_of_le_of_lt (Nat.sub_le _ _) t.isLt))) := by
  obtain ⟨_ | n, hn⟩ := t
  exacts [absurd rfl h0, rfl]
theorem accQ4_pos (c : Dev nD) (t : Fin cfg4.N) (h0 : t.val ≠ 0) :
    accQ4 V c t.val t.isLt = k2_pay2 (hblk4 V c t) (accQ4 V c (t.val - 1) (Nat.lt_of_le_of_lt (Nat.sub_le _ _) t.isLt)) := by
  obtain ⟨_ | n, hn⟩ := t
  exacts [absurd rfl h0, rfl]

abbrev scM4_0 : Memref sig .tc .vmem S1x32 .f32 := Memref.whole cc4_scratch0
abbrev scM4_1 : Memref sig .tc .vmem S1x32 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

noncomputable def PhiS4 (c : Dev nD) : (n : ℕ) → n ≤ cfg4.N → sProp 𝕄
  | 0, _ => Pipeline.ΦA spec4 c
  | n + 1, hn => iprop(iprop(iprop(owns (c : Thread nD τ) scM4_0 fullShare (accS4 V c n hn) ∗ owns (c : Thread nD τ) scM4_1 fullShare (accQ4 V c n hn)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accS4 V c n hn) ∗ owns (c : Thread nD τ) scM4_1 fullShare (accQ4 V c n hn)) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accS4 V c (n - 1) (by omega)) ∗ owns (c : Thread nD τ) scM4_1 fullShare (accQ4 V c (n - 1) (by omega))) ∗ rest4 (F := F) c) ∗ (∃ r, prngReg c r)) := by
  cases n
  exacts [absurd rfl hz, rfl]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => hblk4 V c t
    | ⟨6, _⟩ => accS4 V c t.val t.isLt
    | ⟨7, _⟩ => accQ4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_in (c : Dev nD) (t : Fin cfg4.N) :
    (dat4 V c).after 0 t = iblk4 V c 0 t ∧ (dat4 V c).after 1 t = iblk4 V c 1 t ∧ (dat4 V c).after 2 t = iblk4 V c 2 t
      ∧ (dat4 V c).after 3 t = iblk4 V c 3 t ∧ (dat4 V c).after 4 t = iblk4 V c 4 t := ⟨rfl, rfl, rfl, rfl, rfl⟩
theorem after4_5 (c : Dev nD) (t : Fin cfg4.N) : (dat4 V c).after 5 t = hblk4 V c t := by dsimp only [dat4]
theorem after4_6 (c : Dev nD) (t : Fin cfg4.N) : (dat4 V c).after 6 t = accS4 V c t.val t.isLt := by dsimp only [dat4]
theorem after4_7 (c : Dev nD) (t : Fin cfg4.N) : (dat4 V c).after 7 t = accQ4 V c t.val t.isLt := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
      ∧ (∀ d, (dat4 V c).before 3 t d = iblk4 V c 3 t) ∧ (∀ d, (dat4 V c).before 4 t d = iblk4 V c 4 t) := by
  refine ⟨?_, ?_, ?_, ?_, ?_⟩ <;> intro d <;>
  exact ((dat4 V c).before_in_eq_fetched _ rfl (fun _ => rfl) (fun _ _ _ => rfl) (fun _ => rfl) t d).trans rfl

theorem leaves4_live (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

theorem idleAt4_6 : ∀ t : Fin cfg4.N, ¬cond2_1 (grid4.coords t) → cfg4.idle 6 (grid4.coords t) = true := by decide +kernel
theorem noFlush4_6 : ∀ t : Fin cfg4.N, ¬cond2_1 (grid4.coords t) → (cfg4.win 6).flush t = false := by decide +kernel
theorem liveAt4_6 : ∀ t : Fin cfg4.N, cond2_1 (grid4.coords t) → cfg4.idle 6 (grid4.coords t) = false := by decide +kernel
theorem idleAt4_7 : ∀ t : Fin cfg4.N, ¬cond2_1 (grid4.coords t) → cfg4.idle 7 (grid4.coords t) = true := by decide +kernel
theorem noFlush4_7 : ∀ t : Fin cfg4.N, ¬cond2_1 (grid4.coords t) → (cfg4.win 7).flush t = false := by decide +kernel
theorem liveAt4_7 : ∀ t : Fin cfg4.N, cond2_1 (grid4.coords t) → cfg4.idle 7 (grid4.coords t) = false := by decide +kernel

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨b0, b1, b2, b3, b4⟩ := before4 V c t
  obtain ⟨a0, a1, a2, a3, a4⟩ := after4_in V c t
  simp only [b0, b1, b2, b3, b4]
  rw [show (dat4 V c).owesAt () t.succ = (dat4 V c).owesAt () t.castSucc from rfl]
  rw [show (dat4 V c).Φ t.succ = PhiS4 V c (t.val + 1) t.isLt from rfl, PhiS4_succ, PhiS4_castSucc V c t]
  have hN : t.val < 10 := lt_of_lt_of_eq t.isLt (show cfg4.N = 10 from N_4)
  rw [leaves4_live V c 0 t rfl, leaves4_live V c 1 t rfl, leaves4_live V c 2 t rfl, leaves4_live V c 3 t rfl, leaves4_live V c 4 t rfl, leaves4_live V c 5 t rfl,
    a0, a1, a2, a3, a4, after4_5]
  simp only [hblk4_eq]
  by_cases h9 : t.val = 9
  · have h0 : t.val ≠ 0 := by omega
    have c1 := (hcond2_1 t).mpr h9
    rw [leaves4_live V c 6 t (liveAt4_6 t c1), leaves4_live V c 7 t (liveAt4_7 t c1), after4_6, after4_7,
      accS4_pos V c t h0, accQ4_pos V c t h0, PhiS4_pos V c _ _ h0]
    simp only [hblk4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid4.coords t) _ (hstage4_0 _) _ (hstage4_1 _) _ (hstage4_2 _) _ (hstage4_3 _) _ (hstage4_4 _) _ (hstage4_5 _) _ (hstage4_6 _) _ (hstage4_7 _) _ (Memref.isWhole_whole _) _ (Memref.isWhole_whole _) (fun h => h0 ((hcond2_0 t).mp h)) c1 (iblk4 V c 0 t) (iblk4 V c 1 t) (iblk4 V c 2 t) (iblk4 V c 3 t) (iblk4 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid4.coords t) := fun h => h9 ((hcond2_1 t).mp h)
    rw [Dat.leavesExact_idle (dat4 V c) 6 t (idleAt4_6 t c1) (noFlush4_6 t c1), Dat.leavesExact_idle (dat4 V c) 7 t (idleAt4_7 t c1) (noFlush4_7 t c1)]
    by_cases h0 : t.val = 0
    on_goal 1 => rw [accS4_first V c t h0, accQ4_first V c t h0, PhiS4_zero V c _ _ h0, PhiA4_eq]
    on_goal 2 => rw [accS4_pos V c t h0, accQ4_pos V c t h0, PhiS4_pos V c _ _ h0]
    all_goals (simp only [hblk4_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid4.coords t) _ (hstage4_0 _) _ (hstage4_1 _) _ (hstage4_2 _) _ (hstage4_3 _) _ (hstage4_4 _) _ (hstage4_5 _) _ (hstage4_6 _) _ (hstage4_7 _) _ (Memref.isWhole_whole _) _ (Memref.isWhole_whole _) ((hcond2_0 t).mpr h0) c1 (iblk4 V c 0 t) (iblk4 V c 1 t) (iblk4 V c 2 t) (iblk4 V c 3 t) (iblk4 V c 4 t) _)
    on_goal 2 => iapply (sound_kernel2_B c Set.univ (grid4.coords t) _ (hstage4_0 _) _ (hstage4_1 _) _ (hstage4_2 _) _ (hstage4_3 _) _ (hstage4_4 _) _ (hstage4_5 _) _ (hstage4_6 _) _ (hstage4_7 _) _ (Memref.isWhole_whole _) _ (Memref.isWhole_whole _) (fun h => h0 ((hcond2_0 t).mp h)) c1 (iblk4 V c 0 t) (iblk4 V c 1 t) (iblk4 V c 2 t) (iblk4 V c 3 t) (iblk4 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 10 := N_4; omega)

end Region4

end Cert.Kernel.Gen

end
-- ==== Proof.KBBn5.lean ====
import proofs.«421428_j45019847197002_2_alg».proof.Proof.KBBn1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_5 (x0 : Vec F S10000x32 .f32) (x1 x2 x3 x4 : Vec F S1x32 .f32) : Vec F S10000x32 .f32 := out1_5 x0 x1 x2 x3 x4

theorem out5_5_eq (x0 : Vec F S10000x32 .f32) (x1 x2 x3 x4 : Vec F S1x32 .f32) :
    out5_5 x0 x1 x2 x3 x4 = k5_pay1 x0 x2 x1 x3 x4 := out1_5_eq x0 x1 x2 x3 x4

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5 (c : Dev nD) (t : Fin cfg5.N) : ∀ (w : Fin cfg5.W) (d), w ≠ 5 → (dat5 V c).before w t d = (dat5 V c).after w t
  | ⟨0, _⟩, d, _ | ⟨1, _⟩, d, _ | ⟨2, _⟩, d, _ | ⟨3, _⟩, d, _ | ⟨4, _⟩, d, _ =>
    ((dat5 V c).before_in_eq_fetched _ rfl (fun _ => rfl) (fun _ _ _ => rfl) (fun _ => by dsimp only [dat5]; rfl) t d).trans
      (by unfold Dat.fetched Dat.blockOf; dsimp only [dat5]; rfl)
  | ⟨5, _⟩, _, h => absurd rfl h

theorem body_obligation5 (c : Dev nD) : BodyObligation (dat5 (F := F) V c) (defs₀ (F := F)) Variants.none () Set.univ := fun t => by
  rw [bigSep_W5, bigSep_W5]
  dsimp only
  show _ ⊢ wp frame _ _ (bodyAt5 t) _
  unfold bodyAt5
  rw [show cc5_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before5 V c t 0 d0 (by decide), before5 V c t 1 d1 (by decide), before5 V c t 2 d2 (by decide), before5 V c t 3 d3 (by decide),
    before5 V c t 4 d4 (by decide)]
  dsimp only [dat5, out5_5]
  iapply (sound_kernel1 c Set.univ _ _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe
  iexact Ho

theorem hin5 (c : Dev nD) : Pipeline.ΦA spec5 c ⊢ (dat5 (F := F) V c).Φ 0 := by
  dsimp only [dat5]; exact BI.Entails.refl _
theorem hout5 (c : Dev nD) : (dat5 (F := F) V c).Φ (Fin.last cfg5.N) ⊢ Pipeline.ΦA spec5 c := by
  dsimp only [dat5]; exact BI.Entails.refl _

end Region5

end Cert.Kernel.Gen

end
-- ==== Proof.KBMlp6.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import proofs.«421428_j45019847197002_2_alg».proof.Proof.KBMlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

noncomputable def hblk6 (c : Dev nD) (t : Fin cfg6.N) : Vec F S10000x32 .f32 :=
  k6_pay5 (iblk6 V c 0 t) (iblk6 V c 1 t) (iblk6 V c 2 t) (iblk6 V c 3 t) (iblk6 V c 4 t)

noncomputable def accS6 (c : Dev nD) : (n : ℕ) → n < cfg6.N → Vec F S1x32 .f32
  | 0, h => k6_pay1 (k6_pay6 (iblk6 V c 0 ⟨0, h⟩) (iblk6 V c 1 ⟨0, h⟩) (iblk6 V c 2 ⟨0, h⟩) (iblk6 V c 3 ⟨0, h⟩) (iblk6 V c 4 ⟨0, h⟩) (k6_pay3 (F := F)))
  | n + 1, h => k6_pay1 (k6_pay6 (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (accS6 c n (Nat.lt_of_succ_lt h)))

noncomputable def accQ6 (c : Dev nD) : (n : ℕ) → n < cfg6.N → Vec F S1x32 .f32
  | 0, h => k6_pay2 (hblk6 V c ⟨0, h⟩) (k6_pay4 (F := F))
  | n + 1, h => k6_pay2 (hblk6 V c ⟨n + 1, h⟩) (accQ6 c n (Nat.lt_of_succ_lt h))

theorem hblk6_eq (c : Dev nD) (t : Fin cfg6.N) : hblk6 V c t = k2_pay5 (iblk6 V c 0 t) (iblk6 V c 1 t) (iblk6 V c 2 t) (iblk6 V c 3 t) (iblk6 V c 4 t) := rfl
theorem accS6_first (c : Dev nD) (t : Fin cfg6.N) (h0 : t.val = 0) :
    accS6 V c t.val t.isLt = k2_pay1 (k2_pay6 (iblk6 V c 0 t) (iblk6 V c 1 t) (iblk6 V c 2 t) (iblk6 V c 3 t) (iblk6 V c 4 t) (k2_pay3 (F := F))) := by
  obtain ⟨_ | n, hn⟩ := t
  exacts [rfl, absurd h0 (Nat.succ_ne_zero n)]
theorem accQ6_first (c : Dev nD) (t : Fin cfg6.N) (h0 : t.val = 0) :
    accQ6 V c t.val t.isLt = k2_pay2 (hblk6 V c t) (k2_pay4 (F := F)) := by
  obtain ⟨_ | n, hn⟩ := t
  exacts [rfl, absurd h0 (Nat.succ_ne_zero n)]
theorem accS6_pos (c : Dev nD) (t : Fin cfg6.N) (h0 : t.val ≠ 0) :
    accS6 V c t.val t.isLt = k2_pay1 (k2_pay6 (iblk6 V c 0 t) (iblk6 V c 1 t) (iblk6 V c 2 t) (iblk6 V c 3 t) (iblk6 V c 4 t) (accS6 V c (t.val - 1) (Nat.lt_of_le_of_lt (Nat.sub_le _ _) t.isLt))) := by
  obtain ⟨_ | n, hn⟩ := t
  exacts [absurd rfl h0, rfl]
theorem accQ6_pos (c : Dev nD) (t : Fin cfg6.N) (h0 : t.val ≠ 0) :
    accQ6 V c t.val t.isLt = k2_pay2 (hblk6 V c t) (accQ6 V c (t.val - 1) (Nat.lt_of_le_of_lt (Nat.sub_le _ _) t.isLt)) := by
  obtain ⟨_ | n, hn⟩ := t
  exacts [absurd rfl h0, rfl]

abbrev scM6_0 : Memref sig .tc .vmem S1x32 .f32 := Memref.whole cc6_scratch0
abbrev scM6_1 : Memref sig .tc .vmem S1x32 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 (F := F) c) ∗ (∃ r, prngReg c r)) := by
  unfold Pipeline.ΦA; rw [scopedRest6_split]; simp only [scM6_0, scM6_1, owns_whole]; try rfl

noncomputable def PhiS6 (c : Dev nD) : (n : ℕ) → n ≤ cfg6.N → sProp 𝕄
  | 0, _ => Pipeline.ΦA spec6 c
  | n + 1, hn => iprop(iprop(iprop(owns (c : Thread nD τ) scM6_0 fullShare (accS6 V c n hn) ∗ owns (c : Thread nD τ) scM6_1 fullShare (accQ6 V c n hn)) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accS6 V c n hn) ∗ owns (c : Thread nD τ) scM6_1 fullShare (accQ6 V c n hn)) ∗ rest6 (F := F) c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (accS6 V c (n - 1) (by omega)) ∗ owns (c : Thread nD τ) scM6_1 fullShare (accQ6 V c (n - 1) (by omega))) ∗ rest6 (F := F) c) ∗ (∃ r, prngReg c r)) := by
  cases n
  exacts [absurd rfl hz, rfl]

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => hblk6 V c t
    | ⟨6, _⟩ => accS6 V c t.val t.isLt
    | ⟨7, _⟩ => accQ6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_in (c : Dev nD) (t : Fin cfg6.N) :
    (dat6 V c).after 0 t = iblk6 V c 0 t ∧ (dat6 V c).after 1 t = iblk6 V c 1 t ∧ (dat6 V c).after 2 t = iblk6 V c 2 t
      ∧ (dat6 V c).after 3 t = iblk6 V c 3 t ∧ (dat6 V c).after 4 t = iblk6 V c 4 t := ⟨rfl, rfl, rfl, rfl, rfl⟩
theorem after6_5 (c : Dev nD) (t : Fin cfg6.N) : (dat6 V c).after 5 t = hblk6 V c t := by dsimp only [dat6]
theorem after6_6 (c : Dev nD) (t : Fin cfg6.N) : (dat6 V c).after 6 t = accS6 V c t.val t.isLt := by dsimp only [dat6]
theorem after6_7 (c : Dev nD) (t : Fin cfg6.N) : (dat6 V c).after 7 t = accQ6 V c t.val t.isLt := by dsimp only [dat6]

theorem before6 (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t)
      ∧ (∀ d, (dat6 V c).before 3 t d = iblk6 V c 3 t) ∧ (∀ d, (dat6 V c).before 4 t d = iblk6 V c 4 t) := by
  refine ⟨?_, ?_, ?_, ?_, ?_⟩ <;> intro d <;>
  exact ((dat6 V c).before_in_eq_fetched _ rfl (fun _ => rfl) (fun _ _ _ => rfl) (fun _ => rfl) t d).trans rfl

theorem leaves6_live (c : Dev nD) (w : Fin cfg6.W) (t : Fin cfg6.N) (h : cfg6.idle w (grid6.coords t) = false) :
    (dat6 V c).leavesExact w t = owns (c : Thread nD τ) ((cfg6.win w).stage (cfg6.slots t w)) fullShare ((dat6 V c).after w t) := by
  unfold Dat.leavesExact; rw [h]

theorem idleAt6_6 : ∀ t : Fin cfg6.N, ¬cond2_1 (grid6.coords t) → cfg6.idle 6 (grid6.coords t) = true := by decide +kernel
theorem noFlush6_6 : ∀ t : Fin cfg6.N, ¬cond2_1 (grid6.coords t) → (cfg6.win 6).flush t = false := by decide +kernel
theorem liveAt6_6 : ∀ t : Fin cfg6.N, cond2_1 (grid6.coords t) → cfg6.idle 6 (grid6.coords t) = false := by decide +kernel
theorem idleAt6_7 : ∀ t : Fin cfg6.N, ¬cond2_1 (grid6.coords t) → cfg6.idle 7 (grid6.coords t) = true := by decide +kernel
theorem noFlush6_7 : ∀ t : Fin cfg6.N, ¬cond2_1 (grid6.coords t) → (cfg6.win 7).flush t = false := by decide +kernel
theorem liveAt6_7 : ∀ t : Fin cfg6.N, cond2_1 (grid6.coords t) → cfg6.idle 7 (grid6.coords t) = false := by decide +kernel

noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  obtain ⟨b0, b1, b2, b3, b4⟩ := before6 V c t
  obtain ⟨a0, a1, a2, a3, a4⟩ := after6_in V c t
  simp only [b0, b1, b2, b3, b4]
  rw [show (dat6 V c).owesAt () t.succ = (dat6 V c).owesAt () t.castSucc from rfl]
  rw [show (dat6 V c).Φ t.succ = PhiS6 V c (t.val + 1) t.isLt from rfl, PhiS6_succ, PhiS6_castSucc V c t]
  have hN : t.val < 10 := lt_of_lt_of_eq t.isLt (show cfg6.N = 10 from N_6)
  rw [leaves6_live V c 0 t rfl, leaves6_live V c 1 t rfl, leaves6_live V c 2 t rfl, leaves6_live V c 3 t rfl, leaves6_live V c 4 t rfl, leaves6_live V c 5 t rfl,
    a0, a1, a2, a3, a4, after6_5]
  simp only [hblk6_eq]
  by_cases h9 : t.val = 9
  · have h0 : t.val ≠ 0 := by omega
    have c1 := (hcond2_1 t).mpr h9
    rw [leaves6_live V c 6 t (liveAt6_6 t c1), leaves6_live V c 7 t (liveAt6_7 t c1), after6_6, after6_7,
      accS6_pos V c t h0, accQ6_pos V c t h0, PhiS6_pos V c _ _ h0]
    simp only [hblk6_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid6.coords t) _ (hstage6_0 _) _ (hstage6_1 _) _ (hstage6_2 _) _ (hstage6_3 _) _ (hstage6_4 _) _ (hstage6_5 _) _ (hstage6_6 _) _ (hstage6_7 _) _ (Memref.isWhole_whole _) _ (Memref.isWhole_whole _) (fun h => h0 ((hcond2_0 t).mp h)) c1 (iblk6 V c 0 t) (iblk6 V c 1 t) (iblk6 V c 2 t) (iblk6 V c 3 t) (iblk6 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid6.coords t) := fun h => h9 ((hcond2_1 t).mp h)
    rw [Dat.leavesExact_idle (dat6 V c) 6 t (idleAt6_6 t c1) (noFlush6_6 t c1), Dat.leavesExact_idle (dat6 V c) 7 t (idleAt6_7 t c1) (noFlush6_7 t c1)]
    by_cases h0 : t.val = 0
    on_goal 1 => rw [accS6_first V c t h0, accQ6_first V c t h0, PhiS6_zero V c _ _ h0, PhiA6_eq]
    on_goal 2 => rw [accS6_pos V c t h0, accQ6_pos V c t h0, PhiS6_pos V c _ _ h0]
    all_goals (simp only [hblk6_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid6.coords t) _ (hstage6_0 _) _ (hstage6_1 _) _ (hstage6_2 _) _ (hstage6_3 _) _ (hstage6_4 _) _ (hstage6_5 _) _ (hstage6_6 _) _ (hstage6_7 _) _ (Memref.isWhole_whole _) _ (Memref.isWhole_whole _) ((hcond2_0 t).mpr h0) c1 (iblk6 V c 0 t) (iblk6 V c 1 t) (iblk6 V c 2 t) (iblk6 V c 3 t) (iblk6 V c 4 t) _)
    on_goal 2 => iapply (sound_kernel2_B c Set.univ (grid6.coords t) _ (hstage6_0 _) _ (hstage6_1 _) _ (hstage6_2 _) _ (hstage6_3 _) _ (hstage6_4 _) _ (hstage6_5 _) _ (hstage6_6 _) _ (hstage6_7 _) _ (Memref.isWhole_whole _) _ (Memref.isWhole_whole _) (fun h => h0 ((hcond2_0 t).mp h)) c1 (iblk6 V c 0 t) (iblk6 V c 1 t) (iblk6 V c 2 t) (iblk6 V c 3 t) (iblk6 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout6 (c : Dev nD) : (dat6 V c).Φ (Fin.last cfg6.N) ⊢ Pipeline.ΦA spec6 c :=
  Phi_out6 V c _ (by rw [Fin.val_last]; have : cfg6.N = 10 := N_6; omega)

end Region6

end Cert.Kernel.Gen

end
-- ==== Proof.KBBn7.lean ====
import proofs.«421428_j45019847197002_2_alg».proof.Proof.KBBn1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_5 (x0 : Vec F S10000x32 .f32) (x1 x2 x3 x4 : Vec F S1x32 .f32) : Vec F S10000x32 .f32 := out1_5 x0 x1 x2 x3 x4

theorem out7_5_eq (x0 : Vec F S10000x32 .f32) (x1 x2 x3 x4 : Vec F S1x32 .f32) :
    out7_5 x0 x1 x2 x3 x4 = k7_pay1 x0 x2 x1 x3 x4 := out1_5_eq x0 x1 x2 x3 x4

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7 (c : Dev nD) (t : Fin cfg7.N) : ∀ (w : Fin cfg7.W) (d), w ≠ 5 → (dat7 V c).before w t d = (dat7 V c).after w t
  | ⟨0, _⟩, d, _ | ⟨1, _⟩, d, _ | ⟨2, _⟩, d, _ | ⟨3, _⟩, d, _ | ⟨4, _⟩, d, _ =>
    ((dat7 V c).before_in_eq_fetched _ rfl (fun _ => rfl) (fun _ _ _ => rfl) (fun _ => by dsimp only [dat7]; rfl) t d).trans
      (by unfold Dat.fetched Dat.blockOf; dsimp only [dat7]; rfl)
  | ⟨5, _⟩, _, h => absurd rfl h

theorem body_obligation7 (c : Dev nD) : BodyObligation (dat7 (F := F) V c) (defs₀ (F := F)) Variants.none () Set.univ := fun t => by
  rw [bigSep_W7, bigSep_W7]
  dsimp only
  show _ ⊢ wp frame _ _ (bodyAt7 t) _
  unfold bodyAt7
  rw [show cc7_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before7 V c t 0 d0 (by decide), before7 V c t 1 d1 (by decide), before7 V c t 2 d2 (by decide), before7 V c t 3 d3 (by decide),
    before7 V c t 4 d4 (by decide)]
  dsimp only [dat7, out7_5]
  iapply (sound_kernel1 c Set.univ _ _ _ _ _ _ _ _ _ _ _ _ _ (iblk7 V c 0 t) (iblk7 V c 1 t) (iblk7 V c 2 t) (iblk7 V c 3 t) (iblk7 V c 4 t) _)
  iframe H0 H1 H2 H3 H4
  isplitl [H5]; · iexists _; iexact H5
  iintro ⟨H0, H1, H2, H3, H4, H5⟩
  iframe
  iexact Ho

theorem hin7 (c : Dev nD) : Pipeline.ΦA spec7 c ⊢ (dat7 (F := F) V c).Φ 0 := by
  dsimp only [dat7]; exact BI.Entails.refl _
theorem hout7 (c : Dev nD) : (dat7 (F := F) V c).Φ (Fin.last cfg7.N) ⊢ Pipeline.ΦA spec7 c := by
  dsimp only [dat7]; exact BI.Entails.refl _

end Region7

end Cert.Kernel.Gen

end
-- ==== Proof.KBMlp8.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import proofs.«421428_j45019847197002_2_alg».proof.Proof.KBMlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def hblk8 (c : Dev nD) (t : Fin cfg8.N) : Vec F S10000x32 .f32 :=
  k8_pay5 (iblk8 V c 0 t) (iblk8 V c 1 t) (iblk8 V c 2 t) (iblk8 V c 3 t) (iblk8 V c 4 t)

noncomputable def accS8 (c : Dev nD) : (n : ℕ) → n < cfg8.N → Vec F S1x32 .f32
  | 0, h => k8_pay1 (k8_pay6 (iblk8 V c 0 ⟨0, h⟩) (iblk8 V c 1 ⟨0, h⟩) (iblk8 V c 2 ⟨0, h⟩) (iblk8 V c 3 ⟨0, h⟩) (iblk8 V c 4 ⟨0, h⟩) (k8_pay3 (F := F)))
  | n + 1, h => k8_pay1 (k8_pay6 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (accS8 c n (Nat.lt_of_succ_lt h)))

noncomputable def accQ8 (c : Dev nD) : (n : ℕ) → n < cfg8.N → Vec F S1x32 .f32
  | 0, h => k8_pay2 (hblk8 V c ⟨0, h⟩) (k8_pay4 (F := F))
  | n + 1, h => k8_pay2 (hblk8 V c ⟨n + 1, h⟩) (accQ8 c n (Nat.lt_of_succ_lt h))

theorem hblk8_eq (c : Dev nD) (t : Fin cfg8.N) : hblk8 V c t = k2_pay5 (iblk8 V c 0 t) (iblk8 V c 1 t) (iblk8 V c 2 t) (iblk8 V c 3 t) (iblk8 V c 4 t) := rfl
theorem accS8_first (c : Dev nD) (t : Fin cfg8.N) (h0 : t.val = 0) :
    accS8 V c t.val t.isLt = k2_pay1 (k2_pay6 (iblk8 V c 0 t) (iblk8 V c 1 t) (iblk8 V c 2 t) (iblk8 V c 3 t) (iblk8 V c 4 t) (k2_pay3 (F := F))) := by
  obtain ⟨_ | n, hn⟩ := t
  exacts [rfl, absurd h0 (Nat.succ_ne_zero n)]
theorem accQ8_first (c : Dev nD) (t : Fin cfg8.N) (h0 : t.val = 0) :
    accQ8 V c t.val t.isLt = k2_pay2 (hblk8 V c t) (k2_pay4 (F := F)) := by
  obtain ⟨_ | n, hn⟩ := t
  exacts [rfl, absurd h0 (Nat.succ_ne_zero n)]
theorem accS8_pos (c : Dev nD) (t : Fin cfg8.N) (h0 : t.val ≠ 0) :
    accS8 V c t.val t.isLt = k2_pay1 (k2_pay6 (iblk8 V c 0 t) (iblk8 V c 1 t) (iblk8 V c 2 t) (iblk8 V c 3 t) (iblk8 V c 4 t) (accS8 V c (t.val - 1) (Nat.lt_of_le_of_lt (Nat.sub_le _ _) t.isLt))) := by
  obtain ⟨_ | n, hn⟩ := t
  exacts [absurd rfl h0, rfl]
theorem accQ8_pos (c : Dev nD) (t : Fin cfg8.N) (h0 : t.val ≠ 0) :
    accQ8 V c t.val t.isLt = k2_pay2 (hblk8 V c t) (accQ8 V c (t.val - 1) (Nat.lt_of_le_of_lt (Nat.sub_le _ _) t.isLt)) := by
  obtain ⟨_ | n, hn⟩ := t
  exacts [absurd rfl h0, rfl]

abbrev scM8_0 : Memref sig .tc .vmem S1x32 .f32 := Memref.whole cc8_scratch0
abbrev scM8_1 : Memref sig .tc .vmem S1x32 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 (F := F) c) ∗ (∃ r, prngReg c r)) := by
  unfold Pipeline.ΦA; rw [scopedRest8_split]; simp only [scM8_0, scM8_1, owns_whole]; try rfl

noncomputable def PhiS8 (c : Dev nD) : (n : ℕ) → n ≤ cfg8.N → sProp 𝕄
  | 0, _ => Pipeline.ΦA spec8 c
  | n + 1, hn => iprop(iprop(iprop(owns (c : Thread nD τ) scM8_0 fullShare (accS8 V c n hn) ∗ owns (c : Thread nD τ) scM8_1 fullShare (accQ8 V c n hn)) ∗ rest8 (F := F) c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (accS8 V c n hn) ∗ owns (c : Thread nD τ) scM8_1 fullShare (accQ8 V c n hn)) ∗ rest8 (F := F) c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (accS8 V c (n - 1) (by omega)) ∗ owns (c : Thread nD τ) scM8_1 fullShare (accQ8 V c (n - 1) (by omega))) ∗ rest8 (F := F) c) ∗ (∃ r, prngReg c r)) := by
  cases n
  exacts [absurd rfl hz, rfl]

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => hblk8 V c t
    | ⟨6, _⟩ => accS8 V c t.val t.isLt
    | ⟨7, _⟩ => accQ8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_in (c : Dev nD) (t : Fin cfg8.N) :
    (dat8 V c).after 0 t = iblk8 V c 0 t ∧ (dat8 V c).after 1 t = iblk8 V c 1 t ∧ (dat8 V c).after 2 t = iblk8 V c 2 t
      ∧ (dat8 V c).after 3 t = iblk8 V c 3 t ∧ (dat8 V c).after 4 t = iblk8 V c 4 t := ⟨rfl, rfl, rfl, rfl, rfl⟩
theorem after8_5 (c : Dev nD) (t : Fin cfg8.N) : (dat8 V c).after 5 t = hblk8 V c t := by dsimp only [dat8]
theorem after8_6 (c : Dev nD) (t : Fin cfg8.N) : (dat8 V c).after 6 t = accS8 V c t.val t.isLt := by dsimp only [dat8]
theorem after8_7 (c : Dev nD) (t : Fin cfg8.N) : (dat8 V c).after 7 t = accQ8 V c t.val t.isLt := by dsimp only [dat8]

theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t)
      ∧ (∀ d, (dat8 V c).before 3 t d = iblk8 V c 3 t) ∧ (∀ d, (dat8 V c).before 4 t d = iblk8 V c 4 t) := by
  refine ⟨?_, ?_, ?_, ?_, ?_⟩ <;> intro d <;>
  exact ((dat8 V c).before_in_eq_fetched _ rfl (fun _ => rfl) (fun _ _ _ => rfl) (fun _ => rfl) t d).trans rfl

theorem leaves8_live (c : Dev nD) (w : Fin cfg8.W) (t : Fin cfg8.N) (h : cfg8.idle w (grid8.coords t) = false) :
    (dat8 V c).leavesExact w t = owns (c : Thread nD τ) ((cfg8.win w).stage (cfg8.slots t w)) fullShare ((dat8 V c).after w t) := by
  unfold Dat.leavesExact; rw [h]

theorem idleAt8_6 : ∀ t : Fin cfg8.N, ¬cond2_1 (grid8.coords t) → cfg8.idle 6 (grid8.coords t) = true := by decide +kernel
theorem noFlush8_6 : ∀ t : Fin cfg8.N, ¬cond2_1 (grid8.coords t) → (cfg8.win 6).flush t = false := by decide +kernel
theorem liveAt8_6 : ∀ t : Fin cfg8.N, cond2_1 (grid8.coords t) → cfg8.idle 6 (grid8.coords t) = false := by decide +kernel
theorem idleAt8_7 : ∀ t : Fin cfg8.N, ¬cond2_1 (grid8.coords t) → cfg8.idle 7 (grid8.coords t) = true := by decide +kernel
theorem noFlush8_7 : ∀ t : Fin cfg8.N, ¬cond2_1 (grid8.coords t) → (cfg8.win 7).flush t = false := by decide +kernel
theorem liveAt8_7 : ∀ t : Fin cfg8.N, cond2_1 (grid8.coords t) → cfg8.idle 7 (grid8.coords t) = false := by decide +kernel

noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  obtain ⟨b0, b1, b2, b3, b4⟩ := before8 V c t
  obtain ⟨a0, a1, a2, a3, a4⟩ := after8_in V c t
  simp only [b0, b1, b2, b3, b4]
  rw [show (dat8 V c).owesAt () t.succ = (dat8 V c).owesAt () t.castSucc from rfl]
  rw [show (dat8 V c).Φ t.succ = PhiS8 V c (t.val + 1) t.isLt from rfl, PhiS8_succ, PhiS8_castSucc V c t]
  have hN : t.val < 10 := lt_of_lt_of_eq t.isLt (show cfg8.N = 10 from N_8)
  rw [leaves8_live V c 0 t rfl, leaves8_live V c 1 t rfl, leaves8_live V c 2 t rfl, leaves8_live V c 3 t rfl, leaves8_live V c 4 t rfl, leaves8_live V c 5 t rfl,
    a0, a1, a2, a3, a4, after8_5]
  simp only [hblk8_eq]
  by_cases h9 : t.val = 9
  · have h0 : t.val ≠ 0 := by omega
    have c1 := (hcond2_1 t).mpr h9
    rw [leaves8_live V c 6 t (liveAt8_6 t c1), leaves8_live V c 7 t (liveAt8_7 t c1), after8_6, after8_7,
      accS8_pos V c t h0, accQ8_pos V c t h0, PhiS8_pos V c _ _ h0]
    simp only [hblk8_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid8.coords t) _ (hstage8_0 _) _ (hstage8_1 _) _ (hstage8_2 _) _ (hstage8_3 _) _ (hstage8_4 _) _ (hstage8_5 _) _ (hstage8_6 _) _ (hstage8_7 _) _ (Memref.isWhole_whole _) _ (Memref.isWhole_whole _) (fun h => h0 ((hcond2_0 t).mp h)) c1 (iblk8 V c 0 t) (iblk8 V c 1 t) (iblk8 V c 2 t) (iblk8 V c 3 t) (iblk8 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid8.coords t) := fun h => h9 ((hcond2_1 t).mp h)
    rw [Dat.leavesExact_idle (dat8 V c) 6 t (idleAt8_6 t c1) (noFlush8_6 t c1), Dat.leavesExact_idle (dat8 V c) 7 t (idleAt8_7 t c1) (noFlush8_7 t c1)]
    by_cases h0 : t.val = 0
    on_goal 1 => rw [accS8_first V c t h0, accQ8_first V c t h0, PhiS8_zero V c _ _ h0, PhiA8_eq]
    on_goal 2 => rw [accS8_pos V c t h0, accQ8_pos V c t h0, PhiS8_pos V c _ _ h0]
    all_goals (simp only [hblk8_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid8.coords t) _ (hstage8_0 _) _ (hstage8_1 _) _ (hstage8_2 _) _ (hstage8_3 _) _ (hstage8_4 _) _ (hstage8_5 _) _ (hstage8_6 _) _ (hstage8_7 _) _ (Memref.isWhole_whole _) _ (Memref.isWhole_whole _) ((hcond2_0 t).mpr h0) c1 (iblk8 V c 0 t) (iblk8 V c 1 t) (iblk8 V c 2 t) (iblk8 V c 3 t) (iblk8 V c 4 t) _)
    on_goal 2 => iapply (sound_kernel2_B c Set.univ (grid8.coords t) _ (hstage8_0 _) _ (hstage8_1 _) _ (hstage8_2 _) _ (hstage8_3 _) _ (hstage8_4 _) _ (hstage8_5 _) _ (hstage8_6 _) _ (hstage8_7 _) _ (Memref.isWhole_whole _) _ (Memref.isWhole_whole _) (fun h => h0 ((hcond2_0 t).mp h)) c1 (iblk8 V c 0 t) (iblk8 V c 1 t) (iblk8 V c 2 t) (iblk8 V c 3 t) (iblk8 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout8 (c : Dev nD) : (dat8 V c).Φ (Fin.last cfg8.N) ⊢ Pipeline.ΦA spec8 c :=
  Phi_out8 V c _ (by rw [Fin.val_last]; have : cfg8.N = 10 := N_8; omega)

end Region8

end Cert.Kernel.Gen

end
-- ==== Proof.KBBn9.lean ====
import proofs.«421428_j45019847197002_2_alg».proof.Proof.KBBn1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_5 (x0 : Vec F S10000x32 .f32) (x1 x2 x3 x4 : Vec F S1x32 .f32) : Vec F S10000x32 .f32 := out1_5 x0 x1 x2 x3 x4

theorem out9_5_eq (x0 : Vec F S10000x32 .f32) (x1 x2 x3 x4 : Vec F S1x32 .f32) :
    out9_5 x0 x1 x2 x3 x4 = k9_pay1 x0 x2 x1 x3 x4 := out1_5_eq x0 x1 x2 x3 x4

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

theorem before9 (c : Dev nD) (t : Fin cfg9.N) : ∀ (w : Fin cfg9.W) (d), w ≠ 5 → (dat9 V c).before w t d = (dat9 V c).after w t
  | ⟨0, _⟩, d, _ | ⟨1, _⟩, d, _ | ⟨2, _⟩, d, _ | ⟨3, _⟩, d, _ | ⟨4, _⟩, d, _ =>
    ((dat9 V c).before_in_eq_fetched _ rfl (fun _ => rfl) (fun _ _ _ => rfl) (fun _ => by dsimp only [dat9]; rfl) t d).trans
      (by unfold Dat.fetched Dat.blockOf; dsimp only [dat9]; rfl)
  | ⟨5, _⟩, _, h => absurd rfl h

theorem body_obligation9 (c : Dev nD) : BodyObligation (dat9 (F := F) V c) (defs₀ (F := F)) Variants.none () Set.univ := fun t => by
  rw [bigSep_W9, bigSep_W9]
  dsimp only
  show _ ⊢ wp frame _ _ (bodyAt9 t) _
  unfold bodyAt9
  rw [show cc9_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before9 V c t 0 d0 (by decide), before9 V c t 1 d1 (by decide), before9 V c t 2 d2 (by decide), before9 V c t 3 d3 (by decide),
    before9 V c t 4 d4 (by decide)]
  dsimp only [dat9, out9_5]
  iapply (sound_kernel1 c Set.univ _ _ _ _ _ _ _ _ _ _ _ _ _ (iblk9 V c 0 t) (iblk9 V c 1 t) (iblk9 V c 2 t) (iblk9 V c 3 t) (iblk9 V c 4 t) _)
  iframe H0 H1 H2 H3 H4
  isplitl [H5]; · iexists _; iexact H5
  iintro ⟨H0, H1, H2, H3, H4, H5⟩
  iframe
  iexact Ho

theorem hin9 (c : Dev nD) : Pipeline.ΦA spec9 c ⊢ (dat9 (F := F) V c).Φ 0 := by
  dsimp only [dat9]; exact BI.Entails.refl _
theorem hout9 (c : Dev nD) : (dat9 (F := F) V c).Φ (Fin.last cfg9.N) ⊢ Pipeline.ΦA spec9 c := by
  dsimp only [dat9]; exact BI.Entails.refl _

end Region9

end Cert.Kernel.Gen

end
-- ==== Proof.KBPool10.lean ====
import proofs.«421428_j45019847197002_2_alg».proof.Proof.Gen.Kernel.Launch
import proofs.«421428_j45019847197002_2_alg».proof.Proof.Gen.Kernel.Skeleton
import proofs.«421428_j45019847197002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section Region10

abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val = 0 :=
  (by decide +kernel : ∀ t : Fin grid10.N, cond10_0 (grid10.coords t) ↔ t.val = 0)

abbrev cond10_1 (i : grid10.Coords) : Prop := k10_cond2 i = 1#1

theorem hcond10_1 : ∀ t : Fin cfg10.N, cond10_1 (grid10.coords t) ↔ t.val = 99 :=
  (by decide +kernel : ∀ t : Fin grid10.N, cond10_1 (grid10.coords t) ↔ t.val = 99)

theorem hz10 : (![0, 0] : Fin 2 → Nat) = fun _ => 0 := funext fun a => by fin_cases a <;> rfl

section Kernel10
variable (c : Dev nD) (E : Set ℕ) (i : grid10.Coords) (arg1 : Memref sig .tc .vmem S1000x32 .f32) (harg1 : arg1.IsWhole) (arg2 : Memref sig .tc .vmem S1000x1 .i32) (harg2 : arg2.IsWhole) (arg3 : Memref sig .tc .vmem S32x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x32 .f32) (harg6 : arg6.IsWhole)
  (x0 : Vec F S1000x32 .f32) (x1 : Vec F S1000x1 .i32) (x2 : Vec F S32x128 .f32) (x3 : Vec F S1x128 .f32) (x4 : Vec F S2048x128 .f32) (x5 : Vec F S2048x32 .f32)

abbrev io10 (y4 : Vec F S2048x128 .f32) (y5 : Vec F S2048x32 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare y4 ∗ owns (c : Thread nD τ) arg6 fullShare y5)

set_option maxHeartbeats 1000000 in
theorem kernel10_A (K : PUnit → sProp 𝕄) (hc0 : cond10_0 i) (hc1 : ¬cond10_1 i) :
    iprop(io10 c arg1 arg2 arg3 arg4 arg5 arg6 x0 x1 x2 x3 x4 x5 ∗ (io10 c arg1 arg2 arg3 arg4 arg5 arg6 x0 x1 x2 x3 x4 (k10_pay2 x0 x1 (k10_pay1 (F := F))) -∗ K ⟨⟩)) ⊢ wp frame (wpE (defs₀ (F := F)) Variants.none c none) E (cc10_pool_fc_kernel i arg1 harg1 arg2 harg2 arg3 harg3 arg4 harg4 arg5 harg5 arg6 harg6) K := by
  simp only [cc10_pool_fc_kernel_eq_skeleton]; unfold cc10_pool_fc_kernel_skel
  unfold io10 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec (disch := first | exact hc0 | exact hc1)
  sl_step
  iapply Hk
  isplitl [H0]; swap; isplitl [H1]; swap; isplitl [H2]; swap; isplitl [H3]; swap; isplitl [H4]; swap
  all_goals (iexists _; isplitr; swap; iassumption; ipureintro)
  · sl_unfold_words; rw [View.read_writes_eq_canon _ _ _ (fun y => ⟨_, List.Mem.head _, View.mem_set_unit_zero hz10 inb_S2048x32_S2048x32_0_0 y⟩), View.canon_cons_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  all_goals rfl

set_option maxHeartbeats 1000000 in
theorem kernel10_B (K : PUnit → sProp 𝕄) (hc0 : ¬cond10_0 i) (hc1 : ¬cond10_1 i) :
    iprop(io10 c arg1 arg2 arg3 arg4 arg5 arg6 x0 x1 x2 x3 x4 x5 ∗ (io10 c arg1 arg2 arg3 arg4 arg5 arg6 x0 x1 x2 x3 x4 (k10_pay2 x0 x1 x5) -∗ K ⟨⟩)) ⊢ wp frame (wpE (defs₀ (F := F)) Variants.none c none) E (cc10_pool_fc_kernel i arg1 harg1 arg2 harg2 arg3 harg3 arg4 harg4 arg5 harg5 arg6 harg6) K := by
  simp only [cc10_pool_fc_kernel_eq_skeleton]; unfold cc10_pool_fc_kernel_skel
  unfold io10 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec (disch := first | exact hc0 | exact hc1)
  sl_step
  iapply Hk
  isplitl [H0]; swap; isplitl [H1]; swap; isplitl [H2]; swap; isplitl [H3]; swap; isplitl [H4]; swap
  all_goals (iexists _; isplitr; swap; iassumption; ipureintro)
  · sl_unfold_words; rw [View.read_writes_eq_canon _ _ _ (fun y => ⟨_, List.Mem.head _, View.mem_set_unit_zero hz10 inb_S2048x32_S2048x32_0_0 y⟩), View.canon_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  all_goals rfl

set_option maxHeartbeats 1000000 in
theorem kernel10_C (K : PUnit → sProp 𝕄) (hc0 : ¬cond10_0 i) (hc1 : cond10_1 i) :
    iprop(io10 c arg1 arg2 arg3 arg4 arg5 arg6 x0 x1 x2 x3 x4 x5 ∗ (io10 c arg1 arg2 arg3 arg4 arg5 arg6 x0 x1 x2 x3 (k10_pay3 x2 (k10_pay2 x0 x1 x5) x3) (k10_pay2 x0 x1 x5) -∗ K ⟨⟩)) ⊢ wp frame (wpE (defs₀ (F := F)) Variants.none c none) E (cc10_pool_fc_kernel i arg1 harg1 arg2 harg2 arg3 harg3 arg4 harg4 arg5 harg5 arg6 harg6) K := by
  simp only [cc10_pool_fc_kernel_eq_skeleton]; unfold cc10_pool_fc_kernel_skel
  unfold io10 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec (disch := first | exact hc0 | exact hc1)
  sl_step
  iapply Hk
  isplitl [H0]; swap; isplitl [H1]; swap; isplitl [H2]; swap; isplitl [H3]; swap; isplitl [H4]; swap
  all_goals (iexists _; isplitr; swap; iassumption; ipureintro)
  · sl_unfold_words; rw [View.read_writes_eq_canon _ _ _ (fun y => ⟨_, List.Mem.head _, View.mem_set_unit_zero hz10 inb_S2048x32_S2048x32_0_0 y⟩), View.canon_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  · sl_unfold_words; rw [View.read_writes_eq_canon _ _ _ (fun y => ⟨_, List.Mem.head _, View.mem_set_unit_zero hz10 inb_S2048x128_S2048x128_0_0 y⟩), View.canon_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  all_goals rfl

end Kernel10

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem lastLt10 : 99 < cfg10.N := by have h : cfg10.N = 100 := N_10; omega

abbrev tLast10 : Fin cfg10.N := ⟨99, lastLt10⟩

theorem idleAt10_4 : ∀ t : Fin cfg10.N, ¬cond10_1 (grid10.coords t) → idle10 4 (grid10.coords t) = true := fun t h => by
  have e : idle10 4 (grid10.coords t) = !(k10_cond2 (grid10.coords t) == 1#1) := rfl
  rw [e]; simpa using h

theorem noFlush10_4 : ∀ t : Fin cfg10.N, ¬cond10_1 (grid10.coords t) → (win10 4).flush t = false := fun t h => by
  have hN : t.val < 100 := lt_of_lt_of_eq t.isLt (show cfg10.N = 100 from N_10)
  have h1 : t.val ≠ 99 := fun e => h ((hcond10_1 t).mpr e)
  cases hf : (win10 4).flush t with
  | false => rfl
  | true => exact absurd ((flush10_4 t).mp hf) (by omega)

theorem liveAt10_4 : ∀ t : Fin cfg10.N, cond10_1 (grid10.coords t) → idle10 4 (grid10.coords t) = false := fun t h => by
  have e : idle10 4 (grid10.coords t) = !(k10_cond2 (grid10.coords t) == 1#1) := rfl
  rw [e]; simpa using h

abbrev scM10 : Memref sig .tc .vmem S2048x32 .f32 := Memref.whole cc10_scratch0

theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

def accP10 (c : Dev nD) : (n : ℕ) → n < cfg10.N → Vec F S2048x32 .f32
  | 0, hn => k10_pay2 (iblk10 V c 0 ⟨0, hn⟩) (iblk10 V c 1 ⟨0, hn⟩) (k10_pay1 (F := F))
  | n + 1, hn => k10_pay2 (iblk10 V c 0 ⟨n + 1, hn⟩) (iblk10 V c 1 ⟨n + 1, hn⟩) (accP10 c n (Nat.lt_of_succ_lt hn))

theorem accP10_zero (c : Dev nD) (hn : 0 < cfg10.N) :
    accP10 V c 0 hn = k10_pay2 (iblk10 V c 0 ⟨0, hn⟩) (iblk10 V c 1 ⟨0, hn⟩) (k10_pay1 (F := F)) := rfl

theorem accP10_succ (c : Dev nD) (n : ℕ) (hn : n + 1 < cfg10.N) :
    accP10 V c (n + 1) hn = k10_pay2 (iblk10 V c 0 ⟨n + 1, hn⟩) (iblk10 V c 1 ⟨n + 1, hn⟩) (accP10 V c n (Nat.lt_of_succ_lt hn)) := rfl

theorem accP10_first (c : Dev nD) (t : Fin cfg10.N) (hz : t.val = 0) :
    accP10 V c t.val t.isLt = k10_pay2 (iblk10 V c 0 t) (iblk10 V c 1 t) (k10_pay1 (F := F)) := by
  obtain ⟨n, hn⟩ := t
  cases n with
  | zero => rfl
  | succ n => exact absurd hz (Nat.succ_ne_zero n)

theorem accP10_later (c : Dev nD) (t : Fin cfg10.N) (hz : t.val ≠ 0) :
    accP10 V c t.val t.isLt = k10_pay2 (iblk10 V c 0 t) (iblk10 V c 1 t) (accP10 V c (t.val - 1) (Nat.lt_of_le_of_lt (Nat.sub_le _ _) t.isLt)) := by
  obtain ⟨n, hn⟩ := t
  cases n with
  | zero => exact absurd rfl hz
  | succ n => rfl

def out10_4 (c : Dev nD) : Vec F S2048x128 .f32 :=
  k10_pay3 (iblk10 V c 2 tLast10) (accP10 V c 99 lastLt10) (iblk10 V c 3 tLast10)

def PhiS10 (c : Dev nD) : (n : ℕ) → n ≤ cfg10.N → sProp 𝕄
  | 0, _ => Pipeline.ΦA spec10 c
  | n + 1, hn => iprop(iprop(owns (c : Thread nD τ) scM10 fullShare (accP10 V c n hn)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10 fullShare (accP10 V c n hn)
      ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(owns (c : Thread nD τ) scM10 fullShare (accP10 V c (n - 1) (by omega))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 V c
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_4 (c : Dev nD) (t : Fin cfg10.N) : (dat10 V c).after 4 t = out10_4 V c := by dsimp only [dat10]

theorem before10 (c : Dev nD) (t : Fin cfg10.N) : ∀ (w : Fin cfg10.W) (d), w ≠ 4 → (dat10 V c).before w t d = (dat10 V c).after w t
  | ⟨0, _⟩, d, _ | ⟨1, _⟩, d, _ | ⟨2, _⟩, d, _ | ⟨3, _⟩, d, _ =>
    ((dat10 V c).before_in_eq_fetched _ rfl (fun _ => rfl) (fun _ _ _ => rfl) (fun _ => by dsimp only [dat10]; rfl) t d).trans
      (by unfold Dat.fetched Dat.blockOf; dsimp only [dat10]; rfl)
  | ⟨4, _⟩, _, h => absurd rfl h

theorem body_obligation10 (c : Dev nD) : BodyObligation (dat10 (F := F) V c) (defs₀ (F := F)) Variants.none () Set.univ := fun t => by
  rw [bigSep_W10, bigSep_W10]
  dsimp only
  show _ ⊢ wp frame _ _ (bodyAt10 t) _
  rw [PhiS10_castSucc V c t, show (dat10 V c).Φ t.succ = PhiS10 V c (t.val + 1) t.isLt from rfl, PhiS10_succ]
  have hN : t.val < 100 := lt_of_lt_of_eq t.isLt (show cfg10.N = 100 from N_10)
  by_cases h0 : t.val = 0
  · have hc0 : cond10_0 (grid10.coords t) := (hcond10_0 t).mpr h0
    have hc1 : ¬cond10_1 (grid10.coords t) := fun h => by have h' := (hcond10_1 t).mp h; omega
    rw [idleAt10_4 t hc1, noFlush10_4 t hc1, accP10_first V c t h0, PhiS10_zero V c _ _ h0, PhiA10_eq]
    iintro ⟨⟨⟨⟨%ds, HS⟩, HR⟩, Hg⟩, Ho, ⟨%d0, H0⟩, ⟨%d1, H1⟩, ⟨%d2, H2⟩, ⟨%d3, H3⟩, ⟨%d4, H4⟩⟩
    rw [before10 V c t 0 d0 (by decide), before10 V c t 1 d1 (by decide), before10 V c t 2 d2 (by decide), before10 V c t 3 d3 (by decide)]
    dsimp only [dat10]
    iapply (kernel10_A c Set.univ (grid10.coords t) _ _ _ _ _ _ _ _ _ _ _ _ (iblk10 V c 0 t) (iblk10 V c 1 t) (iblk10 V c 2 t) (iblk10 V c 3 t) _ ds _ hc0 hc1)
    unfold io10
    iframe H0 H1 H2 H3 H4 HS
    iintro ⟨H0, H1, H2, H3, H4, HS⟩
    iframe H0 H1 H2 H3 HS HR Hg
    isplitl [Ho]; · iexact Ho
    iexists _; iexact H4
  · have hc0 : ¬cond10_0 (grid10.coords t) := fun h => h0 ((hcond10_0 t).mp h)
    rw [accP10_later V c t h0, PhiS10_pos V c _ _ h0]
    by_cases h1 : t.val = 99
    · have hc1 : cond10_1 (grid10.coords t) := (hcond10_1 t).mpr h1
      have hout : out10_4 V c = k10_pay3 (iblk10 V c 2 t) (k10_pay2 (iblk10 V c 0 t) (iblk10 V c 1 t) (accP10 V c (t.val - 1) (Nat.lt_of_le_of_lt (Nat.sub_le _ _) t.isLt))) (iblk10 V c 3 t) := by
        obtain rfl : t = tLast10 := Fin.ext h1
        rfl
      rw [liveAt10_4 t hc1]
      iintro ⟨⟨⟨HS, HR⟩, Hg⟩, Ho, ⟨%d0, H0⟩, ⟨%d1, H1⟩, ⟨%d2, H2⟩, ⟨%d3, H3⟩, ⟨%d4, H4⟩⟩
      rw [before10 V c t 0 d0 (by decide), before10 V c t 1 d1 (by decide), before10 V c t 2 d2 (by decide), before10 V c t 3 d3 (by decide)]
      dsimp only [dat10]
      rw [hout]
      iapply (kernel10_C c Set.univ (grid10.coords t) _ _ _ _ _ _ _ _ _ _ _ _ (iblk10 V c 0 t) (iblk10 V c 1 t) (iblk10 V c 2 t) (iblk10 V c 3 t) _ _ _ hc0 hc1)
      unfold io10
      iframe H0 H1 H2 H3 H4 HS
      iintro ⟨H0, H1, H2, H3, H4, HS⟩
      iframe H0 H1 H2 H3 H4 HS HR Hg
      iexact Ho
    · have hc1 : ¬cond10_1 (grid10.coords t) := fun h => h1 ((hcond10_1 t).mp h)
      rw [idleAt10_4 t hc1, noFlush10_4 t hc1]
      iintro ⟨⟨⟨HS, HR⟩, Hg⟩, Ho, ⟨%d0, H0⟩, ⟨%d1, H1⟩, ⟨%d2, H2⟩, ⟨%d3, H3⟩, ⟨%d4, H4⟩⟩
      rw [before10 V c t 0 d0 (by decide), before10 V c t 1 d1 (by decide), before10 V c t 2 d2 (by decide), before10 V c t 3 d3 (by decide)]
      dsimp only [dat10]
      iapply (kernel10_B c Set.univ (grid10.coords t) _ _ _ _ _ _ _ _ _ _ _ _ (iblk10 V c 0 t) (iblk10 V c 1 t) (iblk10 V c 2 t) (iblk10 V c 3 t) _ _ _ hc0 hc1)
      unfold io10
      iframe H0 H1 H2 H3 H4 HS
      iintro ⟨H0, H1, H2, H3, H4, HS⟩
      iframe H0 H1 H2 H3 HS HR Hg
      isplitl [Ho]; · iexact Ho
      iexists _; iexact H4

theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS, HR⟩, Hg⟩
  iframe HR Hg
  iexists _; iexact HS

theorem hout10 (c : Dev nD) : (dat10 V c).Φ (Fin.last cfg10.N) ⊢ Pipeline.ΦA spec10 c :=
  Phi_out10 V c _ (by rw [Fin.val_last]; have : cfg10.N = 100 := N_10; omega)

end Region10

end Cert.Kernel.Gen

end
-- ==== Proof.KBVals.lean ====
import proofs.«421428_j45019847197002_2_alg».proof.Proof.Gen.Kernel.Regions
import proofs.«421428_j45019847197002_2_alg».proof.Proof.KBMlp0
import proofs.«421428_j45019847197002_2_alg».proof.Proof.KBBn1
import proofs.«421428_j45019847197002_2_alg».proof.Proof.KBMlp2
import proofs.«421428_j45019847197002_2_alg».proof.Proof.KBBn3
import proofs.«421428_j45019847197002_2_alg».proof.Proof.KBMlp4
import proofs.«421428_j45019847197002_2_alg».proof.Proof.KBBn5
import proofs.«421428_j45019847197002_2_alg».proof.Proof.KBMlp6
import proofs.«421428_j45019847197002_2_alg».proof.Proof.KBBn7
import proofs.«421428_j45019847197002_2_alg».proof.Proof.KBMlp8
import proofs.«421428_j45019847197002_2_alg».proof.Proof.KBBn9
import proofs.«421428_j45019847197002_2_alg».proof.Proof.KBPool10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe
open Idealize.SL Idealize.SL.BI
open scoped Idealize.SL.BI
open Idealize.SL.BI.BIBase
open Idealize.ShloMosaic.Pipeline (Dat Cfg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem withArrays_rest {gr W : ℕ} (win : Fin W → Pipeline.WinSpec sig gr) (c : Dev nD) (V : Valuation τ sig (Elt F))
    (A : (w : Fin W) → Buf (Elt F) ((win w).arr.view.loc (c : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

-- if r is window w's array then w is an input and `arrAt_in` applies; otherwise `withArrays_of_ne`
theorem withArrays_in {cfg : Cfg sig Λ₀} (hinj : Function.Injective (Pipeline.arrRef cfg.spec)) (c : Dev nD)
    (V : Valuation τ sig (Elt F)) (dat : Dat τ (Elt F) Unit ℕ (UR sig nD τ) ℕ cfg c)
    (hA : ∀ w, dat.A w = V (Proc.devRef .tc (Pipeline.arrRef cfg.spec w))) (r : Ref sig .tc)
    (h : ∀ w, Pipeline.arrRef cfg.spec w = r → (cfg.win w).isOut = false) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    rw [Pipeline.withArrays_arr _ hinj, dat.arrAt_in w (h w rfl), hA]
  · exact Pipeline.withArrays_of_ne _ c V _ r fun w e => hr ⟨w, e⟩

abbrev B0 : Dev nD → Valuation τ sig (Elt F) := fun c b => (s₀ m ρ).mem ((c : Dev nD), b)

section
variable (c : Dev nD)

abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
theorem B1_keep (r : Ref sig .tc) (h : r ∉ hostOps0_W) : B1 m ρ c (Proc.devRef .tc r) = B0 m ρ c (Proc.devRef .tc r) :=
  StableHlo.after_of_writes_sub hostOps0 _ hostOps0_writes h
def B2 : Valuation τ sig (Elt F) :=
  Pipeline.withArrays spec0 c (B1 m ρ c) fun w => (dat0 (U1 m ρ) c).arrAt w cfg0.N
theorem B2_arr (w : Fin cfg0.W) :
    B2 m ρ c (Proc.devRef .tc (Pipeline.arrRef spec0 w)) = (dat0 (U1 m ρ) c).arrAt w cfg0.N :=
  Pipeline.withArrays_arr spec0 launch0.win.arr_inj c _ _ w
theorem B2_of_ne (b : Ref sig .tc) (hb : ∀ w, Pipeline.arrRef spec0 w ≠ b) :
    B2 m ρ c (Proc.devRef .tc b) = B1 m ρ c (Proc.devRef .tc b) :=
  Pipeline.withArrays_of_ne spec0 c _ _ b hb
abbrev U2 : (c : Dev nD) → (b : Ref sig .tc) → Buf (Elt F) ((c : Thread nD τ).loc b) := fun c b => B2 m ρ c b
theorem hF0 (w : Fin cfg0.W) : (dat0 (U1 m ρ) c).arrAt w cfg0.N = U2 m ρ c (Pipeline.arrRef spec0 w) :=
  (B2_arr m ρ c w).symm
theorem hrest0 : ∀ b, b ∉ Finset.univ.image (Pipeline.arrRef spec0) → U2 m ρ c b = U1 m ρ c b :=
  withArrays_rest spec0 c _ _

abbrev B3 : Dev nD → Valuation τ sig (Elt F) := fun c => StableHlo.after hostOps1 (B2 m ρ c)
abbrev U3 : (c : Dev nD) → (b : Ref sig .tc) → Buf (Elt F) ((c : Thread nD τ).loc b) := fun c b => B3 m ρ c b
theorem B3_keep (r : Ref sig .tc) (h : r ∉ hostOps1_W) : B3 m ρ c (Proc.devRef .tc r) = B2 m ρ c (Proc.devRef .tc r) :=
  StableHlo.after_of_writes_sub hostOps1 _ hostOps1_writes h
def B4 : Valuation τ sig (Elt F) :=
  Pipeline.withArrays spec1 c (B3 m ρ c) fun w => (dat1 (U3 m ρ) c).arrAt w cfg1.N
theorem B4_arr (w : Fin cfg1.W) :
    B4 m ρ c (Proc.devRef .tc (Pipeline.arrRef spec1 w)) = (dat1 (U3 m ρ) c).arrAt w cfg1.N :=
  Pipeline.withArrays_arr spec1 launch1.win.arr_inj c _ _ w
theorem B4_of_ne (b : Ref sig .tc) (hb : ∀ w, Pipeline.arrRef spec1 w ≠ b) :
    B4 m ρ c (Proc.devRef .tc b) = B3 m ρ c (Proc.devRef .tc b) :=
  Pipeline.withArrays_of_ne spec1 c _ _ b hb
abbrev U4 : (c : Dev nD) → (b : Ref sig .tc) → Buf (Elt F) ((c : Thread nD τ).loc b) := fun c b => B4 m ρ c b
theorem hF1 (w : Fin cfg1.W) : (dat1 (U3 m ρ) c).arrAt w cfg1.N = U4 m ρ c (Pipeline.arrRef spec1 w) :=
  (B4_arr m ρ c w).symm
theorem hrest1 : ∀ b, b ∉ Finset.univ.image (Pipeline.arrRef spec1) → U4 m ρ c b = U3 m ρ c b :=
  withArrays_rest spec1 c _ _

abbrev B5 : Dev nD → Valuation τ sig (Elt F) := fun c => StableHlo.after hostOps2 (B4 m ρ c)
abbrev U5 : (c : Dev nD) → (b : Ref sig .tc) → Buf (Elt F) ((c : Thread nD τ).loc b) := fun c b => B5 m ρ c b
theorem B5_keep (r : Ref sig .tc) (h : r ∉ hostOps2_W) : B5 m ρ c (Proc.devRef .tc r) = B4 m ρ c (Proc.devRef .tc r) :=
  StableHlo.after_of_writes_sub hostOps2 _ hostOps2_writes h
def B6 : Valuation τ sig (Elt F) :=
  Pipeline.withArrays spec2 c (B5 m ρ c) fun w => (dat2 (U5 m ρ) c).arrAt w cfg2.N
theorem B6_arr (w : Fin cfg2.W) :
    B6 m ρ c (Proc.devRef .tc (Pipeline.arrRef spec2 w)) = (dat2 (U5 m ρ) c).arrAt w cfg2.N :=
  Pipeline.withArrays_arr spec2 launch2.win.arr_inj c _ _ w
theorem B6_of_ne (b : Ref sig .tc) (hb : ∀ w, Pipeline.arrRef spec2 w ≠ b) :
    B6 m ρ c (Proc.devRef .tc b) = B5 m ρ c (Proc.devRef .tc b) :=
  Pipeline.withArrays_of_ne spec2 c _ _ b hb
abbrev U6 : (c : Dev nD) → (b : Ref sig .tc) → Buf (Elt F) ((c : Thread nD τ).loc b) := fun c b => B6 m ρ c b
theorem hF2 (w : Fin cfg2.W) : (dat2 (U5 m ρ) c).arrAt w cfg2.N = U6 m ρ c (Pipeline.arrRef spec2 w) :=
  (B6_arr m ρ c w).symm
theorem hrest2 : ∀ b, b ∉ Finset.univ.image (Pipeline.arrRef spec2) → U6 m ρ c b = U5 m ρ c b :=
  withArrays_rest spec2 c _ _

abbrev B7 : Dev nD → Valuation τ sig (Elt F) := fun c => StableHlo.after hostOps3 (B6 m ρ c)
abbrev U7 : (c : Dev nD) → (b : Ref sig .tc) → Buf (Elt F) ((c : Thread nD τ).loc b) := fun c b => B7 m ρ c b
theorem B7_keep (r : Ref sig .tc) (h : r ∉ hostOps3_W) : B7 m ρ c (Proc.devRef .tc r) = B6 m ρ c (Proc.devRef .tc r) :=
  StableHlo.after_of_writes_sub hostOps3 _ hostOps3_writes h
def B8 : Valuation τ sig (Elt F) :=
  Pipeline.withArrays spec3 c (B7 m ρ c) fun w => (dat3 (U7 m ρ) c).arrAt w cfg3.N
theorem B8_arr (w : Fin cfg3.W) :
    B8 m ρ c (Proc.devRef .tc (Pipeline.arrRef spec3 w)) = (dat3 (U7 m ρ) c).arrAt w cfg3.N :=
  Pipeline.withArrays_arr spec3 launch3.win.arr_inj c _ _ w
theorem B8_of_ne (b : Ref sig .tc) (hb : ∀ w, Pipeline.arrRef spec3 w ≠ b) :
    B8 m ρ c (Proc.devRef .tc b) = B7 m ρ c (Proc.devRef .tc b) :=
  Pipeline.withArrays_of_ne spec3 c _ _ b hb
abbrev U8 : (c : Dev nD) → (b : Ref sig .tc) → Buf (Elt F) ((c : Thread nD τ).loc b) := fun c b => B8 m ρ c b
theorem hF3 (w : Fin cfg3.W) : (dat3 (U7 m ρ) c).arrAt w cfg3.N = U8 m ρ c (Pipeline.arrRef spec3 w) :=
  (B8_arr m ρ c w).symm
theorem hrest3 : ∀ b, b ∉ Finset.univ.image (Pipeline.arrRef spec3) → U8 m ρ c b = U7 m ρ c b :=
  withArrays_rest spec3 c _ _

abbrev B9 : Dev nD → Valuation τ sig (Elt F) := fun c => StableHlo.after hostOps4 (B8 m ρ c)
abbrev U9 : (c : Dev nD) → (b : Ref sig .tc) → Buf (Elt F) ((c : Thread nD τ).loc b) := fun c b => B9 m ρ c b
theorem B9_keep (r : Ref sig .tc) (h : r ∉ hostOps4_W) : B9 m ρ c (Proc.devRef .tc r) = B8 m ρ c (Proc.devRef .tc r) :=
  StableHlo.after_of_writes_sub hostOps4 _ hostOps4_writes h
def B10 : Valuation τ sig (Elt F) :=
  Pipeline.withArrays spec4 c (B9 m ρ c) fun w => (dat4 (U9 m ρ) c).arrAt w cfg4.N
theorem B10_arr (w : Fin cfg4.W) :
    B10 m ρ c (Proc.devRef .tc (Pipeline.arrRef spec4 w)) = (dat4 (U9 m ρ) c).arrAt w cfg4.N :=
  Pipeline.withArrays_arr spec4 launch4.win.arr_inj c _ _ w
theorem B10_of_ne (b : Ref sig .tc) (hb : ∀ w, Pipeline.arrRef spec4 w ≠ b) :
    B10 m ρ c (Proc.devRef .tc b) = B9 m ρ c (Proc.devRef .tc b) :=
  Pipeline.withArrays_of_ne spec4 c _ _ b hb
abbrev U10 : (c : Dev nD) → (b : Ref sig .tc) → Buf (Elt F) ((c : Thread nD τ).loc b) := fun c b => B10 m ρ c b
theorem hF4 (w : Fin cfg4.W) : (dat4 (U9 m ρ) c).arrAt w cfg4.N = U10 m ρ c (Pipeline.arrRef spec4 w) :=
  (B10_arr m ρ c w).symm
theorem hrest4 : ∀ b, b ∉ Finset.univ.image (Pipeline.arrRef spec4) → U10 m ρ c b = U9 m ρ c b :=
  withArrays_rest spec4 c _ _

abbrev B11 : Dev nD → Valuation τ sig (Elt F) := fun c => StableHlo.after hostOps5 (B10 m ρ c)
abbrev U11 : (c : Dev nD) → (b : Ref sig .tc) → Buf (Elt F) ((c : Thread nD τ).loc b) := fun c b => B11 m ρ c b
theorem B11_keep (r : Ref sig .tc) (h : r ∉ hostOps5_W) : B11 m ρ c (Proc.devRef .tc r) = B10 m ρ c (Proc.devRef .tc r) :=
  StableHlo.after_of_writes_sub hostOps5 _ hostOps5_writes h
def B12 : Valuation τ sig (Elt F) :=
  Pipeline.withArrays spec5 c (B11 m ρ c) fun w => (dat5 (U11 m ρ) c).arrAt w cfg5.N
theorem B12_arr (w : Fin cfg5.W) :
    B12 m ρ c (Proc.devRef .tc (Pipeline.arrRef spec5 w)) = (dat5 (U11 m ρ) c).arrAt w cfg5.N :=
  Pipeline.withArrays_arr spec5 launch5.win.arr_inj c _ _ w
theorem B12_of_ne (b : Ref sig .tc) (hb : ∀ w, Pipeline.arrRef spec5 w ≠ b) :
    B12 m ρ c (Proc.devRef .tc b) = B11 m ρ c (Proc.devRef .tc b) :=
  Pipeline.withArrays_of_ne spec5 c _ _ b hb
abbrev U12 : (c : Dev nD) → (b : Ref sig .tc) → Buf (Elt F) ((c : Thread nD τ).loc b) := fun c b => B12 m ρ c b
theorem hF5 (w : Fin cfg5.W) : (dat5 (U11 m ρ) c).arrAt w cfg5.N = U12 m ρ c (Pipeline.arrRef spec5 w) :=
  (B12_arr m ρ c w).symm
theorem hrest5 : ∀ b, b ∉ Finset.univ.image (Pipeline.arrRef spec5) → U12 m ρ c b = U11 m ρ c b :=
  withArrays_rest spec5 c _ _

abbrev B13 : Dev nD → Valuation τ sig (Elt F) := fun c => StableHlo.after hostOps6 (B12 m ρ c)
abbrev U13 : (c : Dev nD) → (b : Ref sig .tc) → Buf (Elt F) ((c : Thread nD τ).loc b) := fun c b => B13 m ρ c b
theorem B13_keep (r : Ref sig .tc) (h : r ∉ hostOps6_W) : B13 m ρ c (Proc.devRef .tc r) = B12 m ρ c (Proc.devRef .tc r) :=
  StableHlo.after_of_writes_sub hostOps6 _ hostOps6_writes h
def B14 : Valuation τ sig (Elt F) :=
  Pipeline.withArrays spec6 c (B13 m ρ c) fun w => (dat6 (U13 m ρ) c).arrAt w cfg6.N
theorem B14_arr (w : Fin cfg6.W) :
    B14 m ρ c (Proc.devRef .tc (Pipeline.arrRef spec6 w)) = (dat6 (U13 m ρ) c).arrAt w cfg6.N :=
  Pipeline.withArrays_arr spec6 launch6.win.arr_inj c _ _ w
theorem B14_of_ne (b : Ref sig .tc) (hb : ∀ w, Pipeline.arrRef spec6 w ≠ b) :
    B14 m ρ c (Proc.devRef .tc b) = B13 m ρ c (Proc.devRef .tc b) :=
  Pipeline.withArrays_of_ne spec6 c _ _ b hb
abbrev U14 : (c : Dev nD) → (b : Ref sig .tc) → Buf (Elt F) ((c : Thread nD τ).loc b) := fun c b => B14 m ρ c b
theorem hF6 (w : Fin cfg6.W) : (dat6 (U13 m ρ) c).arrAt w cfg6.N = U14 m ρ c (Pipeline.arrRef spec6 w) :=
  (B14_arr m ρ c w).symm
theorem hrest6 : ∀ b, b ∉ Finset.univ.image (Pipeline.arrRef spec6) → U14 m ρ c b = U13 m ρ c b :=
  withArrays_rest spec6 c _ _

abbrev B15 : Dev nD → Valuation τ sig (Elt F) := fun c => StableHlo.after hostOps7 (B14 m ρ c)
abbrev U15 : (c : Dev nD) → (b : Ref sig .tc) → Buf (Elt F) ((c : Thread nD τ).loc b) := fun c b => B15 m ρ c b
theorem B15_keep (r : Ref sig .tc) (h : r ∉ hostOps7_W) : B15 m ρ c (Proc.devRef .tc r) = B14 m ρ c (Proc.devRef .tc r) :=
  StableHlo.after_of_writes_sub hostOps7 _ hostOps7_writes h
def B16 : Valuation τ sig (Elt F) :=
  Pipeline.withArrays spec7 c (B15 m ρ c) fun w => (dat7 (U15 m ρ) c).arrAt w cfg7.N
theorem B16_arr (w : Fin cfg7.W) :
    B16 m ρ c (Proc.devRef .tc (Pipeline.arrRef spec7 w)) = (dat7 (U15 m ρ) c).arrAt w cfg7.N :=
  Pipeline.withArrays_arr spec7 launch7.win.arr_inj c _ _ w
theorem B16_of_ne (b : Ref sig .tc) (hb : ∀ w, Pipeline.arrRef spec7 w ≠ b) :
    B16 m ρ c (Proc.devRef .tc b) = B15 m ρ c (Proc.devRef .tc b) :=
  Pipeline.withArrays_of_ne spec7 c _ _ b hb
abbrev U16 : (c : Dev nD) → (b : Ref sig .tc) → Buf (Elt F) ((c : Thread nD τ).loc b) := fun c b => B16 m ρ c b
theorem hF7 (w : Fin cfg7.W) : (dat7 (U15 m ρ) c).arrAt w cfg7.N = U16 m ρ c (Pipeline.arrRef spec7 w) :=
  (B16_arr m ρ c w).symm
theorem hrest7 : ∀ b, b ∉ Finset.univ.image (Pipeline.arrRef spec7) → U16 m ρ c b = U15 m ρ c b :=
  withArrays_rest spec7 c _ _

abbrev B17 : Dev nD → Valuation τ sig (Elt F) := fun c => StableHlo.after hostOps8 (B16 m ρ c)
abbrev U17 : (c : Dev nD) → (b : Ref sig .tc) → Buf (Elt F) ((c : Thread nD τ).loc b) := fun c b => B17 m ρ c b
theorem B17_keep (r : Ref sig .tc) (h : r ∉ hostOps8_W) : B17 m ρ c (Proc.devRef .tc r) = B16 m ρ c (Proc.devRef .tc r) :=
  StableHlo.after_of_writes_sub hostOps8 _ hostOps8_writes h
def B18 : Valuation τ sig (Elt F) :=
  Pipeline.withArrays spec8 c (B17 m ρ c) fun w => (dat8 (U17 m ρ) c).arrAt w cfg8.N
theorem B18_arr (w : Fin cfg8.W) :
    B18 m ρ c (Proc.devRef .tc (Pipeline.arrRef spec8 w)) = (dat8 (U17 m ρ) c).arrAt w cfg8.N :=
  Pipeline.withArrays_arr spec8 launch8.win.arr_inj c _ _ w
theorem B18_of_ne (b : Ref sig .tc) (hb : ∀ w, Pipeline.arrRef spec8 w ≠ b) :
    B18 m ρ c (Proc.devRef .tc b) = B17 m ρ c (Proc.devRef .tc b) :=
  Pipeline.withArrays_of_ne spec8 c _ _ b hb
abbrev U18 : (c : Dev nD) → (b : Ref sig .tc) → Buf (Elt F) ((c : Thread nD τ).loc b) := fun c b => B18 m ρ c b
theorem hF8 (w : Fin cfg8.W) : (dat8 (U17 m ρ) c).arrAt w cfg8.N = U18 m ρ c (Pipeline.arrRef spec8 w) :=
  (B18_arr m ρ c w).symm
theorem hrest8 : ∀ b, b ∉ Finset.univ.image (Pipeline.arrRef spec8) → U18 m ρ c b = U17 m ρ c b :=
  withArrays_rest spec8 c _ _

abbrev B19 : Dev nD → Valuation τ sig (Elt F) := fun c => StableHlo.after hostOps9 (B18 m ρ c)
abbrev U19 : (c : Dev nD) → (b : Ref sig .tc) → Buf (Elt F) ((c : Thread nD τ).loc b) := fun c b => B19 m ρ c b
theorem B19_keep (r : Ref sig .tc) (h : r ∉ hostOps9_W) : B19 m ρ c (Proc.devRef .tc r) = B18 m ρ c (Proc.devRef .tc r) :=
  StableHlo.after_of_writes_sub hostOps9 _ hostOps9_writes h
def B20 : Valuation τ sig (Elt F) :=
  Pipeline.withArrays spec9 c (B19 m ρ c) fun w => (dat9 (U19 m ρ) c).arrAt w cfg9.N
theorem B20_arr (w : Fin cfg9.W) :
    B20 m ρ c (Proc.devRef .tc (Pipeline.arrRef spec9 w)) = (dat9 (U19 m ρ) c).arrAt w cfg9.N :=
  Pipeline.withArrays_arr spec9 launch9.win.arr_inj c _ _ w
theorem B20_of_ne (b : Ref sig .tc) (hb : ∀ w, Pipeline.arrRef spec9 w ≠ b) :
    B20 m ρ c (Proc.devRef .tc b) = B19 m ρ c (Proc.devRef .tc b) :=
  Pipeline.withArrays_of_ne spec9 c _ _ b hb
abbrev U20 : (c : Dev nD) → (b : Ref sig .tc) → Buf (Elt F) ((c : Thread nD τ).loc b) := fun c b => B20 m ρ c b
theorem hF9 (w : Fin cfg9.W) : (dat9 (U19 m ρ) c).arrAt w cfg9.N = U20 m ρ c (Pipeline.arrRef spec9 w) :=
  (B20_arr m ρ c w).symm
theorem hrest9 : ∀ b, b ∉ Finset.univ.image (Pipeline.arrRef spec9) → U20 m ρ c b = U19 m ρ c b :=
  withArrays_rest spec9 c _ _

abbrev B21 : Dev nD → Valuation τ sig (Elt F) := fun c => StableHlo.after hostOps10 (B20 m ρ c)
abbrev U21 : (c : Dev nD) → (b : Ref sig .tc) → Buf (Elt F) ((c : Thread nD τ).loc b) := fun c b => B21 m ρ c b
theorem B21_keep (r : Ref sig .tc) (h : r ∉ hostOps10_W) : B21 m ρ c (Proc.devRef .tc r) = B20 m ρ c (Proc.devRef .tc r) :=
  StableHlo.after_of_writes_sub hostOps10 _ hostOps10_writes h
def B22 : Valuation τ sig (Elt F) :=
  Pipeline.withArrays spec10 c (B21 m ρ c) fun w => (dat10 (U21 m ρ) c).arrAt w cfg10.N
theorem B22_arr (w : Fin cfg10.W) :
    B22 m ρ c (Proc.devRef .tc (Pipeline.arrRef spec10 w)) = (dat10 (U21 m ρ) c).arrAt w cfg10.N :=
  Pipeline.withArrays_arr spec10 launch10.win.arr_inj c _ _ w
theorem B22_of_ne (b : Ref sig .tc) (hb : ∀ w, Pipeline.arrRef spec10 w ≠ b) :
    B22 m ρ c (Proc.devRef .tc b) = B21 m ρ c (Proc.devRef .tc b) :=
  Pipeline.withArrays_of_ne spec10 c _ _ b hb
abbrev U22 : (c : Dev nD) → (b : Ref sig .tc) → Buf (Elt F) ((c : Thread nD τ).loc b) := fun c b => B22 m ρ c b
theorem hF10 (w : Fin cfg10.W) : (dat10 (U21 m ρ) c).arrAt w cfg10.N = U22 m ρ c (Pipeline.arrRef spec10 w) :=
  (B22_arr m ρ c w).symm
theorem hrest10 : ∀ b, b ∉ Finset.univ.image (Pipeline.arrRef spec10) → U22 m ρ c b = U21 m ρ c b :=
  withArrays_rest spec10 c _ _

-- 22 steps back to the launch: a host stretch by `B_keep`, a region by `B_of_ne` or `withArrays_in`
theorem B22_arg (r : Ref sig .tc)
    (h : (r ∉ hostOps0_W ∧ r ∉ hostOps1_W ∧ r ∉ hostOps2_W ∧ r ∉ hostOps3_W ∧ r ∉ hostOps4_W ∧ r ∉ hostOps5_W ∧ r ∉ hostOps6_W ∧ r ∉ hostOps7_W ∧ r ∉ hostOps8_W ∧ r ∉ hostOps9_W ∧ r ∉ hostOps10_W) ∧
      ((∀ w, Pipeline.arrRef spec1 w ≠ r) ∧
      (∀ w, Pipeline.arrRef spec2 w ≠ r) ∧
      (∀ w, Pipeline.arrRef spec3 w ≠ r) ∧
      (∀ w, Pipeline.arrRef spec4 w ≠ r) ∧
      (∀ w, Pipeline.arrRef spec5 w ≠ r) ∧
      (∀ w, Pipeline.arrRef spec6 w ≠ r) ∧
      (∀ w, Pipeline.arrRef spec7 w ≠ r) ∧
      (∀ w, Pipeline.arrRef spec8 w ≠ r) ∧
      (∀ w, Pipeline.arrRef spec9 w ≠ r)) ∧
      (∀ w, Pipeline.arrRef spec0 w = r → (cfg0.win w).isOut = false) ∧
      ∀ w, Pipeline.arrRef spec10 w = r → (cfg10.win w).isOut = false) :
    B22 m ρ c (Proc.devRef .tc r) = m ((c : Thread nD τ).loc r) := by
  obtain ⟨⟨k0, k1, k2, k3, k4, k5, k6, k7, k8, k9, k10⟩, ⟨n1, n2, n3, n4, n5, n6, n7, n8, n9⟩, i0, i10⟩ := h
  exact (withArrays_in launch10.win.arr_inj c _ _ (A_eq10 _ c) r i10).trans <|
    (B21_keep m ρ c r k10).trans <|
    (B20_of_ne m ρ c r n9).trans <|
    (B19_keep m ρ c r k9).trans <|
    (B18_of_ne m ρ c r n8).trans <|
    (B17_keep m ρ c r k8).trans <|
    (B16_of_ne m ρ c r n7).trans <|
    (B15_keep m ρ c r k7).trans <|
    (B14_of_ne m ρ c r n6).trans <|
    (B13_keep m ρ c r k6).trans <|
    (B12_of_ne m ρ c r n5).trans <|
    (B11_keep m ρ c r k5).trans <|
    (B10_of_ne m ρ c r n4).trans <|
    (B9_keep m ρ c r k4).trans <|
    (B8_of_ne m ρ c r n3).trans <|
    (B7_keep m ρ c r k3).trans <|
    (B6_of_ne m ρ c r n2).trans <|
    (B5_keep m ρ c r k2).trans <|
    (B4_of_ne m ρ c r n1).trans <|
    (B3_keep m ρ c r k1).trans <|
    (withArrays_in launch0.win.arr_inj c _ _ (A_eq0 _ c) r i0).trans <|
    B1_keep m ρ c r k0
end

abbrev admN : (p : Fin 11) → (pcfgs (F := F) p).Adm := fun p => (cfgs p).toPCfg_adm
def pdats : (p : Fin 11) → (c : Dev nD) → Dat τ (Elt F) Unit ℕ (UR sig nD τ) ℕ (Pipeline.pin (pcfgs (F := F)) admN p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
  | ⟨6, _⟩ => fun c => dat6 (U13 m ρ) c
  | ⟨7, _⟩ => fun c => dat7 (U15 m ρ) c
  | ⟨8, _⟩ => fun c => dat8 (U17 m ρ) c
  | ⟨9, _⟩ => fun c => dat9 (U19 m ρ) c
  | ⟨10, _⟩ => fun c => dat10 (U21 m ρ) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B22 m ρ c) ∗ ∃ r, prngReg c r)

end Cert.Kernel.Gen

end
-- ==== Proof.KBRegs.lean ====
import proofs.«421428_j45019847197002_2_alg».proof.Proof.KBVals

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

-- Entry splits the region's arrays off the buffers held at B; exit joins them back at B'.
def regOf (p : Fin 11) (lf : Pipeline.LaunchFacts (nD := nD) (τ := τ) cfgs p) (B B' : Dev nD → Valuation τ sig (Elt F))
    {post : Dev nD → sProp 𝕄}
    (hbody : ∀ c, BodyObligation (pdats m ρ p c) (defs₀ (F := F)) Variants.none () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hF : ∀ c w, (pdats m ρ p c).arrAt w (cfgs p).N = B' c (Pipeline.arrRef (cfgs p).spec w))
    (hrest : ∀ c, ∀ b, b ∉ Finset.univ.image (Pipeline.arrRef (cfgs p).spec) → B' c b = B c b)
    (hpost : ∀ c : Dev nD, iprop(StableHlo.held (c : Thread nD τ) (Pipeline.ucRefs τ sig) (B' c) ∗ R c) ⊢ post c)
    (hq : ∀ c w, (pdats m ρ p c).q w = fullShare := by exact fun _ _ => rfl)
    (hA : ∀ c w, (pdats m ρ p c).A w = B c (Pipeline.arrRef (cfgs p).spec w) := by exact fun _ _ => rfl)
    (h0 : ∀ c t, (pdats m ρ p c).owed t = 0 := by exact fun _ _ => rfl)
    (hrec : ∀ c, (pdats m ρ p c).recorded 0 = Set.univ := by exact fun _ => rfl) :
    Pipeline.RegionSeg (pcfgs (F := F)) admN (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (B c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => B c b
  hentry c := by
    rw [Pipeline.ownSems0_none]
    have hsplit := Pipeline.arrays_of_unscopedBufs (p := p) (pcfgs (F := F)) admN (pdats m ρ) lf.win lf.arr_whole c
      ((pdats m ρ p c).share_full (hq c)) (fun b => B c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun _ _ => Or.inl (hrec c ▸ trivial)
      iexact HO
    isplitl [Hp]; · iexact Hp
    iexact Hrest
  hin c := by
    iintro ⟨Hp, -, Hr⟩
    iapply (hin c)
    unfold Pipeline.ΦA
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admN (Ix := Unit) (Name := ℕ) (U := UR sig nD τ) (Lvl := ℕ)
      lf.win lf.arr_whole c (pdats m ρ) ((pdats m ρ p c).share_full (hq c))
      (fun b => B c b) (fun b => B' c b) ((pdats m ρ p c).arrAt · (cfgs p).N) (hF c) (hrest c)
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

def reg0 : Pipeline.RegionSeg (pcfgs (F := F)) admN (pdats m ρ) () defs₀ 𝒱₀ L lv 0 :=
  regOf m ρ 0 launch0 (B1 m ρ) (B2 m ρ) (body_obligation0 (U1 m ρ)) (hin0 (U1 m ρ)) (hout0 (U1 m ρ))
    (hF0 m ρ) (hrest0 m ρ) fun _ => .rfl

def reg1 : Pipeline.RegionSeg (pcfgs (F := F)) admN (pdats m ρ) () defs₀ 𝒱₀ L lv 1 :=
  regOf m ρ 1 launch1 (B3 m ρ) (B4 m ρ) (body_obligation1 (U3 m ρ)) (hin1 (U3 m ρ)) (hout1 (U3 m ρ))
    (hF1 m ρ) (hrest1 m ρ) fun _ => .rfl

def reg2 : Pipeline.RegionSeg (pcfgs (F := F)) admN (pdats m ρ) () defs₀ 𝒱₀ L lv 2 :=
  regOf m ρ 2 launch2 (B5 m ρ) (B6 m ρ) (body_obligation2 (U5 m ρ)) (hin2 (U5 m ρ)) (hout2 (U5 m ρ))
    (hF2 m ρ) (hrest2 m ρ) fun _ => .rfl

def reg3 : Pipeline.RegionSeg (pcfgs (F := F)) admN (pdats m ρ) () defs₀ 𝒱₀ L lv 3 :=
  regOf m ρ 3 launch3 (B7 m ρ) (B8 m ρ) (body_obligation3 (U7 m ρ)) (hin3 (U7 m ρ)) (hout3 (U7 m ρ))
    (hF3 m ρ) (hrest3 m ρ) fun _ => .rfl

def reg4 : Pipeline.RegionSeg (pcfgs (F := F)) admN (pdats m ρ) () defs₀ 𝒱₀ L lv 4 :=
  regOf m ρ 4 launch4 (B9 m ρ) (B10 m ρ) (body_obligation4 (U9 m ρ)) (hin4 (U9 m ρ)) (hout4 (U9 m ρ))
    (hF4 m ρ) (hrest4 m ρ) fun _ => .rfl

def reg5 : Pipeline.RegionSeg (pcfgs (F := F)) admN (pdats m ρ) () defs₀ 𝒱₀ L lv 5 :=
  regOf m ρ 5 launch5 (B11 m ρ) (B12 m ρ) (body_obligation5 (U11 m ρ)) (hin5 (U11 m ρ)) (hout5 (U11 m ρ))
    (hF5 m ρ) (hrest5 m ρ) fun _ => .rfl

def reg6 : Pipeline.RegionSeg (pcfgs (F := F)) admN (pdats m ρ) () defs₀ 𝒱₀ L lv 6 :=
  regOf m ρ 6 launch6 (B13 m ρ) (B14 m ρ) (body_obligation6 (U13 m ρ)) (hin6 (U13 m ρ)) (hout6 (U13 m ρ))
    (hF6 m ρ) (hrest6 m ρ) fun _ => .rfl

def reg7 : Pipeline.RegionSeg (pcfgs (F := F)) admN (pdats m ρ) () defs₀ 𝒱₀ L lv 7 :=
  regOf m ρ 7 launch7 (B15 m ρ) (B16 m ρ) (body_obligation7 (U15 m ρ)) (hin7 (U15 m ρ)) (hout7 (U15 m ρ))
    (hF7 m ρ) (hrest7 m ρ) fun _ => .rfl

def reg8 : Pipeline.RegionSeg (pcfgs (F := F)) admN (pdats m ρ) () defs₀ 𝒱₀ L lv 8 :=
  regOf m ρ 8 launch8 (B17 m ρ) (B18 m ρ) (body_obligation8 (U17 m ρ)) (hin8 (U17 m ρ)) (hout8 (U17 m ρ))
    (hF8 m ρ) (hrest8 m ρ) fun _ => .rfl

def reg9 : Pipeline.RegionSeg (pcfgs (F := F)) admN (pdats m ρ) () defs₀ 𝒱₀ L lv 9 :=
  regOf m ρ 9 launch9 (B19 m ρ) (B20 m ρ) (body_obligation9 (U19 m ρ)) (hin9 (U19 m ρ)) (hout9 (U19 m ρ))
    (hF9 m ρ) (hrest9 m ρ) fun _ => .rfl

def reg10 : Pipeline.RegionSeg (pcfgs (F := F)) admN (pdats m ρ) () defs₀ 𝒱₀ L lv 10 :=
  regOf m ρ 10 launch10 (B21 m ρ) (B22 m ρ) (body_obligation10 (U21 m ρ)) (hin10 (U21 m ρ)) (hout10 (U21 m ρ))
    (hF10 m ρ) (hrest10 m ρ) fun _ => sep_assoc'

end Cert.Kernel.Gen

end
-- ==== Proof.KBRun.lean ====
import proofs.«421428_j45019847197002_2_alg».proof.Proof.KBRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsN : List (Pipeline.Seg (pcfgs (F := F)) admN (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .region (reg7 m ρ),
    .host (hseg hostOps8 hostOps8_sub hostOps8_fresh (B16 m ρ)),
    .region (reg8 m ρ),
    .host (hseg hostOps9 hostOps9_sub hostOps9_fresh (B18 m ρ)),
    .region (reg9 m ρ),
    .host (hseg hostOps10 hostOps10_sub hostOps10_fresh (B20 m ρ)),
    .region (reg10 m ρ) ]
set_option maxRecDepth 65536 in

theorem main_run (c : Dev nD) : main (F := F) c = Pipeline.Seg.run (segsN m ρ) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = B22 m ρ c b) :=
  Pipeline.θ_run_regions_kit (pcfgs (F := F)) admN (pdats m ρ) () cellOf_inj emb₁ defs₀ 𝒱₀ L lv m ρ main (segsN m ρ)
    (fun c Q => by rw [main_run m ρ c])
    (by simp only [segsN, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B22 m ρ c b)
    (hfin := fun c s' => by
      iintro ⟨⟨Hh, -⟩, HSI⟩
      unfold StableHlo.held
      imodintro
      iapply (pointsTo_read_all (Pipeline.ucRefs τ sig) (fun b => (((c : Thread nD τ)).1, b)) (B22 m ρ c) s')
      isplitl [Hh] <;> iassumption)
    (hQ := fun s h c => h c)

end Cert.Kernel.Gen

end
-- ==== Proof.KIMlp0.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

theorem hz0 : (![0, 0] : Fin 2 → Nat) = fun _ => 0 := funext fun a => by fin_cases a <;> rfl

section Kernel0
variable (c : Dev nD) (E : Set ℕ) (i : grid0.Coords) (arg1 : Memref sig .tc .vmem S10000x78 .f32) (harg1 : arg1.IsWhole) (arg2 : Memref sig .tc .vmem S78x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole)

set_option maxHeartbeats 4000000 in
theorem sound_kernel0_A (hc0 : cond0_0 i) (hc1 : ¬cond0_1 i) (x0 : Vec F S10000x78 .f32) (x1 : Vec F S78x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg9 fullShare (k0_pay5 x0 x1 x2 x3 x4 (k0_pay2 (F := F)))
            ∗ owns (c : Thread nD τ) arg10 fullShare (k0_pay1 (k0_pay4 x0 x1 x2 x3 x4) (k0_pay3 (F := F)))) -∗ K ⟨⟩))
      ⊢ wp frame (wpE (defs₀ (F := F)) Variants.none c none) E (cc0_mlp_bn_stats_kernel i arg1 harg1 arg2 harg2 arg3 harg3 arg4 harg4 arg5 harg5 arg6 harg6 arg7 harg7 arg8 harg8 arg9 harg9 arg10 harg10) K := by
  simp only [cc0_mlp_bn_stats_kernel_eq_skeleton]; unfold cc0_mlp_bn_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf0; subst hf1; subst hf2; subst hf3; subst hf4
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_cons.mpr (Or.inl rfl), View.mem_set_unit_zero hz0 inb_S1x32_S1x32_0_0 y⟩), View.canon_cons_unit_zero (S := S1x32) hz0] | rw [View.read_writes_eq_canon _ _ _ (fun y => ⟨_, List.mem_singleton_self _, View.mem_set_unit_zero hz0 inb_S10000x32_S10000x32_0_0 y⟩), View.canon_unit_zero hz0]); simp only [View.readAt_eq_ld, View.ld_unit_zero (S := S10000x32) hz0, View.ld_unit_zero (S := S10000x78) hz0, View.ld_unit_zero (S := S78x32) hz0, View.ld_unit_zero (S := S32x32) hz0, View.ld_unit_zero (S := S1x32) hz0, View.readCov_unit_zero (S := S1x32) _ hz0])
  all_goals rfl

set_option maxHeartbeats 4000000 in
theorem sound_kernel0_B (hc0 : ¬cond0_0 i) (hc1 : ¬cond0_1 i) (x0 : Vec F S10000x78 .f32) (x1 : Vec F S78x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg9 fullShare (k0_pay5 x0 x1 x2 x3 x4 s0)
            ∗ owns (c : Thread nD τ) arg10 fullShare (k0_pay1 (k0_pay4 x0 x1 x2 x3 x4) s1)) -∗ K ⟨⟩))
      ⊢ wp frame (wpE (defs₀ (F := F)) Variants.none c none) E (cc0_mlp_bn_stats_kernel i arg1 harg1 arg2 harg2 arg3 harg3 arg4 harg4 arg5 harg5 arg6 harg6 arg7 harg7 arg8 harg8 arg9 harg9 arg10 harg10) K := by
  simp only [cc0_mlp_bn_stats_kernel_eq_skeleton]; unfold cc0_mlp_bn_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_singleton_self _, View.mem_set_unit_zero hz0 inb_S1x32_S1x32_0_0 y⟩), View.canon_unit_zero hz0] | rw [View.read_writes_eq_canon _ _ _ (fun y => ⟨_, List.mem_singleton_self _, View.mem_set_unit_zero hz0 inb_S10000x32_S10000x32_0_0 y⟩), View.canon_unit_zero hz0]); simp only [View.readAt_eq_ld, View.ld_unit_zero (S := S10000x32) hz0, View.ld_unit_zero (S := S10000x78) hz0, View.ld_unit_zero (S := S78x32) hz0, View.ld_unit_zero (S := S32x32) hz0, View.ld_unit_zero (S := S1x32) hz0, View.readCov_unit_zero (S := S1x32) _ hz0])
  all_goals rfl

set_option maxHeartbeats 4000000 in
theorem sound_kernel0_C (hc0 : ¬cond0_0 i) (hc1 : cond0_1 i) (x0 : Vec F S10000x78 .f32) (x1 : Vec F S78x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 x0 x1 x2 x3 x4)
            ∗ owns (c : Thread nD τ) arg7 fullShare (k0_pay5 x0 x1 x2 x3 x4 s0)
            ∗ owns (c : Thread nD τ) arg8 fullShare (k0_pay1 (k0_pay4 x0 x1 x2 x3 x4) s1)
            ∗ owns (c : Thread nD τ) arg9 fullShare (k0_pay5 x0 x1 x2 x3 x4 s0)
            ∗ owns (c : Thread nD τ) arg10 fullShare (k0_pay1 (k0_pay4 x0 x1 x2 x3 x4) s1)) -∗ K ⟨⟩))
      ⊢ wp frame (wpE (defs₀ (F := F)) Variants.none c none) E (cc0_mlp_bn_stats_kernel i arg1 harg1 arg2 harg2 arg3 harg3 arg4 harg4 arg5 harg5 arg6 harg6 arg7 harg7 arg8 harg8 arg9 harg9 arg10 harg10) K := by
  simp only [cc0_mlp_bn_stats_kernel_eq_skeleton]; unfold cc0_mlp_bn_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap
  all_goals (iexists _; isplitr; swap; iassumption; ipureintro)
  iterate 5 (sl_unfold_words; (first | rw [View.read_writes_eq_canon _ _ _ (fun y => ⟨_, List.mem_singleton_self _, View.mem_set_unit_zero hz0 inb_S1x32_S1x32_0_0 y⟩), View.canon_unit_zero hz0] | rw [View.read_writes_eq_canon _ _ _ (fun y => ⟨_, List.mem_singleton_self _, View.mem_set_unit_zero hz0 inb_S10000x32_S10000x32_0_0 y⟩), View.canon_unit_zero hz0]); simp only [View.readAt_eq_ld, View.ld_unit_zero (S := S10000x32) hz0, View.ld_unit_zero (S := S10000x78) hz0, View.ld_unit_zero (S := S78x32) hz0, View.ld_unit_zero (S := S32x32) hz0, View.ld_unit_zero (S := S1x32) hz0, View.readCov_unit_zero (S := S1x32) _ hz0])
  all_goals rfl

end Kernel0

section Region0
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable def hblk0 (c : Dev nD) (t : Fin cfg0.N) : Vec F S10000x32 .f32 :=
  k0_pay4 (iblk0 V c 0 t) (iblk0 V c 1 t) (iblk0 V c 2 t) (iblk0 V c 3 t) (iblk0 V c 4 t)

noncomputable def accS0 (c : Dev nD) : (n : ℕ) → n < cfg0.N → Vec F S1x32 .f32
  | 0, h => k0_pay5 (iblk0 V c 0 ⟨0, h⟩) (iblk0 V c 1 ⟨0, h⟩) (iblk0 V c 2 ⟨0, h⟩) (iblk0 V c 3 ⟨0, h⟩) (iblk0 V c 4 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accS0 c n (Nat.lt_of_succ_lt h))

noncomputable def accQ0 (c : Dev nD) : (n : ℕ) → n < cfg0.N → Vec F S1x32 .f32
  | 0, h => k0_pay1 (hblk0 V c ⟨0, h⟩) (k0_pay3 (F := F))
  | n + 1, h => k0_pay1 (hblk0 V c ⟨n + 1, h⟩) (accQ0 c n (Nat.lt_of_succ_lt h))

theorem hblk0_eq (c : Dev nD) (t : Fin cfg0.N) : hblk0 V c t = k0_pay4 (iblk0 V c 0 t) (iblk0 V c 1 t) (iblk0 V c 2 t) (iblk0 V c 3 t) (iblk0 V c 4 t) := rfl
theorem accS0_first (c : Dev nD) (t : Fin cfg0.N) (h0 : t.val = 0) :
    accS0 V c t.val t.isLt = k0_pay5 (iblk0 V c 0 t) (iblk0 V c 1 t) (iblk0 V c 2 t) (iblk0 V c 3 t) (iblk0 V c 4 t) (k0_pay2 (F := F)) := by
  obtain ⟨_ | n, hn⟩ := t
  exacts [rfl, absurd h0 (Nat.succ_ne_zero n)]
theorem accQ0_first (c : Dev nD) (t : Fin cfg0.N) (h0 : t.val = 0) :
    accQ0 V c t.val t.isLt = k0_pay1 (hblk0 V c t) (k0_pay3 (F := F)) := by
  obtain ⟨_ | n, hn⟩ := t
  exacts [rfl, absurd h0 (Nat.succ_ne_zero n)]
theorem accS0_pos (c : Dev nD) (t : Fin cfg0.N) (h0 : t.val ≠ 0) :
    accS0 V c t.val t.isLt = k0_pay5 (iblk0 V c 0 t) (iblk0 V c 1 t) (iblk0 V c 2 t) (iblk0 V c 3 t) (iblk0 V c 4 t) (accS0 V c (t.val - 1) (Nat.lt_of_le_of_lt (Nat.sub_le _ _) t.isLt)) := by
  obtain ⟨_ | n, hn⟩ := t
  exacts [absurd rfl h0, rfl]
theorem accQ0_pos (c : Dev nD) (t : Fin cfg0.N) (h0 : t.val ≠ 0) :
    accQ0 V c t.val t.isLt = k0_pay1 (hblk0 V c t) (accQ0 V c (t.val - 1) (Nat.lt_of_le_of_lt (Nat.sub_le _ _) t.isLt)) := by
  obtain ⟨_ | n, hn⟩ := t
  exacts [absurd rfl h0, rfl]

abbrev scM0_0 : Memref sig .tc .vmem S1x32 .f32 := Memref.whole cc0_scratch0
abbrev scM0_1 : Memref sig .tc .vmem S1x32 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

noncomputable def PhiS0 (c : Dev nD) : (n : ℕ) → n ≤ cfg0.N → sProp 𝕄
  | 0, _ => Pipeline.ΦA spec0 c
  | n + 1, hn => iprop(iprop(iprop(owns (c : Thread nD τ) scM0_0 fullShare (accS0 V c n hn) ∗ owns (c : Thread nD τ) scM0_1 fullShare (accQ0 V c n hn)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accS0 V c n hn) ∗ owns (c : Thread nD τ) scM0_1 fullShare (accQ0 V c n hn)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (accS0 V c (n - 1) (by omega)) ∗ owns (c : Thread nD τ) scM0_1 fullShare (accQ0 V c (n - 1) (by omega))) ∗ rest0 (F := F) c) ∗ (∃ r, prngReg c r)) := by
  cases n
  exacts [absurd rfl hz, rfl]

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hblk0 V c t
    | ⟨6, _⟩ => accS0 V c t.val t.isLt
    | ⟨7, _⟩ => accQ0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_in (c : Dev nD) (t : Fin cfg0.N) :
    (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t := ⟨rfl, rfl, rfl, rfl, rfl⟩
theorem after0_5 (c : Dev nD) (t : Fin cfg0.N) : (dat0 V c).after 5 t = hblk0 V c t := by dsimp only [dat0]
theorem after0_6 (c : Dev nD) (t : Fin cfg0.N) : (dat0 V c).after 6 t = accS0 V c t.val t.isLt := by dsimp only [dat0]
theorem after0_7 (c : Dev nD) (t : Fin cfg0.N) : (dat0 V c).after 7 t = accQ0 V c t.val t.isLt := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) := by
  refine ⟨?_, ?_, ?_, ?_, ?_⟩ <;> intro d <;>
  exact ((dat0 V c).before_in_eq_fetched _ rfl (fun _ => rfl) (fun _ _ _ => rfl) (fun _ => rfl) t d).trans rfl

theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2, b3, b4⟩ := before0 V c t
  obtain ⟨a0, a1, a2, a3, a4⟩ := after0_in V c t
  simp only [b0, b1, b2, b3, b4]
  rw [show (dat0 V c).owesAt () t.succ = (dat0 V c).owesAt () t.castSucc from rfl]
  rw [show (dat0 V c).Φ t.succ = PhiS0 V c (t.val + 1) t.isLt from rfl, PhiS0_succ, PhiS0_castSucc V c t]
  have hN : t.val < 10 := lt_of_lt_of_eq t.isLt (show cfg0.N = 10 from N_0)
  rw [leaves0_live V c 0 t rfl, leaves0_live V c 1 t rfl, leaves0_live V c 2 t rfl, leaves0_live V c 3 t rfl, leaves0_live V c 4 t rfl, leaves0_live V c 5 t rfl,
    a0, a1, a2, a3, a4, after0_5]
  simp only [hblk0_eq]
  by_cases h9 : t.val = 9
  · have h0 : t.val ≠ 0 := by omega
    have c1 := (hcond0_1 t).mpr h9
    rw [leaves0_live V c 6 t (liveAt0_6 t c1), leaves0_live V c 7 t (liveAt0_7 t c1), after0_6, after0_7,
      accS0_pos V c t h0, accQ0_pos V c t h0, PhiS0_pos V c _ _ h0]
    simp only [hblk0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_C c Set.univ (grid0.coords t) _ (hstage0_0 _) _ (hstage0_1 _) _ (hstage0_2 _) _ (hstage0_3 _) _ (hstage0_4 _) _ (hstage0_5 _) _ (hstage0_6 _) _ (hstage0_7 _) _ (Memref.isWhole_whole _) _ (Memref.isWhole_whole _) (fun h => h0 ((hcond0_0 t).mp h)) c1 (iblk0 V c 0 t) (iblk0 V c 1 t) (iblk0 V c 2 t) (iblk0 V c 3 t) (iblk0 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond0_1 (grid0.coords t) := fun h => h9 ((hcond0_1 t).mp h)
    rw [Dat.leavesExact_idle (dat0 V c) 6 t (idleAt0_6 t c1) (noFlush0_6 t c1), Dat.leavesExact_idle (dat0 V c) 7 t (idleAt0_7 t c1) (noFlush0_7 t c1)]
    by_cases h0 : t.val = 0
    on_goal 1 => rw [accS0_first V c t h0, accQ0_first V c t h0, PhiS0_zero V c _ _ h0, PhiA0_eq]
    on_goal 2 => rw [accS0_pos V c t h0, accQ0_pos V c t h0, PhiS0_pos V c _ _ h0]
    all_goals (simp only [hblk0_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel0_A c Set.univ (grid0.coords t) _ (hstage0_0 _) _ (hstage0_1 _) _ (hstage0_2 _) _ (hstage0_3 _) _ (hstage0_4 _) _ (hstage0_5 _) _ (hstage0_6 _) _ (hstage0_7 _) _ (Memref.isWhole_whole _) _ (Memref.isWhole_whole _) ((hcond0_0 t).mpr h0) c1 (iblk0 V c 0 t) (iblk0 V c 1 t) (iblk0 V c 2 t) (iblk0 V c 3 t) (iblk0 V c 4 t) _)
    on_goal 2 => iapply (sound_kernel0_B c Set.univ (grid0.coords t) _ (hstage0_0 _) _ (hstage0_1 _) _ (hstage0_2 _) _ (hstage0_3 _) _ (hstage0_4 _) _ (hstage0_5 _) _ (hstage0_6 _) _ (hstage0_7 _) _ (Memref.isWhole_whole _) _ (Memref.isWhole_whole _) (fun h => h0 ((hcond0_0 t).mp h)) c1 (iblk0 V c 0 t) (iblk0 V c 1 t) (iblk0 V c 2 t) (iblk0 V c 3 t) (iblk0 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Region0

end Cert.KernelIdeal.Gen

end
-- ==== Proof.KIBn1.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0

def out1_5 (x0 : Vec F S10000x32 .f32) (x1 x2 x3 x4 : Vec F S1x32 .f32) : Vec F S10000x32 .f32 :=
  View.canon [⟨r1_0, k1_pay1 (View.ld x0 r1_0) (View.ld x2 r1_1) (View.ld x1 r1_1) (View.ld x3 r1_1) (View.ld x4 r1_1)⟩]

theorem out1_5_eq (x0 : Vec F S10000x32 .f32) (x1 x2 x3 x4 : Vec F S1x32 .f32) :
    out1_5 x0 x1 x2 x3 x4 = k1_pay1 x0 x2 x1 x3 x4 := by
  have hz : (![0, 0] : Fin 2 → Nat) = fun _ => 0 := by funext a; fin_cases a <;> rfl
  unfold out1_5
  rw [View.canon_unit_zero hz]
  simp only [View.ld_unit_zero (S := S10000x32) hz, View.ld_unit_zero (S := S1x32) hz]

set_option maxHeartbeats 1000000 in
theorem sound_kernel1 (c : Dev nD) (E : Set ℕ) (i : grid1.Coords)
    (arg0 : Memref sig .tc .vmem S10000x32 .f32) (harg0 : arg0.IsWhole) (arg1 : Memref sig .tc .vmem S1x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S10000x32 .f32) (harg5 : arg5.IsWhole)
    (x0 : Vec F S10000x32 .f32) (x1 x2 x3 x4 : Vec F S1x32 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1_bn_norm_kernel i arg0 harg0 arg1 harg1 arg2 harg2 arg3 harg3 arg4 harg4 arg5 harg5) K := by
  simp only [cc1_bn_norm_kernel_eq_skeleton]; unfold cc1_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨r1_0, _⟩] S10000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ (w : Fin cfg1.W) (d), w ≠ 5 → (dat1 V c).before w t d = (dat1 V c).after w t
  | ⟨0, _⟩, d, _ | ⟨1, _⟩, d, _ | ⟨2, _⟩, d, _ | ⟨3, _⟩, d, _ | ⟨4, _⟩, d, _ =>
    ((dat1 V c).before_in_eq_fetched _ rfl (fun _ => rfl) (fun _ _ _ => rfl) (fun _ => by dsimp only [dat1]; rfl) t d).trans
      (by unfold Dat.fetched Dat.blockOf; dsimp only [dat1]; rfl)
  | ⟨5, _⟩, _, h => absurd rfl h

theorem body_obligation1 (c : Dev nD) : BodyObligation (dat1 (F := F) V c) (defs₀ (F := F)) Variants.none () Set.univ := fun t => by
  rw [bigSep_W1, bigSep_W1]
  dsimp only
  show _ ⊢ wp frame _ _ (bodyAt1 t) _
  iintro ⟨HΦ, Ho, ⟨%d0, H0⟩, ⟨%d1, H1⟩, ⟨%d2, H2⟩, ⟨%d3, H3⟩, ⟨%d4, H4⟩, ⟨%d5, H5⟩⟩
  rw [before1 V c t 0 d0 (by decide), before1 V c t 1 d1 (by decide), before1 V c t 2 d2 (by decide), before1 V c t 3 d3 (by decide),
    before1 V c t 4 d4 (by decide)]
  dsimp only [dat1]
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe
  iexact Ho

theorem hin1 (c : Dev nD) : Pipeline.ΦA spec1 c ⊢ (dat1 (F := F) V c).Φ 0 := by
  dsimp only [dat1]; exact BI.Entails.refl _
theorem hout1 (c : Dev nD) : (dat1 (F := F) V c).Φ (Fin.last cfg1.N) ⊢ Pipeline.ΦA spec1 c := by
  dsimp only [dat1]; exact BI.Entails.refl _

end Region1

end Cert.KernelIdeal.Gen

end
-- ==== Proof.KIMlp2.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

theorem hz2 : (![0, 0] : Fin 2 → Nat) = fun _ => 0 := funext fun a => by fin_cases a <;> rfl

section Kernel2
variable (c : Dev nD) (E : Set ℕ) (i : grid2.Coords) (arg1 : Memref sig .tc .vmem S10000x32 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S10000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole)

set_option maxHeartbeats 4000000 in
theorem sound_kernel2_A (hc0 : cond2_0 i) (hc1 : ¬cond2_1 i) (x0 : Vec F S10000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg9 fullShare (k2_pay1 (k2_pay6 x0 x1 x2 x3 x4 (k2_pay3 (F := F))))
            ∗ owns (c : Thread nD τ) arg10 fullShare (k2_pay2 (k2_pay5 x0 x1 x2 x3 x4) (k2_pay4 (F := F)))) -∗ K ⟨⟩))
      ⊢ wp frame (wpE (defs₀ (F := F)) Variants.none c none) E (cc2_mlp_bn_stats_kernel i arg1 harg1 arg2 harg2 arg3 harg3 arg4 harg4 arg5 harg5 arg6 harg6 arg7 harg7 arg8 harg8 arg9 harg9 arg10 harg10) K := by
  simp only [cc2_mlp_bn_stats_kernel_eq_skeleton]; unfold cc2_mlp_bn_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf0; subst hf1; subst hf2; subst hf3; subst hf4
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_cons.mpr (Or.inl rfl), View.mem_set_unit_zero hz2 inb_S1x32_S1x32_0_0 y⟩), View.canon_cons_unit_zero (S := S1x32) hz2] | rw [View.read_writes_eq_canon _ _ _ (fun y => ⟨_, List.mem_singleton_self _, View.mem_set_unit_zero hz2 inb_S10000x32_S10000x32_0_0 y⟩), View.canon_unit_zero hz2]); simp only [View.readAt_eq_ld, View.ld_unit_zero (S := S10000x32) hz2, View.ld_unit_zero (S := S32x32) hz2, View.ld_unit_zero (S := S1x32) hz2, View.readCov_unit_zero (S := S1x32) _ hz2])
  all_goals rfl

set_option maxHeartbeats 4000000 in
theorem sound_kernel2_B (hc0 : ¬cond2_0 i) (hc1 : ¬cond2_1 i) (x0 : Vec F S10000x32 .f32) (x1 : Vec F S32x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg9 fullShare (k2_pay1 (k2_pay6 x0 x1 x2 x3 x4 s0))
            ∗ owns (c : Thread nD τ) arg10 fullShare (k2_pay2 (k2_pay5 x0 x1 x2 x3 x4) s1)) -∗ K ⟨⟩))
      ⊢ wp frame (wpE (defs₀ (F := F)) Variants.none c none) E (cc2_mlp_bn_stats_kernel i arg1 harg1 arg2 harg2 arg3 harg3 arg4 harg4 arg5 harg5 arg6 harg6 arg7 harg7 arg8 harg8 arg9 harg9 arg10 harg10) K := by
  simp only [cc2_mlp_bn_stats_kernel_eq_skeleton]; unfold cc2_mlp_bn_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H8]; swap
  all_goals (iexists _; isplitr; swap; iassumption; ipureintro)
  iterate 3 (sl_unfold_words; (first | rw [View.read_writes_eq_canon _ _ _ (fun y => ⟨_, List.mem_singleton_self _, View.mem_set_unit_zero hz2 inb_S1x32_S1x32_0_0 y⟩), View.canon_unit_zero hz2] | rw [View.read_writes_eq_canon _ _ _ (fun y => ⟨_, List.mem_singleton_self _, View.mem_set_unit_zero hz2 inb_S10000x32_S10000x32_0_0 y⟩), View.canon_unit_zero hz2]); simp only [View.readAt_eq_ld, View.ld_unit_zero (S := S10000x32) hz2, View.ld_unit_zero (S := S32x32) hz2, View.ld_unit_zero (S := S1x32) hz2, View.readCov_unit_zero (S := S1x32) _ hz2])
  all_goals rfl

set_option maxHeartbeats 4000000 in
theorem sound_kernel2_C (hc0 : ¬cond2_0 i) (hc1 : cond2_1 i) (x0 : Vec F S10000x32 .f32) (x1 : Vec F S32x32 .f32) (x2 : Vec F S1x32 .f32) (x3 : Vec F S32x32 .f32) (x4 : Vec F S1x32 .f32) (s0 s1 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg7 fullShare (k2_pay1 (k2_pay6 x0 x1 x2 x3 x4 s0))
            ∗ owns (c : Thread nD τ) arg8 fullShare (k2_pay2 (k2_pay5 x0 x1 x2 x3 x4) s1)
            ∗ owns (c : Thread nD τ) arg9 fullShare (k2_pay1 (k2_pay6 x0 x1 x2 x3 x4 s0))
            ∗ owns (c : Thread nD τ) arg10 fullShare (k2_pay2 (k2_pay5 x0 x1 x2 x3 x4) s1)) -∗ K ⟨⟩))
      ⊢ wp frame (wpE (defs₀ (F := F)) Variants.none c none) E (cc2_mlp_bn_stats_kernel i arg1 harg1 arg2 harg2 arg3 harg3 arg4 harg4 arg5 harg5 arg6 harg6 arg7 harg7 arg8 harg8 arg9 harg9 arg10 harg10) K := by
  simp only [cc2_mlp_bn_stats_kernel_eq_skeleton]; unfold cc2_mlp_bn_stats_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap
  all_goals (iexists _; isplitr; swap; iassumption; ipureintro)
  iterate 5 (sl_unfold_words; (first | rw [View.read_writes_eq_canon _ _ _ (fun y => ⟨_, List.mem_singleton_self _, View.mem_set_unit_zero hz2 inb_S1x32_S1x32_0_0 y⟩), View.canon_unit_zero hz2] | rw [View.read_writes_eq_canon _ _ _ (fun y => ⟨_, List.mem_singleton_self _, View.mem_set_unit_zero hz2 inb_S10000x32_S10000x32_0_0 y⟩), View.canon_unit_zero hz2]); simp only [View.readAt_eq_ld, View.ld_unit_zero (S := S10000x32) hz2, View.ld_unit_zero (S := S32x32) hz2, View.ld_unit_zero (S := S1x32) hz2, View.readCov_unit_zero (S := S1x32) _ hz2])
  all_goals rfl

end Kernel2

section Region2
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def hblk2 (c : Dev nD) (t : Fin cfg2.N) : Vec F S10000x32 .f32 :=
  k2_pay5 (iblk2 V c 0 t) (iblk2 V c 1 t) (iblk2 V c 2 t) (iblk2 V c 3 t) (iblk2 V c 4 t)

noncomputable def accS2 (c : Dev nD) : (n : ℕ) → n < cfg2.N → Vec F S1x32 .f32
  | 0, h => k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) (k2_pay3 (F := F)))
  | n + 1, h => k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accS2 c n (Nat.lt_of_succ_lt h)))

noncomputable def accQ2 (c : Dev nD) : (n : ℕ) → n < cfg2.N → Vec F S1x32 .f32
  | 0, h => k2_pay2 (hblk2 V c ⟨0, h⟩) (k2_pay4 (F := F))
  | n + 1, h => k2_pay2 (hblk2 V c ⟨n + 1, h⟩) (accQ2 c n (Nat.lt_of_succ_lt h))

theorem hblk2_eq (c : Dev nD) (t : Fin cfg2.N) : hblk2 V c t = k2_pay5 (iblk2 V c 0 t) (iblk2 V c 1 t) (iblk2 V c 2 t) (iblk2 V c 3 t) (iblk2 V c 4 t) := rfl
theorem accS2_first (c : Dev nD) (t : Fin cfg2.N) (h0 : t.val = 0) :
    accS2 V c t.val t.isLt = k2_pay1 (k2_pay6 (iblk2 V c 0 t) (iblk2 V c 1 t) (iblk2 V c 2 t) (iblk2 V c 3 t) (iblk2 V c 4 t) (k2_pay3 (F := F))) := by
  obtain ⟨_ | n, hn⟩ := t
  exacts [rfl, absurd h0 (Nat.succ_ne_zero n)]
theorem accQ2_first (c : Dev nD) (t : Fin cfg2.N) (h0 : t.val = 0) :
    accQ2 V c t.val t.isLt = k2_pay2 (hblk2 V c t) (k2_pay4 (F := F)) := by
  obtain ⟨_ | n, hn⟩ := t
  exacts [rfl, absurd h0 (Nat.succ_ne_zero n)]
theorem accS2_pos (c : Dev nD) (t : Fin cfg2.N) (h0 : t.val ≠ 0) :
    accS2 V c t.val t.isLt = k2_pay1 (k2_pay6 (iblk2 V c 0 t) (iblk2 V c 1 t) (iblk2 V c 2 t) (iblk2 V c 3 t) (iblk2 V c 4 t) (accS2 V c (t.val - 1) (Nat.lt_of_le_of_lt (Nat.sub_le _ _) t.isLt))) := by
  obtain ⟨_ | n, hn⟩ := t
  exacts [absurd rfl h0, rfl]
theorem accQ2_pos (c : Dev nD) (t : Fin cfg2.N) (h0 : t.val ≠ 0) :
    accQ2 V c t.val t.isLt = k2_pay2 (hblk2 V c t) (accQ2 V c (t.val - 1) (Nat.lt_of_le_of_lt (Nat.sub_le _ _) t.isLt)) := by
  obtain ⟨_ | n, hn⟩ := t
  exacts [absurd rfl h0, rfl]

abbrev scM2_0 : Memref sig .tc .vmem S1x32 .f32 := Memref.whole cc2_scratch0
abbrev scM2_1 : Memref sig .tc .vmem S1x32 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

noncomputable def PhiS2 (c : Dev nD) : (n : ℕ) → n ≤ cfg2.N → sProp 𝕄
  | 0, _ => Pipeline.ΦA spec2 c
  | n + 1, hn => iprop(iprop(iprop(owns (c : Thread nD τ) scM2_0 fullShare (accS2 V c n hn) ∗ owns (c : Thread nD τ) scM2_1 fullShare (accQ2 V c n hn)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accS2 V c n hn) ∗ owns (c : Thread nD τ) scM2_1 fullShare (accQ2 V c n hn)) ∗ rest2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accS2 V c (n - 1) (by omega)) ∗ owns (c : Thread nD τ) scM2_1 fullShare (accQ2 V c (n - 1) (by omega))) ∗ rest2 (F := F) c) ∗ (∃ r, prngReg c r)) := by
  cases n
  exacts [absurd rfl hz, rfl]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hblk2 V c t
    | ⟨6, _⟩ => accS2 V c t.val t.isLt
    | ⟨7, _⟩ => accQ2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_in (c : Dev nD) (t : Fin cfg2.N) :
    (dat2 V c).after 0 t = iblk2 V c 0 t ∧ (dat2 V c).after 1 t = iblk2 V c 1 t ∧ (dat2 V c).after 2 t = iblk2 V c 2 t
      ∧ (dat2 V c).after 3 t = iblk2 V c 3 t ∧ (dat2 V c).after 4 t = iblk2 V c 4 t := ⟨rfl, rfl, rfl, rfl, rfl⟩
theorem after2_5 (c : Dev nD) (t : Fin cfg2.N) : (dat2 V c).after 5 t = hblk2 V c t := by dsimp only [dat2]
theorem after2_6 (c : Dev nD) (t : Fin cfg2.N) : (dat2 V c).after 6 t = accS2 V c t.val t.isLt := by dsimp only [dat2]
theorem after2_7 (c : Dev nD) (t : Fin cfg2.N) : (dat2 V c).after 7 t = accQ2 V c t.val t.isLt := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> intro d <;>
  exact ((dat2 V c).before_in_eq_fetched _ rfl (fun _ => rfl) (fun _ _ _ => rfl) (fun _ => rfl) t d).trans rfl

theorem leaves2_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4⟩ := before2 V c t
  obtain ⟨a0, a1, a2, a3, a4⟩ := after2_in V c t
  simp only [b0, b1, b2, b3, b4]
  rw [show (dat2 V c).owesAt () t.succ = (dat2 V c).owesAt () t.castSucc from rfl]
  rw [show (dat2 V c).Φ t.succ = PhiS2 V c (t.val + 1) t.isLt from rfl, PhiS2_succ, PhiS2_castSucc V c t]
  have hN : t.val < 10 := lt_of_lt_of_eq t.isLt (show cfg2.N = 10 from N_2)
  rw [leaves2_live V c 0 t rfl, leaves2_live V c 1 t rfl, leaves2_live V c 2 t rfl, leaves2_live V c 3 t rfl, leaves2_live V c 4 t rfl, leaves2_live V c 5 t rfl,
    a0, a1, a2, a3, a4, after2_5]
  simp only [hblk2_eq]
  by_cases h9 : t.val = 9
  · have h0 : t.val ≠ 0 := by omega
    have c1 := (hcond2_1 t).mpr h9
    rw [leaves2_live V c 6 t (liveAt2_6 t c1), leaves2_live V c 7 t (liveAt2_7 t c1), after2_6, after2_7,
      accS2_pos V c t h0, accQ2_pos V c t h0, PhiS2_pos V c _ _ h0]
    simp only [hblk2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid2.coords t) _ (hstage2_0 _) _ (hstage2_1 _) _ (hstage2_2 _) _ (hstage2_3 _) _ (hstage2_4 _) _ (hstage2_5 _) _ (hstage2_6 _) _ (hstage2_7 _) _ (Memref.isWhole_whole _) _ (Memref.isWhole_whole _) (fun h => h0 ((hcond2_0 t).mp h)) c1 (iblk2 V c 0 t) (iblk2 V c 1 t) (iblk2 V c 2 t) (iblk2 V c 3 t) (iblk2 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid2.coords t) := fun h => h9 ((hcond2_1 t).mp h)
    rw [Dat.leavesExact_idle (dat2 V c) 6 t (idleAt2_6 t c1) (noFlush2_6 t c1), Dat.leavesExact_idle (dat2 V c) 7 t (idleAt2_7 t c1) (noFlush2_7 t c1)]
    by_cases h0 : t.val = 0
    on_goal 1 => rw [accS2_first V c t h0, accQ2_first V c t h0, PhiS2_zero V c _ _ h0, PhiA2_eq]
    on_goal 2 => rw [accS2_pos V c t h0, accQ2_pos V c t h0, PhiS2_pos V c _ _ h0]
    all_goals (simp only [hblk2_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid2.coords t) _ (hstage2_0 _) _ (hstage2_1 _) _ (hstage2_2 _) _ (hstage2_3 _) _ (hstage2_4 _) _ (hstage2_5 _) _ (hstage2_6 _) _ (hstage2_7 _) _ (Memref.isWhole_whole _) _ (Memref.isWhole_whole _) ((hcond2_0 t).mpr h0) c1 (iblk2 V c 0 t) (iblk2 V c 1 t) (iblk2 V c 2 t) (iblk2 V c 3 t) (iblk2 V c 4 t) _)
    on_goal 2 => iapply (sound_kernel2_B c Set.univ (grid2.coords t) _ (hstage2_0 _) _ (hstage2_1 _) _ (hstage2_2 _) _ (hstage2_3 _) _ (hstage2_4 _) _ (hstage2_5 _) _ (hstage2_6 _) _ (hstage2_7 _) _ (Memref.isWhole_whole _) _ (Memref.isWhole_whole _) (fun h => h0 ((hcond2_0 t).mp h)) c1 (iblk2 V c 0 t) (iblk2 V c 1 t) (iblk2 V c 2 t) (iblk2 V c 3 t) (iblk2 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 10 := N_2; omega)

end Region2

end Cert.KernelIdeal.Gen

end
-- ==== Proof.KIBn3.lean ====
import proofs.«421428_j45019847197002_2_alg».proof.Proof.KIBn1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_5 (x0 : Vec F S10000x32 .f32) (x1 x2 x3 x4 : Vec F S1x32 .f32) : Vec F S10000x32 .f32 := out1_5 x0 x1 x2 x3 x4

theorem out3_5_eq (x0 : Vec F S10000x32 .f32) (x1 x2 x3 x4 : Vec F S1x32 .f32) :
    out3_5 x0 x1 x2 x3 x4 = k3_pay1 x0 x2 x1 x3 x4 := out1_5_eq x0 x1 x2 x3 x4

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) : ∀ (w : Fin cfg3.W) (d), w ≠ 5 → (dat3 V c).before w t d = (dat3 V c).after w t
  | ⟨0, _⟩, d, _ | ⟨1, _⟩, d, _ | ⟨2, _⟩, d, _ | ⟨3, _⟩, d, _ | ⟨4, _⟩, d, _ =>
    ((dat3 V c).before_in_eq_fetched _ rfl (fun _ => rfl) (fun _ _ _ => rfl) (fun _ => by dsimp only [dat3]; rfl) t d).trans
      (by unfold Dat.fetched Dat.blockOf; dsimp only [dat3]; rfl)
  | ⟨5, _⟩, _, h => absurd rfl h

theorem body_obligation3 (c : Dev nD) : BodyObligation (dat3 (F := F) V c) (defs₀ (F := F)) Variants.none () Set.univ := fun t => by
  rw [bigSep_W3, bigSep_W3]
  dsimp only
  show _ ⊢ wp frame _ _ (bodyAt3 t) _
  unfold bodyAt3
  rw [show cc3_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before3 V c t 0 d0 (by decide), before3 V c t 1 d1 (by decide), before3 V c t 2 d2 (by decide), before3 V c t 3 d3 (by decide),
    before3 V c t 4 d4 (by decide)]
  dsimp only [dat3, out3_5]
  iapply (sound_kernel1 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe
  iexact Ho

theorem hin3 (c : Dev nD) : Pipeline.ΦA spec3 c ⊢ (dat3 (F := F) V c).Φ 0 := by
  dsimp only [dat3]; exact BI.Entails.refl _
theorem hout3 (c : Dev nD) : (dat3 (F := F) V c).Φ (Fin.last cfg3.N) ⊢ Pipeline.ΦA spec3 c := by
  dsimp only [dat3]; exact BI.Entails.refl _

end Region3

end Cert.KernelIdeal.Gen

end
-- ==== Proof.KIMlp4.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def hblk4 (c : Dev nD) (t : Fin cfg4.N) : Vec F S10000x32 .f32 :=
  k4_pay5 (iblk4 V c 0 t) (iblk4 V c 1 t) (iblk4 V c 2 t) (iblk4 V c 3 t) (iblk4 V c 4 t)

noncomputable def accS4 (c : Dev nD) : (n : ℕ) → n < cfg4.N → Vec F S1x32 .f32
  | 0, h => k4_pay1 (k4_pay6 (iblk4 V c 0 ⟨0, h⟩) (iblk4 V c 1 ⟨0, h⟩) (iblk4 V c 2 ⟨0, h⟩) (iblk4 V c 3 ⟨0, h⟩) (iblk4 V c 4 ⟨0, h⟩) (k4_pay3 (F := F)))
  | n + 1, h => k4_pay1 (k4_pay6 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accS4 c n (Nat.lt_of_succ_lt h)))

noncomputable def accQ4 (c : Dev nD) : (n : ℕ) → n < cfg4.N → Vec F S1x32 .f32
  | 0, h => k4_pay2 (hblk4 V c ⟨0, h⟩) (k4_pay4 (F := F))
  | n + 1, h => k4_pay2 (hblk4 V c ⟨n + 1, h⟩) (accQ4 c n (Nat.lt_of_succ_lt h))

theorem hblk4_eq (c : Dev nD) (t : Fin cfg4.N) : hblk4 V c t = k2_pay5 (iblk4 V c 0 t) (iblk4 V c 1 t) (iblk4 V c 2 t) (iblk4 V c 3 t) (iblk4 V c 4 t) := rfl
theorem accS4_first (c : Dev nD) (t : Fin cfg4.N) (h0 : t.val = 0) :
    accS4 V c t.val t.isLt = k2_pay1 (k2_pay6 (iblk4 V c 0 t) (iblk4 V c 1 t) (iblk4 V c 2 t) (iblk4 V c 3 t) (iblk4 V c 4 t) (k2_pay3 (F := F))) := by
  obtain ⟨_ | n, hn⟩ := t
  exacts [rfl, absurd h0 (Nat.succ_ne_zero n)]
theorem accQ4_first (c : Dev nD) (t : Fin cfg4.N) (h0 : t.val = 0) :
    accQ4 V c t.val t.isLt = k2_pay2 (hblk4 V c t) (k2_pay4 (F := F)) := by
  obtain ⟨_ | n, hn⟩ := t
  exacts [rfl, absurd h0 (Nat.succ_ne_zero n)]
theorem accS4_pos (c : Dev nD) (t : Fin cfg4.N) (h0 : t.val ≠ 0) :
    accS4 V c t.val t.isLt = k2_pay1 (k2_pay6 (iblk4 V c 0 t) (iblk4 V c 1 t) (iblk4 V c 2 t) (iblk4 V c 3 t) (iblk4 V c 4 t) (accS4 V c (t.val - 1) (Nat.lt_of_le_of_lt (Nat.sub_le _ _) t.isLt))) := by
  obtain ⟨_ | n, hn⟩ := t
  exacts [absurd rfl h0, rfl]
theorem accQ4_pos (c : Dev nD) (t : Fin cfg4.N) (h0 : t.val ≠ 0) :
    accQ4 V c t.val t.isLt = k2_pay2 (hblk4 V c t) (accQ4 V c (t.val - 1) (Nat.lt_of_le_of_lt (Nat.sub_le _ _) t.isLt)) := by
  obtain ⟨_ | n, hn⟩ := t
  exacts [absurd rfl h0, rfl]

abbrev scM4_0 : Memref sig .tc .vmem S1x32 .f32 := Memref.whole cc4_scratch0
abbrev scM4_1 : Memref sig .tc .vmem S1x32 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

noncomputable def PhiS4 (c : Dev nD) : (n : ℕ) → n ≤ cfg4.N → sProp 𝕄
  | 0, _ => Pipeline.ΦA spec4 c
  | n + 1, hn => iprop(iprop(iprop(owns (c : Thread nD τ) scM4_0 fullShare (accS4 V c n hn) ∗ owns (c : Thread nD τ) scM4_1 fullShare (accQ4 V c n hn)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accS4 V c n hn) ∗ owns (c : Thread nD τ) scM4_1 fullShare (accQ4 V c n hn)) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accS4 V c (n - 1) (by omega)) ∗ owns (c : Thread nD τ) scM4_1 fullShare (accQ4 V c (n - 1) (by omega))) ∗ rest4 (F := F) c) ∗ (∃ r, prngReg c r)) := by
  cases n
  exacts [absurd rfl hz, rfl]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => hblk4 V c t
    | ⟨6, _⟩ => accS4 V c t.val t.isLt
    | ⟨7, _⟩ => accQ4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_in (c : Dev nD) (t : Fin cfg4.N) :
    (dat4 V c).after 0 t = iblk4 V c 0 t ∧ (dat4 V c).after 1 t = iblk4 V c 1 t ∧ (dat4 V c).after 2 t = iblk4 V c 2 t
      ∧ (dat4 V c).after 3 t = iblk4 V c 3 t ∧ (dat4 V c).after 4 t = iblk4 V c 4 t := ⟨rfl, rfl, rfl, rfl, rfl⟩
theorem after4_5 (c : Dev nD) (t : Fin cfg4.N) : (dat4 V c).after 5 t = hblk4 V c t := by dsimp only [dat4]
theorem after4_6 (c : Dev nD) (t : Fin cfg4.N) : (dat4 V c).after 6 t = accS4 V c t.val t.isLt := by dsimp only [dat4]
theorem after4_7 (c : Dev nD) (t : Fin cfg4.N) : (dat4 V c).after 7 t = accQ4 V c t.val t.isLt := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
      ∧ (∀ d, (dat4 V c).before 3 t d = iblk4 V c 3 t) ∧ (∀ d, (dat4 V c).before 4 t d = iblk4 V c 4 t) := by
  refine ⟨?_, ?_, ?_, ?_, ?_⟩ <;> intro d <;>
  exact ((dat4 V c).before_in_eq_fetched _ rfl (fun _ => rfl) (fun _ _ _ => rfl) (fun _ => rfl) t d).trans rfl

theorem leaves4_live (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

theorem idleAt4_6 : ∀ t : Fin cfg4.N, ¬cond2_1 (grid4.coords t) → cfg4.idle 6 (grid4.coords t) = true := by decide +kernel
theorem noFlush4_6 : ∀ t : Fin cfg4.N, ¬cond2_1 (grid4.coords t) → (cfg4.win 6).flush t = false := by decide +kernel
theorem liveAt4_6 : ∀ t : Fin cfg4.N, cond2_1 (grid4.coords t) → cfg4.idle 6 (grid4.coords t) = false := by decide +kernel
theorem idleAt4_7 : ∀ t : Fin cfg4.N, ¬cond2_1 (grid4.coords t) → cfg4.idle 7 (grid4.coords t) = true := by decide +kernel
theorem noFlush4_7 : ∀ t : Fin cfg4.N, ¬cond2_1 (grid4.coords t) → (cfg4.win 7).flush t = false := by decide +kernel
theorem liveAt4_7 : ∀ t : Fin cfg4.N, cond2_1 (grid4.coords t) → cfg4.idle 7 (grid4.coords t) = false := by decide +kernel

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨b0, b1, b2, b3, b4⟩ := before4 V c t
  obtain ⟨a0, a1, a2, a3, a4⟩ := after4_in V c t
  simp only [b0, b1, b2, b3, b4]
  rw [show (dat4 V c).owesAt () t.succ = (dat4 V c).owesAt () t.castSucc from rfl]
  rw [show (dat4 V c).Φ t.succ = PhiS4 V c (t.val + 1) t.isLt from rfl, PhiS4_succ, PhiS4_castSucc V c t]
  have hN : t.val < 10 := lt_of_lt_of_eq t.isLt (show cfg4.N = 10 from N_4)
  rw [leaves4_live V c 0 t rfl, leaves4_live V c 1 t rfl, leaves4_live V c 2 t rfl, leaves4_live V c 3 t rfl, leaves4_live V c 4 t rfl, leaves4_live V c 5 t rfl,
    a0, a1, a2, a3, a4, after4_5]
  simp only [hblk4_eq]
  by_cases h9 : t.val = 9
  · have h0 : t.val ≠ 0 := by omega
    have c1 := (hcond2_1 t).mpr h9
    rw [leaves4_live V c 6 t (liveAt4_6 t c1), leaves4_live V c 7 t (liveAt4_7 t c1), after4_6, after4_7,
      accS4_pos V c t h0, accQ4_pos V c t h0, PhiS4_pos V c _ _ h0]
    simp only [hblk4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid4.coords t) _ (hstage4_0 _) _ (hstage4_1 _) _ (hstage4_2 _) _ (hstage4_3 _) _ (hstage4_4 _) _ (hstage4_5 _) _ (hstage4_6 _) _ (hstage4_7 _) _ (Memref.isWhole_whole _) _ (Memref.isWhole_whole _) (fun h => h0 ((hcond2_0 t).mp h)) c1 (iblk4 V c 0 t) (iblk4 V c 1 t) (iblk4 V c 2 t) (iblk4 V c 3 t) (iblk4 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid4.coords t) := fun h => h9 ((hcond2_1 t).mp h)
    rw [Dat.leavesExact_idle (dat4 V c) 6 t (idleAt4_6 t c1) (noFlush4_6 t c1), Dat.leavesExact_idle (dat4 V c) 7 t (idleAt4_7 t c1) (noFlush4_7 t c1)]
    by_cases h0 : t.val = 0
    on_goal 1 => rw [accS4_first V c t h0, accQ4_first V c t h0, PhiS4_zero V c _ _ h0, PhiA4_eq]
    on_goal 2 => rw [accS4_pos V c t h0, accQ4_pos V c t h0, PhiS4_pos V c _ _ h0]
    all_goals (simp only [hblk4_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid4.coords t) _ (hstage4_0 _) _ (hstage4_1 _) _ (hstage4_2 _) _ (hstage4_3 _) _ (hstage4_4 _) _ (hstage4_5 _) _ (hstage4_6 _) _ (hstage4_7 _) _ (Memref.isWhole_whole _) _ (Memref.isWhole_whole _) ((hcond2_0 t).mpr h0) c1 (iblk4 V c 0 t) (iblk4 V c 1 t) (iblk4 V c 2 t) (iblk4 V c 3 t) (iblk4 V c 4 t) _)
    on_goal 2 => iapply (sound_kernel2_B c Set.univ (grid4.coords t) _ (hstage4_0 _) _ (hstage4_1 _) _ (hstage4_2 _) _ (hstage4_3 _) _ (hstage4_4 _) _ (hstage4_5 _) _ (hstage4_6 _) _ (hstage4_7 _) _ (Memref.isWhole_whole _) _ (Memref.isWhole_whole _) (fun h => h0 ((hcond2_0 t).mp h)) c1 (iblk4 V c 0 t) (iblk4 V c 1 t) (iblk4 V c 2 t) (iblk4 V c 3 t) (iblk4 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 10 := N_4; omega)

end Region4

end Cert.KernelIdeal.Gen

end
-- ==== Proof.KIBn5.lean ====
import proofs.«421428_j45019847197002_2_alg».proof.Proof.KIBn1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_5 (x0 : Vec F S10000x32 .f32) (x1 x2 x3 x4 : Vec F S1x32 .f32) : Vec F S10000x32 .f32 := out1_5 x0 x1 x2 x3 x4

theorem out5_5_eq (x0 : Vec F S10000x32 .f32) (x1 x2 x3 x4 : Vec F S1x32 .f32) :
    out5_5 x0 x1 x2 x3 x4 = k5_pay1 x0 x2 x1 x3 x4 := out1_5_eq x0 x1 x2 x3 x4

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5 (c : Dev nD) (t : Fin cfg5.N) : ∀ (w : Fin cfg5.W) (d), w ≠ 5 → (dat5 V c).before w t d = (dat5 V c).after w t
  | ⟨0, _⟩, d, _ | ⟨1, _⟩, d, _ | ⟨2, _⟩, d, _ | ⟨3, _⟩, d, _ | ⟨4, _⟩, d, _ =>
    ((dat5 V c).before_in_eq_fetched _ rfl (fun _ => rfl) (fun _ _ _ => rfl) (fun _ => by dsimp only [dat5]; rfl) t d).trans
      (by unfold Dat.fetched Dat.blockOf; dsimp only [dat5]; rfl)
  | ⟨5, _⟩, _, h => absurd rfl h

theorem body_obligation5 (c : Dev nD) : BodyObligation (dat5 (F := F) V c) (defs₀ (F := F)) Variants.none () Set.univ := fun t => by
  rw [bigSep_W5, bigSep_W5]
  dsimp only
  show _ ⊢ wp frame _ _ (bodyAt5 t) _
  unfold bodyAt5
  rw [show cc5_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before5 V c t 0 d0 (by decide), before5 V c t 1 d1 (by decide), before5 V c t 2 d2 (by decide), before5 V c t 3 d3 (by decide),
    before5 V c t 4 d4 (by decide)]
  dsimp only [dat5, out5_5]
  iapply (sound_kernel1 c Set.univ _ _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe
  iexact Ho

theorem hin5 (c : Dev nD) : Pipeline.ΦA spec5 c ⊢ (dat5 (F := F) V c).Φ 0 := by
  dsimp only [dat5]; exact BI.Entails.refl _
theorem hout5 (c : Dev nD) : (dat5 (F := F) V c).Φ (Fin.last cfg5.N) ⊢ Pipeline.ΦA spec5 c := by
  dsimp only [dat5]; exact BI.Entails.refl _

end Region5

end Cert.KernelIdeal.Gen

end
-- ==== Proof.KIMlp6.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

noncomputable def hblk6 (c : Dev nD) (t : Fin cfg6.N) : Vec F S10000x32 .f32 :=
  k6_pay5 (iblk6 V c 0 t) (iblk6 V c 1 t) (iblk6 V c 2 t) (iblk6 V c 3 t) (iblk6 V c 4 t)

noncomputable def accS6 (c : Dev nD) : (n : ℕ) → n < cfg6.N → Vec F S1x32 .f32
  | 0, h => k6_pay1 (k6_pay6 (iblk6 V c 0 ⟨0, h⟩) (iblk6 V c 1 ⟨0, h⟩) (iblk6 V c 2 ⟨0, h⟩) (iblk6 V c 3 ⟨0, h⟩) (iblk6 V c 4 ⟨0, h⟩) (k6_pay3 (F := F)))
  | n + 1, h => k6_pay1 (k6_pay6 (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (accS6 c n (Nat.lt_of_succ_lt h)))

noncomputable def accQ6 (c : Dev nD) : (n : ℕ) → n < cfg6.N → Vec F S1x32 .f32
  | 0, h => k6_pay2 (hblk6 V c ⟨0, h⟩) (k6_pay4 (F := F))
  | n + 1, h => k6_pay2 (hblk6 V c ⟨n + 1, h⟩) (accQ6 c n (Nat.lt_of_succ_lt h))

theorem hblk6_eq (c : Dev nD) (t : Fin cfg6.N) : hblk6 V c t = k2_pay5 (iblk6 V c 0 t) (iblk6 V c 1 t) (iblk6 V c 2 t) (iblk6 V c 3 t) (iblk6 V c 4 t) := rfl
theorem accS6_first (c : Dev nD) (t : Fin cfg6.N) (h0 : t.val = 0) :
    accS6 V c t.val t.isLt = k2_pay1 (k2_pay6 (iblk6 V c 0 t) (iblk6 V c 1 t) (iblk6 V c 2 t) (iblk6 V c 3 t) (iblk6 V c 4 t) (k2_pay3 (F := F))) := by
  obtain ⟨_ | n, hn⟩ := t
  exacts [rfl, absurd h0 (Nat.succ_ne_zero n)]
theorem accQ6_first (c : Dev nD) (t : Fin cfg6.N) (h0 : t.val = 0) :
    accQ6 V c t.val t.isLt = k2_pay2 (hblk6 V c t) (k2_pay4 (F := F)) := by
  obtain ⟨_ | n, hn⟩ := t
  exacts [rfl, absurd h0 (Nat.succ_ne_zero n)]
theorem accS6_pos (c : Dev nD) (t : Fin cfg6.N) (h0 : t.val ≠ 0) :
    accS6 V c t.val t.isLt = k2_pay1 (k2_pay6 (iblk6 V c 0 t) (iblk6 V c 1 t) (iblk6 V c 2 t) (iblk6 V c 3 t) (iblk6 V c 4 t) (accS6 V c (t.val - 1) (Nat.lt_of_le_of_lt (Nat.sub_le _ _) t.isLt))) := by
  obtain ⟨_ | n, hn⟩ := t
  exacts [absurd rfl h0, rfl]
theorem accQ6_pos (c : Dev nD) (t : Fin cfg6.N) (h0 : t.val ≠ 0) :
    accQ6 V c t.val t.isLt = k2_pay2 (hblk6 V c t) (accQ6 V c (t.val - 1) (Nat.lt_of_le_of_lt (Nat.sub_le _ _) t.isLt)) := by
  obtain ⟨_ | n, hn⟩ := t
  exacts [absurd rfl h0, rfl]

abbrev scM6_0 : Memref sig .tc .vmem S1x32 .f32 := Memref.whole cc6_scratch0
abbrev scM6_1 : Memref sig .tc .vmem S1x32 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 (F := F) c) ∗ (∃ r, prngReg c r)) := by
  unfold Pipeline.ΦA; rw [scopedRest6_split]; simp only [scM6_0, scM6_1, owns_whole]; try rfl

noncomputable def PhiS6 (c : Dev nD) : (n : ℕ) → n ≤ cfg6.N → sProp 𝕄
  | 0, _ => Pipeline.ΦA spec6 c
  | n + 1, hn => iprop(iprop(iprop(owns (c : Thread nD τ) scM6_0 fullShare (accS6 V c n hn) ∗ owns (c : Thread nD τ) scM6_1 fullShare (accQ6 V c n hn)) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accS6 V c n hn) ∗ owns (c : Thread nD τ) scM6_1 fullShare (accQ6 V c n hn)) ∗ rest6 (F := F) c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (accS6 V c (n - 1) (by omega)) ∗ owns (c : Thread nD τ) scM6_1 fullShare (accQ6 V c (n - 1) (by omega))) ∗ rest6 (F := F) c) ∗ (∃ r, prngReg c r)) := by
  cases n
  exacts [absurd rfl hz, rfl]

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => hblk6 V c t
    | ⟨6, _⟩ => accS6 V c t.val t.isLt
    | ⟨7, _⟩ => accQ6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_in (c : Dev nD) (t : Fin cfg6.N) :
    (dat6 V c).after 0 t = iblk6 V c 0 t ∧ (dat6 V c).after 1 t = iblk6 V c 1 t ∧ (dat6 V c).after 2 t = iblk6 V c 2 t
      ∧ (dat6 V c).after 3 t = iblk6 V c 3 t ∧ (dat6 V c).after 4 t = iblk6 V c 4 t := ⟨rfl, rfl, rfl, rfl, rfl⟩
theorem after6_5 (c : Dev nD) (t : Fin cfg6.N) : (dat6 V c).after 5 t = hblk6 V c t := by dsimp only [dat6]
theorem after6_6 (c : Dev nD) (t : Fin cfg6.N) : (dat6 V c).after 6 t = accS6 V c t.val t.isLt := by dsimp only [dat6]
theorem after6_7 (c : Dev nD) (t : Fin cfg6.N) : (dat6 V c).after 7 t = accQ6 V c t.val t.isLt := by dsimp only [dat6]

theorem before6 (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t)
      ∧ (∀ d, (dat6 V c).before 3 t d = iblk6 V c 3 t) ∧ (∀ d, (dat6 V c).before 4 t d = iblk6 V c 4 t) := by
  refine ⟨?_, ?_, ?_, ?_, ?_⟩ <;> intro d <;>
  exact ((dat6 V c).before_in_eq_fetched _ rfl (fun _ => rfl) (fun _ _ _ => rfl) (fun _ => rfl) t d).trans rfl

theorem leaves6_live (c : Dev nD) (w : Fin cfg6.W) (t : Fin cfg6.N) (h : cfg6.idle w (grid6.coords t) = false) :
    (dat6 V c).leavesExact w t = owns (c : Thread nD τ) ((cfg6.win w).stage (cfg6.slots t w)) fullShare ((dat6 V c).after w t) := by
  unfold Dat.leavesExact; rw [h]

theorem idleAt6_6 : ∀ t : Fin cfg6.N, ¬cond2_1 (grid6.coords t) → cfg6.idle 6 (grid6.coords t) = true := by decide +kernel
theorem noFlush6_6 : ∀ t : Fin cfg6.N, ¬cond2_1 (grid6.coords t) → (cfg6.win 6).flush t = false := by decide +kernel
theorem liveAt6_6 : ∀ t : Fin cfg6.N, cond2_1 (grid6.coords t) → cfg6.idle 6 (grid6.coords t) = false := by decide +kernel
theorem idleAt6_7 : ∀ t : Fin cfg6.N, ¬cond2_1 (grid6.coords t) → cfg6.idle 7 (grid6.coords t) = true := by decide +kernel
theorem noFlush6_7 : ∀ t : Fin cfg6.N, ¬cond2_1 (grid6.coords t) → (cfg6.win 7).flush t = false := by decide +kernel
theorem liveAt6_7 : ∀ t : Fin cfg6.N, cond2_1 (grid6.coords t) → cfg6.idle 7 (grid6.coords t) = false := by decide +kernel

noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  obtain ⟨b0, b1, b2, b3, b4⟩ := before6 V c t
  obtain ⟨a0, a1, a2, a3, a4⟩ := after6_in V c t
  simp only [b0, b1, b2, b3, b4]
  rw [show (dat6 V c).owesAt () t.succ = (dat6 V c).owesAt () t.castSucc from rfl]
  rw [show (dat6 V c).Φ t.succ = PhiS6 V c (t.val + 1) t.isLt from rfl, PhiS6_succ, PhiS6_castSucc V c t]
  have hN : t.val < 10 := lt_of_lt_of_eq t.isLt (show cfg6.N = 10 from N_6)
  rw [leaves6_live V c 0 t rfl, leaves6_live V c 1 t rfl, leaves6_live V c 2 t rfl, leaves6_live V c 3 t rfl, leaves6_live V c 4 t rfl, leaves6_live V c 5 t rfl,
    a0, a1, a2, a3, a4, after6_5]
  simp only [hblk6_eq]
  by_cases h9 : t.val = 9
  · have h0 : t.val ≠ 0 := by omega
    have c1 := (hcond2_1 t).mpr h9
    rw [leaves6_live V c 6 t (liveAt6_6 t c1), leaves6_live V c 7 t (liveAt6_7 t c1), after6_6, after6_7,
      accS6_pos V c t h0, accQ6_pos V c t h0, PhiS6_pos V c _ _ h0]
    simp only [hblk6_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid6.coords t) _ (hstage6_0 _) _ (hstage6_1 _) _ (hstage6_2 _) _ (hstage6_3 _) _ (hstage6_4 _) _ (hstage6_5 _) _ (hstage6_6 _) _ (hstage6_7 _) _ (Memref.isWhole_whole _) _ (Memref.isWhole_whole _) (fun h => h0 ((hcond2_0 t).mp h)) c1 (iblk6 V c 0 t) (iblk6 V c 1 t) (iblk6 V c 2 t) (iblk6 V c 3 t) (iblk6 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid6.coords t) := fun h => h9 ((hcond2_1 t).mp h)
    rw [Dat.leavesExact_idle (dat6 V c) 6 t (idleAt6_6 t c1) (noFlush6_6 t c1), Dat.leavesExact_idle (dat6 V c) 7 t (idleAt6_7 t c1) (noFlush6_7 t c1)]
    by_cases h0 : t.val = 0
    on_goal 1 => rw [accS6_first V c t h0, accQ6_first V c t h0, PhiS6_zero V c _ _ h0, PhiA6_eq]
    on_goal 2 => rw [accS6_pos V c t h0, accQ6_pos V c t h0, PhiS6_pos V c _ _ h0]
    all_goals (simp only [hblk6_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid6.coords t) _ (hstage6_0 _) _ (hstage6_1 _) _ (hstage6_2 _) _ (hstage6_3 _) _ (hstage6_4 _) _ (hstage6_5 _) _ (hstage6_6 _) _ (hstage6_7 _) _ (Memref.isWhole_whole _) _ (Memref.isWhole_whole _) ((hcond2_0 t).mpr h0) c1 (iblk6 V c 0 t) (iblk6 V c 1 t) (iblk6 V c 2 t) (iblk6 V c 3 t) (iblk6 V c 4 t) _)
    on_goal 2 => iapply (sound_kernel2_B c Set.univ (grid6.coords t) _ (hstage6_0 _) _ (hstage6_1 _) _ (hstage6_2 _) _ (hstage6_3 _) _ (hstage6_4 _) _ (hstage6_5 _) _ (hstage6_6 _) _ (hstage6_7 _) _ (Memref.isWhole_whole _) _ (Memref.isWhole_whole _) (fun h => h0 ((hcond2_0 t).mp h)) c1 (iblk6 V c 0 t) (iblk6 V c 1 t) (iblk6 V c 2 t) (iblk6 V c 3 t) (iblk6 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout6 (c : Dev nD) : (dat6 V c).Φ (Fin.last cfg6.N) ⊢ Pipeline.ΦA spec6 c :=
  Phi_out6 V c _ (by rw [Fin.val_last]; have : cfg6.N = 10 := N_6; omega)

end Region6

end Cert.KernelIdeal.Gen

end
-- ==== Proof.KIBn7.lean ====
import proofs.«421428_j45019847197002_2_alg».proof.Proof.KIBn1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_5 (x0 : Vec F S10000x32 .f32) (x1 x2 x3 x4 : Vec F S1x32 .f32) : Vec F S10000x32 .f32 := out1_5 x0 x1 x2 x3 x4

theorem out7_5_eq (x0 : Vec F S10000x32 .f32) (x1 x2 x3 x4 : Vec F S1x32 .f32) :
    out7_5 x0 x1 x2 x3 x4 = k7_pay1 x0 x2 x1 x3 x4 := out1_5_eq x0 x1 x2 x3 x4

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7 (c : Dev nD) (t : Fin cfg7.N) : ∀ (w : Fin cfg7.W) (d), w ≠ 5 → (dat7 V c).before w t d = (dat7 V c).after w t
  | ⟨0, _⟩, d, _ | ⟨1, _⟩, d, _ | ⟨2, _⟩, d, _ | ⟨3, _⟩, d, _ | ⟨4, _⟩, d, _ =>
    ((dat7 V c).before_in_eq_fetched _ rfl (fun _ => rfl) (fun _ _ _ => rfl) (fun _ => by dsimp only [dat7]; rfl) t d).trans
      (by unfold Dat.fetched Dat.blockOf; dsimp only [dat7]; rfl)
  | ⟨5, _⟩, _, h => absurd rfl h

theorem body_obligation7 (c : Dev nD) : BodyObligation (dat7 (F := F) V c) (defs₀ (F := F)) Variants.none () Set.univ := fun t => by
  rw [bigSep_W7, bigSep_W7]
  dsimp only
  show _ ⊢ wp frame _ _ (bodyAt7 t) _
  unfold bodyAt7
  rw [show cc7_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before7 V c t 0 d0 (by decide), before7 V c t 1 d1 (by decide), before7 V c t 2 d2 (by decide), before7 V c t 3 d3 (by decide),
    before7 V c t 4 d4 (by decide)]
  dsimp only [dat7, out7_5]
  iapply (sound_kernel1 c Set.univ _ _ _ _ _ _ _ _ _ _ _ _ _ (iblk7 V c 0 t) (iblk7 V c 1 t) (iblk7 V c 2 t) (iblk7 V c 3 t) (iblk7 V c 4 t) _)
  iframe H0 H1 H2 H3 H4
  isplitl [H5]; · iexists _; iexact H5
  iintro ⟨H0, H1, H2, H3, H4, H5⟩
  iframe
  iexact Ho

theorem hin7 (c : Dev nD) : Pipeline.ΦA spec7 c ⊢ (dat7 (F := F) V c).Φ 0 := by
  dsimp only [dat7]; exact BI.Entails.refl _
theorem hout7 (c : Dev nD) : (dat7 (F := F) V c).Φ (Fin.last cfg7.N) ⊢ Pipeline.ΦA spec7 c := by
  dsimp only [dat7]; exact BI.Entails.refl _

end Region7

end Cert.KernelIdeal.Gen

end
-- ==== Proof.KIMlp8.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def hblk8 (c : Dev nD) (t : Fin cfg8.N) : Vec F S10000x32 .f32 :=
  k8_pay5 (iblk8 V c 0 t) (iblk8 V c 1 t) (iblk8 V c 2 t) (iblk8 V c 3 t) (iblk8 V c 4 t)

noncomputable def accS8 (c : Dev nD) : (n : ℕ) → n < cfg8.N → Vec F S1x32 .f32
  | 0, h => k8_pay1 (k8_pay6 (iblk8 V c 0 ⟨0, h⟩) (iblk8 V c 1 ⟨0, h⟩) (iblk8 V c 2 ⟨0, h⟩) (iblk8 V c 3 ⟨0, h⟩) (iblk8 V c 4 ⟨0, h⟩) (k8_pay3 (F := F)))
  | n + 1, h => k8_pay1 (k8_pay6 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (accS8 c n (Nat.lt_of_succ_lt h)))

noncomputable def accQ8 (c : Dev nD) : (n : ℕ) → n < cfg8.N → Vec F S1x32 .f32
  | 0, h => k8_pay2 (hblk8 V c ⟨0, h⟩) (k8_pay4 (F := F))
  | n + 1, h => k8_pay2 (hblk8 V c ⟨n + 1, h⟩) (accQ8 c n (Nat.lt_of_succ_lt h))

theorem hblk8_eq (c : Dev nD) (t : Fin cfg8.N) : hblk8 V c t = k2_pay5 (iblk8 V c 0 t) (iblk8 V c 1 t) (iblk8 V c 2 t) (iblk8 V c 3 t) (iblk8 V c 4 t) := rfl
theorem accS8_first (c : Dev nD) (t : Fin cfg8.N) (h0 : t.val = 0) :
    accS8 V c t.val t.isLt = k2_pay1 (k2_pay6 (iblk8 V c 0 t) (iblk8 V c 1 t) (iblk8 V c 2 t) (iblk8 V c 3 t) (iblk8 V c 4 t) (k2_pay3 (F := F))) := by
  obtain ⟨_ | n, hn⟩ := t
  exacts [rfl, absurd h0 (Nat.succ_ne_zero n)]
theorem accQ8_first (c : Dev nD) (t : Fin cfg8.N) (h0 : t.val = 0) :
    accQ8 V c t.val t.isLt = k2_pay2 (hblk8 V c t) (k2_pay4 (F := F)) := by
  obtain ⟨_ | n, hn⟩ := t
  exacts [rfl, absurd h0 (Nat.succ_ne_zero n)]
theorem accS8_pos (c : Dev nD) (t : Fin cfg8.N) (h0 : t.val ≠ 0) :
    accS8 V c t.val t.isLt = k2_pay1 (k2_pay6 (iblk8 V c 0 t) (iblk8 V c 1 t) (iblk8 V c 2 t) (iblk8 V c 3 t) (iblk8 V c 4 t) (accS8 V c (t.val - 1) (Nat.lt_of_le_of_lt (Nat.sub_le _ _) t.isLt))) := by
  obtain ⟨_ | n, hn⟩ := t
  exacts [absurd rfl h0, rfl]
theorem accQ8_pos (c : Dev nD) (t : Fin cfg8.N) (h0 : t.val ≠ 0) :
    accQ8 V c t.val t.isLt = k2_pay2 (hblk8 V c t) (accQ8 V c (t.val - 1) (Nat.lt_of_le_of_lt (Nat.sub_le _ _) t.isLt)) := by
  obtain ⟨_ | n, hn⟩ := t
  exacts [absurd rfl h0, rfl]

abbrev scM8_0 : Memref sig .tc .vmem S1x32 .f32 := Memref.whole cc8_scratch0
abbrev scM8_1 : Memref sig .tc .vmem S1x32 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 (F := F) c) ∗ (∃ r, prngReg c r)) := by
  unfold Pipeline.ΦA; rw [scopedRest8_split]; simp only [scM8_0, scM8_1, owns_whole]; try rfl

noncomputable def PhiS8 (c : Dev nD) : (n : ℕ) → n ≤ cfg8.N → sProp 𝕄
  | 0, _ => Pipeline.ΦA spec8 c
  | n + 1, hn => iprop(iprop(iprop(owns (c : Thread nD τ) scM8_0 fullShare (accS8 V c n hn) ∗ owns (c : Thread nD τ) scM8_1 fullShare (accQ8 V c n hn)) ∗ rest8 (F := F) c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (accS8 V c n hn) ∗ owns (c : Thread nD τ) scM8_1 fullShare (accQ8 V c n hn)) ∗ rest8 (F := F) c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (accS8 V c (n - 1) (by omega)) ∗ owns (c : Thread nD τ) scM8_1 fullShare (accQ8 V c (n - 1) (by omega))) ∗ rest8 (F := F) c) ∗ (∃ r, prngReg c r)) := by
  cases n
  exacts [absurd rfl hz, rfl]

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => hblk8 V c t
    | ⟨6, _⟩ => accS8 V c t.val t.isLt
    | ⟨7, _⟩ => accQ8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_in (c : Dev nD) (t : Fin cfg8.N) :
    (dat8 V c).after 0 t = iblk8 V c 0 t ∧ (dat8 V c).after 1 t = iblk8 V c 1 t ∧ (dat8 V c).after 2 t = iblk8 V c 2 t
      ∧ (dat8 V c).after 3 t = iblk8 V c 3 t ∧ (dat8 V c).after 4 t = iblk8 V c 4 t := ⟨rfl, rfl, rfl, rfl, rfl⟩
theorem after8_5 (c : Dev nD) (t : Fin cfg8.N) : (dat8 V c).after 5 t = hblk8 V c t := by dsimp only [dat8]
theorem after8_6 (c : Dev nD) (t : Fin cfg8.N) : (dat8 V c).after 6 t = accS8 V c t.val t.isLt := by dsimp only [dat8]
theorem after8_7 (c : Dev nD) (t : Fin cfg8.N) : (dat8 V c).after 7 t = accQ8 V c t.val t.isLt := by dsimp only [dat8]

theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t)
      ∧ (∀ d, (dat8 V c).before 3 t d = iblk8 V c 3 t) ∧ (∀ d, (dat8 V c).before 4 t d = iblk8 V c 4 t) := by
  refine ⟨?_, ?_, ?_, ?_, ?_⟩ <;> intro d <;>
  exact ((dat8 V c).before_in_eq_fetched _ rfl (fun _ => rfl) (fun _ _ _ => rfl) (fun _ => rfl) t d).trans rfl

theorem leaves8_live (c : Dev nD) (w : Fin cfg8.W) (t : Fin cfg8.N) (h : cfg8.idle w (grid8.coords t) = false) :
    (dat8 V c).leavesExact w t = owns (c : Thread nD τ) ((cfg8.win w).stage (cfg8.slots t w)) fullShare ((dat8 V c).after w t) := by
  unfold Dat.leavesExact; rw [h]

theorem idleAt8_6 : ∀ t : Fin cfg8.N, ¬cond2_1 (grid8.coords t) → cfg8.idle 6 (grid8.coords t) = true := by decide +kernel
theorem noFlush8_6 : ∀ t : Fin cfg8.N, ¬cond2_1 (grid8.coords t) → (cfg8.win 6).flush t = false := by decide +kernel
theorem liveAt8_6 : ∀ t : Fin cfg8.N, cond2_1 (grid8.coords t) → cfg8.idle 6 (grid8.coords t) = false := by decide +kernel
theorem idleAt8_7 : ∀ t : Fin cfg8.N, ¬cond2_1 (grid8.coords t) → cfg8.idle 7 (grid8.coords t) = true := by decide +kernel
theorem noFlush8_7 : ∀ t : Fin cfg8.N, ¬cond2_1 (grid8.coords t) → (cfg8.win 7).flush t = false := by decide +kernel
theorem liveAt8_7 : ∀ t : Fin cfg8.N, cond2_1 (grid8.coords t) → cfg8.idle 7 (grid8.coords t) = false := by decide +kernel

noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  obtain ⟨b0, b1, b2, b3, b4⟩ := before8 V c t
  obtain ⟨a0, a1, a2, a3, a4⟩ := after8_in V c t
  simp only [b0, b1, b2, b3, b4]
  rw [show (dat8 V c).owesAt () t.succ = (dat8 V c).owesAt () t.castSucc from rfl]
  rw [show (dat8 V c).Φ t.succ = PhiS8 V c (t.val + 1) t.isLt from rfl, PhiS8_succ, PhiS8_castSucc V c t]
  have hN : t.val < 10 := lt_of_lt_of_eq t.isLt (show cfg8.N = 10 from N_8)
  rw [leaves8_live V c 0 t rfl, leaves8_live V c 1 t rfl, leaves8_live V c 2 t rfl, leaves8_live V c 3 t rfl, leaves8_live V c 4 t rfl, leaves8_live V c 5 t rfl,
    a0, a1, a2, a3, a4, after8_5]
  simp only [hblk8_eq]
  by_cases h9 : t.val = 9
  · have h0 : t.val ≠ 0 := by omega
    have c1 := (hcond2_1 t).mpr h9
    rw [leaves8_live V c 6 t (liveAt8_6 t c1), leaves8_live V c 7 t (liveAt8_7 t c1), after8_6, after8_7,
      accS8_pos V c t h0, accQ8_pos V c t h0, PhiS8_pos V c _ _ h0]
    simp only [hblk8_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_C c Set.univ (grid8.coords t) _ (hstage8_0 _) _ (hstage8_1 _) _ (hstage8_2 _) _ (hstage8_3 _) _ (hstage8_4 _) _ (hstage8_5 _) _ (hstage8_6 _) _ (hstage8_7 _) _ (Memref.isWhole_whole _) _ (Memref.isWhole_whole _) (fun h => h0 ((hcond2_0 t).mp h)) c1 (iblk8 V c 0 t) (iblk8 V c 1 t) (iblk8 V c 2 t) (iblk8 V c 3 t) (iblk8 V c 4 t) _ _ _)
    iframe H0 H1 H2 H3 H4 HS0 HS1
    isplitl [H5]; · iexists _; iexact H5
    isplitl [H6]; · iexists _; iexact H6
    isplitl [H7]; · iexists _; iexact H7
    iintro ⟨H0, H1, H2, H3, H4, H5, H6, H7, HS0, HS1⟩
    iframe HS0 HS1 HR Hg Ho H0 H1 H2 H3 H4 H5 H6 H7
  · have c1 : ¬cond2_1 (grid8.coords t) := fun h => h9 ((hcond2_1 t).mp h)
    rw [Dat.leavesExact_idle (dat8 V c) 6 t (idleAt8_6 t c1) (noFlush8_6 t c1), Dat.leavesExact_idle (dat8 V c) 7 t (idleAt8_7 t c1) (noFlush8_7 t c1)]
    by_cases h0 : t.val = 0
    on_goal 1 => rw [accS8_first V c t h0, accQ8_first V c t h0, PhiS8_zero V c _ _ h0, PhiA8_eq]
    on_goal 2 => rw [accS8_pos V c t h0, accQ8_pos V c t h0, PhiS8_pos V c _ _ h0]
    all_goals (simp only [hblk8_eq]; iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩)
    on_goal 1 => iapply (sound_kernel2_A c Set.univ (grid8.coords t) _ (hstage8_0 _) _ (hstage8_1 _) _ (hstage8_2 _) _ (hstage8_3 _) _ (hstage8_4 _) _ (hstage8_5 _) _ (hstage8_6 _) _ (hstage8_7 _) _ (Memref.isWhole_whole _) _ (Memref.isWhole_whole _) ((hcond2_0 t).mpr h0) c1 (iblk8 V c 0 t) (iblk8 V c 1 t) (iblk8 V c 2 t) (iblk8 V c 3 t) (iblk8 V c 4 t) _)
    on_goal 2 => iapply (sound_kernel2_B c Set.univ (grid8.coords t) _ (hstage8_0 _) _ (hstage8_1 _) _ (hstage8_2 _) _ (hstage8_3 _) _ (hstage8_4 _) _ (hstage8_5 _) _ (hstage8_6 _) _ (hstage8_7 _) _ (Memref.isWhole_whole _) _ (Memref.isWhole_whole _) (fun h => h0 ((hcond2_0 t).mp h)) c1 (iblk8 V c 0 t) (iblk8 V c 1 t) (iblk8 V c 2 t) (iblk8 V c 3 t) (iblk8 V c 4 t) _ _ _)
    all_goals
      iframe H0 H1 H2 H3 H4 HS0 HS1
      isplitl [H5]; · iexists _; iexact H5
      iintro ⟨H0, H1, H2, H3, H4, H5, HS0, HS1⟩
      iframe HS0 HS1 HR Hg Ho H0 H1 H2 H3 H4 H5
      isplitl [H6] <;> iexists _ <;> iassumption

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout8 (c : Dev nD) : (dat8 V c).Φ (Fin.last cfg8.N) ⊢ Pipeline.ΦA spec8 c :=
  Phi_out8 V c _ (by rw [Fin.val_last]; have : cfg8.N = 10 := N_8; omega)

end Region8

end Cert.KernelIdeal.Gen

end
-- ==== Proof.KIBn9.lean ====
import proofs.«421428_j45019847197002_2_alg».proof.Proof.KIBn1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_5 (x0 : Vec F S10000x32 .f32) (x1 x2 x3 x4 : Vec F S1x32 .f32) : Vec F S10000x32 .f32 := out1_5 x0 x1 x2 x3 x4

theorem out9_5_eq (x0 : Vec F S10000x32 .f32) (x1 x2 x3 x4 : Vec F S1x32 .f32) :
    out9_5 x0 x1 x2 x3 x4 = k9_pay1 x0 x2 x1 x3 x4 := out1_5_eq x0 x1 x2 x3 x4

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

theorem before9 (c : Dev nD) (t : Fin cfg9.N) : ∀ (w : Fin cfg9.W) (d), w ≠ 5 → (dat9 V c).before w t d = (dat9 V c).after w t
  | ⟨0, _⟩, d, _ | ⟨1, _⟩, d, _ | ⟨2, _⟩, d, _ | ⟨3, _⟩, d, _ | ⟨4, _⟩, d, _ =>
    ((dat9 V c).before_in_eq_fetched _ rfl (fun _ => rfl) (fun _ _ _ => rfl) (fun _ => by dsimp only [dat9]; rfl) t d).trans
      (by unfold Dat.fetched Dat.blockOf; dsimp only [dat9]; rfl)
  | ⟨5, _⟩, _, h => absurd rfl h

theorem body_obligation9 (c : Dev nD) : BodyObligation (dat9 (F := F) V c) (defs₀ (F := F)) Variants.none () Set.univ := fun t => by
  rw [bigSep_W9, bigSep_W9]
  dsimp only
  show _ ⊢ wp frame _ _ (bodyAt9 t) _
  unfold bodyAt9
  rw [show cc9_bn_norm_kernel (F := F) = cc1_bn_norm_kernel from rfl]
  iintro ⟨HΦ, Ho, ⟨%d0, H0⟩, ⟨%d1, H1⟩, ⟨%d2, H2⟩, ⟨%d3, H3⟩, ⟨%d4, H4⟩, ⟨%d5, H5⟩⟩
  rw [before9 V c t 0 d0 (by decide), before9 V c t 1 d1 (by decide), before9 V c t 2 d2 (by decide), before9 V c t 3 d3 (by decide),
    before9 V c t 4 d4 (by decide)]
  dsimp only [dat9, out9_5]
  iapply (sound_kernel1 c Set.univ _ _ _ _ _ _ _ _ _ _ _ _ _ (iblk9 V c 0 t) (iblk9 V c 1 t) (iblk9 V c 2 t) (iblk9 V c 3 t) (iblk9 V c 4 t) _)
  iframe H0 H1 H2 H3 H4
  isplitl [H5]; · iexists _; iexact H5
  iintro ⟨H0, H1, H2, H3, H4, H5⟩
  iframe
  iexact Ho

theorem hin9 (c : Dev nD) : Pipeline.ΦA spec9 c ⊢ (dat9 (F := F) V c).Φ 0 := by
  dsimp only [dat9]; exact BI.Entails.refl _
theorem hout9 (c : Dev nD) : (dat9 (F := F) V c).Φ (Fin.last cfg9.N) ⊢ Pipeline.ΦA spec9 c := by
  dsimp only [dat9]; exact BI.Entails.refl _

end Region9

end Cert.KernelIdeal.Gen

end
-- ==== Proof.KIPool10.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section Region10

abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val = 0 :=
  (by decide +kernel : ∀ t : Fin grid10.N, cond10_0 (grid10.coords t) ↔ t.val = 0)

abbrev cond10_1 (i : grid10.Coords) : Prop := k10_cond2 i = 1#1

theorem hcond10_1 : ∀ t : Fin cfg10.N, cond10_1 (grid10.coords t) ↔ t.val = 99 :=
  (by decide +kernel : ∀ t : Fin grid10.N, cond10_1 (grid10.coords t) ↔ t.val = 99)

theorem hz10 : (![0, 0] : Fin 2 → Nat) = fun _ => 0 := funext fun a => by fin_cases a <;> rfl

section Kernel10
variable (c : Dev nD) (E : Set ℕ) (i : grid10.Coords) (arg1 : Memref sig .tc .vmem S1000x32 .f32) (harg1 : arg1.IsWhole) (arg2 : Memref sig .tc .vmem S1000x1 .i32) (harg2 : arg2.IsWhole) (arg3 : Memref sig .tc .vmem S32x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x32 .f32) (harg6 : arg6.IsWhole)
  (x0 : Vec F S1000x32 .f32) (x1 : Vec F S1000x1 .i32) (x2 : Vec F S32x128 .f32) (x3 : Vec F S1x128 .f32) (x4 : Vec F S2048x128 .f32) (x5 : Vec F S2048x32 .f32)

abbrev io10 (y4 : Vec F S2048x128 .f32) (y5 : Vec F S2048x32 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare y4 ∗ owns (c : Thread nD τ) arg6 fullShare y5)

set_option maxHeartbeats 1000000 in
theorem kernel10_A (K : PUnit → sProp 𝕄) (hc0 : cond10_0 i) (hc1 : ¬cond10_1 i) :
    iprop(io10 c arg1 arg2 arg3 arg4 arg5 arg6 x0 x1 x2 x3 x4 x5 ∗ (io10 c arg1 arg2 arg3 arg4 arg5 arg6 x0 x1 x2 x3 x4 (k10_pay2 x0 x1 (k10_pay1 (F := F))) -∗ K ⟨⟩)) ⊢ wp frame (wpE (defs₀ (F := F)) Variants.none c none) E (cc10_pool_fc_kernel i arg1 harg1 arg2 harg2 arg3 harg3 arg4 harg4 arg5 harg5 arg6 harg6) K := by
  simp only [cc10_pool_fc_kernel_eq_skeleton]; unfold cc10_pool_fc_kernel_skel
  unfold io10 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec (disch := first | exact hc0 | exact hc1)
  sl_step
  iapply Hk
  isplitl [H0]; swap; isplitl [H1]; swap; isplitl [H2]; swap; isplitl [H3]; swap; isplitl [H4]; swap
  all_goals (iexists _; isplitr; swap; iassumption; ipureintro)
  · sl_unfold_words; rw [View.read_writes_eq_canon _ _ _ (fun y => ⟨_, List.Mem.head _, View.mem_set_unit_zero hz10 inb_S2048x32_S2048x32_0_0 y⟩), View.canon_cons_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  all_goals rfl

set_option maxHeartbeats 1000000 in
theorem kernel10_B (K : PUnit → sProp 𝕄) (hc0 : ¬cond10_0 i) (hc1 : ¬cond10_1 i) :
    iprop(io10 c arg1 arg2 arg3 arg4 arg5 arg6 x0 x1 x2 x3 x4 x5 ∗ (io10 c arg1 arg2 arg3 arg4 arg5 arg6 x0 x1 x2 x3 x4 (k10_pay2 x0 x1 x5) -∗ K ⟨⟩)) ⊢ wp frame (wpE (defs₀ (F := F)) Variants.none c none) E (cc10_pool_fc_kernel i arg1 harg1 arg2 harg2 arg3 harg3 arg4 harg4 arg5 harg5 arg6 harg6) K := by
  simp only [cc10_pool_fc_kernel_eq_skeleton]; unfold cc10_pool_fc_kernel_skel
  unfold io10 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec (disch := first | exact hc0 | exact hc1)
  sl_step
  iapply Hk
  isplitl [H0]; swap; isplitl [H1]; swap; isplitl [H2]; swap; isplitl [H3]; swap; isplitl [H4]; swap
  all_goals (iexists _; isplitr; swap; iassumption; ipureintro)
  · sl_unfold_words; rw [View.read_writes_eq_canon _ _ _ (fun y => ⟨_, List.Mem.head _, View.mem_set_unit_zero hz10 inb_S2048x32_S2048x32_0_0 y⟩), View.canon_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  all_goals rfl

set_option maxHeartbeats 1000000 in
theorem kernel10_C (K : PUnit → sProp 𝕄) (hc0 : ¬cond10_0 i) (hc1 : cond10_1 i) :
    iprop(io10 c arg1 arg2 arg3 arg4 arg5 arg6 x0 x1 x2 x3 x4 x5 ∗ (io10 c arg1 arg2 arg3 arg4 arg5 arg6 x0 x1 x2 x3 (k10_pay3 x2 (k10_pay2 x0 x1 x5) x3) (k10_pay2 x0 x1 x5) -∗ K ⟨⟩)) ⊢ wp frame (wpE (defs₀ (F := F)) Variants.none c none) E (cc10_pool_fc_kernel i arg1 harg1 arg2 harg2 arg3 harg3 arg4 harg4 arg5 harg5 arg6 harg6) K := by
  simp only [cc10_pool_fc_kernel_eq_skeleton]; unfold cc10_pool_fc_kernel_skel
  unfold io10 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec (disch := first | exact hc0 | exact hc1)
  sl_step
  iapply Hk
  isplitl [H0]; swap; isplitl [H1]; swap; isplitl [H2]; swap; isplitl [H3]; swap; isplitl [H4]; swap
  all_goals (iexists _; isplitr; swap; iassumption; ipureintro)
  · sl_unfold_words; rw [View.read_writes_eq_canon _ _ _ (fun y => ⟨_, List.Mem.head _, View.mem_set_unit_zero hz10 inb_S2048x32_S2048x32_0_0 y⟩), View.canon_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  · sl_unfold_words; rw [View.read_writes_eq_canon _ _ _ (fun y => ⟨_, List.Mem.head _, View.mem_set_unit_zero hz10 inb_S2048x128_S2048x128_0_0 y⟩), View.canon_unit_zero hz10]
    simp only [View.readAt_eq_ld, View.readCov_unit_zero (S := S2048x32) _ hz10, View.ld_unit_zero (S := S1000x32) hz10, View.ld_unit_zero (S := S1000x1) hz10, View.ld_unit_zero (S := S2048x32) hz10, View.ld_unit_zero (S := S32x128) hz10, View.ld_unit_zero (S := S1x128) hz10]
  all_goals rfl

end Kernel10

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem lastLt10 : 99 < cfg10.N := by have h : cfg10.N = 100 := N_10; omega

abbrev tLast10 : Fin cfg10.N := ⟨99, lastLt10⟩

theorem idleAt10_4 : ∀ t : Fin cfg10.N, ¬cond10_1 (grid10.coords t) → idle10 4 (grid10.coords t) = true := fun t h => by
  have e : idle10 4 (grid10.coords t) = !(k10_cond2 (grid10.coords t) == 1#1) := rfl
  rw [e]; simpa using h

theorem noFlush10_4 : ∀ t : Fin cfg10.N, ¬cond10_1 (grid10.coords t) → (win10 4).flush t = false := fun t h => by
  have hN : t.val < 100 := lt_of_lt_of_eq t.isLt (show cfg10.N = 100 from N_10)
  have h1 : t.val ≠ 99 := fun e => h ((hcond10_1 t).mpr e)
  cases hf : (win10 4).flush t with
  | false => rfl
  | true => exact absurd ((flush10_4 t).mp hf) (by omega)

theorem liveAt10_4 : ∀ t : Fin cfg10.N, cond10_1 (grid10.coords t) → idle10 4 (grid10.coords t) = false := fun t h => by
  have e : idle10 4 (grid10.coords t) = !(k10_cond2 (grid10.coords t) == 1#1) := rfl
  rw [e]; simpa using h

abbrev scM10 : Memref sig .tc .vmem S2048x32 .f32 := Memref.whole cc10_scratch0

theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

def accP10 (c : Dev nD) : (n : ℕ) → n < cfg10.N → Vec F S2048x32 .f32
  | 0, hn => k10_pay2 (iblk10 V c 0 ⟨0, hn⟩) (iblk10 V c 1 ⟨0, hn⟩) (k10_pay1 (F := F))
  | n + 1, hn => k10_pay2 (iblk10 V c 0 ⟨n + 1, hn⟩) (iblk10 V c 1 ⟨n + 1, hn⟩) (accP10 c n (Nat.lt_of_succ_lt hn))

theorem accP10_zero (c : Dev nD) (hn : 0 < cfg10.N) :
    accP10 V c 0 hn = k10_pay2 (iblk10 V c 0 ⟨0, hn⟩) (iblk10 V c 1 ⟨0, hn⟩) (k10_pay1 (F := F)) := rfl

theorem accP10_succ (c : Dev nD) (n : ℕ) (hn : n + 1 < cfg10.N) :
    accP10 V c (n + 1) hn = k10_pay2 (iblk10 V c 0 ⟨n + 1, hn⟩) (iblk10 V c 1 ⟨n + 1, hn⟩) (accP10 V c n (Nat.lt_of_succ_lt hn)) := rfl

theorem accP10_first (c : Dev nD) (t : Fin cfg10.N) (hz : t.val = 0) :
    accP10 V c t.val t.isLt = k10_pay2 (iblk10 V c 0 t) (iblk10 V c 1 t) (k10_pay1 (F := F)) := by
  obtain ⟨n, hn⟩ := t
  cases n with
  | zero => rfl
  | succ n => exact absurd hz (Nat.succ_ne_zero n)

theorem accP10_later (c : Dev nD) (t : Fin cfg10.N) (hz : t.val ≠ 0) :
    accP10 V c t.val t.isLt = k10_pay2 (iblk10 V c 0 t) (iblk10 V c 1 t) (accP10 V c (t.val - 1) (Nat.lt_of_le_of_lt (Nat.sub_le _ _) t.isLt)) := by
  obtain ⟨n, hn⟩ := t
  cases n with
  | zero => exact absurd rfl hz
  | succ n => rfl

def out10_4 (c : Dev nD) : Vec F S2048x128 .f32 :=
  k10_pay3 (iblk10 V c 2 tLast10) (accP10 V c 99 lastLt10) (iblk10 V c 3 tLast10)

def PhiS10 (c : Dev nD) : (n : ℕ) → n ≤ cfg10.N → sProp 𝕄
  | 0, _ => Pipeline.ΦA spec10 c
  | n + 1, hn => iprop(iprop(owns (c : Thread nD τ) scM10 fullShare (accP10 V c n hn)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10 fullShare (accP10 V c n hn)
      ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(owns (c : Thread nD τ) scM10 fullShare (accP10 V c (n - 1) (by omega))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 V c
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_4 (c : Dev nD) (t : Fin cfg10.N) : (dat10 V c).after 4 t = out10_4 V c := by dsimp only [dat10]

theorem before10 (c : Dev nD) (t : Fin cfg10.N) : ∀ (w : Fin cfg10.W) (d), w ≠ 4 → (dat10 V c).before w t d = (dat10 V c).after w t
  | ⟨0, _⟩, d, _ | ⟨1, _⟩, d, _ | ⟨2, _⟩, d, _ | ⟨3, _⟩, d, _ =>
    ((dat10 V c).before_in_eq_fetched _ rfl (fun _ => rfl) (fun _ _ _ => rfl) (fun _ => by dsimp only [dat10]; rfl) t d).trans
      (by unfold Dat.fetched Dat.blockOf; dsimp only [dat10]; rfl)
  | ⟨4, _⟩, _, h => absurd rfl h

theorem body_obligation10 (c : Dev nD) : BodyObligation (dat10 (F := F) V c) (defs₀ (F := F)) Variants.none () Set.univ := fun t => by
  rw [bigSep_W10, bigSep_W10]
  dsimp only
  show _ ⊢ wp frame _ _ (bodyAt10 t) _
  rw [PhiS10_castSucc V c t, show (dat10 V c).Φ t.succ = PhiS10 V c (t.val + 1) t.isLt from rfl, PhiS10_succ]
  have hN : t.val < 100 := lt_of_lt_of_eq t.isLt (show cfg10.N = 100 from N_10)
  by_cases h0 : t.val = 0
  · have hc0 : cond10_0 (grid10.coords t) := (hcond10_0 t).mpr h0
    have hc1 : ¬cond10_1 (grid10.coords t) := fun h => by have h' := (hcond10_1 t).mp h; omega
    rw [idleAt10_4 t hc1, noFlush10_4 t hc1, accP10_first V c t h0, PhiS10_zero V c _ _ h0, PhiA10_eq]
    iintro ⟨⟨⟨⟨%ds, HS⟩, HR⟩, Hg⟩, Ho, ⟨%d0, H0⟩, ⟨%d1, H1⟩, ⟨%d2, H2⟩, ⟨%d3, H3⟩, ⟨%d4, H4⟩⟩
    rw [before10 V c t 0 d0 (by decide), before10 V c t 1 d1 (by decide), before10 V c t 2 d2 (by decide), before10 V c t 3 d3 (by decide)]
    dsimp only [dat10]
    iapply (kernel10_A c Set.univ (grid10.coords t) _ _ _ _ _ _ _ _ _ _ _ _ (iblk10 V c 0 t) (iblk10 V c 1 t) (iblk10 V c 2 t) (iblk10 V c 3 t) _ ds _ hc0 hc1)
    unfold io10
    iframe H0 H1 H2 H3 H4 HS
    iintro ⟨H0, H1, H2, H3, H4, HS⟩
    iframe H0 H1 H2 H3 HS HR Hg
    isplitl [Ho]; · iexact Ho
    iexists _; iexact H4
  · have hc0 : ¬cond10_0 (grid10.coords t) := fun h => h0 ((hcond10_0 t).mp h)
    rw [accP10_later V c t h0, PhiS10_pos V c _ _ h0]
    by_cases h1 : t.val = 99
    · have hc1 : cond10_1 (grid10.coords t) := (hcond10_1 t).mpr h1
      have hout : out10_4 V c = k10_pay3 (iblk10 V c 2 t) (k10_pay2 (iblk10 V c 0 t) (iblk10 V c 1 t) (accP10 V c (t.val - 1) (Nat.lt_of_le_of_lt (Nat.sub_le _ _) t.isLt))) (iblk10 V c 3 t) := by
        obtain rfl : t = tLast10 := Fin.ext h1
        rfl
      rw [liveAt10_4 t hc1]
      iintro ⟨⟨⟨HS, HR⟩, Hg⟩, Ho, ⟨%d0, H0⟩, ⟨%d1, H1⟩, ⟨%d2, H2⟩, ⟨%d3, H3⟩, ⟨%d4, H4⟩⟩
      rw [before10 V c t 0 d0 (by decide), before10 V c t 1 d1 (by decide), before10 V c t 2 d2 (by decide), before10 V c t 3 d3 (by decide)]
      dsimp only [dat10]
      rw [hout]
      iapply (kernel10_C c Set.univ (grid10.coords t) _ _ _ _ _ _ _ _ _ _ _ _ (iblk10 V c 0 t) (iblk10 V c 1 t) (iblk10 V c 2 t) (iblk10 V c 3 t) _ _ _ hc0 hc1)
      unfold io10
      iframe H0 H1 H2 H3 H4 HS
      iintro ⟨H0, H1, H2, H3, H4, HS⟩
      iframe H0 H1 H2 H3 H4 HS HR Hg
      iexact Ho
    · have hc1 : ¬cond10_1 (grid10.coords t) := fun h => h1 ((hcond10_1 t).mp h)
      rw [idleAt10_4 t hc1, noFlush10_4 t hc1]
      iintro ⟨⟨⟨HS, HR⟩, Hg⟩, Ho, ⟨%d0, H0⟩, ⟨%d1, H1⟩, ⟨%d2, H2⟩, ⟨%d3, H3⟩, ⟨%d4, H4⟩⟩
      rw [before10 V c t 0 d0 (by decide), before10 V c t 1 d1 (by decide), before10 V c t 2 d2 (by decide), before10 V c t 3 d3 (by decide)]
      dsimp only [dat10]
      iapply (kernel10_B c Set.univ (grid10.coords t) _ _ _ _ _ _ _ _ _ _ _ _ (iblk10 V c 0 t) (iblk10 V c 1 t) (iblk10 V c 2 t) (iblk10 V c 3 t) _ _ _ hc0 hc1)
      unfold io10
      iframe H0 H1 H2 H3 H4 HS
      iintro ⟨H0, H1, H2, H3, H4, HS⟩
      iframe H0 H1 H2 H3 HS HR Hg
      isplitl [Ho]; · iexact Ho
      iexists _; iexact H4

theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS, HR⟩, Hg⟩
  iframe HR Hg
  iexists _; iexact HS

theorem hout10 (c : Dev nD) : (dat10 V c).Φ (Fin.last cfg10.N) ⊢ Pipeline.ΦA spec10 c :=
  Phi_out10 V c _ (by rw [Fin.val_last]; have : cfg10.N = 100 := N_10; omega)

end Region10

end Cert.KernelIdeal.Gen

end
-- ==== Proof.KIVals.lean ====
import proofs.«421428_j45019847197002_2_alg».proof.Proof.Gen.KernelIdeal.Regions
import proofs.«421428_j45019847197002_2_alg».proof.Proof.KIMlp0
import proofs.«421428_j45019847197002_2_alg».proof.Proof.KIBn1
import proofs.«421428_j45019847197002_2_alg».proof.Proof.KIMlp2
import proofs.«421428_j45019847197002_2_alg».proof.Proof.KIBn3
import proofs.«421428_j45019847197002_2_alg».proof.Proof.KIMlp4
import proofs.«421428_j45019847197002_2_alg».proof.Proof.KIBn5
import proofs.«421428_j45019847197002_2_alg».proof.Proof.KIMlp6
import proofs.«421428_j45019847197002_2_alg».proof.Proof.KIBn7
import proofs.«421428_j45019847197002_2_alg».proof.Proof.KIMlp8
import proofs.«421428_j45019847197002_2_alg».proof.Proof.KIBn9
import proofs.«421428_j45019847197002_2_alg».proof.Proof.KIPool10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe
open Idealize.SL Idealize.SL.BI
open scoped Idealize.SL.BI
open Idealize.SL.BI.BIBase
open Idealize.ShloMosaic.Pipeline (Dat Cfg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem withArrays_rest {gr W : ℕ} (win : Fin W → Pipeline.WinSpec sig gr) (c : Dev nD) (V : Valuation τ sig (Elt F))
    (A : (w : Fin W) → Buf (Elt F) ((win w).arr.view.loc (c : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

-- if r is window w's array then w is an input and `arrAt_in` applies; otherwise `withArrays_of_ne`
theorem withArrays_in {cfg : Cfg sig Λ₀} (hinj : Function.Injective (Pipeline.arrRef cfg.spec)) (c : Dev nD)
    (V : Valuation τ sig (Elt F)) (dat : Dat τ (Elt F) Unit ℕ (UR sig nD τ) ℕ cfg c)
    (hA : ∀ w, dat.A w = V (Proc.devRef .tc (Pipeline.arrRef cfg.spec w))) (r : Ref sig .tc)
    (h : ∀ w, Pipeline.arrRef cfg.spec w = r → (cfg.win w).isOut = false) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    rw [Pipeline.withArrays_arr _ hinj, dat.arrAt_in w (h w rfl), hA]
  · exact Pipeline.withArrays_of_ne _ c V _ r fun w e => hr ⟨w, e⟩

abbrev B0 : Dev nD → Valuation τ sig (Elt F) := fun c b => (s₀ m ρ).mem ((c : Dev nD), b)

section
variable (c : Dev nD)

abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
theorem B1_keep (r : Ref sig .tc) (h : r ∉ hostOps0_W) : B1 m ρ c (Proc.devRef .tc r) = B0 m ρ c (Proc.devRef .tc r) :=
  StableHlo.after_of_writes_sub hostOps0 _ hostOps0_writes h
def B2 : Valuation τ sig (Elt F) :=
  Pipeline.withArrays spec0 c (B1 m ρ c) fun w => (dat0 (U1 m ρ) c).arrAt w cfg0.N
theorem B2_arr (w : Fin cfg0.W) :
    B2 m ρ c (Proc.devRef .tc (Pipeline.arrRef spec0 w)) = (dat0 (U1 m ρ) c).arrAt w cfg0.N :=
  Pipeline.withArrays_arr spec0 launch0.win.arr_inj c _ _ w
theorem B2_of_ne (b : Ref sig .tc) (hb : ∀ w, Pipeline.arrRef spec0 w ≠ b) :
    B2 m ρ c (Proc.devRef .tc b) = B1 m ρ c (Proc.devRef .tc b) :=
  Pipeline.withArrays_of_ne spec0 c _ _ b hb
abbrev U2 : (c : Dev nD) → (b : Ref sig .tc) → Buf (Elt F) ((c : Thread nD τ).loc b) := fun c b => B2 m ρ c b
theorem hF0 (w : Fin cfg0.W) : (dat0 (U1 m ρ) c).arrAt w cfg0.N = U2 m ρ c (Pipeline.arrRef spec0 w) :=
  (B2_arr m ρ c w).symm
theorem hrest0 : ∀ b, b ∉ Finset.univ.image (Pipeline.arrRef spec0) → U2 m ρ c b = U1 m ρ c b :=
  withArrays_rest spec0 c _ _

abbrev B3 : Dev nD → Valuation τ sig (Elt F) := fun c => StableHlo.after hostOps1 (B2 m ρ c)
abbrev U3 : (c : Dev nD) → (b : Ref sig .tc) → Buf (Elt F) ((c : Thread nD τ).loc b) := fun c b => B3 m ρ c b
theorem B3_keep (r : Ref sig .tc) (h : r ∉ hostOps1_W) : B3 m ρ c (Proc.devRef .tc r) = B2 m ρ c (Proc.devRef .tc r) :=
  StableHlo.after_of_writes_sub hostOps1 _ hostOps1_writes h
def B4 : Valuation τ sig (Elt F) :=
  Pipeline.withArrays spec1 c (B3 m ρ c) fun w => (dat1 (U3 m ρ) c).arrAt w cfg1.N
theorem B4_arr (w : Fin cfg1.W) :
    B4 m ρ c (Proc.devRef .tc (Pipeline.arrRef spec1 w)) = (dat1 (U3 m ρ) c).arrAt w cfg1.N :=
  Pipeline.withArrays_arr spec1 launch1.win.arr_inj c _ _ w
theorem B4_of_ne (b : Ref sig .tc) (hb : ∀ w, Pipeline.arrRef spec1 w ≠ b) :
    B4 m ρ c (Proc.devRef .tc b) = B3 m ρ c (Proc.devRef .tc b) :=
  Pipeline.withArrays_of_ne spec1 c _ _ b hb
abbrev U4 : (c : Dev nD) → (b : Ref sig .tc) → Buf (Elt F) ((c : Thread nD τ).loc b) := fun c b => B4 m ρ c b
theorem hF1 (w : Fin cfg1.W) : (dat1 (U3 m ρ) c).arrAt w cfg1.N = U4 m ρ c (Pipeline.arrRef spec1 w) :=
  (B4_arr m ρ c w).symm
theorem hrest1 : ∀ b, b ∉ Finset.univ.image (Pipeline.arrRef spec1) → U4 m ρ c b = U3 m ρ c b :=
  withArrays_rest spec1 c _ _

abbrev B5 : Dev nD → Valuation τ sig (Elt F) := fun c => StableHlo.after hostOps2 (B4 m ρ c)
abbrev U5 : (c : Dev nD) → (b : Ref sig .tc) → Buf (Elt F) ((c : Thread nD τ).loc b) := fun c b => B5 m ρ c b
theorem B5_keep (r : Ref sig .tc) (h : r ∉ hostOps2_W) : B5 m ρ c (Proc.devRef .tc r) = B4 m ρ c (Proc.devRef .tc r) :=
  StableHlo.after_of_writes_sub hostOps2 _ hostOps2_writes h
def B6 : Valuation τ sig (Elt F) :=
  Pipeline.withArrays spec2 c (B5 m ρ c) fun w => (dat2 (U5 m ρ) c).arrAt w cfg2.N
theorem B6_arr (w : Fin cfg2.W) :
    B6 m ρ c (Proc.devRef .tc (Pipeline.arrRef spec2 w)) = (dat2 (U5 m ρ) c).arrAt w cfg2.N :=
  Pipeline.withArrays_arr spec2 launch2.win.arr_inj c _ _ w
theorem B6_of_ne (b : Ref sig .tc) (hb : ∀ w, Pipeline.arrRef spec2 w ≠ b) :
    B6 m ρ c (Proc.devRef .tc b) = B5 m ρ c (Proc.devRef .tc b) :=
  Pipeline.withArrays_of_ne spec2 c _ _ b hb
abbrev U6 : (c : Dev nD) → (b : Ref sig .tc) → Buf (Elt F) ((c : Thread nD τ).loc b) := fun c b => B6 m ρ c b
theorem hF2 (w : Fin cfg2.W) : (dat2 (U5 m ρ) c).arrAt w cfg2.N = U6 m ρ c (Pipeline.arrRef spec2 w) :=
  (B6_arr m ρ c w).symm
theorem hrest2 : ∀ b, b ∉ Finset.univ.image (Pipeline.arrRef spec2) → U6 m ρ c b = U5 m ρ c b :=
  withArrays_rest spec2 c _ _

abbrev B7 : Dev nD → Valuation τ sig (Elt F) := fun c => StableHlo.after hostOps3 (B6 m ρ c)
abbrev U7 : (c : Dev nD) → (b : Ref sig .tc) → Buf (Elt F) ((c : Thread nD τ).loc b) := fun c b => B7 m ρ c b
theorem B7_keep (r : Ref sig .tc) (h : r ∉ hostOps3_W) : B7 m ρ c (Proc.devRef .tc r) = B6 m ρ c (Proc.devRef .tc r) :=
  StableHlo.after_of_writes_sub hostOps3 _ hostOps3_writes h
def B8 : Valuation τ sig (Elt F) :=
  Pipeline.withArrays spec3 c (B7 m ρ c) fun w => (dat3 (U7 m ρ) c).arrAt w cfg3.N
theorem B8_arr (w : Fin cfg3.W) :
    B8 m ρ c (Proc.devRef .tc (Pipeline.arrRef spec3 w)) = (dat3 (U7 m ρ) c).arrAt w cfg3.N :=
  Pipeline.withArrays_arr spec3 launch3.win.arr_inj c _ _ w
theorem B8_of_ne (b : Ref sig .tc) (hb : ∀ w, Pipeline.arrRef spec3 w ≠ b) :
    B8 m ρ c (Proc.devRef .tc b) = B7 m ρ c (Proc.devRef .tc b) :=
  Pipeline.withArrays_of_ne spec3 c _ _ b hb
abbrev U8 : (c : Dev nD) → (b : Ref sig .tc) → Buf (Elt F) ((c : Thread nD τ).loc b) := fun c b => B8 m ρ c b
theorem hF3 (w : Fin cfg3.W) : (dat3 (U7 m ρ) c).arrAt w cfg3.N = U8 m ρ c (Pipeline.arrRef spec3 w) :=
  (B8_arr m ρ c w).symm
theorem hrest3 : ∀ b, b ∉ Finset.univ.image (Pipeline.arrRef spec3) → U8 m ρ c b = U7 m ρ c b :=
  withArrays_rest spec3 c _ _

abbrev B9 : Dev nD → Valuation τ sig (Elt F) := fun c => StableHlo.after hostOps4 (B8 m ρ c)
abbrev U9 : (c : Dev nD) → (b : Ref sig .tc) → Buf (Elt F) ((c : Thread nD τ).loc b) := fun c b => B9 m ρ c b
theorem B9_keep (r : Ref sig .tc) (h : r ∉ hostOps4_W) : B9 m ρ c (Proc.devRef .tc r) = B8 m ρ c (Proc.devRef .tc r) :=
  StableHlo.after_of_writes_sub hostOps4 _ hostOps4_writes h
def B10 : Valuation τ sig (Elt F) :=
  Pipeline.withArrays spec4 c (B9 m ρ c) fun w => (dat4 (U9 m ρ) c).arrAt w cfg4.N
theorem B10_arr (w : Fin cfg4.W) :
    B10 m ρ c (Proc.devRef .tc (Pipeline.arrRef spec4 w)) = (dat4 (U9 m ρ) c).arrAt w cfg4.N :=
  Pipeline.withArrays_arr spec4 launch4.win.arr_inj c _ _ w
theorem B10_of_ne (b : Ref sig .tc) (hb : ∀ w, Pipeline.arrRef spec4 w ≠ b) :
    B10 m ρ c (Proc.devRef .tc b) = B9 m ρ c (Proc.devRef .tc b) :=
  Pipeline.withArrays_of_ne spec4 c _ _ b hb
abbrev U10 : (c : Dev nD) → (b : Ref sig .tc) → Buf (Elt F) ((c : Thread nD τ).loc b) := fun c b => B10 m ρ c b
theorem hF4 (w : Fin cfg4.W) : (dat4 (U9 m ρ) c).arrAt w cfg4.N = U10 m ρ c (Pipeline.arrRef spec4 w) :=
  (B10_arr m ρ c w).symm
theorem hrest4 : ∀ b, b ∉ Finset.univ.image (Pipeline.arrRef spec4) → U10 m ρ c b = U9 m ρ c b :=
  withArrays_rest spec4 c _ _

abbrev B11 : Dev nD → Valuation τ sig (Elt F) := fun c => StableHlo.after hostOps5 (B10 m ρ c)
abbrev U11 : (c : Dev nD) → (b : Ref sig .tc) → Buf (Elt F) ((c : Thread nD τ).loc b) := fun c b => B11 m ρ c b
theorem B11_keep (r : Ref sig .tc) (h : r ∉ hostOps5_W) : B11 m ρ c (Proc.devRef .tc r) = B10 m ρ c (Proc.devRef .tc r) :=
  StableHlo.after_of_writes_sub hostOps5 _ hostOps5_writes h
def B12 : Valuation τ sig (Elt F) :=
  Pipeline.withArrays spec5 c (B11 m ρ c) fun w => (dat5 (U11 m ρ) c).arrAt w cfg5.N
theorem B12_arr (w : Fin cfg5.W) :
    B12 m ρ c (Proc.devRef .tc (Pipeline.arrRef spec5 w)) = (dat5 (U11 m ρ) c).arrAt w cfg5.N :=
  Pipeline.withArrays_arr spec5 launch5.win.arr_inj c _ _ w
theorem B12_of_ne (b : Ref sig .tc) (hb : ∀ w, Pipeline.arrRef spec5 w ≠ b) :
    B12 m ρ c (Proc.devRef .tc b) = B11 m ρ c (Proc.devRef .tc b) :=
  Pipeline.withArrays_of_ne spec5 c _ _ b hb
abbrev U12 : (c : Dev nD) → (b : Ref sig .tc) → Buf (Elt F) ((c : Thread nD τ).loc b) := fun c b => B12 m ρ c b
theorem hF5 (w : Fin cfg5.W) : (dat5 (U11 m ρ) c).arrAt w cfg5.N = U12 m ρ c (Pipeline.arrRef spec5 w) :=
  (B12_arr m ρ c w).symm
theorem hrest5 : ∀ b, b ∉ Finset.univ.image (Pipeline.arrRef spec5) → U12 m ρ c b = U11 m ρ c b :=
  withArrays_rest spec5 c _ _

abbrev B13 : Dev nD → Valuation τ sig (Elt F) := fun c => StableHlo.after hostOps6 (B12 m ρ c)
abbrev U13 : (c : Dev nD) → (b : Ref sig .tc) → Buf (Elt F) ((c : Thread nD τ).loc b) := fun c b => B13 m ρ c b
theorem B13_keep (r : Ref sig .tc) (h : r ∉ hostOps6_W) : B13 m ρ c (Proc.devRef .tc r) = B12 m ρ c (Proc.devRef .tc r) :=
  StableHlo.after_of_writes_sub hostOps6 _ hostOps6_writes h
def B14 : Valuation τ sig (Elt F) :=
  Pipeline.withArrays spec6 c (B13 m ρ c) fun w => (dat6 (U13 m ρ) c).arrAt w cfg6.N
theorem B14_arr (w : Fin cfg6.W) :
    B14 m ρ c (Proc.devRef .tc (Pipeline.arrRef spec6 w)) = (dat6 (U13 m ρ) c).arrAt w cfg6.N :=
  Pipeline.withArrays_arr spec6 launch6.win.arr_inj c _ _ w
theorem B14_of_ne (b : Ref sig .tc) (hb : ∀ w, Pipeline.arrRef spec6 w ≠ b) :
    B14 m ρ c (Proc.devRef .tc b) = B13 m ρ c (Proc.devRef .tc b) :=
  Pipeline.withArrays_of_ne spec6 c _ _ b hb
abbrev U14 : (c : Dev nD) → (b : Ref sig .tc) → Buf (Elt F) ((c : Thread nD τ).loc b) := fun c b => B14 m ρ c b
theorem hF6 (w : Fin cfg6.W) : (dat6 (U13 m ρ) c).arrAt w cfg6.N = U14 m ρ c (Pipeline.arrRef spec6 w) :=
  (B14_arr m ρ c w).symm
theorem hrest6 : ∀ b, b ∉ Finset.univ.image (Pipeline.arrRef spec6) → U14 m ρ c b = U13 m ρ c b :=
  withArrays_rest spec6 c _ _

abbrev B15 : Dev nD → Valuation τ sig (Elt F) := fun c => StableHlo.after hostOps7 (B14 m ρ c)
abbrev U15 : (c : Dev nD) → (b : Ref sig .tc) → Buf (Elt F) ((c : Thread nD τ).loc b) := fun c b => B15 m ρ c b
theorem B15_keep (r : Ref sig .tc) (h : r ∉ hostOps7_W) : B15 m ρ c (Proc.devRef .tc r) = B14 m ρ c (Proc.devRef .tc r) :=
  StableHlo.after_of_writes_sub hostOps7 _ hostOps7_writes h
def B16 : Valuation τ sig (Elt F) :=
  Pipeline.withArrays spec7 c (B15 m ρ c) fun w => (dat7 (U15 m ρ) c).arrAt w cfg7.N
theorem B16_arr (w : Fin cfg7.W) :
    B16 m ρ c (Proc.devRef .tc (Pipeline.arrRef spec7 w)) = (dat7 (U15 m ρ) c).arrAt w cfg7.N :=
  Pipeline.withArrays_arr spec7 launch7.win.arr_inj c _ _ w
theorem B16_of_ne (b : Ref sig .tc) (hb : ∀ w, Pipeline.arrRef spec7 w ≠ b) :
    B16 m ρ c (Proc.devRef .tc b) = B15 m ρ c (Proc.devRef .tc b) :=
  Pipeline.withArrays_of_ne spec7 c _ _ b hb
abbrev U16 : (c : Dev nD) → (b : Ref sig .tc) → Buf (Elt F) ((c : Thread nD τ).loc b) := fun c b => B16 m ρ c b
theorem hF7 (w : Fin cfg7.W) : (dat7 (U15 m ρ) c).arrAt w cfg7.N = U16 m ρ c (Pipeline.arrRef spec7 w) :=
  (B16_arr m ρ c w).symm
theorem hrest7 : ∀ b, b ∉ Finset.univ.image (Pipeline.arrRef spec7) → U16 m ρ c b = U15 m ρ c b :=
  withArrays_rest spec7 c _ _

abbrev B17 : Dev nD → Valuation τ sig (Elt F) := fun c => StableHlo.after hostOps8 (B16 m ρ c)
abbrev U17 : (c : Dev nD) → (b : Ref sig .tc) → Buf (Elt F) ((c : Thread nD τ).loc b) := fun c b => B17 m ρ c b
theorem B17_keep (r : Ref sig .tc) (h : r ∉ hostOps8_W) : B17 m ρ c (Proc.devRef .tc r) = B16 m ρ c (Proc.devRef .tc r) :=
  StableHlo.after_of_writes_sub hostOps8 _ hostOps8_writes h
def B18 : Valuation τ sig (Elt F) :=
  Pipeline.withArrays spec8 c (B17 m ρ c) fun w => (dat8 (U17 m ρ) c).arrAt w cfg8.N
theorem B18_arr (w : Fin cfg8.W) :
    B18 m ρ c (Proc.devRef .tc (Pipeline.arrRef spec8 w)) = (dat8 (U17 m ρ) c).arrAt w cfg8.N :=
  Pipeline.withArrays_arr spec8 launch8.win.arr_inj c _ _ w
theorem B18_of_ne (b : Ref sig .tc) (hb : ∀ w, Pipeline.arrRef spec8 w ≠ b) :
    B18 m ρ c (Proc.devRef .tc b) = B17 m ρ c (Proc.devRef .tc b) :=
  Pipeline.withArrays_of_ne spec8 c _ _ b hb
abbrev U18 : (c : Dev nD) → (b : Ref sig .tc) → Buf (Elt F) ((c : Thread nD τ).loc b) := fun c b => B18 m ρ c b
theorem hF8 (w : Fin cfg8.W) : (dat8 (U17 m ρ) c).arrAt w cfg8.N = U18 m ρ c (Pipeline.arrRef spec8 w) :=
  (B18_arr m ρ c w).symm
theorem hrest8 : ∀ b, b ∉ Finset.univ.image (Pipeline.arrRef spec8) → U18 m ρ c b = U17 m ρ c b :=
  withArrays_rest spec8 c _ _

abbrev B19 : Dev nD → Valuation τ sig (Elt F) := fun c => StableHlo.after hostOps9 (B18 m ρ c)
abbrev U19 : (c : Dev nD) → (b : Ref sig .tc) → Buf (Elt F) ((c : Thread nD τ).loc b) := fun c b => B19 m ρ c b
theorem B19_keep (r : Ref sig .tc) (h : r ∉ hostOps9_W) : B19 m ρ c (Proc.devRef .tc r) = B18 m ρ c (Proc.devRef .tc r) :=
  StableHlo.after_of_writes_sub hostOps9 _ hostOps9_writes h
def B20 : Valuation τ sig (Elt F) :=
  Pipeline.withArrays spec9 c (B19 m ρ c) fun w => (dat9 (U19 m ρ) c).arrAt w cfg9.N
theorem B20_arr (w : Fin cfg9.W) :
    B20 m ρ c (Proc.devRef .tc (Pipeline.arrRef spec9 w)) = (dat9 (U19 m ρ) c).arrAt w cfg9.N :=
  Pipeline.withArrays_arr spec9 launch9.win.arr_inj c _ _ w
theorem B20_of_ne (b : Ref sig .tc) (hb : ∀ w, Pipeline.arrRef spec9 w ≠ b) :
    B20 m ρ c (Proc.devRef .tc b) = B19 m ρ c (Proc.devRef .tc b) :=
  Pipeline.withArrays_of_ne spec9 c _ _ b hb
abbrev U20 : (c : Dev nD) → (b : Ref sig .tc) → Buf (Elt F) ((c : Thread nD τ).loc b) := fun c b => B20 m ρ c b
theorem hF9 (w : Fin cfg9.W) : (dat9 (U19 m ρ) c).arrAt w cfg9.N = U20 m ρ c (Pipeline.arrRef spec9 w) :=
  (B20_arr m ρ c w).symm
theorem hrest9 : ∀ b, b ∉ Finset.univ.image (Pipeline.arrRef spec9) → U20 m ρ c b = U19 m ρ c b :=
  withArrays_rest spec9 c _ _

abbrev B21 : Dev nD → Valuation τ sig (Elt F) := fun c => StableHlo.after hostOps10 (B20 m ρ c)
abbrev U21 : (c : Dev nD) → (b : Ref sig .tc) → Buf (Elt F) ((c : Thread nD τ).loc b) := fun c b => B21 m ρ c b
theorem B21_keep (r : Ref sig .tc) (h : r ∉ hostOps10_W) : B21 m ρ c (Proc.devRef .tc r) = B20 m ρ c (Proc.devRef .tc r) :=
  StableHlo.after_of_writes_sub hostOps10 _ hostOps10_writes h
def B22 : Valuation τ sig (Elt F) :=
  Pipeline.withArrays spec10 c (B21 m ρ c) fun w => (dat10 (U21 m ρ) c).arrAt w cfg10.N
theorem B22_arr (w : Fin cfg10.W) :
    B22 m ρ c (Proc.devRef .tc (Pipeline.arrRef spec10 w)) = (dat10 (U21 m ρ) c).arrAt w cfg10.N :=
  Pipeline.withArrays_arr spec10 launch10.win.arr_inj c _ _ w
theorem B22_of_ne (b : Ref sig .tc) (hb : ∀ w, Pipeline.arrRef spec10 w ≠ b) :
    B22 m ρ c (Proc.devRef .tc b) = B21 m ρ c (Proc.devRef .tc b) :=
  Pipeline.withArrays_of_ne spec10 c _ _ b hb
abbrev U22 : (c : Dev nD) → (b : Ref sig .tc) → Buf (Elt F) ((c : Thread nD τ).loc b) := fun c b => B22 m ρ c b
theorem hF10 (w : Fin cfg10.W) : (dat10 (U21 m ρ) c).arrAt w cfg10.N = U22 m ρ c (Pipeline.arrRef spec10 w) :=
  (B22_arr m ρ c w).symm
theorem hrest10 : ∀ b, b ∉ Finset.univ.image (Pipeline.arrRef spec10) → U22 m ρ c b = U21 m ρ c b :=
  withArrays_rest spec10 c _ _

-- 22 steps back to the launch: a host stretch by `B_keep`, a region by `B_of_ne` or `withArrays_in`
theorem B22_arg (r : Ref sig .tc)
    (h : (r ∉ hostOps0_W ∧ r ∉ hostOps1_W ∧ r ∉ hostOps2_W ∧ r ∉ hostOps3_W ∧ r ∉ hostOps4_W ∧ r ∉ hostOps5_W ∧ r ∉ hostOps6_W ∧ r ∉ hostOps7_W ∧ r ∉ hostOps8_W ∧ r ∉ hostOps9_W ∧ r ∉ hostOps10_W) ∧
      ((∀ w, Pipeline.arrRef spec1 w ≠ r) ∧
      (∀ w, Pipeline.arrRef spec2 w ≠ r) ∧
      (∀ w, Pipeline.arrRef spec3 w ≠ r) ∧
      (∀ w, Pipeline.arrRef spec4 w ≠ r) ∧
      (∀ w, Pipeline.arrRef spec5 w ≠ r) ∧
      (∀ w, Pipeline.arrRef spec6 w ≠ r) ∧
      (∀ w, Pipeline.arrRef spec7 w ≠ r) ∧
      (∀ w, Pipeline.arrRef spec8 w ≠ r) ∧
      (∀ w, Pipeline.arrRef spec9 w ≠ r)) ∧
      (∀ w, Pipeline.arrRef spec0 w = r → (cfg0.win w).isOut = false) ∧
      ∀ w, Pipeline.arrRef spec10 w = r → (cfg10.win w).isOut = false) :
    B22 m ρ c (Proc.devRef .tc r) = m ((c : Thread nD τ).loc r) := by
  obtain ⟨⟨k0, k1, k2, k3, k4, k5, k6, k7, k8, k9, k10⟩, ⟨n1, n2, n3, n4, n5, n6, n7, n8, n9⟩, i0, i10⟩ := h
  exact (withArrays_in launch10.win.arr_inj c _ _ (A_eq10 _ c) r i10).trans <|
    (B21_keep m ρ c r k10).trans <|
    (B20_of_ne m ρ c r n9).trans <|
    (B19_keep m ρ c r k9).trans <|
    (B18_of_ne m ρ c r n8).trans <|
    (B17_keep m ρ c r k8).trans <|
    (B16_of_ne m ρ c r n7).trans <|
    (B15_keep m ρ c r k7).trans <|
    (B14_of_ne m ρ c r n6).trans <|
    (B13_keep m ρ c r k6).trans <|
    (B12_of_ne m ρ c r n5).trans <|
    (B11_keep m ρ c r k5).trans <|
    (B10_of_ne m ρ c r n4).trans <|
    (B9_keep m ρ c r k4).trans <|
    (B8_of_ne m ρ c r n3).trans <|
    (B7_keep m ρ c r k3).trans <|
    (B6_of_ne m ρ c r n2).trans <|
    (B5_keep m ρ c r k2).trans <|
    (B4_of_ne m ρ c r n1).trans <|
    (B3_keep m ρ c r k1).trans <|
    (withArrays_in launch0.win.arr_inj c _ _ (A_eq0 _ c) r i0).trans <|
    B1_keep m ρ c r k0
end

abbrev admN : (p : Fin 11) → (pcfgs (F := F) p).Adm := fun p => (cfgs p).toPCfg_adm
def pdats : (p : Fin 11) → (c : Dev nD) → Dat τ (Elt F) Unit ℕ (UR sig nD τ) ℕ (Pipeline.pin (pcfgs (F := F)) admN p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
  | ⟨5, _⟩ => fun c => dat5 (U11 m ρ) c
  | ⟨6, _⟩ => fun c => dat6 (U13 m ρ) c
  | ⟨7, _⟩ => fun c => dat7 (U15 m ρ) c
  | ⟨8, _⟩ => fun c => dat8 (U17 m ρ) c
  | ⟨9, _⟩ => fun c => dat9 (U19 m ρ) c
  | ⟨10, _⟩ => fun c => dat10 (U21 m ρ) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B22 m ρ c) ∗ ∃ r, prngReg c r)

end Cert.KernelIdeal.Gen

end
-- ==== Proof.KIRegs.lean ====
import proofs.«421428_j45019847197002_2_alg».proof.Proof.KIVals

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

-- Entry splits the region's arrays off the buffers held at B; exit joins them back at B'.
def regOf (p : Fin 11) (lf : Pipeline.LaunchFacts (nD := nD) (τ := τ) cfgs p) (B B' : Dev nD → Valuation τ sig (Elt F))
    {post : Dev nD → sProp 𝕄}
    (hbody : ∀ c, BodyObligation (pdats m ρ p c) (defs₀ (F := F)) Variants.none () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hF : ∀ c w, (pdats m ρ p c).arrAt w (cfgs p).N = B' c (Pipeline.arrRef (cfgs p).spec w))
    (hrest : ∀ c, ∀ b, b ∉ Finset.univ.image (Pipeline.arrRef (cfgs p).spec) → B' c b = B c b)
    (hpost : ∀ c : Dev nD, iprop(StableHlo.held (c : Thread nD τ) (Pipeline.ucRefs τ sig) (B' c) ∗ R c) ⊢ post c)
    (hq : ∀ c w, (pdats m ρ p c).q w = fullShare := by exact fun _ _ => rfl)
    (hA : ∀ c w, (pdats m ρ p c).A w = B c (Pipeline.arrRef (cfgs p).spec w) := by exact fun _ _ => rfl)
    (h0 : ∀ c t, (pdats m ρ p c).owed t = 0 := by exact fun _ _ => rfl)
    (hrec : ∀ c, (pdats m ρ p c).recorded 0 = Set.univ := by exact fun _ => rfl) :
    Pipeline.RegionSeg (pcfgs (F := F)) admN (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (B c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => B c b
  hentry c := by
    rw [Pipeline.ownSems0_none]
    have hsplit := Pipeline.arrays_of_unscopedBufs (p := p) (pcfgs (F := F)) admN (pdats m ρ) lf.win lf.arr_whole c
      ((pdats m ρ p c).share_full (hq c)) (fun b => B c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun _ _ => Or.inl (hrec c ▸ trivial)
      iexact HO
    isplitl [Hp]; · iexact Hp
    iexact Hrest
  hin c := by
    iintro ⟨Hp, -, Hr⟩
    iapply (hin c)
    unfold Pipeline.ΦA
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admN (Ix := Unit) (Name := ℕ) (U := UR sig nD τ) (Lvl := ℕ)
      lf.win lf.arr_whole c (pdats m ρ) ((pdats m ρ p c).share_full (hq c))
      (fun b => B c b) (fun b => B' c b) ((pdats m ρ p c).arrAt · (cfgs p).N) (hF c) (hrest c)
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

def reg0 : Pipeline.RegionSeg (pcfgs (F := F)) admN (pdats m ρ) () defs₀ 𝒱₀ L lv 0 :=
  regOf m ρ 0 launch0 (B1 m ρ) (B2 m ρ) (body_obligation0 (U1 m ρ)) (hin0 (U1 m ρ)) (hout0 (U1 m ρ))
    (hF0 m ρ) (hrest0 m ρ) fun _ => .rfl

def reg1 : Pipeline.RegionSeg (pcfgs (F := F)) admN (pdats m ρ) () defs₀ 𝒱₀ L lv 1 :=
  regOf m ρ 1 launch1 (B3 m ρ) (B4 m ρ) (body_obligation1 (U3 m ρ)) (hin1 (U3 m ρ)) (hout1 (U3 m ρ))
    (hF1 m ρ) (hrest1 m ρ) fun _ => .rfl

def reg2 : Pipeline.RegionSeg (pcfgs (F := F)) admN (pdats m ρ) () defs₀ 𝒱₀ L lv 2 :=
  regOf m ρ 2 launch2 (B5 m ρ) (B6 m ρ) (body_obligation2 (U5 m ρ)) (hin2 (U5 m ρ)) (hout2 (U5 m ρ))
    (hF2 m ρ) (hrest2 m ρ) fun _ => .rfl

def reg3 : Pipeline.RegionSeg (pcfgs (F := F)) admN (pdats m ρ) () defs₀ 𝒱₀ L lv 3 :=
  regOf m ρ 3 launch3 (B7 m ρ) (B8 m ρ) (body_obligation3 (U7 m ρ)) (hin3 (U7 m ρ)) (hout3 (U7 m ρ))
    (hF3 m ρ) (hrest3 m ρ) fun _ => .rfl

def reg4 : Pipeline.RegionSeg (pcfgs (F := F)) admN (pdats m ρ) () defs₀ 𝒱₀ L lv 4 :=
  regOf m ρ 4 launch4 (B9 m ρ) (B10 m ρ) (body_obligation4 (U9 m ρ)) (hin4 (U9 m ρ)) (hout4 (U9 m ρ))
    (hF4 m ρ) (hrest4 m ρ) fun _ => .rfl

def reg5 : Pipeline.RegionSeg (pcfgs (F := F)) admN (pdats m ρ) () defs₀ 𝒱₀ L lv 5 :=
  regOf m ρ 5 launch5 (B11 m ρ) (B12 m ρ) (body_obligation5 (U11 m ρ)) (hin5 (U11 m ρ)) (hout5 (U11 m ρ))
    (hF5 m ρ) (hrest5 m ρ) fun _ => .rfl

def reg6 : Pipeline.RegionSeg (pcfgs (F := F)) admN (pdats m ρ) () defs₀ 𝒱₀ L lv 6 :=
  regOf m ρ 6 launch6 (B13 m ρ) (B14 m ρ) (body_obligation6 (U13 m ρ)) (hin6 (U13 m ρ)) (hout6 (U13 m ρ))
    (hF6 m ρ) (hrest6 m ρ) fun _ => .rfl

def reg7 : Pipeline.RegionSeg (pcfgs (F := F)) admN (pdats m ρ) () defs₀ 𝒱₀ L lv 7 :=
  regOf m ρ 7 launch7 (B15 m ρ) (B16 m ρ) (body_obligation7 (U15 m ρ)) (hin7 (U15 m ρ)) (hout7 (U15 m ρ))
    (hF7 m ρ) (hrest7 m ρ) fun _ => .rfl

def reg8 : Pipeline.RegionSeg (pcfgs (F := F)) admN (pdats m ρ) () defs₀ 𝒱₀ L lv 8 :=
  regOf m ρ 8 launch8 (B17 m ρ) (B18 m ρ) (body_obligation8 (U17 m ρ)) (hin8 (U17 m ρ)) (hout8 (U17 m ρ))
    (hF8 m ρ) (hrest8 m ρ) fun _ => .rfl

def reg9 : Pipeline.RegionSeg (pcfgs (F := F)) admN (pdats m ρ) () defs₀ 𝒱₀ L lv 9 :=
  regOf m ρ 9 launch9 (B19 m ρ) (B20 m ρ) (body_obligation9 (U19 m ρ)) (hin9 (U19 m ρ)) (hout9 (U19 m ρ))
    (hF9 m ρ) (hrest9 m ρ) fun _ => .rfl

def reg10 : Pipeline.RegionSeg (pcfgs (F := F)) admN (pdats m ρ) () defs₀ 𝒱₀ L lv 10 :=
  regOf m ρ 10 launch10 (B21 m ρ) (B22 m ρ) (body_obligation10 (U21 m ρ)) (hin10 (U21 m ρ)) (hout10 (U21 m ρ))
    (hF10 m ρ) (hrest10 m ρ) fun _ => sep_assoc'

end Cert.KernelIdeal.Gen

end
-- ==== Proof.KIRun.lean ====
import proofs.«421428_j45019847197002_2_alg».proof.Proof.KIRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsN : List (Pipeline.Seg (pcfgs (F := F)) admN (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .region (reg7 m ρ),
    .host (hseg hostOps8 hostOps8_sub hostOps8_fresh (B16 m ρ)),
    .region (reg8 m ρ),
    .host (hseg hostOps9 hostOps9_sub hostOps9_fresh (B18 m ρ)),
    .region (reg9 m ρ),
    .host (hseg hostOps10 hostOps10_sub hostOps10_fresh (B20 m ρ)),
    .region (reg10 m ρ) ]
set_option maxRecDepth 65536 in

theorem main_run (c : Dev nD) : main (F := F) c = Pipeline.Seg.run (segsN m ρ) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = B22 m ρ c b) :=
  Pipeline.θ_run_regions_kit (pcfgs (F := F)) admN (pdats m ρ) () cellOf_inj emb₁ defs₀ 𝒱₀ L lv m ρ main (segsN m ρ)
    (fun c Q => by rw [main_run m ρ c])
    (by simp only [segsN, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B22 m ρ c b)
    (hfin := fun c s' => by
      iintro ⟨⟨Hh, -⟩, HSI⟩
      unfold StableHlo.held
      imodintro
      iapply (pointsTo_read_all (Pipeline.ucRefs τ sig) (fun b => (((c : Thread nD τ)).1, b)) (B22 m ρ c) s')
      isplitl [Hh] <;> iassumption)
    (hQ := fun s h c => h c)

end Cert.KernelIdeal.Gen

end
-- ==== Proof.KIHost.lean ====
import proofs.«421428_j45019847197002_2_alg».proof.Proof.Gen.KernelIdeal.Launch
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo

variable {F : FTy → Type} [FloatOps F]

local notation "𝔹⟦" s ", " e "⟧" => BufTy.Contents (Elt F) (⟨s, e⟩ : BufTy)

theorem ho0_v14 (W : Valuation τ sig (Elt F)) :
    (StableHlo.after hostOps0 W (Proc.devRef .tc main_v14) : 𝔹⟦S100000x78, .f32⟧)
      = (addf
        (W (Proc.devRef .tc main_arg0) : 𝔹⟦S100000x78, .f32⟧)
        (Host.scatterAdd scatter_S100000x78_S3200000x1_S3200000x78_1_0_0_1
          (broadcastInDim S100000x78 ![] bcast_S_S100000x78
            (constant (F := F) S_ .f32 0x00000000#32 : 𝔹⟦S_, .f32⟧) : 𝔹⟦S100000x78, .f32⟧)
          (broadcastInDim S3200000x1 ![0] bcast_S3200000_S3200000x1_0
            (shapeCast S3200000
              (extractStridedSlice S1x3200000 ![1, 0]
                (W (Proc.devRef .tc main_arg1) : 𝔹⟦S2x3200000, .i32⟧)
                slices_S2x3200000_S1x3200000_1_0 : 𝔹⟦S1x3200000, .i32⟧)
              shapeCasts_S1x3200000_S3200000 : 𝔹⟦S3200000, .i32⟧) : 𝔹⟦S3200000x1, .i32⟧)
          (Host.gather gather_S100000x78_S3200000x1_S3200000x78_1_0_n_n_0_1_178
            (W (Proc.devRef .tc main_arg0) : 𝔹⟦S100000x78, .f32⟧)
            (broadcastInDim S3200000x1 ![0] bcast_S3200000_S3200000x1_0
              (select
                (cmpi .slt
                  (shapeCast S3200000
                    (extractStridedSlice S1x3200000 ![0, 0]
                      (W (Proc.devRef .tc main_arg1) : 𝔹⟦S2x3200000, .i32⟧)
                      slices_S2x3200000_S1x3200000_0_0 : 𝔹⟦S1x3200000, .i32⟧)
                    shapeCasts_S1x3200000_S3200000 : 𝔹⟦S3200000, .i32⟧)
                  (broadcastInDim S3200000 ![] bcast_S_S3200000
                    (constantI S_ 32 0#32 : 𝔹⟦S_, .i32⟧) : 𝔹⟦S3200000, .i32⟧) : 𝔹⟦S3200000, .i1⟧)
                (addi
                  (shapeCast S3200000
                    (extractStridedSlice S1x3200000 ![0, 0]
                      (W (Proc.devRef .tc main_arg1) : 𝔹⟦S2x3200000, .i32⟧)
                      slices_S2x3200000_S1x3200000_0_0 : 𝔹⟦S1x3200000, .i32⟧)
                    shapeCasts_S1x3200000_S3200000 : 𝔹⟦S3200000, .i32⟧)
                  (broadcastInDim S3200000 ![] bcast_S_S3200000
                    (constantI S_ 32 100000#32 : 𝔹⟦S_, .i32⟧) : 𝔹⟦S3200000, .i32⟧) : 𝔹⟦S3200000, .i32⟧)
                (shapeCast S3200000
                  (extractStridedSlice S1x3200000 ![0, 0]
                    (W (Proc.devRef .tc main_arg1) : 𝔹⟦S2x3200000, .i32⟧)
                    slices_S2x3200000_S1x3200000_0_0 : 𝔹⟦S1x3200000, .i32⟧)
                  shapeCasts_S1x3200000_S3200000 : 𝔹⟦S3200000, .i32⟧) : 𝔹⟦S3200000, .i32⟧) : 𝔹⟦S3200000x1, .i32⟧) : 𝔹⟦S3200000x78, .f32⟧) : 𝔹⟦S100000x78, .f32⟧) : 𝔹⟦S100000x78, .f32⟧) := by
  after_results_simp <;> rfl

theorem ho0_v1 (W : Valuation τ sig (Elt F)) :
    (StableHlo.after hostOps0 W (Proc.devRef .tc main_v1) : 𝔹⟦S3200000, .i32⟧)
      = (shapeCast S3200000
        (extractStridedSlice S1x3200000 ![0, 0]
          (W (Proc.devRef .tc main_arg1) : 𝔹⟦S2x3200000, .i32⟧)
          slices_S2x3200000_S1x3200000_0_0 : 𝔹⟦S1x3200000, .i32⟧)
        shapeCasts_S1x3200000_S3200000 : 𝔹⟦S3200000, .i32⟧) := by
  after_results <;> rfl

theorem ho0_v3 (W : Valuation τ sig (Elt F)) :
    (StableHlo.after hostOps0 W (Proc.devRef .tc main_v3) : 𝔹⟦S3200000, .i32⟧)
      = (shapeCast S3200000
        (extractStridedSlice S1x3200000 ![1, 0]
          (W (Proc.devRef .tc main_arg1) : 𝔹⟦S2x3200000, .i32⟧)
          slices_S2x3200000_S1x3200000_1_0 : 𝔹⟦S1x3200000, .i32⟧)
        shapeCasts_S1x3200000_S3200000 : 𝔹⟦S3200000, .i32⟧) := by
  after_results <;> rfl

theorem ho2_v41 (W : Valuation τ sig (Elt F)) :
    (StableHlo.after hostOps2 W (Proc.devRef .tc main_v41) : 𝔹⟦S100000x32, .f32⟧)
      = (addf
        (W (Proc.devRef .tc main_v30) : 𝔹⟦S100000x32, .f32⟧)
        (Host.scatterAdd scatter_S100000x32_S3200000x1_S3200000x32_1_0_0_1
          (broadcastInDim S100000x32 ![] bcast_S_S100000x32
            (constant (F := F) S_ .f32 0x00000000#32 : 𝔹⟦S_, .f32⟧) : 𝔹⟦S100000x32, .f32⟧)
          (broadcastInDim S3200000x1 ![0] bcast_S3200000_S3200000x1_0
            (W (Proc.devRef .tc main_v3) : 𝔹⟦S3200000, .i32⟧) : 𝔹⟦S3200000x1, .i32⟧)
          (Host.gather gather_S100000x32_S3200000x1_S3200000x32_1_0_n_n_0_1_132
            (W (Proc.devRef .tc main_v30) : 𝔹⟦S100000x32, .f32⟧)
            (broadcastInDim S3200000x1 ![0] bcast_S3200000_S3200000x1_0
              (select
                (cmpi .slt
                  (W (Proc.devRef .tc main_v1) : 𝔹⟦S3200000, .i32⟧)
                  (broadcastInDim S3200000 ![] bcast_S_S3200000
                    (constantI S_ 32 0#32 : 𝔹⟦S_, .i32⟧) : 𝔹⟦S3200000, .i32⟧) : 𝔹⟦S3200000, .i1⟧)
                (addi
                  (W (Proc.devRef .tc main_v1) : 𝔹⟦S3200000, .i32⟧)
                  (broadcastInDim S3200000 ![] bcast_S_S3200000
                    (constantI S_ 32 100000#32 : 𝔹⟦S_, .i32⟧) : 𝔹⟦S3200000, .i32⟧) : 𝔹⟦S3200000, .i32⟧)
                (W (Proc.devRef .tc main_v1) : 𝔹⟦S3200000, .i32⟧) : 𝔹⟦S3200000, .i32⟧) : 𝔹⟦S3200000x1, .i32⟧) : 𝔹⟦S3200000x32, .f32⟧) : 𝔹⟦S100000x32, .f32⟧) : 𝔹⟦S100000x32, .f32⟧) := by
  after_results_simp <;> rfl

theorem ho4_v76 (W : Valuation τ sig (Elt F)) :
    (StableHlo.after hostOps4 W (Proc.devRef .tc main_v76) : 𝔹⟦S100000x32, .f32⟧)
      = (addf
        (W (Proc.devRef .tc main_v65) : 𝔹⟦S100000x32, .f32⟧)
        (Host.scatterAdd scatter_S100000x32_S3200000x1_S3200000x32_1_0_0_1
          (broadcastInDim S100000x32 ![] bcast_S_S100000x32
            (constant (F := F) S_ .f32 0x00000000#32 : 𝔹⟦S_, .f32⟧) : 𝔹⟦S100000x32, .f32⟧)
          (broadcastInDim S3200000x1 ![0] bcast_S3200000_S3200000x1_0
            (W (Proc.devRef .tc main_v3) : 𝔹⟦S3200000, .i32⟧) : 𝔹⟦S3200000x1, .i32⟧)
          (Host.gather gather_S100000x32_S3200000x1_S3200000x32_1_0_n_n_0_1_132
            (W (Proc.devRef .tc main_v65) : 𝔹⟦S100000x32, .f32⟧)
            (broadcastInDim S3200000x1 ![0] bcast_S3200000_S3200000x1_0
              (select
                (cmpi .slt
                  (W (Proc.devRef .tc main_v1) : 𝔹⟦S3200000, .i32⟧)
                  (broadcastInDim S3200000 ![] bcast_S_S3200000
                    (constantI S_ 32 0#32 : 𝔹⟦S_, .i32⟧) : 𝔹⟦S3200000, .i32⟧) : 𝔹⟦S3200000, .i1⟧)
                (addi
                  (W (Proc.devRef .tc main_v1) : 𝔹⟦S3200000, .i32⟧)
                  (broadcastInDim S3200000 ![] bcast_S_S3200000
                    (constantI S_ 32 100000#32 : 𝔹⟦S_, .i32⟧) : 𝔹⟦S3200000, .i32⟧) : 𝔹⟦S3200000, .i32⟧)
                (W (Proc.devRef .tc main_v1) : 𝔹⟦S3200000, .i32⟧) : 𝔹⟦S3200000, .i32⟧) : 𝔹⟦S3200000x1, .i32⟧) : 𝔹⟦S3200000x32, .f32⟧) : 𝔹⟦S100000x32, .f32⟧) : 𝔹⟦S100000x32, .f32⟧) := by
  after_results_simp <;> rfl

theorem ho6_v111 (W : Valuation τ sig (Elt F)) :
    (StableHlo.after hostOps6 W (Proc.devRef .tc main_v111) : 𝔹⟦S100000x32, .f32⟧)
      = (addf
        (W (Proc.devRef .tc main_v100) : 𝔹⟦S100000x32, .f32⟧)
        (Host.scatterAdd scatter_S100000x32_S3200000x1_S3200000x32_1_0_0_1
          (broadcastInDim S100000x32 ![] bcast_S_S100000x32
            (constant (F := F) S_ .f32 0x00000000#32 : 𝔹⟦S_, .f32⟧) : 𝔹⟦S100000x32, .f32⟧)
          (broadcastInDim S3200000x1 ![0] bcast_S3200000_S3200000x1_0
            (W (Proc.devRef .tc main_v3) : 𝔹⟦S3200000, .i32⟧) : 𝔹⟦S3200000x1, .i32⟧)
          (Host.gather gather_S100000x32_S3200000x1_S3200000x32_1_0_n_n_0_1_132
            (W (Proc.devRef .tc main_v100) : 𝔹⟦S100000x32, .f32⟧)
            (broadcastInDim S3200000x1 ![0] bcast_S3200000_S3200000x1_0
              (select
                (cmpi .slt
                  (W (Proc.devRef .tc main_v1) : 𝔹⟦S3200000, .i32⟧)
                  (broadcastInDim S3200000 ![] bcast_S_S3200000
                    (constantI S_ 32 0#32 : 𝔹⟦S_, .i32⟧) : 𝔹⟦S3200000, .i32⟧) : 𝔹⟦S3200000, .i1⟧)
                (addi
                  (W (Proc.devRef .tc main_v1) : 𝔹⟦S3200000, .i32⟧)
                  (broadcastInDim S3200000 ![] bcast_S_S3200000
                    (constantI S_ 32 100000#32 : 𝔹⟦S_, .i32⟧) : 𝔹⟦S3200000, .i32⟧) : 𝔹⟦S3200000, .i32⟧)
                (W (Proc.devRef .tc main_v1) : 𝔹⟦S3200000, .i32⟧) : 𝔹⟦S3200000, .i32⟧) : 𝔹⟦S3200000x1, .i32⟧) : 𝔹⟦S3200000x32, .f32⟧) : 𝔹⟦S100000x32, .f32⟧) : 𝔹⟦S100000x32, .f32⟧) := by
  after_results_simp <;> rfl

theorem ho8_v146 (W : Valuation τ sig (Elt F)) :
    (StableHlo.after hostOps8 W (Proc.devRef .tc main_v146) : 𝔹⟦S100000x32, .f32⟧)
      = (addf
        (W (Proc.devRef .tc main_v135) : 𝔹⟦S100000x32, .f32⟧)
        (Host.scatterAdd scatter_S100000x32_S3200000x1_S3200000x32_1_0_0_1
          (broadcastInDim S100000x32 ![] bcast_S_S100000x32
            (constant (F := F) S_ .f32 0x00000000#32 : 𝔹⟦S_, .f32⟧) : 𝔹⟦S100000x32, .f32⟧)
          (broadcastInDim S3200000x1 ![0] bcast_S3200000_S3200000x1_0
            (W (Proc.devRef .tc main_v3) : 𝔹⟦S3200000, .i32⟧) : 𝔹⟦S3200000x1, .i32⟧)
          (Host.gather gather_S100000x32_S3200000x1_S3200000x32_1_0_n_n_0_1_132
            (W (Proc.devRef .tc main_v135) : 𝔹⟦S100000x32, .f32⟧)
            (broadcastInDim S3200000x1 ![0] bcast_S3200000_S3200000x1_0
              (select
                (cmpi .slt
                  (W (Proc.devRef .tc main_v1) : 𝔹⟦S3200000, .i32⟧)
                  (broadcastInDim S3200000 ![] bcast_S_S3200000
                    (constantI S_ 32 0#32 : 𝔹⟦S_, .i32⟧) : 𝔹⟦S3200000, .i32⟧) : 𝔹⟦S3200000, .i1⟧)
                (addi
                  (W (Proc.devRef .tc main_v1) : 𝔹⟦S3200000, .i32⟧)
                  (broadcastInDim S3200000 ![] bcast_S_S3200000
                    (constantI S_ 32 100000#32 : 𝔹⟦S_, .i32⟧) : 𝔹⟦S3200000, .i32⟧) : 𝔹⟦S3200000, .i32⟧)
                (W (Proc.devRef .tc main_v1) : 𝔹⟦S3200000, .i32⟧) : 𝔹⟦S3200000, .i32⟧) : 𝔹⟦S3200000x1, .i32⟧) : 𝔹⟦S3200000x32, .f32⟧) : 𝔹⟦S100000x32, .f32⟧) : 𝔹⟦S100000x32, .f32⟧) := by
  after_results_simp <;> rfl

end Cert.KernelIdeal.Host
-- ==== Proof.KIHostIdx.lean ====
import proofs.«421428_j45019847197002_2_alg».proof.Proof.KIHost
import Idealize.ShloMosaic.Lib.ValueIdx
import Idealize.ShloMosaic.Lib.ValueLayout
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.ShloMosaic.StableHlo

open Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowSlice_apply {α : Type} {n c : ℕ} (o : ℕ) (A : (⟨2, ![n, c]⟩ : Shape).Idx → α)
    (h : (⟨2, ![n, c]⟩ : Shape).Slices ![o, 0] ⟨2, ![1, c]⟩) (hc : (⟨2, ![1, c]⟩ : Shape).ShapeCasts ⟨1, ![c]⟩)
    (r : Fin n) (hr : r.val = o) (j : Fin c) :
    shapeCast ⟨1, ![c]⟩ (extractStridedSlice ⟨2, ![1, c]⟩ ![o, 0] A h) hc (ix1 j) = A (ix2 r j) :=
  (shapeCast_1a_a_apply _ _ j).trans (slice2_axis0_apply o A h (0 : Fin 1) j r (by rw [hr]; rfl))

theorem rowSliceRow_apply {α : Type} {n c : ℕ} (o : ℕ) (A : (⟨2, ![n, c]⟩ : Shape).Idx → α)
    (h : (⟨2, ![n, c]⟩ : Shape).Slices ![o, 0] ⟨2, ![1, c]⟩) (hc : (⟨2, ![1, c]⟩ : Shape).ShapeCasts ⟨1, ![c]⟩)
    (hc' : (⟨1, ![c]⟩ : Shape).ShapeCasts ⟨2, ![1, c]⟩) (r : Fin n) (hr : r.val = o) (u : Fin 1) (j : Fin c) :
    shapeCast ⟨2, ![1, c]⟩ (shapeCast ⟨1, ![c]⟩ (extractStridedSlice ⟨2, ![1, c]⟩ ![o, 0] A h) hc) hc' (ix2 u j)
      = A (ix2 r j) :=
  (shapeCast_a_1a_apply _ _ u j).trans (rowSlice_apply o A h hc r hr j)

theorem matSlice_apply {α : Type} {n a b : ℕ} (o : ℕ) (A : (⟨3, ![n, a, b]⟩ : Shape).Idx → α)
    (h : (⟨3, ![n, a, b]⟩ : Shape).Slices ![o, 0, 0] ⟨3, ![1, a, b]⟩)
    (hc : (⟨3, ![1, a, b]⟩ : Shape).ShapeCasts ⟨2, ![a, b]⟩) (r : Fin n) (hr : r.val = o) (i : Fin a) (j : Fin b) :
    shapeCast ⟨2, ![a, b]⟩ (extractStridedSlice ⟨3, ![1, a, b]⟩ ![o, 0, 0] A h) hc (ix2 i j) = A (ix3 r i j) :=
  (shapeCast_1ab_ab_apply _ _ i j).trans (extractStridedSlice_apply _ _ _ _ _ (fun ax => by
    match ax with
    | ⟨0, _⟩ => rw [hr]; rfl
    | ⟨1, _⟩ => exact (Nat.zero_add _).symm
    | ⟨2, _⟩ => exact (Nat.zero_add _).symm))

theorem ho0_b1_apply (W : Valuation τ sig (Elt Ideal)) (k : Fin 32) :
    (StableHlo.after hostOps0 W (Proc.devRef .tc main_v19) : FVec Ideal S1x32 .f32) (ix2 0 k)
      = (W (Proc.devRef .tc main_arg4) : FVec Ideal S32 .f32) (ix1 k) := by
  after_results; exact shapeCast_a_1a_apply _ _ 0 k

theorem ho0_b2_apply (W : Valuation τ sig (Elt Ideal)) (j : Fin 32) :
    (StableHlo.after hostOps0 W (Proc.devRef .tc main_v20) : FVec Ideal S1x32 .f32) (ix2 0 j)
      = (W (Proc.devRef .tc main_arg6) : FVec Ideal S32 .f32) (ix1 j) := by
  after_results; exact shapeCast_a_1a_apply _ _ 0 j

theorem ho0_gamma_apply (W : Valuation τ sig (Elt Ideal)) (j : Fin 32) :
    (StableHlo.after hostOps0 W (Proc.devRef .tc main_v16) : FVec Ideal S32 .f32) (ix1 j)
      = (W (Proc.devRef .tc main_arg11) : FVec Ideal S5x32 .f32) (ix2 (0 : Fin 5) j) := by
  after_results; exact rowSlice_apply 0 _ _ _ (0 : Fin 5) rfl j

theorem ho0_beta_apply (W : Valuation τ sig (Elt Ideal)) (j : Fin 32) :
    (StableHlo.after hostOps0 W (Proc.devRef .tc main_v18) : FVec Ideal S32 .f32) (ix1 j)
      = (W (Proc.devRef .tc main_arg12) : FVec Ideal S5x32 .f32) (ix2 (0 : Fin 5) j) := by
  after_results; exact rowSlice_apply 0 _ _ _ (0 : Fin 5) rfl j

theorem ho1_mean_apply (W : Valuation τ sig (Elt Ideal)) (j : Fin 32) :
    (StableHlo.after hostOps1 W (Proc.devRef .tc main_v23) : FVec Ideal S1x32 .f32) (ix2 0 j)
      = Ideal.div ((W (Proc.devRef .tc main_v21_1) : FVec Ideal S1x32 .f32) (ix2 0 j)) (Ideal.ofBits .f32 0x47C35000#32) := by
  after_results; rfl

theorem ho1_var_apply (W : Valuation τ sig (Elt Ideal)) (j : Fin 32) :
    (StableHlo.after hostOps1 W (Proc.devRef .tc main_v27) : FVec Ideal S1x32 .f32) (ix2 0 j)
      = Ideal.div ((W (Proc.devRef .tc main_v21_2) : FVec Ideal S1x32 .f32) (ix2 0 j)) (Ideal.ofBits .f32 0x47C35000#32)
        - Ideal.div ((W (Proc.devRef .tc main_v21_1) : FVec Ideal S1x32 .f32) (ix2 0 j)) (Ideal.ofBits .f32 0x47C35000#32)
          * Ideal.div ((W (Proc.devRef .tc main_v21_1) : FVec Ideal S1x32 .f32) (ix2 0 j)) (Ideal.ofBits .f32 0x47C35000#32) := by
  after_results; rfl

theorem ho1_gamma_apply (W : Valuation τ sig (Elt Ideal)) (j : Fin 32) :
    (StableHlo.after hostOps1 W (Proc.devRef .tc main_v28) : FVec Ideal S1x32 .f32) (ix2 0 j)
      = (W (Proc.devRef .tc main_v16) : FVec Ideal S32 .f32) (ix1 j) := by
  after_results; exact shapeCast_a_1a_apply _ _ 0 j

theorem ho1_beta_apply (W : Valuation τ sig (Elt Ideal)) (j : Fin 32) :
    (StableHlo.after hostOps1 W (Proc.devRef .tc main_v29) : FVec Ideal S1x32 .f32) (ix2 0 j)
      = (W (Proc.devRef .tc main_v18) : FVec Ideal S32 .f32) (ix1 j) := by
  after_results; exact shapeCast_a_1a_apply _ _ 0 j

theorem ho2_W1_apply (W : Valuation τ sig (Elt Ideal)) (d k : Fin 32) :
    (StableHlo.after hostOps2 W (Proc.devRef .tc main_v43) : FVec Ideal S32x32 .f32) (ix2 d k)
      = (W (Proc.devRef .tc main_arg7) : FVec Ideal S4x32x32 .f32) (ix3 (0 : Fin 4) d k) := by
  after_results; exact matSlice_apply 0 _ _ _ (0 : Fin 4) rfl d k

theorem ho2_b1_apply (W : Valuation τ sig (Elt Ideal)) (k : Fin 32) :
    (StableHlo.after hostOps2 W (Proc.devRef .tc main_v54) : FVec Ideal S1x32 .f32) (ix2 0 k)
      = (W (Proc.devRef .tc main_arg8) : FVec Ideal S4x32 .f32) (ix2 (0 : Fin 4) k) := by
  after_results; exact rowSliceRow_apply 0 _ _ _ _ (0 : Fin 4) rfl 0 k

theorem ho2_W2_apply (W : Valuation τ sig (Elt Ideal)) (k j : Fin 32) :
    (StableHlo.after hostOps2 W (Proc.devRef .tc main_v47) : FVec Ideal S32x32 .f32) (ix2 k j)
      = (W (Proc.devRef .tc main_arg9) : FVec Ideal S4x32x32 .f32) (ix3 (0 : Fin 4) k j) := by
  after_results; exact matSlice_apply 0 _ _ _ (0 : Fin 4) rfl k j

theorem ho2_b2_apply (W : Valuation τ sig (Elt Ideal)) (j : Fin 32) :
    (StableHlo.after hostOps2 W (Proc.devRef .tc main_v55) : FVec Ideal S1x32 .f32) (ix2 0 j)
      = (W (Proc.devRef .tc main_arg10) : FVec Ideal S4x32 .f32) (ix2 (0 : Fin 4) j) := by
  after_results; exact rowSliceRow_apply 0 _ _ _ _ (0 : Fin 4) rfl 0 j

theorem ho2_gamma_apply (W : Valuation τ sig (Elt Ideal)) (j : Fin 32) :
    (StableHlo.after hostOps2 W (Proc.devRef .tc main_v51) : FVec Ideal S32 .f32) (ix1 j)
      = (W (Proc.devRef .tc main_arg11) : FVec Ideal S5x32 .f32) (ix2 (1 : Fin 5) j) := by
  after_results; exact rowSlice_apply 1 _ _ _ (1 : Fin 5) rfl j

theorem ho2_beta_apply (W : Valuation τ sig (Elt Ideal)) (j : Fin 32) :
    (StableHlo.after hostOps2 W (Proc.devRef .tc main_v53) : FVec Ideal S32 .f32) (ix1 j)
      = (W (Proc.devRef .tc main_arg12) : FVec Ideal S5x32 .f32) (ix2 (1 : Fin 5) j) := by
  after_results; exact rowSlice_apply 1 _ _ _ (1 : Fin 5) rfl j

theorem ho3_mean_apply (W : Valuation τ sig (Elt Ideal)) (j : Fin 32) :
    (StableHlo.after hostOps3 W (Proc.devRef .tc main_v58) : FVec Ideal S1x32 .f32) (ix2 0 j)
      = Ideal.div ((W (Proc.devRef .tc main_v56_1) : FVec Ideal S1x32 .f32) (ix2 0 j)) (Ideal.ofBits .f32 0x47C35000#32) := by
  after_results; rfl

theorem ho3_var_apply (W : Valuation τ sig (Elt Ideal)) (j : Fin 32) :
    (StableHlo.after hostOps3 W (Proc.devRef .tc main_v62) : FVec Ideal S1x32 .f32) (ix2 0 j)
      = Ideal.div ((W (Proc.devRef .tc main_v56_2) : FVec Ideal S1x32 .f32) (ix2 0 j)) (Ideal.ofBits .f32 0x47C35000#32)
        - Ideal.div ((W (Proc.devRef .tc main_v56_1) : FVec Ideal S1x32 .f32) (ix2 0 j)) (Ideal.ofBits .f32 0x47C35000#32)
          * Ideal.div ((W (Proc.devRef .tc main_v56_1) : FVec Ideal S1x32 .f32) (ix2 0 j)) (Ideal.ofBits .f32 0x47C35000#32) := by
  after_results; rfl

theorem ho3_gamma_apply (W : Valuation τ sig (Elt Ideal)) (j : Fin 32) :
    (StableHlo.after hostOps3 W (Proc.devRef .tc main_v63) : FVec Ideal S1x32 .f32) (ix2 0 j)
      = (W (Proc.devRef .tc main_v51) : FVec Ideal S32 .f32) (ix1 j) := by
  after_results; exact shapeCast_a_1a_apply _ _ 0 j

theorem ho3_beta_apply (W : Valuation τ sig (Elt Ideal)) (j : Fin 32) :
    (StableHlo.after hostOps3 W (Proc.devRef .tc main_v64) : FVec Ideal S1x32 .f32) (ix2 0 j)
      = (W (Proc.devRef .tc main_v53) : FVec Ideal S32 .f32) (ix1 j) := by
  after_results; exact shapeCast_a_1a_apply _ _ 0 j

theorem ho4_W1_apply (W : Valuation τ sig (Elt Ideal)) (d k : Fin 32) :
    (StableHlo.after hostOps4 W (Proc.devRef .tc main_v78) : FVec Ideal S32x32 .f32) (ix2 d k)
      = (W (Proc.devRef .tc main_arg7) : FVec Ideal S4x32x32 .f32) (ix3 (1 : Fin 4) d k) := by
  after_results; exact matSlice_apply 1 _ _ _ (1 : Fin 4) rfl d k

theorem ho4_b1_apply (W : Valuation τ sig (Elt Ideal)) (k : Fin 32) :
    (StableHlo.after hostOps4 W (Proc.devRef .tc main_v89) : FVec Ideal S1x32 .f32) (ix2 0 k)
      = (W (Proc.devRef .tc main_arg8) : FVec Ideal S4x32 .f32) (ix2 (1 : Fin 4) k) := by
  after_results; exact rowSliceRow_apply 1 _ _ _ _ (1 : Fin 4) rfl 0 k

theorem ho4_W2_apply (W : Valuation τ sig (Elt Ideal)) (k j : Fin 32) :
    (StableHlo.after hostOps4 W (Proc.devRef .tc main_v82) : FVec Ideal S32x32 .f32) (ix2 k j)
      = (W (Proc.devRef .tc main_arg9) : FVec Ideal S4x32x32 .f32) (ix3 (1 : Fin 4) k j) := by
  after_results; exact matSlice_apply 1 _ _ _ (1 : Fin 4) rfl k j

theorem ho4_b2_apply (W : Valuation τ sig (Elt Ideal)) (j : Fin 32) :
    (StableHlo.after hostOps4 W (Proc.devRef .tc main_v90) : FVec Ideal S1x32 .f32) (ix2 0 j)
      = (W (Proc.devRef .tc main_arg10) : FVec Ideal S4x32 .f32) (ix2 (1 : Fin 4) j) := by
  after_results; exact rowSliceRow_apply 1 _ _ _ _ (1 : Fin 4) rfl 0 j

theorem ho4_gamma_apply (W : Valuation τ sig (Elt Ideal)) (j : Fin 32) :
    (StableHlo.after hostOps4 W (Proc.devRef .tc main_v86) : FVec Ideal S32 .f32) (ix1 j)
      = (W (Proc.devRef .tc main_arg11) : FVec Ideal S5x32 .f32) (ix2 (2 : Fin 5) j) := by
  after_results; exact rowSlice_apply 2 _ _ _ (2 : Fin 5) rfl j

theorem ho4_beta_apply (W : Valuation τ sig (Elt Ideal)) (j : Fin 32) :
    (StableHlo.after hostOps4 W (Proc.devRef .tc main_v88) : FVec Ideal S32 .f32) (ix1 j)
      = (W (Proc.devRef .tc main_arg12) : FVec Ideal S5x32 .f32) (ix2 (2 : Fin 5) j) := by
  after_results; exact rowSlice_apply 2 _ _ _ (2 : Fin 5) rfl j

theorem ho5_mean_apply (W : Valuation τ sig (Elt Ideal)) (j : Fin 32) :
    (StableHlo.after hostOps5 W (Proc.devRef .tc main_v93) : FVec Ideal S1x32 .f32) (ix2 0 j)
      = Ideal.div ((W (Proc.devRef .tc main_v91_1) : FVec Ideal S1x32 .f32) (ix2 0 j)) (Ideal.ofBits .f32 0x47C35000#32) := by
  after_results; rfl

theorem ho5_var_apply (W : Valuation τ sig (Elt Ideal)) (j : Fin 32) :
    (StableHlo.after hostOps5 W (Proc.devRef .tc main_v97) : FVec Ideal S1x32 .f32) (ix2 0 j)
      = Ideal.div ((W (Proc.devRef .tc main_v91_2) : FVec Ideal S1x32 .f32) (ix2 0 j)) (Ideal.ofBits .f32 0x47C35000#32)
        - Ideal.div ((W (Proc.devRef .tc main_v91_1) : FVec Ideal S1x32 .f32) (ix2 0 j)) (Ideal.ofBits .f32 0x47C35000#32)
          * Ideal.div ((W (Proc.devRef .tc main_v91_1) : FVec Ideal S1x32 .f32) (ix2 0 j)) (Ideal.ofBits .f32 0x47C35000#32) := by
  after_results; rfl

theorem ho5_gamma_apply (W : Valuation τ sig (Elt Ideal)) (j : Fin 32) :
    (StableHlo.after hostOps5 W (Proc.devRef .tc main_v98) : FVec Ideal S1x32 .f32) (ix2 0 j)
      = (W (Proc.devRef .tc main_v86) : FVec Ideal S32 .f32) (ix1 j) := by
  after_results; exact shapeCast_a_1a_apply _ _ 0 j

theorem ho5_beta_apply (W : Valuation τ sig (Elt Ideal)) (j : Fin 32) :
    (StableHlo.after hostOps5 W (Proc.devRef .tc main_v99) : FVec Ideal S1x32 .f32) (ix2 0 j)
      = (W (Proc.devRef .tc main_v88) : FVec Ideal S32 .f32) (ix1 j) := by
  after_results; exact shapeCast_a_1a_apply _ _ 0 j

theorem ho6_W1_apply (W : Valuation τ sig (Elt Ideal)) (d k : Fin 32) :
    (StableHlo.after hostOps6 W (Proc.devRef .tc main_v113) : FVec Ideal S32x32 .f32) (ix2 d k)
      = (W (Proc.devRef .tc main_arg7) : FVec Ideal S4x32x32 .f32) (ix3 (2 : Fin 4) d k) := by
  after_results; exact matSlice_apply 2 _ _ _ (2 : Fin 4) rfl d k

theorem ho6_b1_apply (W : Valuation τ sig (Elt Ideal)) (k : Fin 32) :
    (StableHlo.after hostOps6 W (Proc.devRef .tc main_v124) : FVec Ideal S1x32 .f32) (ix2 0 k)
      = (W (Proc.devRef .tc main_arg8) : FVec Ideal S4x32 .f32) (ix2 (2 : Fin 4) k) := by
  after_results; exact rowSliceRow_apply 2 _ _ _ _ (2 : Fin 4) rfl 0 k

theorem ho6_W2_apply (W : Valuation τ sig (Elt Ideal)) (k j : Fin 32) :
    (StableHlo.after hostOps6 W (Proc.devRef .tc main_v117) : FVec Ideal S32x32 .f32) (ix2 k j)
      = (W (Proc.devRef .tc main_arg9) : FVec Ideal S4x32x32 .f32) (ix3 (2 : Fin 4) k j) := by
  after_results; exact matSlice_apply 2 _ _ _ (2 : Fin 4) rfl k j

theorem ho6_b2_apply (W : Valuation τ sig (Elt Ideal)) (j : Fin 32) :
    (StableHlo.after hostOps6 W (Proc.devRef .tc main_v125) : FVec Ideal S1x32 .f32) (ix2 0 j)
      = (W (Proc.devRef .tc main_arg10) : FVec Ideal S4x32 .f32) (ix2 (2 : Fin 4) j) := by
  after_results; exact rowSliceRow_apply 2 _ _ _ _ (2 : Fin 4) rfl 0 j

theorem ho6_gamma_apply (W : Valuation τ sig (Elt Ideal)) (j : Fin 32) :
    (StableHlo.after hostOps6 W (Proc.devRef .tc main_v121) : FVec Ideal S32 .f32) (ix1 j)
      = (W (Proc.devRef .tc main_arg11) : FVec Ideal S5x32 .f32) (ix2 (3 : Fin 5) j) := by
  after_results; exact rowSlice_apply 3 _ _ _ (3 : Fin 5) rfl j

theorem ho6_beta_apply (W : Valuation τ sig (Elt Ideal)) (j : Fin 32) :
    (StableHlo.after hostOps6 W (Proc.devRef .tc main_v123) : FVec Ideal S32 .f32) (ix1 j)
      = (W (Proc.devRef .tc main_arg12) : FVec Ideal S5x32 .f32) (ix2 (3 : Fin 5) j) := by
  after_results; exact rowSlice_apply 3 _ _ _ (3 : Fin 5) rfl j

theorem ho7_mean_apply (W : Valuation τ sig (Elt Ideal)) (j : Fin 32) :
    (StableHlo.after hostOps7 W (Proc.devRef .tc main_v128) : FVec Ideal S1x32 .f32) (ix2 0 j)
      = Ideal.div ((W (Proc.devRef .tc main_v126_1) : FVec Ideal S1x32 .f32) (ix2 0 j)) (Ideal.ofBits .f32 0x47C35000#32) := by
  after_results; rfl

theorem ho7_var_apply (W : Valuation τ sig (Elt Ideal)) (j : Fin 32) :
    (StableHlo.after hostOps7 W (Proc.devRef .tc main_v132) : FVec Ideal S1x32 .f32) (ix2 0 j)
      = Ideal.div ((W (Proc.devRef .tc main_v126_2) : FVec Ideal S1x32 .f32) (ix2 0 j)) (Ideal.ofBits .f32 0x47C35000#32)
        - Ideal.div ((W (Proc.devRef .tc main_v126_1) : FVec Ideal S1x32 .f32) (ix2 0 j)) (Ideal.ofBits .f32 0x47C35000#32)
          * Ideal.div ((W (Proc.devRef .tc main_v126_1) : FVec Ideal S1x32 .f32) (ix2 0 j)) (Ideal.ofBits .f32 0x47C35000#32) := by
  after_results; rfl

theorem ho7_gamma_apply (W : Valuation τ sig (Elt Ideal)) (j : Fin 32) :
    (StableHlo.after hostOps7 W (Proc.devRef .tc main_v133) : FVec Ideal S1x32 .f32) (ix2 0 j)
      = (W (Proc.devRef .tc main_v121) : FVec Ideal S32 .f32) (ix1 j) := by
  after_results; exact shapeCast_a_1a_apply _ _ 0 j

theorem ho7_beta_apply (W : Valuation τ sig (Elt Ideal)) (j : Fin 32) :
    (StableHlo.after hostOps7 W (Proc.devRef .tc main_v134) : FVec Ideal S1x32 .f32) (ix2 0 j)
      = (W (Proc.devRef .tc main_v123) : FVec Ideal S32 .f32) (ix1 j) := by
  after_results; exact shapeCast_a_1a_apply _ _ 0 j

theorem ho8_W1_apply (W : Valuation τ sig (Elt Ideal)) (d k : Fin 32) :
    (StableHlo.after hostOps8 W (Proc.devRef .tc main_v148) : FVec Ideal S32x32 .f32) (ix2 d k)
      = (W (Proc.devRef .tc main_arg7) : FVec Ideal S4x32x32 .f32) (ix3 (3 : Fin 4) d k) := by
  after_results; exact matSlice_apply 3 _ _ _ (3 : Fin 4) rfl d k

theorem ho8_b1_apply (W : Valuation τ sig (Elt Ideal)) (k : Fin 32) :
    (StableHlo.after hostOps8 W (Proc.devRef .tc main_v159) : FVec Ideal S1x32 .f32) (ix2 0 k)
      = (W (Proc.devRef .tc main_arg8) : FVec Ideal S4x32 .f32) (ix2 (3 : Fin 4) k) := by
  after_results; exact rowSliceRow_apply 3 _ _ _ _ (3 : Fin 4) rfl 0 k

theorem ho8_W2_apply (W : Valuation τ sig (Elt Ideal)) (k j : Fin 32) :
    (StableHlo.after hostOps8 W (Proc.devRef .tc main_v152) : FVec Ideal S32x32 .f32) (ix2 k j)
      = (W (Proc.devRef .tc main_arg9) : FVec Ideal S4x32x32 .f32) (ix3 (3 : Fin 4) k j) := by
  after_results; exact matSlice_apply 3 _ _ _ (3 : Fin 4) rfl k j

theorem ho8_b2_apply (W : Valuation τ sig (Elt Ideal)) (j : Fin 32) :
    (StableHlo.after hostOps8 W (Proc.devRef .tc main_v160) : FVec Ideal S1x32 .f32) (ix2 0 j)
      = (W (Proc.devRef .tc main_arg10) : FVec Ideal S4x32 .f32) (ix2 (3 : Fin 4) j) := by
  after_results; exact rowSliceRow_apply 3 _ _ _ _ (3 : Fin 4) rfl 0 j

theorem ho8_gamma_apply (W : Valuation τ sig (Elt Ideal)) (j : Fin 32) :
    (StableHlo.after hostOps8 W (Proc.devRef .tc main_v156) : FVec Ideal S32 .f32) (ix1 j)
      = (W (Proc.devRef .tc main_arg11) : FVec Ideal S5x32 .f32) (ix2 (4 : Fin 5) j) := by
  after_results; exact rowSlice_apply 4 _ _ _ (4 : Fin 5) rfl j

theorem ho8_beta_apply (W : Valuation τ sig (Elt Ideal)) (j : Fin 32) :
    (StableHlo.after hostOps8 W (Proc.devRef .tc main_v158) : FVec Ideal S32 .f32) (ix1 j)
      = (W (Proc.devRef .tc main_arg12) : FVec Ideal S5x32 .f32) (ix2 (4 : Fin 5) j) := by
  after_results; exact rowSlice_apply 4 _ _ _ (4 : Fin 5) rfl j

theorem ho9_mean_apply (W : Valuation τ sig (Elt Ideal)) (j : Fin 32) :
    (StableHlo.after hostOps9 W (Proc.devRef .tc main_v163) : FVec Ideal S1x32 .f32) (ix2 0 j)
      = Ideal.div ((W (Proc.devRef .tc main_v161_1) : FVec Ideal S1x32 .f32) (ix2 0 j)) (Ideal.ofBits .f32 0x47C35000#32) := by
  after_results; rfl

theorem ho9_var_apply (W : Valuation τ sig (Elt Ideal)) (j : Fin 32) :
    (StableHlo.after hostOps9 W (Proc.devRef .tc main_v167) : FVec Ideal S1x32 .f32) (ix2 0 j)
      = Ideal.div ((W (Proc.devRef .tc main_v161_2) : FVec Ideal S1x32 .f32) (ix2 0 j)) (Ideal.ofBits .f32 0x47C35000#32)
        - Ideal.div ((W (Proc.devRef .tc main_v161_1) : FVec Ideal S1x32 .f32) (ix2 0 j)) (Ideal.ofBits .f32 0x47C35000#32)
          * Ideal.div ((W (Proc.devRef .tc main_v161_1) : FVec Ideal S1x32 .f32) (ix2 0 j)) (Ideal.ofBits .f32 0x47C35000#32) := by
  after_results; rfl

theorem ho9_gamma_apply (W : Valuation τ sig (Elt Ideal)) (j : Fin 32) :
    (StableHlo.after hostOps9 W (Proc.devRef .tc main_v168) : FVec Ideal S1x32 .f32) (ix2 0 j)
      = (W (Proc.devRef .tc main_v156) : FVec Ideal S32 .f32) (ix1 j) := by
  after_results; exact shapeCast_a_1a_apply _ _ 0 j

theorem ho9_beta_apply (W : Valuation τ sig (Elt Ideal)) (j : Fin 32) :
    (StableHlo.after hostOps9 W (Proc.devRef .tc main_v169) : FVec Ideal S1x32 .f32) (ix2 0 j)
      = (W (Proc.devRef .tc main_v158) : FVec Ideal S32 .f32) (ix1 j) := by
  after_results; exact shapeCast_a_1a_apply _ _ 0 j

theorem ho10_v171_apply (W : Valuation τ sig (Elt Ideal)) (n : Fin 100000) :
    (StableHlo.after hostOps10 W (Proc.devRef .tc main_v171) : IVec S100000x1 32) (ix2 n 0)
      = (W (Proc.devRef .tc main_arg2) : IVec S100000 32) (ix1 n) := by
  after_results; exact shapeCast_a_a1_apply _ _ n 0

theorem ho10_v172_apply (W : Valuation τ sig (Elt Ideal)) (o : Fin 128) :
    (StableHlo.after hostOps10 W (Proc.devRef .tc main_v172) : FVec Ideal S1x128 .f32) (ix2 0 o)
      = (W (Proc.devRef .tc main_arg14) : FVec Ideal S128 .f32) (ix1 o) := by
  after_results; exact shapeCast_a_1a_apply _ _ 0 o

end Cert.KernelIdeal.Host
-- ==== Proof.IdealFin.lean ====
import Idealize.ShloMosaic.PureOps.Ideal
import Idealize.ShloMosaic.PureOps.Ideal.Laws
import Idealize.ShloMosaic.Lib.ValueIdx
import Mathlib.Data.EReal.Inv
import Mathlib.Algebra.BigOperators.Field
import Mathlib.Algebra.Order.BigOperators.Ring.Finset
import Mathlib.Analysis.SpecialFunctions.Pow.Real
import Mathlib.Tactic.Ring
import Mathlib.Tactic.FieldSimp
import Mathlib.Tactic.Positivity
import Mathlib.Tactic.NormNum

noncomputable section

namespace Cert.IdealFin

open Idealize.ShloMosaic
open scoped BigOperators

def IsFinS (x : EReal) : Prop := ∃ r : ℝ, x = (r : EReal)

def IsFin {ι : Type*} (v : ι → EReal) : Prop := ∀ i, ∃ r : ℝ, v i = (r : EReal)

theorem IsFin.exists_real {ι : Type*} {v : ι → EReal} (h : IsFin v) :
    ∃ a : ι → ℝ, v = fun i => ((a i : ℝ) : EReal) := by
  choose a ha using h
  exact ⟨a, funext ha⟩

theorem isFinS_coe (r : ℝ) : IsFinS (r : EReal) := ⟨r, rfl⟩

theorem IsFinS.add {x y : EReal} (hx : IsFinS x) (hy : IsFinS y) : IsFinS (x + y) := by
  obtain ⟨a, rfl⟩ := hx; obtain ⟨b, rfl⟩ := hy
  exact ⟨a + b, (EReal.coe_add a b).symm⟩

theorem IsFinS.sub {x y : EReal} (hx : IsFinS x) (hy : IsFinS y) : IsFinS (x - y) := by
  obtain ⟨a, rfl⟩ := hx; obtain ⟨b, rfl⟩ := hy
  exact ⟨a - b, (EReal.coe_sub a b).symm⟩

theorem IsFinS.mul {x y : EReal} (hx : IsFinS x) (hy : IsFinS y) : IsFinS (x * y) := by
  obtain ⟨a, rfl⟩ := hx; obtain ⟨b, rfl⟩ := hy
  exact ⟨a * b, (EReal.coe_mul a b).symm⟩

theorem IsFinS.max {x y : EReal} (hx : IsFinS x) (hy : IsFinS y) : IsFinS (max x y) := by
  obtain ⟨a, rfl⟩ := hx; obtain ⟨b, rfl⟩ := hy
  exact ⟨Max.max a b, EReal.coe_strictMono.monotone.map_max.symm⟩

theorem IsFinS.max_zero {x : EReal} (hx : IsFinS x) : IsFinS (Max.max x 0) := hx.max ⟨0, rfl⟩

theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isFinS_sum {ι : Type*} (s : Finset ι) {v : ι → EReal} (h : ∀ i ∈ s, IsFinS (v i)) :
    IsFinS (∑ i ∈ s, v i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem idealDiv_coe_coe (a : ℝ) {b : ℝ} (hb : b ≠ 0) : Ideal.div (a : EReal) (b : EReal) = ((a / b : ℝ) : EReal) := by
  rw [Ideal.div_coe hb, ← EReal.coe_mul, mul_one_div]

theorem idealDiv_eq_div (x : EReal) {b : ℝ} (hb : b ≠ 0) : Ideal.div x (b : EReal) = x / (b : EReal) := by
  rw [Ideal.div, if_neg (by exact_mod_cast hb)]; rfl

theorem IsFinS.idealDiv_coe {x : EReal} (hx : IsFinS x) {b : ℝ} (hb : b ≠ 0) : IsFinS (Ideal.div x (b : EReal)) := by
  obtain ⟨a, rfl⟩ := hx
  exact ⟨a / b, idealDiv_coe_coe a hb⟩

theorem isFinS_rsqrt_add {x ε : EReal} (hx : IsFinS x) (hx0 : 0 ≤ x) (hε : IsFinS ε) (hε0 : 0 < ε) :
    IsFinS (Ideal.rsqrt (x + ε)) := by
  obtain ⟨a, rfl⟩ := hx; obtain ⟨e, rfl⟩ := hε
  have hpos : 0 < a + e := add_pos_of_nonneg_of_pos (EReal.coe_nonneg.1 hx0) (EReal.coe_pos.1 hε0)
  exact ⟨_, by rw [← EReal.coe_add, Ideal.rsqrt_coe, if_neg (not_lt.2 hpos.le), if_neg hpos.ne']⟩

theorem var_identity {n : ℕ} (a : Fin n → ℝ) (N : ℝ) (hN : N = n) (hn : 0 < n) :
    (∑ i, a i * a i) / N - (∑ i, a i) / N * ((∑ i, a i) / N)
      = (∑ i, (a i - (∑ i, a i) / N) * (a i - (∑ i, a i) / N)) / N := by
  have hN0 : N ≠ 0 := by rw [hN]; exact_mod_cast hn.ne'
  generalize hS : (∑ i, a i) = S
  have h1 : (∑ i, (a i - S / N) * (a i - S / N))
      = (∑ i, a i * a i) - 2 * (S / N) * S + N * (S / N * (S / N)) := by
    have h2 : ∀ i, (a i - S / N) * (a i - S / N) = a i * a i - 2 * (S / N) * a i + S / N * (S / N) :=
      fun i => by ring
    simp only [h2]
    rw [Finset.sum_add_distrib, Finset.sum_sub_distrib, ← Finset.mul_sum, hS, Finset.sum_const, Finset.card_univ,
      Fintype.card_fin, nsmul_eq_mul, hN]
  rw [h1]
  field_simp
  ring

theorem var_nonneg {n : ℕ} (a : Fin n → ℝ) (μ N : ℝ) (hN : 0 < N) :
    0 ≤ (∑ i, (a i - μ) * (a i - μ)) / N :=
  div_nonneg (Finset.sum_nonneg fun i _ => mul_self_nonneg _) hN.le

theorem var_identity_idealDiv {n : ℕ} (h : Fin n → EReal) (hfin : IsFin h) (N : ℝ) (hN : N = n) (hn : 0 < n) :
    max (Ideal.div (∑ i, h i * h i) (N : EReal)
        - Ideal.div (∑ i, h i) (N : EReal) * Ideal.div (∑ i, h i) (N : EReal)) 0
      = Ideal.div (∑ i, (h i - Ideal.div (∑ i, h i) (N : EReal)) * (h i - Ideal.div (∑ i, h i) (N : EReal)))
          (N : EReal) := by
  have hN0 : N ≠ 0 := by rw [hN]; exact_mod_cast hn.ne'
  have hNpos : 0 < N := by rw [hN]; exact_mod_cast hn
  obtain ⟨a, rfl⟩ := hfin.exists_real
  simp only [idealDiv_eq_div _ hN0, ← EReal.coe_mul, coe_finset_sum, ← EReal.coe_div, ← EReal.coe_sub]
  rw [← EReal.coe_zero, ← EReal.coe_strictMono.monotone.map_max, var_identity a N hN hn,
    max_eq_left (var_nonneg a _ N hNpos)]

theorem IsFin.var_nonneg {n : ℕ} {h : Fin n → EReal} (hfin : IsFin h) (μ : EReal) (hμ : IsFinS μ) (N : ℝ)
    (hN : 0 < N) :
    IsFinS ((∑ i, (h i - μ) * (h i - μ)) / (N : EReal)) ∧ 0 ≤ (∑ i, (h i - μ) * (h i - μ)) / (N : EReal) := by
  obtain ⟨a, rfl⟩ := hfin.exists_real
  obtain ⟨m, rfl⟩ := hμ
  simp only [← EReal.coe_sub, ← EReal.coe_mul, coe_finset_sum, ← EReal.coe_div]
  exact ⟨isFinS_coe _, EReal.coe_nonneg.2 (Cert.IdealFin.var_nonneg a m N hN)⟩

theorem ofBits_f32_rows : Ideal.ofBits .f32 0x47C35000#32 = ((100000 : ℝ) : EReal) := by
  simp [Ideal.ofBits, Ideal.ieee, -EReal.coe_mul]; norm_num

theorem ofBits_f32_eps_pos : ∃ e : ℝ, 0 < e ∧ Ideal.ofBits .f32 0x3727C5AC#32 = (e : EReal) :=
  ⟨10995116 / 2 ^ 40, by positivity, by simp [Ideal.ofBits, Ideal.ieee, -EReal.coe_mul]; norm_num⟩

theorem ofBits_f32_zero : Ideal.ofBits .f32 0x00000000#32 = 0 := by
  simp [Ideal.ofBits, Ideal.ieee]

end Cert.IdealFin
-- ==== Proof.Layer.lean ====
import proofs.«421428_j45019847197002_2_alg».proof.Proof.IdealFin
import Mathlib.Algebra.BigOperators.Fin
import Mathlib.Logic.Equiv.Fin.Basic
import Mathlib.Algebra.BigOperators.Group.Finset.Sigma

noncomputable section

namespace Cert.Layer

open Idealize.ShloMosaic Cert.IdealFin
open scoped BigOperators

def mlpAt {D : ℕ} (agg : Fin 100000 → Fin D → EReal) (W1 : Fin D → Fin 32 → EReal) (b1 : Fin 32 → EReal)
    (W2 : Fin 32 → Fin 32 → EReal) (b2 : Fin 32 → EReal) (n : Fin 100000) (j : Fin 32) : EReal :=
  max ((∑ k, max ((∑ d, agg n d * W1 d k) + b1 k) 0 * W2 k j) + b2 j) 0

def bnKer (pre : Fin 100000 → Fin 32 → EReal) (γ β : Fin 32 → EReal) (cN eps : EReal) (n : Fin 100000)
    (j : Fin 32) : EReal :=
  (pre n j - Ideal.div (∑ n', pre n' j) cN)
      * Ideal.rsqrt (max (Ideal.div (∑ n', pre n' j * pre n' j) cN
          - Ideal.div (∑ n', pre n' j) cN * Ideal.div (∑ n', pre n' j) cN) 0 + eps)
      * γ j + β j

def bnRef (pre : Fin 100000 → Fin 32 → EReal) (γ β : Fin 32 → EReal) (cN eps : EReal) (n : Fin 100000)
    (j : Fin 32) : EReal :=
  (pre n j - Ideal.div (0 + ∑ n', pre n' j) cN)
      * Ideal.rsqrt (Ideal.div (0 + ∑ n', (pre n' j - Ideal.div (0 + ∑ n'', pre n'' j) cN)
          * (pre n' j - Ideal.div (0 + ∑ n'', pre n'' j) cN)) cN + eps)
      * γ j + β j

def fcAt (p : Fin 2048 → Fin 32 → EReal) (W : Fin 32 → Fin 128 → EReal) (b : Fin 128 → EReal) (g : Fin 2048)
    (o : Fin 128) : EReal :=
  max ((∑ k, p g k * W k o) + b o) 0

theorem bn_eq {pre : Fin 100000 → Fin 32 → EReal} (hpre : ∀ n j, IsFinS (pre n j)) (γ β : Fin 32 → EReal)
    {cN : EReal} (hc : cN = ((100000 : ℝ) : EReal)) (eps : EReal) (n : Fin 100000) (j : Fin 32) :
    bnKer pre γ β cN eps n j = bnRef pre γ β cN eps n j := by
  have hv := var_identity_idealDiv (fun n' => pre n' j) (fun n' => hpre n' j) 100000 (by norm_num) (by norm_num)
  unfold bnKer bnRef
  simp only [zero_add]
  rw [hc, hv]

theorem mlpAt_fin {D : ℕ} {agg : Fin 100000 → Fin D → EReal} {W1 : Fin D → Fin 32 → EReal} {b1 : Fin 32 → EReal}
    {W2 : Fin 32 → Fin 32 → EReal} {b2 : Fin 32 → EReal} (hagg : ∀ n d, IsFinS (agg n d))
    (hW1 : ∀ d k, IsFinS (W1 d k)) (hb1 : ∀ k, IsFinS (b1 k)) (hW2 : ∀ k j, IsFinS (W2 k j))
    (hb2 : ∀ j, IsFinS (b2 j)) (n : Fin 100000) (j : Fin 32) : IsFinS (mlpAt agg W1 b1 W2 b2 n j) := by
  unfold mlpAt
  refine IsFinS.max_zero (IsFinS.add (isFinS_sum _ fun k _ => IsFinS.mul (IsFinS.max_zero ?_) (hW2 k j)) (hb2 j))
  exact IsFinS.add (isFinS_sum _ fun d _ => (hagg n d).mul (hW1 d k)) (hb1 k)

theorem bnRef_fin {pre : Fin 100000 → Fin 32 → EReal} (hpre : ∀ n j, IsFinS (pre n j)) {γ β : Fin 32 → EReal}
    (hγ : ∀ j, IsFinS (γ j)) (hβ : ∀ j, IsFinS (β j)) {cN : EReal} (hc : cN = ((100000 : ℝ) : EReal)) {eps : EReal}
    (heps : ∃ e : ℝ, 0 < e ∧ eps = (e : EReal)) (n : Fin 100000) (j : Fin 32) :
    IsFinS (bnRef pre γ β cN eps n j) := by
  have h0 : (100000 : ℝ) ≠ 0 := by norm_num
  obtain ⟨e, he, rfl⟩ := heps
  unfold bnRef
  simp only [zero_add]
  rw [hc]
  have hμ : IsFinS (Ideal.div (∑ n', pre n' j) ((100000 : ℝ) : EReal)) :=
    (isFinS_sum _ fun n' _ => hpre n' j).idealDiv_coe h0
  have hV := IsFin.var_nonneg (h := fun n' => pre n' j) (fun n' => hpre n' j) _ hμ 100000 (by norm_num)
  simp only [← idealDiv_eq_div _ h0] at hV
  exact (((hpre n j).sub hμ).mul (isFinS_rsqrt_add hV.1 hV.2 (isFinS_coe e) (EReal.coe_pos.2 he))).mul (hγ j)
    |>.add (hβ j)

theorem fcAt_congr {p p' : Fin 2048 → Fin 32 → EReal} (W : Fin 32 → Fin 128 → EReal) (b : Fin 128 → EReal) (g : Fin 2048)
    (h : ∀ k, p g k = p' g k) (o : Fin 128) : fcAt p W b g o = fcAt p' W b g o := by
  unfold fcAt; simp only [h]

theorem block_lt {m k N : ℕ} (hN : m * k = N) (t : Fin m) (r : Fin k) : t.val * k + r.val < N := by
  subst hN
  calc t.val * k + r.val < t.val * k + k := Nat.add_lt_add_left r.isLt _
    _ = (t.val + 1) * k := (Nat.succ_mul _ _).symm
    _ ≤ m * k := Nat.mul_le_mul_right _ t.isLt

theorem sum_blocks_gen {M : Type*} [AddCommMonoid M] (m k N : ℕ) (hN : m * k = N) (f : Fin N → M) :
    (∑ t : Fin m, ∑ r : Fin k, f ⟨t.val * k + r.val, block_lt hN t r⟩) = ∑ n : Fin N, f n := by
  subst hN
  rw [← Fintype.sum_prod_type']
  refine Fintype.sum_equiv finProdFinEquiv _ _ fun x => ?_
  refine congrArg f (Fin.ext ?_)
  show x.1.val * k + x.2.val = x.2.val + k * x.1.val
  rw [Nat.mul_comm, Nat.add_comm]

theorem sum_blocks {M : Type*} [AddCommMonoid M] (f : Fin 100000 → M) :
    (∑ t : Fin 10, ∑ r : Fin 10000, f ⟨t.val * 10000 + r.val, by omega⟩) = ∑ n : Fin 100000, f n :=
  sum_blocks_gen 10 10000 100000 (by norm_num) f

theorem sum_blocks100 {M : Type*} [AddCommMonoid M] (f : Fin 100000 → M) :
    (∑ t : Fin 100, ∑ r : Fin 1000, f ⟨t.val * 1000 + r.val, by omega⟩) = ∑ n : Fin 100000, f n :=
  sum_blocks_gen 100 1000 100000 (by norm_num) f

end Cert.Layer
-- ==== Proof.ValMlp.lean ====
import proofs.«421428_j45019847197002_2_alg».proof.Proof.Gen.KernelIdeal.Skeleton
import proofs.«421428_j45019847197002_2_alg».proof.Proof.Layer
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.ValMlp

open Idealize.ShloMosaic Idealize.SL.Sem Idealize.ShloMosaic.ValueIdx
open Cert.KernelIdeal.Gen

abbrev dotSq := dot_S10000x32_S32x32_S10000x32_1_0_0_1_n_n
abbrev dotIn := dot_S10000x78_S78x32_S10000x32_1_0_0_1_n_n

-- rows times columns into the zero accumulator: the sum over the one contracted coordinate
theorem mul_apply {a b c : ℕ} {φ₁ φ₂ : FTy} (A : FVec Ideal ⟨2, ![a, b]⟩ φ₁) (B : FVec Ideal ⟨2, ![b, c]⟩ φ₂) (r : Fin a) (j : Fin c) :
    matmul (DotDims.plain a b c) none A B (constant (F := Ideal) ⟨2, ![a, c]⟩ .f32 0x00000000#32) (ix2 r j)
      = ∑ k : Fin b, A (ix2 r k) * B (ix2 k j) := by
  refine (Ideal.matmul_constant_zero_apply (DotDims.plain a b c) none A B (ix2 r j)).trans ?_
  rw [← Equiv.sum_comp (contrEquiv1 (DotDims.plain a b c) b rfl rfl).symm]
  refine Finset.sum_congr rfl fun d _ => ?_
  have hd := contrEquiv1_symm_val (DotDims.plain a b c) b rfl rfl d
  have hl : (DotDims.plain a b c).lhsIdx (ix2 r j) ((contrEquiv1 (DotDims.plain a b c) b rfl rfl).symm d) = ix2 r d :=
    funext fun ax => Fin.ext (by
      match ax with
      | ⟨0, _⟩ => rfl
      | ⟨1, _⟩ => exact hd)
  have hr : (DotDims.plain a b c).rhsIdx (ix2 r j) ((contrEquiv1 (DotDims.plain a b c) b rfl rfl).symm d) = ix2 d j :=
    funext fun ax => Fin.ext (by
      match ax with
      | ⟨0, _⟩ => exact hd
      | ⟨1, _⟩ => rfl)
  rw [hl, hr]

theorem mulSq_apply {φ₁ φ₂ : FTy} (A : FVec Ideal S10000x32 φ₁) (B : FVec Ideal S32x32 φ₂) (r : Fin 10000) (j : Fin 32) :
    matmul dotSq none A B (constant (F := Ideal) S10000x32 .f32 0x00000000#32) (ix2 r j)
      = ∑ k : Fin 32, A (ix2 r k) * B (ix2 k j) :=
  mul_apply A B r j

theorem mulIn_apply {φ₁ φ₂ : FTy} (A : FVec Ideal S10000x78 φ₁) (B : FVec Ideal S78x32 φ₂) (r : Fin 10000) (j : Fin 32) :
    matmul dotIn none A B (constant (F := Ideal) S10000x32 .f32 0x00000000#32) (ix2 r j)
      = ∑ k : Fin 78, A (ix2 r k) * B (ix2 k j) :=
  mul_apply A B r j

section
variable (bb acc : FVec Ideal S1x32 .f32) (r : Fin 10000) (j : Fin 32)

theorem layerSq_apply {φ₁ φ₂ : FTy} (A : FVec Ideal S10000x32 φ₁) (W : FVec Ideal S32x32 φ₂) :
    maximumf (addf (matmul dotSq none A W (constant (F := Ideal) S10000x32 .f32 0x00000000#32))
        (broadcastTo S10000x32 bb broadcasts_S1x32_S10000x32))
      (broadcast S10000x32 (Scalar.ofBits (F := Ideal) .f32 0x00000000#32)) (ix2 r j)
      = max ((∑ k : Fin 32, A (ix2 r k) * W (ix2 k j)) + bb (ix2 0 j)) 0 := by
  show max (matmul dotSq none A W (constant (F := Ideal) S10000x32 .f32 0x00000000#32) (ix2 r j)
      + broadcastTo S10000x32 bb broadcasts_S1x32_S10000x32 (ix2 r j)) (Ideal.ofBits .f32 0x00000000#32) = _
  rw [mulSq_apply, broadcastTo_1b_ab_apply, Ideal.ofBits_zero_f32]

theorem layerIn_apply {φ₁ φ₂ : FTy} (A : FVec Ideal S10000x78 φ₁) (W : FVec Ideal S78x32 φ₂) :
    maximumf (addf (matmul dotIn none A W (constant (F := Ideal) S10000x32 .f32 0x00000000#32))
        (broadcastTo S10000x32 bb broadcasts_S1x32_S10000x32))
      (broadcast S10000x32 (Scalar.ofBits (F := Ideal) .f32 0x00000000#32)) (ix2 r j)
      = max ((∑ k : Fin 78, A (ix2 r k) * W (ix2 k j)) + bb (ix2 0 j)) 0 := by
  show max (matmul dotIn none A W (constant (F := Ideal) S10000x32 .f32 0x00000000#32) (ix2 r j)
      + broadcastTo S10000x32 bb broadcasts_S1x32_S10000x32 (ix2 r j)) (Ideal.ofBits .f32 0x00000000#32) = _
  rw [mulIn_apply, broadcastTo_1b_ab_apply, Ideal.ofBits_zero_f32]

theorem colSum_apply (h : FVec Ideal S10000x32 .f32) (u : Fin 1) :
    shapeCast S1x32 (multiReduction (F := Ideal) .add [0] S32 h 0x00000000#32 reduces_S10000x32_S32 (.inl rfl) rfl)
        shapeCasts_S32_S1x32 (ix2 u j)
      = ∑ r : Fin 10000, h (ix2 r j) := by
  refine (shapeCast_a_1a_apply _ shapeCasts_S32_S1x32 u j).trans ?_
  refine (Ideal.multiReduction_add_single h 0x00000000#32 reduces_S10000x32_S32 (.inl rfl) rfl (ix1 j)).trans ?_
  refine Finset.sum_congr rfl fun r _ => congrArg h ?_
  funext a; apply Fin.ext
  match a with
  | ⟨0, _⟩ => rfl
  | ⟨1, _⟩ => rfl

theorem zeroRow_apply (u : Fin 1) :
    shapeCast S1x32 (broadcast S1x32 (Scalar.ofBits (F := Ideal) .f32 0x00000000#32)) shapeCasts_S1x32_S1x32 (ix2 u j) = 0 := by
  rw [shapeCast_self]
  exact Ideal.ofBits_zero_f32

variable (w2 : FVec Ideal S32x32 .f32) (b1 b2 : FVec Ideal S1x32 .f32)

theorem pay_h0_apply (x : FVec Ideal S10000x78 .f32) (w1 : FVec Ideal S78x32 .f32) :
    k0_pay4 (F := Ideal) x w1 b1 w2 b2 (ix2 r j)
      = max ((∑ k : Fin 32, max ((∑ d : Fin 78, x (ix2 r d) * w1 (ix2 d k)) + b1 (ix2 0 k)) 0 * w2 (ix2 k j))
          + b2 (ix2 0 j)) 0 := by
  unfold k0_pay4
  simp only [shapeCast_self]
  refine (layerSq_apply _ _ _ _ _).trans ?_
  refine congrArg (fun s => max (s + b2 (ix2 0 j)) 0) (Finset.sum_congr rfl fun k _ => ?_)
  exact congrArg (· * w2 (ix2 k j)) (layerIn_apply _ _ _ _ _)

theorem pay_S0_apply (x : FVec Ideal S10000x78 .f32) (w1 : FVec Ideal S78x32 .f32) :
    k0_pay5 (F := Ideal) x w1 b1 w2 b2 acc (ix2 0 j)
      = acc (ix2 0 j) + ∑ r : Fin 10000, k0_pay4 (F := Ideal) x w1 b1 w2 b2 (ix2 r j) := by
  unfold k0_pay5
  rw [shapeCast_self]
  exact congrArg (acc (ix2 0 j) + ·) (colSum_apply _ _ 0)

theorem pay_Q0_apply (h : FVec Ideal S10000x32 .f32) :
    k0_pay1 (F := Ideal) h acc (ix2 0 j) = acc (ix2 0 j) + ∑ r : Fin 10000, h (ix2 r j) * h (ix2 r j) := by
  unfold k0_pay1
  rw [shapeCast_self]
  exact congrArg (acc (ix2 0 j) + ·) (colSum_apply _ _ 0)

theorem pay_z0a_apply : k0_pay2 (F := Ideal) (ix2 0 j) = 0 := zeroRow_apply j 0

theorem pay_z0b_apply : k0_pay3 (F := Ideal) (ix2 0 j) = 0 := zeroRow_apply j 0

variable (x : FVec Ideal S10000x32 .f32) (w1 : FVec Ideal S32x32 .f32)

-- the kernels of regions 2, 4, 6 and 8 are one text under four names: what is said of region 2's holds of all four
theorem pay_h_apply :
    k2_pay5 (F := Ideal) x w1 b1 w2 b2 (ix2 r j)
      = max ((∑ k : Fin 32, max ((∑ d : Fin 32, x (ix2 r d) * w1 (ix2 d k)) + b1 (ix2 0 k)) 0 * w2 (ix2 k j))
          + b2 (ix2 0 j)) 0 := by
  unfold k2_pay5
  simp only [shapeCast_self]
  refine (layerSq_apply _ _ _ _ _).trans ?_
  refine congrArg (fun s => max (s + b2 (ix2 0 j)) 0) (Finset.sum_congr rfl fun k _ => ?_)
  exact congrArg (· * w2 (ix2 k j)) (layerSq_apply _ _ _ _ _)

theorem pay_S_apply :
    k2_pay1 (k2_pay6 (F := Ideal) x w1 b1 w2 b2 acc) (ix2 0 j)
      = acc (ix2 0 j) + ∑ r : Fin 10000, k2_pay5 (F := Ideal) x w1 b1 w2 b2 (ix2 r j) := by
  unfold k2_pay1
  rw [shapeCast_self]
  unfold k2_pay6
  exact congrArg (acc (ix2 0 j) + ·) (colSum_apply _ _ 0)

theorem pay_Q_apply (h : FVec Ideal S10000x32 .f32) :
    k2_pay2 (F := Ideal) h acc (ix2 0 j) = acc (ix2 0 j) + ∑ r : Fin 10000, h (ix2 r j) * h (ix2 r j) := by
  unfold k2_pay2
  rw [shapeCast_self]
  exact congrArg (acc (ix2 0 j) + ·) (colSum_apply _ _ 0)

theorem pay_za_apply : k2_pay3 (F := Ideal) (ix2 0 j) = 0 := zeroRow_apply j 0

theorem pay_zb_apply : k2_pay4 (F := Ideal) (ix2 0 j) = 0 := zeroRow_apply j 0

end

def mlpArr {D : ℕ} (A0 : FVec Ideal ⟨2, ![100000, D]⟩ .f32) (A1 : FVec Ideal ⟨2, ![D, 32]⟩ .f32) (A2 : FVec Ideal S1x32 .f32)
    (A3 : FVec Ideal S32x32 .f32) (A4 : FVec Ideal S1x32 .f32) : FVec Ideal S100000x32 .f32 :=
  fun i => Cert.Layer.mlpAt (fun n d => A0 (ix2 n d)) (fun d k => A1 (ix2 d k)) (fun k => A2 (ix2 0 k))
    (fun k j => A3 (ix2 k j)) (fun j => A4 (ix2 0 j)) (i 0) (i 1)

section
variable (b1 : FVec Ideal S1x32 .f32) (w2 : FVec Ideal S32x32 .f32) (b2 : FVec Ideal S1x32 .f32)
  (A2 : FVec Ideal S1x32 .f32) (A3 : FVec Ideal S32x32 .f32) (A4 : FVec Ideal S1x32 .f32) (n : Fin 100000) (r : Fin 10000)

theorem mlpArr_apply {D : ℕ} (A0 : FVec Ideal ⟨2, ![100000, D]⟩ .f32) (A1 : FVec Ideal ⟨2, ![D, 32]⟩ .f32) (j : Fin 32) :
    mlpArr A0 A1 A2 A3 A4 (ix2 n j)
      = Cert.Layer.mlpAt (fun n d => A0 (ix2 n d)) (fun d k => A1 (ix2 d k)) (fun k => A2 (ix2 0 k))
          (fun k j => A3 (ix2 k j)) (fun j => A4 (ix2 0 j)) n j := rfl

-- a block whose row r is row n of the array, under the array's weights, holds at row r the perceptron's row n
theorem hpay_of_blocks (x : FVec Ideal S10000x32 .f32) (w1 : FVec Ideal S32x32 .f32) (A0 : FVec Ideal S100000x32 .f32)
    (A1 : FVec Ideal S32x32 .f32) (h0 : ∀ d, x (ix2 r d) = A0 (ix2 n d)) (h1 : w1 = A1) (h2 : b1 = A2) (h3 : w2 = A3)
    (h4 : b2 = A4) (j : Fin 32) :
    k2_pay5 (F := Ideal) x w1 b1 w2 b2 (ix2 r j) = mlpArr A0 A1 A2 A3 A4 (ix2 n j) := by
  subst h1 h2 h3 h4
  rw [pay_h_apply, mlpArr_apply]
  unfold Cert.Layer.mlpAt
  simp only [h0]

theorem hpay0_of_blocks (x : FVec Ideal S10000x78 .f32) (w1 : FVec Ideal S78x32 .f32) (A0 : FVec Ideal S100000x78 .f32)
    (A1 : FVec Ideal S78x32 .f32) (h0 : ∀ d, x (ix2 r d) = A0 (ix2 n d)) (h1 : w1 = A1) (h2 : b1 = A2) (h3 : w2 = A3)
    (h4 : b2 = A4) (j : Fin 32) :
    k0_pay4 (F := Ideal) x w1 b1 w2 b2 (ix2 r j) = mlpArr A0 A1 A2 A3 A4 (ix2 n j) := by
  subst h1 h2 h3 h4
  rw [pay_h0_apply, mlpArr_apply]
  unfold Cert.Layer.mlpAt
  simp only [h0]

end

def blockSum (g : Fin 100000 → EReal) (t : ℕ) : EReal :=
  ∑ r : Fin 10000, if h : t * 10000 + r.val < 100000 then g ⟨t * 10000 + r.val, h⟩ else 0

theorem blockSum_eq (g : Fin 100000 → EReal) (t : ℕ) (ht : t < 10) (f : Fin 10000 → EReal)
    (h : ∀ (r : Fin 10000) (n : Fin 100000), n.val = t * 10000 + r.val → f r = g n) : ∑ r, f r = blockSum g t := by
  unfold blockSum
  refine Finset.sum_congr rfl fun r _ => ?_
  have hr := r.isLt
  rw [dif_pos (by omega)]
  exact h r _ rfl

-- ten blocks of 10000 rows are the 100000 rows
theorem sum_rows (g : Fin 100000 → EReal) : (∑ i ∈ Finset.range 10, blockSum g i) = ∑ n : Fin 100000, g n := by
  unfold blockSum
  rw [← Cert.Layer.sum_blocks g, Finset.sum_range]
  refine Finset.sum_congr rfl fun t _ => Finset.sum_congr rfl fun r _ => ?_
  have ht : t.val < 10 := t.isLt
  have hr : r.val < 10000 := r.isLt
  rw [dif_pos (by omega)]

theorem acc_eq_sum {T : ℕ} (acc : (n : ℕ) → n < T → EReal) (f : ℕ → EReal)
    (h0 : ∀ h, acc 0 h = 0 + f 0) (hs : ∀ n h h', acc (n + 1) h = acc n h' + f (n + 1)) :
    ∀ n h, acc n h = ∑ i ∈ Finset.range (n + 1), f i
  | 0, h => by rw [h0, zero_add, Finset.sum_range_one]
  | n + 1, h => by
    rw [hs n h (Nat.lt_of_succ_lt h), acc_eq_sum acc f h0 hs n (Nat.lt_of_succ_lt h), Finset.sum_range_succ (n := n + 1)]

-- a row that starts at zero and gains, at each of ten points, the column sums of that point's block of g
theorem carried_total {T : ℕ} (acc : (n : ℕ) → n < T → FVec Ideal S1x32 .f32) (z : FVec Ideal S1x32 .f32)
    (step : (n : ℕ) → n < T → FVec Ideal S1x32 .f32 → FVec Ideal S1x32 .f32) (g : Fin 100000 → Fin 32 → EReal) (j : Fin 32)
    (hz : z (ix2 0 j) = 0) (h0 : ∀ h, acc 0 h = step 0 h z)
    (hs : ∀ n h, acc (n + 1) h = step (n + 1) h (acc n (Nat.lt_of_succ_lt h)))
    (hstep : ∀ n h a, step n h a (ix2 0 j) = a (ix2 0 j) + blockSum (fun m => g m j) n) (h9 : 9 < T) :
    acc 9 h9 (ix2 0 j) = ∑ n : Fin 100000, g n j :=
  (acc_eq_sum (fun n h => acc n h (ix2 0 j)) (blockSum fun m => g m j)
    (fun h => by rw [h0, hstep, hz]) (fun n h h' => by rw [hs, hstep]) 9 h9).trans (sum_rows _)

theorem row_ext {a b : FVec Ideal S1x32 .f32} (h : ∀ j : Fin 32, a (ix2 0 j) = b (ix2 0 j)) : a = b := by
  funext y
  obtain ⟨u, j, rfl⟩ : ∃ (u : Fin 1) (j : Fin 32), y = ix2 u j := ⟨y 0, y 1, eq_ix2 y⟩
  obtain rfl : u = 0 := Subsingleton.elim _ _
  exact h j

end Cert.KernelIdeal.ValMlp

end
-- ==== Proof.ValPool.lean ====
import proofs.«421428_j45019847197002_2_alg».proof.Proof.ValMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValPool

open Idealize.ShloMosaic Idealize.SL.Sem Idealize.ShloMosaic.ValueIdx Cert.KernelIdeal Cert.KernelIdeal.Gen
open scoped BigOperators

theorem pay_zero10_apply (g : Fin 2048) (d : Fin 32) : k10_pay1 (F := Ideal) (ix2 g d) = 0 := by
  unfold k10_pay1
  simp only [shapeCast_self]
  show Ideal.ofBits .f32 0x00000000#32 = 0
  exact Ideal.ofBits_zero_f32

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_word (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  unfold IntOp.cmpi
  by_cases hxy : x = y
  · subst hxy; simp
  · have hb : (x == y) = false := beq_eq_false_iff_ne.mpr hxy
    simp [hxy, hb]

theorem pool_matmul_apply (l : FVec Ideal S1000x2048 .bf16) (r : FVec Ideal S1000x32 .bf16) (g : Fin 2048) (d : Fin 32) :
    FloatOps.matmul dot_S1000x2048_S1000x32_S2048x32_0_0_1_1_n_n none l r (constant (F := Ideal) S2048x32 .f32 0x00000000#32) (ix2 g d)
      = ∑ t : Fin 1000, l (ix2 t g) * r (ix2 t d) := by
  rw [Ideal.matmul_constant_zero_apply, ← Equiv.sum_comp (contrEquiv1 dot_S1000x2048_S1000x32_S2048x32_0_0_1_1_n_n 1000 rfl rfl).symm]
  refine Finset.sum_congr rfl fun k _ => ?_
  have hk := contrEquiv1_symm_val dot_S1000x2048_S1000x32_S2048x32_0_0_1_1_n_n 1000 rfl rfl k
  have el : dot_S1000x2048_S1000x32_S2048x32_0_0_1_1_n_n.lhsIdx (ix2 g d) ((contrEquiv1 dot_S1000x2048_S1000x32_S2048x32_0_0_1_1_n_n 1000 rfl rfl).symm k) = ix2 k g := funext fun a => Fin.ext (by
    match a with
    | ⟨0, _⟩ => exact hk
    | ⟨1, _⟩ => rfl)
  have er : dot_S1000x2048_S1000x32_S2048x32_0_0_1_1_n_n.rhsIdx (ix2 g d) ((contrEquiv1 dot_S1000x2048_S1000x32_S2048x32_0_0_1_1_n_n 1000 rfl rfl).symm k) = ix2 k d := funext fun a => Fin.ext (by
    match a with
    | ⟨0, _⟩ => exact hk
    | ⟨1, _⟩ => rfl)
  rw [el, er]

theorem pay_pool10_apply (h : FVec Ideal S1000x32 .f32) (ids : IVec S1000x1 32) (acc : FVec Ideal S2048x32 .f32)
    (g : Fin 2048) (d : Fin 32) :
    k10_pay2 (F := Ideal) h ids acc (ix2 g d)
      = acc (ix2 g d) + ∑ t : Fin 1000, (if ids (ix2 t 0) = BitVec.ofNat 32 g.val then (1 : EReal) else 0) * h (ix2 t d) := by
  unfold k10_pay2
  simp only [shapeCast_self]
  rw [addf_apply]
  simp only [matmul]
  rw [pool_matmul_apply]
  refine congrArg (acc (ix2 g d) + ·) (Finset.sum_congr rfl fun t _ => ?_)
  rw [truncf_apply, truncf_apply, sitofp_apply, extui_apply]
  show FloatOps.sitofp (F := Ideal) .f32 ((IntOp.cmpi .eq (broadcastTo S1000x2048 ids broadcasts_S1000x1_S1000x2048 (ix2 t g)) (iota .tc S1000x2048 32 [1] iota_S1000x2048_d1_w32 (ix2 t g))).setWidth 32) * h (ix2 t d) = _
  rw [broadcastTo_a1_ab_apply, iota_single_apply, onehot_word]

theorem fc_matmul_apply (l : FVec Ideal S2048x32 .bf16) (r : FVec Ideal S32x128 .bf16) (g : Fin 2048) (o : Fin 128) :
    FloatOps.matmul dot_S2048x32_S32x128_S2048x128_1_0_0_1_n_n none l r (constant (F := Ideal) S2048x128 .f32 0x00000000#32) (ix2 g o)
      = ∑ k : Fin 32, l (ix2 g k) * r (ix2 k o) :=
  Cert.KernelIdeal.ValMlp.mul_apply l r g o

theorem pay_fc10_apply (w : FVec Ideal S32x128 .f32) (p : FVec Ideal S2048x32 .f32) (b : FVec Ideal S1x128 .f32)
    (g : Fin 2048) (o : Fin 128) :
    k10_pay3 (F := Ideal) w p b (ix2 g o)
      = max ((∑ k : Fin 32, p (ix2 g k) * w (ix2 k o)) + b (ix2 0 o)) 0 := by
  unfold k10_pay3
  simp only [shapeCast_self]
  rw [maximumf_apply, addf_apply, broadcastTo_1b_ab_apply]
  simp only [matmul]
  rw [fc_matmul_apply]
  show max ((∑ k : Fin 32, p (ix2 g k) * w (ix2 k o)) + b (ix2 0 o)) (Ideal.ofBits .f32 0x00000000#32) = _
  rw [Ideal.ofBits_zero_f32]

end Cert.KernelIdeal.ValPool

end
-- ==== Proof.KIPool10Val.lean ====
import proofs.«421428_j45019847197002_2_alg».proof.Proof.KIPool10
import proofs.«421428_j45019847197002_2_alg».proof.Proof.ValPool
import proofs.«421428_j45019847197002_2_alg».proof.Proof.Layer
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.ValPool Cert.KernelIdeal.ValMlp
open scoped BigOperators

variable {F : FTy → Type} [FloatOps F]

section Region10Val
variable (V : (c : Dev nD) → (b : Ref sig .tc) → Buf (Elt F) ((c : Thread nD τ).loc b)) (c : Dev nD)

theorem idx10_facts : ∀ t : Fin cfg10.N,
    (win10_0.index t (0 : Fin 2) = t.val ∧ win10_0.index t (1 : Fin 2) = 0
      ∧ win10_1.index t (0 : Fin 2) = t.val ∧ win10_1.index t (1 : Fin 2) = 0 ∧ t.val < 100)
    ∧ ∀ a : Fin 2, win10_2.index t a = 0 ∧ win10_3.index t a = 0 ∧ win10_4.index t a = 0 :=
  (by decide +kernel : ∀ t : Fin grid10.N, _)

abbrev pool10_h : Vec F S100000x32 .f32 := V c (Pipeline.arrRef spec10 0)
abbrev pool10_ids : IVec S100000x1 32 := V c (Pipeline.arrRef spec10 1)
abbrev pool10_w : Vec F S32x128 .f32 := V c (Pipeline.arrRef spec10 2)
abbrev pool10_b : Vec F S1x128 .f32 := V c (Pipeline.arrRef spec10 3)

def pool10_hblk (q : Fin 100) : Vec F S1000x32 .f32 := fun y =>
  pool10_h V c (ix2 (⟨q.val * 1000 + (y 0).val, by have := q.isLt; have hy : (y 0).val < 1000 := (y 0).isLt; omega⟩ : Fin 100000) (y 1 : Fin 32))

def pool10_idblk (q : Fin 100) : IVec S1000x1 32 := fun y =>
  pool10_ids V c (ix2 (⟨q.val * 1000 + (y 0).val, by have := q.isLt; have hy : (y 0).val < 1000 := (y 0).isLt; omega⟩ : Fin 100000) (y 1 : Fin 1))

section
variable (t : Fin cfg10.N)

theorem pool10_iblk0_eq (ht : t.val < 100) : iblk10 V c 0 t = pool10_hblk V c ⟨t.val, ht⟩ := by
  obtain ⟨⟨e0, e1, -⟩, -⟩ := idx10_facts t
  funext y
  show V c (Pipeline.arrRef spec10 0) (((cfg10.win 0).blk t).view.emb y) = V c (Pipeline.arrRef spec10 0) _
  refine congrArg (V c (Pipeline.arrRef spec10 0)) (Shape.idx_ext₂ ?_ ?_)
  · show win10_0.index t (0 : Fin 2) * 1000 + 1 * (y 0).val = t.val * 1000 + (y 0).val; omega
  · show win10_0.index t (1 : Fin 2) * 32 + 1 * (y 1).val = (y 1).val; omega

theorem pool10_iblk1_eq (ht : t.val < 100) : iblk10 V c 1 t = pool10_idblk V c ⟨t.val, ht⟩ := by
  obtain ⟨⟨-, -, e0, e1, -⟩, -⟩ := idx10_facts t
  funext y
  show V c (Pipeline.arrRef spec10 1) (((cfg10.win 1).blk t).view.emb y) = V c (Pipeline.arrRef spec10 1) _
  refine congrArg (V c (Pipeline.arrRef spec10 1)) (Shape.idx_ext₂ ?_ ?_)
  · show win10_1.index t (0 : Fin 2) * 1000 + 1 * (y 0).val = t.val * 1000 + (y 0).val; omega
  · show win10_1.index t (1 : Fin 2) * 1 + 1 * (y 1).val = (y 1).val; omega

theorem pool10_iblk2_eq : iblk10 V c 2 t = pool10_w V c := by
  funext y
  show V c (Pipeline.arrRef spec10 2) (((cfg10.win 2).blk t).view.emb y) = V c (Pipeline.arrRef spec10 2) y
  exact congrArg _ (funext fun a => Fin.ext (Window.rect_emb_val_of_index_zero win10_2 t a ((idx10_facts t).2 a).1 y))

theorem pool10_iblk3_eq : iblk10 V c 3 t = pool10_b V c := by
  funext y
  show V c (Pipeline.arrRef spec10 3) (((cfg10.win 3).blk t).view.emb y) = V c (Pipeline.arrRef spec10 3) y
  exact congrArg _ (funext fun a => Fin.ext (Window.rect_emb_val_of_index_zero win10_3 t a ((idx10_facts t).2 a).2.1 y))

theorem pool10_emb4 (y : S2048x128.Idx) : ((cfg10.win 4).blk t).view.emb y = y :=
  funext fun a => Fin.ext (Window.rect_emb_val_of_index_zero win10_4 t a ((idx10_facts t).2 a).2.2 y)

theorem pool10_flushed : (dat10 V c).flushed 4 t = ((cfg10.win 4).blk t).view.read (Elt F) (out10_4 V c) := by
  show (cfg10.win 4).cut (grid10.coords t) ((dat10 V c).after 4 t) = _
  rw [after10_4]
  funext y
  show out10_4 V c y = out10_4 V c (((cfg10.win 4).blk t).view.emb y)
  rw [pool10_emb4]

end

theorem pool10_cover (i : S2048x128.Idx) :
    ∃ t : Fin cfg10.N, (cfg10.win 4).flush t = true ∧ i ∈ ((cfg10.win 4).blk t).view.set :=
  ⟨tLast10, (flush10_4 tLast10).mpr (by show 99 % 100 = 99; rfl), pool10_emb4 tLast10 i ▸ View.emb_mem_set _ i⟩

theorem pool10_final : (dat10 V c).arrAt 4 cfg10.N = out10_4 V c :=
  (dat10 V c).arrAt_eq_of_cover 4 (out10_4 V c) (fun t _ => pool10_flushed V c t) pool10_cover

end Region10Val

section Region10Ideal
variable (V : (c : Dev nD) → (b : Ref sig .tc) → Buf (Elt Ideal) ((c : Thread nD τ).loc b)) (c : Dev nD) (g : Fin 2048) (d : Fin 32)

def pool10_term (n : Fin 100000) : EReal :=
  (if pool10_ids (F := Ideal) V c (ix2 n 0) = BitVec.ofNat 32 g.val then (1 : EReal) else 0) * pool10_h V c (ix2 n d)

def pool10_blockSum (t : ℕ) : EReal :=
  if ht : t < 100 then ∑ r : Fin 1000, pool10_term V c g d ⟨t * 1000 + r.val, by have := r.isLt; omega⟩ else 0

theorem pool10_step (n : ℕ) (hn : n < cfg10.N) (acc : Vec Ideal S2048x32 .f32) :
    k10_pay2 (F := Ideal) (iblk10 V c 0 ⟨n, hn⟩) (iblk10 V c 1 ⟨n, hn⟩) acc (ix2 g d)
      = acc (ix2 g d) + pool10_blockSum V c g d n := by
  have ht : n < 100 := (idx10_facts ⟨n, hn⟩).1.2.2.2.2
  refine (pay_pool10_apply _ _ acc g d).trans ?_
  rw [pool10_iblk0_eq V c ⟨n, hn⟩ ht, pool10_iblk1_eq V c ⟨n, hn⟩ ht]
  unfold pool10_blockSum
  rw [dif_pos ht]
  rfl

-- a hundred blocks of 1000 rows are the 100000 rows
theorem pool10_pooled : accP10 V c 99 lastLt10 (ix2 g d) = ∑ n : Fin 100000, pool10_term V c g d n := by
  rw [acc_eq_sum (fun n hn => accP10 V c n hn (ix2 g d)) (pool10_blockSum V c g d)
    (fun h => by rw [accP10_zero V c h, pool10_step, pay_zero10_apply])
    (fun n h h' => by rw [accP10_succ V c n h, pool10_step]) 99 lastLt10]
  show (∑ t ∈ Finset.range 100, pool10_blockSum V c g d t) = _
  rw [Finset.sum_range, ← Cert.Layer.sum_blocks100 (pool10_term V c g d)]
  refine Finset.sum_congr rfl fun t _ => ?_
  unfold pool10_blockSum
  exact dif_pos t.isLt

theorem pool10_arr (o : Fin 128) :
    (dat10 (F := Ideal) V c).arrAt 4 cfg10.N (ix2 g o)
      = Cert.Layer.fcAt
          (fun g k => ∑ n : Fin 100000,
            (if pool10_ids (F := Ideal) V c (ix2 n 0) = BitVec.ofNat 32 g.val then (1 : EReal) else 0) * pool10_h V c (ix2 n k))
          (fun k o => pool10_w V c (ix2 k o)) (fun o => pool10_b V c (ix2 0 o)) g o := by
  refine (congrFun (pool10_final V c) (ix2 g o)).trans ?_
  unfold out10_4
  refine (pay_fc10_apply _ _ _ g o).trans ?_
  rw [pool10_iblk2_eq V c tLast10, pool10_iblk3_eq V c tLast10]
  simp only [pool10_pooled V c g]
  rfl

end Region10Ideal

end Cert.KernelIdeal.Gen

end
-- ==== Proof.RefRead.lean ====
import proofs.«421428_j45019847197002_2_alg».proof.Proof.Gen.ReferenceIdeal.Run
import proofs.«421428_j45019847197002_2_alg».proof.Proof.Layer
import Idealize.ShloMosaic.Lib.ValueLayout
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

-- rows times columns: the left factor's index is (row, contraction coordinate), the right factor's (contraction coordinate, column)
theorem dot_apply {a b c : Nat} (x : FVec Ideal ⟨2, ![a, b]⟩ .f32) (w : FVec Ideal ⟨2, ![b, c]⟩ .f32) (n : Fin a) (k : Fin c) :
    Host.dotGeneral (F := Ideal) (DotDims.plain a b c) none x w (ix2 n k) = ∑ d : Fin b, x (ix2 n d) * w (ix2 d k) := by
  simp only [Host.dotGeneral]
  rw [Ideal.dotGeneral_apply, ← Equiv.sum_comp (contrEquiv1 (DotDims.plain a b c) b rfl rfl).symm]
  refine Finset.sum_congr rfl fun d _ => ?_
  have hk := contrEquiv1_symm_val (DotDims.plain a b c) b rfl rfl d
  have el : (DotDims.plain a b c).lhsIdx (ix2 n k) ((contrEquiv1 (DotDims.plain a b c) b rfl rfl).symm d) = ix2 n d :=
    funext fun ax => Fin.ext (by
      match ax with
      | ⟨0, _⟩ => rfl
      | ⟨1, _⟩ => exact hk)
  have er : (DotDims.plain a b c).rhsIdx (ix2 n k) ((contrEquiv1 (DotDims.plain a b c) b rfl rfl).symm d) = ix2 d k :=
    funext fun ax => Fin.ext (by
      match ax with
      | ⟨0, _⟩ => exact hk
      | ⟨1, _⟩ => rfl)
  rw [el, er]

theorem dot78_apply (x : FVec Ideal S100000x78 .f32) (w : FVec Ideal S78x32 .f32) (n : Fin 100000) (k : Fin 32) :
    Host.dotGeneral (F := Ideal) dot_S100000x78_S78x32_S100000x32_1_0_0_1_n_n none x w (ix2 n k)
      = ∑ d : Fin 78, x (ix2 n d) * w (ix2 d k) :=
  dot_apply x w n k

theorem dot32_apply (x : FVec Ideal S100000x32 .f32) (w : FVec Ideal S32x32 .f32) (n : Fin 100000) (j : Fin 32) :
    Host.dotGeneral (F := Ideal) dot_S100000x32_S32x32_S100000x32_1_0_0_1_n_n none x w (ix2 n j)
      = ∑ k : Fin 32, x (ix2 n k) * w (ix2 k j) :=
  dot_apply x w n j

theorem dotfc_apply (x : FVec Ideal S2048x32 .f32) (w : FVec Ideal S32x128 .f32) (g : Fin 2048) (o : Fin 128) :
    Host.dotGeneral (F := Ideal) dot_S2048x32_S32x128_S2048x128_1_0_0_1_n_n none x w (ix2 g o)
      = ∑ k : Fin 32, x (ix2 g k) * w (ix2 k o) :=
  dot_apply x w g o

theorem rowbc_apply {α : Type} (b : S32.Idx → α) (n : Fin 100000) (j : Fin 32) :
    broadcastInDim S100000x32 ![0, 1] bcast_S1x32_S100000x32_0_1 (broadcastInDim S1x32 ![1] bcast_S32_S1x32_1 b) (ix2 n j)
      = b (ix1 j) :=
  (broadcastInDim_apply _ _ _ _ (ix2 (0 : Fin 1) j) (fun ax => by
    match ax with
    | ⟨0, _⟩ => rfl
    | ⟨1, _⟩ => rfl)).trans
  (broadcastInDim_apply _ _ _ _ (ix1 j) (fun ax => by
    match ax with
    | ⟨0, _⟩ => rfl))

theorem rowbc128_apply {α : Type} (b : S128.Idx → α) (g : Fin 2048) (o : Fin 128) :
    broadcastInDim S2048x128 ![0, 1] bcast_S1x128_S2048x128_0_1 (broadcastInDim S1x128 ![1] bcast_S128_S1x128_1 b) (ix2 g o)
      = b (ix1 o) :=
  (broadcastInDim_apply _ _ _ _ (ix2 (0 : Fin 1) o) (fun ax => by
    match ax with
    | ⟨0, _⟩ => rfl
    | ⟨1, _⟩ => rfl)).trans
  (broadcastInDim_apply _ _ _ _ (ix1 o) (fun ax => by
    match ax with
    | ⟨0, _⟩ => rfl))

theorem scalarbc_apply {t : Shape} (dims : Fin S_.rank → Fin t.rank) (h : S_.BroadcastsInDim t dims) (w : BitVec 32) (i : t.Idx) :
    broadcastInDim t dims h (constant (F := Ideal) S_ .f32 w) i = Ideal.ofBits .f32 w := rfl

theorem colsum_apply (x : FVec Ideal S100000x32 .f32) (j : Fin 32) :
    Host.reduceAdd (F := Ideal) x (constant (F := Ideal) S_ .f32 0x00000000#32) reducesTo_S100000x32_S32_d0 h_S_ (ix1 j)
      = 0 + ∑ n : Fin 100000, x (ix2 n j) := by
  simp only [Host.reduceAdd, Ideal.hostReduceAdd_def]
  rw [Ideal.hostReduceAdd_single reducesTo_S100000x32_S32_d0 (by decide)]
  rw [constant_apply, Ideal.ofBits_zero_f32]
  refine congrArg (0 + ·) (Finset.sum_congr rfl fun n _ => ?_)
  exact congrArg x (funext fun ax => Fin.ext (by match ax with | ⟨0, _⟩ => rfl | ⟨1, _⟩ => rfl))

theorem row5_apply {α : Type} (o : Nat) (ho : o < 5) (A : S5x32.Idx → α) (h : S5x32.Slices ![o, 0] S1x32) (j : Fin 32) :
    shapeCast S32 (extractStridedSlice S1x32 ![o, 0] A h) shapeCasts_S1x32_S32 (ix1 j) = A (ix2 (⟨o, ho⟩ : Fin 5) j) :=
  (shapeCast_1a_a_apply _ _ j).trans (slice2_axis0_apply o A h (0 : Fin 1) j ⟨o, ho⟩ rfl)

theorem row4_apply {α : Type} (o : Nat) (ho : o < 4) (A : S4x32.Idx → α) (h : S4x32.Slices ![o, 0] S1x32) (j : Fin 32) :
    shapeCast S32 (extractStridedSlice S1x32 ![o, 0] A h) shapeCasts_S1x32_S32 (ix1 j) = A (ix2 (⟨o, ho⟩ : Fin 4) j) :=
  (shapeCast_1a_a_apply _ _ j).trans (slice2_axis0_apply o A h (0 : Fin 1) j ⟨o, ho⟩ rfl)

theorem mat4_apply {α : Type} (o : Nat) (ho : o < 4) (A : S4x32x32.Idx → α) (h : S4x32x32.Slices ![o, 0, 0] S1x32x32)
    (k j : Fin 32) :
    shapeCast S32x32 (extractStridedSlice S1x32x32 ![o, 0, 0] A h) shapeCasts_S1x32x32_S32x32 (ix2 k j)
      = A (ix3 (⟨o, ho⟩ : Fin 4) k j) :=
  (shapeCast_1ab_ab_apply _ _ k j).trans (extractStridedSlice_apply _ _ _ _ _ (fun ax => by
    match ax with
    | ⟨0, _⟩ => rfl
    | ⟨1, _⟩ => exact (Nat.zero_add _).symm
    | ⟨2, _⟩ => exact (Nat.zero_add _).symm))

theorem zerobc_apply (n : Fin 100000) (j : Fin 32) :
    broadcastInDim S100000x32 ![] bcast_S_S100000x32 (constant (F := Ideal) S_ .f32 0x00000000#32) (ix2 n j) = 0 :=
  (scalarbc_apply _ _ _ _).trans Ideal.ofBits_zero_f32

theorem hostDivf_apply {s : Shape} {φ : FTy} (x y : FVec Ideal s φ) (i : s.Idx) :
    Host.divf (F := Ideal) x y i = Ideal.div (x i) (y i) := rfl
theorem hostRsqrt_apply {s : Shape} {φ : FTy} (x : FVec Ideal s φ) (i : s.Idx) :
    Host.rsqrt (F := Ideal) x i = Ideal.rsqrt (x i) := rfl

theorem mlp78_apply (agg : FVec Ideal S100000x78 .f32) (W1 : FVec Ideal S78x32 .f32) (b1 : FVec Ideal S32 .f32)
    (W2 : FVec Ideal S32x32 .f32) (b2 : FVec Ideal S32 .f32) (n : Fin 100000) (j : Fin 32) :
    maximumf (addf (Host.dotGeneral (F := Ideal) dot_S100000x32_S32x32_S100000x32_1_0_0_1_n_n none
        (maximumf (addf (Host.dotGeneral (F := Ideal) dot_S100000x78_S78x32_S100000x32_1_0_0_1_n_n none agg W1)
            (broadcastInDim S100000x32 ![0, 1] bcast_S1x32_S100000x32_0_1 (broadcastInDim S1x32 ![1] bcast_S32_S1x32_1 b1)))
          (broadcastInDim S100000x32 ![] bcast_S_S100000x32 (constant (F := Ideal) S_ .f32 0x00000000#32))) W2)
        (broadcastInDim S100000x32 ![0, 1] bcast_S1x32_S100000x32_0_1 (broadcastInDim S1x32 ![1] bcast_S32_S1x32_1 b2)))
      (broadcastInDim S100000x32 ![] bcast_S_S100000x32 (constant (F := Ideal) S_ .f32 0x00000000#32)) (ix2 n j)
    = max ((∑ k : Fin 32, max ((∑ d : Fin 78, agg (ix2 n d) * W1 (ix2 d k)) + b1 (ix1 k)) 0 * W2 (ix2 k j)) + b2 (ix1 j)) 0 := by
  rw [maximumf_apply, addf_apply, dot32_apply, rowbc_apply, zerobc_apply]
  refine congrArg (fun s => max (s + b2 (ix1 j)) 0) (Finset.sum_congr rfl fun k _ => ?_)
  rw [maximumf_apply, addf_apply, dot78_apply, rowbc_apply, zerobc_apply]

abbrev cN : EReal := Ideal.ofBits .f32 0x47C35000#32
abbrev cEps : EReal := Ideal.ofBits .f32 0x3727C5AC#32

theorem mean_apply (x : FVec Ideal S100000x32 .f32) (j : Fin 32) :
    Host.divf (F := Ideal) (Host.reduceAdd (F := Ideal) x (constant (F := Ideal) S_ .f32 0x00000000#32) reducesTo_S100000x32_S32_d0 h_S_)
      (broadcastInDim S32 ![] bcast_S_S32 (constant (F := Ideal) S_ .f32 0x47C35000#32)) (ix1 j)
    = Ideal.div (0 + ∑ n : Fin 100000, x (ix2 n j)) (Ideal.ofBits .f32 0x47C35000#32) := by
  rw [hostDivf_apply, colsum_apply, scalarbc_apply]

theorem center_apply (x : FVec Ideal S100000x32 .f32) (m : FVec Ideal S32 .f32) (n : Fin 100000) (j : Fin 32) :
    subf x (broadcastInDim S100000x32 ![0, 1] bcast_S1x32_S100000x32_0_1 (broadcastInDim S1x32 ![1] bcast_S32_S1x32_1 m)) (ix2 n j)
      = x (ix2 n j) - m (ix1 j) := by
  rw [subf_apply, rowbc_apply]

theorem invstd_apply (c : FVec Ideal S100000x32 .f32) (j : Fin 32) :
    Host.rsqrt (F := Ideal) (addf
        (Host.divf (F := Ideal) (Host.reduceAdd (F := Ideal) (mulf c c) (constant (F := Ideal) S_ .f32 0x00000000#32) reducesTo_S100000x32_S32_d0 h_S_)
          (broadcastInDim S32 ![] bcast_S_S32 (constant (F := Ideal) S_ .f32 0x47C35000#32)))
        (broadcastInDim S32 ![] bcast_S_S32 (constant (F := Ideal) S_ .f32 0x3727C5AC#32))) (ix1 j)
    = Ideal.rsqrt (Ideal.div (0 + ∑ n' : Fin 100000, c (ix2 n' j) * c (ix2 n' j)) (Ideal.ofBits .f32 0x47C35000#32)
        + Ideal.ofBits .f32 0x3727C5AC#32) := by
  rw [hostRsqrt_apply, addf_apply, mean_apply, scalarbc_apply]
  rfl

theorem mlpL_apply (o : Nat) (ho : o < 4) (A7 A9 : FVec Ideal S4x32x32 .f32) (A8 A10 : FVec Ideal S4x32 .f32)
    (h7 h9 : S4x32x32.Slices ![o, 0, 0] S1x32x32) (h8 h10 : S4x32.Slices ![o, 0] S1x32)
    (agg : FVec Ideal S100000x32 .f32) (n : Fin 100000) (j : Fin 32) :
    maximumf (addf (Host.dotGeneral (F := Ideal) dot_S100000x32_S32x32_S100000x32_1_0_0_1_n_n none
        (maximumf (addf (Host.dotGeneral (F := Ideal) dot_S100000x32_S32x32_S100000x32_1_0_0_1_n_n none agg
              (shapeCast S32x32 (extractStridedSlice S1x32x32 ![o, 0, 0] A7 h7) shapeCasts_S1x32x32_S32x32))
            (broadcastInDim S100000x32 ![0, 1] bcast_S1x32_S100000x32_0_1 (broadcastInDim S1x32 ![1] bcast_S32_S1x32_1
              (shapeCast S32 (extractStridedSlice S1x32 ![o, 0] A8 h8) shapeCasts_S1x32_S32))))
          (broadcastInDim S100000x32 ![] bcast_S_S100000x32 (constant (F := Ideal) S_ .f32 0x00000000#32)))
        (shapeCast S32x32 (extractStridedSlice S1x32x32 ![o, 0, 0] A9 h9) shapeCasts_S1x32x32_S32x32))
        (broadcastInDim S100000x32 ![0, 1] bcast_S1x32_S100000x32_0_1 (broadcastInDim S1x32 ![1] bcast_S32_S1x32_1
          (shapeCast S32 (extractStridedSlice S1x32 ![o, 0] A10 h10) shapeCasts_S1x32_S32))))
      (broadcastInDim S100000x32 ![] bcast_S_S100000x32 (constant (F := Ideal) S_ .f32 0x00000000#32)) (ix2 n j)
    = max ((∑ k : Fin 32, max ((∑ d : Fin 32, agg (ix2 n d) * A7 (ix3 (⟨o, ho⟩ : Fin 4) d k))
            + A8 (ix2 (⟨o, ho⟩ : Fin 4) k)) 0 * A9 (ix3 (⟨o, ho⟩ : Fin 4) k j))
          + A10 (ix2 (⟨o, ho⟩ : Fin 4) j)) 0 := by
  rw [maximumf_apply, addf_apply, dot32_apply, rowbc_apply, zerobc_apply, row4_apply o ho A10 h10 j]
  refine congrArg (fun s => max (s + A10 (ix2 (⟨o, ho⟩ : Fin 4) j)) 0) (Finset.sum_congr rfl fun k _ => ?_)
  rw [maximumf_apply, addf_apply, dot32_apply, rowbc_apply, zerobc_apply, row4_apply o ho A8 h8 k, mat4_apply o ho A9 h9 k j]
  refine congrArg (fun s => max (s + A8 (ix2 (⟨o, ho⟩ : Fin 4) k)) 0 * A9 (ix3 (⟨o, ho⟩ : Fin 4) k j))
    (Finset.sum_congr rfl fun d _ => ?_)
  rw [mat4_apply o ho A7 h7 d k]

theorem bnL_bnRef (o : Nat) (ho : o < 5) (A11 A12 : FVec Ideal S5x32 .f32) (h11 h12 : S5x32.Slices ![o, 0] S1x32)
    (x c : FVec Ideal S100000x32 .f32) (m : FVec Ideal S32 .f32)
    (hm : ∀ j : Fin 32, m (ix1 j) = Ideal.div (0 + ∑ n : Fin 100000, x (ix2 n j)) cN)
    (hc : ∀ (n : Fin 100000) (j : Fin 32), c (ix2 n j) = x (ix2 n j) - m (ix1 j)) (n : Fin 100000) (j : Fin 32) :
    addf (mulf (mulf
        (subf x (broadcastInDim S100000x32 ![0, 1] bcast_S1x32_S100000x32_0_1 (broadcastInDim S1x32 ![1] bcast_S32_S1x32_1 m)))
        (broadcastInDim S100000x32 ![0, 1] bcast_S1x32_S100000x32_0_1 (broadcastInDim S1x32 ![1] bcast_S32_S1x32_1
          (Host.rsqrt (F := Ideal) (addf
            (Host.divf (F := Ideal) (Host.reduceAdd (F := Ideal) (mulf c c) (constant (F := Ideal) S_ .f32 0x00000000#32) reducesTo_S100000x32_S32_d0 h_S_)
              (broadcastInDim S32 ![] bcast_S_S32 (constant (F := Ideal) S_ .f32 0x47C35000#32)))
            (broadcastInDim S32 ![] bcast_S_S32 (constant (F := Ideal) S_ .f32 0x3727C5AC#32)))))))
        (broadcastInDim S100000x32 ![0, 1] bcast_S1x32_S100000x32_0_1 (broadcastInDim S1x32 ![1] bcast_S32_S1x32_1
          (shapeCast S32 (extractStridedSlice S1x32 ![o, 0] A11 h11) shapeCasts_S1x32_S32))))
      (broadcastInDim S100000x32 ![0, 1] bcast_S1x32_S100000x32_0_1 (broadcastInDim S1x32 ![1] bcast_S32_S1x32_1
        (shapeCast S32 (extractStridedSlice S1x32 ![o, 0] A12 h12) shapeCasts_S1x32_S32))) (ix2 n j)
    = Cert.Layer.bnRef (fun n j => x (ix2 n j)) (fun j => A11 (ix2 (⟨o, ho⟩ : Fin 5) j))
        (fun j => A12 (ix2 (⟨o, ho⟩ : Fin 5) j)) cN cEps n j := by
  rw [addf_apply, mulf_apply, mulf_apply, center_apply, rowbc_apply, rowbc_apply, rowbc_apply, invstd_apply,
    row5_apply o ho A11 h11 j, row5_apply o ho A12 h12 j]
  unfold Cert.Layer.bnRef
  simp only [hc, hm]

theorem pool_sw0 (idx : IVec S100000x1 32) (n : Fin 100000) (k' : Fin 32) :
    scatter_S2048x32_S100000x1_S100000x32_1_0_0_1.start (ix2 n k') idx 0
        + (scatter_S2048x32_S100000x1_S100000x32_1_0_0_1.window (ix2 n k') 0 : Int)
      = (idx (ix2 n (0 : Fin 1))).toInt := by
  have hs : scatter_S2048x32_S100000x1_S100000x32_1_0_0_1.start (ix2 n k') idx 0 = (idx (ix2 n (0 : Fin 1))).toInt := by
    unfold ScatterDims.start
    rw [dif_pos (show (0 : Fin S2048x32.rank) ∈ scatter_S2048x32_S100000x1_S100000x32_1_0_0_1.scatterDimsToOperandDims by decide)]
    refine congrArg (fun i => (idx i).toInt) (funext fun b => Fin.ext ?_)
    match b with
    | ⟨0, _⟩ => rfl
    | ⟨1, _⟩ => rfl
  have hw : scatter_S2048x32_S100000x1_S100000x32_1_0_0_1.window (ix2 n k') 0 = 0 := by
    unfold ScatterDims.window
    rw [dif_neg (show ¬(0 : Fin S2048x32.rank) ∈ scatter_S2048x32_S100000x1_S100000x32_1_0_0_1.sKept by decide)]
  rw [hs, hw]
  exact Int.add_zero _

theorem pool_sw1 (idx : IVec S100000x1 32) (n : Fin 100000) (k' : Fin 32) :
    scatter_S2048x32_S100000x1_S100000x32_1_0_0_1.start (ix2 n k') idx 1
        + (scatter_S2048x32_S100000x1_S100000x32_1_0_0_1.window (ix2 n k') 1 : Int)
      = (k'.val : Int) := by
  have hs : scatter_S2048x32_S100000x1_S100000x32_1_0_0_1.start (ix2 n k') idx 1 = 0 := by
    unfold ScatterDims.start
    rw [dif_neg (show ¬(1 : Fin S2048x32.rank) ∈ scatter_S2048x32_S100000x1_S100000x32_1_0_0_1.scatterDimsToOperandDims by decide)]
  have hw : scatter_S2048x32_S100000x1_S100000x32_1_0_0_1.window (ix2 n k') 1 = k'.val := by
    unfold ScatterDims.window
    rw [dif_pos (show (1 : Fin S2048x32.rank) ∈ scatter_S2048x32_S100000x1_S100000x32_1_0_0_1.sKept by decide)]
    rfl
  rw [hs, hw]
  exact Int.zero_add _

theorem pool_result_iff (idx : IVec S100000x1 32) (n : Fin 100000) (k' : Fin 32) (g : Fin 2048) (k : Fin 32) :
    scatter_S2048x32_S100000x1_S100000x32_1_0_0_1.resultIdx? (ix2 n k') idx = some (ix2 g k)
      ↔ (idx (ix2 n (0 : Fin 1))).toInt = (g.val : Int) ∧ k' = k := by
  have h0 := pool_sw0 idx n k'
  have h1 := pool_sw1 idx n k'
  have hg := g.isLt
  have hk := k'.isLt
  unfold ScatterDims.resultIdx?
  constructor
  · intro h
    split at h
    · next hall =>
      have e := Option.some.inj h
      have e0 : (scatter_S2048x32_S100000x1_S100000x32_1_0_0_1.start (ix2 n k') idx 0
          + (scatter_S2048x32_S100000x1_S100000x32_1_0_0_1.window (ix2 n k') 0 : Int)).toNat = g.val :=
        congrArg (fun f : S2048x32.Idx => (f 0).val) e
      have e1 : (scatter_S2048x32_S100000x1_S100000x32_1_0_0_1.start (ix2 n k') idx 1
          + (scatter_S2048x32_S100000x1_S100000x32_1_0_0_1.window (ix2 n k') 1 : Int)).toNat = k.val :=
        congrArg (fun f : S2048x32.Idx => (f 1).val) e
      have p0 := (hall 0).1
      rw [h0] at e0 p0
      rw [h1] at e1
      exact ⟨by omega, Fin.ext (by omega)⟩
    · exact absurd h (by simp)
  · rintro ⟨ht, rfl⟩
    rw [dif_pos (Fin.forall_fin_two.2 ⟨by rw [h0, ht]; show _ ∧ _ < ((2048 : Nat) : Int); omega,
      by rw [h1]; show _ ∧ _ < ((32 : Nat) : Int); omega⟩)]
    refine congrArg some (Shape.idx_ext₂ ?_ ?_)
    · show (_ : Int).toNat = g.val; rw [h0, ht]; omega
    · show (scatter_S2048x32_S100000x1_S100000x32_1_0_0_1.start (ix2 n k') idx 1
          + (scatter_S2048x32_S100000x1_S100000x32_1_0_0_1.window (ix2 n k') 1 : Int)).toNat = k'.val
      rw [h1]; omega

theorem poolScatter_apply (x : FVec Ideal S2048x32 .f32) (ids : IVec S100000 32) (u : FVec Ideal S100000x32 .f32)
    (g : Fin 2048) (k : Fin 32) :
    Host.scatterAdd (F := Ideal) scatter_S2048x32_S100000x1_S100000x32_1_0_0_1 x
        (broadcastInDim S100000x1 ![0] bcast_S100000_S100000x1_0 ids) u (ix2 g k)
      = x (ix2 g k) + ∑ n : Fin 100000, if (ids (ix1 n)).toInt = (g.val : Int) then u (ix2 n k) else 0 := by
  simp only [Host.scatterAdd, Ideal.hostScatterAdd_def]
  unfold Ideal.hostScatterAdd
  refine congrArg (x (ix2 g k) + ·) ?_
  rw [Finset.sum_filter, sum_idx2]
  refine Finset.sum_congr rfl fun n _ => ?_
  have hid : (broadcastInDim S100000x1 ![0] bcast_S100000_S100000x1_0 ids) (ix2 n (0 : Fin 1)) = ids (ix1 n) :=
    broadcastInDim_apply _ _ _ _ (ix1 n) (fun ax => by match ax with | ⟨0, _⟩ => rfl)
  have hstep : ∀ k' : Fin 32,
      (if scatter_S2048x32_S100000x1_S100000x32_1_0_0_1.resultIdx? (ix2 n k')
            (broadcastInDim S100000x1 ![0] bcast_S100000_S100000x1_0 ids) = some (ix2 g k) then u (ix2 n k') else 0)
        = if k' = k then (if (ids (ix1 n)).toInt = (g.val : Int) then u (ix2 n k) else 0) else 0 := by
    intro k'
    by_cases hk : k' = k
    · subst hk
      rw [if_pos rfl]
      by_cases ht : (ids (ix1 n)).toInt = (g.val : Int)
      · rw [if_pos ht, if_pos ((pool_result_iff _ n k' g k').2 ⟨by rw [hid]; exact ht, rfl⟩)]
      · rw [if_neg ht, if_neg (fun h => ht (by rw [← hid]; exact ((pool_result_iff _ n k' g k').1 h).1))]
    · rw [if_neg hk, if_neg (fun h => hk ((pool_result_iff _ n k' g k).1 h).2)]
  rw [Finset.sum_congr rfl fun k' _ => hstep k', Finset.sum_ite_eq' Finset.univ k]
  rw [if_pos (Finset.mem_univ k)]

open Cert.ReferenceIdeal.Value Idealize.ShloMosaic.TcCoe Idealize.SL.Sem Idealize.ShloMosaic.StableHlo

def aggr78 (src dst : IVec S3200000 32) (h : FVec Ideal S100000x78 .f32) : FVec Ideal S100000x78 .f32 :=
  addf h (Host.scatterAdd (F := Ideal) scatter_S100000x78_S3200000x1_S3200000x78_1_0_0_1 (broadcastInDim S100000x78 ![] bcast_S_S100000x78 (constant (F := Ideal) S_ .f32 0x00000000#32)) (broadcastInDim S3200000x1 ![0] bcast_S3200000_S3200000x1_0 dst) (Host.gather gather_S100000x78_S3200000x1_S3200000x78_1_0_n_n_0_1_178 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))))

def aggr32 (src dst : IVec S3200000 32) (h : FVec Ideal S100000x32 .f32) : FVec Ideal S100000x32 .f32 :=
  addf h (Host.scatterAdd (F := Ideal) scatter_S100000x32_S3200000x1_S3200000x32_1_0_0_1 (broadcastInDim S100000x32 ![] bcast_S_S100000x32 (constant (F := Ideal) S_ .f32 0x00000000#32)) (broadcastInDim S3200000x1 ![0] bcast_S3200000_S3200000x1_0 dst) (Host.gather gather_S100000x32_S3200000x1_S3200000x32_1_0_n_n_0_1_132 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))))

variable (V0 : Valuation τ sig (Elt Ideal))

abbrev xin : FVec Ideal S100000x78 .f32 := V0 (Proc.devRef .tc main_arg0)
abbrev gid : IVec S100000 32 := V0 (Proc.devRef .tc main_arg2)
abbrev w1a : FVec Ideal S78x32 .f32 := V0 (Proc.devRef .tc main_arg3)
abbrev b1a : FVec Ideal S32 .f32 := V0 (Proc.devRef .tc main_arg4)
abbrev w2a : FVec Ideal S32x32 .f32 := V0 (Proc.devRef .tc main_arg5)
abbrev b2a : FVec Ideal S32 .f32 := V0 (Proc.devRef .tc main_arg6)
abbrev w1s : FVec Ideal S4x32x32 .f32 := V0 (Proc.devRef .tc main_arg7)
abbrev b1s : FVec Ideal S4x32 .f32 := V0 (Proc.devRef .tc main_arg8)
abbrev w2s : FVec Ideal S4x32x32 .f32 := V0 (Proc.devRef .tc main_arg9)
abbrev b2s : FVec Ideal S4x32 .f32 := V0 (Proc.devRef .tc main_arg10)
abbrev gam : FVec Ideal S5x32 .f32 := V0 (Proc.devRef .tc main_arg11)
abbrev bet : FVec Ideal S5x32 .f32 := V0 (Proc.devRef .tc main_arg12)
abbrev fcw : FVec Ideal S32x128 .f32 := V0 (Proc.devRef .tc main_arg13)
abbrev fcb : FVec Ideal S128 .f32 := V0 (Proc.devRef .tc main_arg14)

abbrev esrc : IVec S3200000 32 := res_main_v1 V0
abbrev edst : IVec S3200000 32 := res_main_v3 V0

abbrev pre0 : FVec Ideal S100000x32 .f32 := res_main_v30 V0
abbrev out0 : FVec Ideal S100000x32 .f32 := res_main_v55 V0

def agg0 : FVec Ideal S100000x78 .f32 := aggr78 (esrc V0) (edst V0) (xin V0)

abbrev pre1 : FVec Ideal S100000x32 .f32 := res_main_v90 V0
abbrev out1 : FVec Ideal S100000x32 .f32 := res_main_v115 V0

def agg1 : FVec Ideal S100000x32 .f32 := aggr32 (esrc V0) (edst V0) (out0 V0)

abbrev pre2 : FVec Ideal S100000x32 .f32 := res_main_v150 V0
abbrev out2 : FVec Ideal S100000x32 .f32 := res_main_v175 V0

def agg2 : FVec Ideal S100000x32 .f32 := aggr32 (esrc V0) (edst V0) (out1 V0)

abbrev pre3 : FVec Ideal S100000x32 .f32 := res_main_v210 V0
abbrev out3 : FVec Ideal S100000x32 .f32 := res_main_v235 V0

def agg3 : FVec Ideal S100000x32 .f32 := aggr32 (esrc V0) (edst V0) (out2 V0)

abbrev pre4 : FVec Ideal S100000x32 .f32 := res_main_v270 V0

def agg4 : FVec Ideal S100000x32 .f32 := aggr32 (esrc V0) (edst V0) (out3 V0)

def out4 : FVec Ideal S100000x32 .f32 :=
  addf (mulf (mulf
      (subf (pre4 V0) (broadcastInDim S100000x32 ![0, 1] bcast_S1x32_S100000x32_0_1 (broadcastInDim S1x32 ![1] bcast_S32_S1x32_1 (res_main_v273 V0))))
      (broadcastInDim S100000x32 ![0, 1] bcast_S1x32_S100000x32_0_1 (broadcastInDim S1x32 ![1] bcast_S32_S1x32_1
        (Host.rsqrt (F := Ideal) (addf
          (Host.divf (F := Ideal) (Host.reduceAdd (F := Ideal) (mulf (res_main_v276 V0) (res_main_v276 V0)) (constant (F := Ideal) S_ .f32 0x00000000#32) reducesTo_S100000x32_S32_d0 h_S_)
            (broadcastInDim S32 ![] bcast_S_S32 (constant (F := Ideal) S_ .f32 0x47C35000#32)))
          (broadcastInDim S32 ![] bcast_S_S32 (constant (F := Ideal) S_ .f32 0x3727C5AC#32)))))))
      (broadcastInDim S100000x32 ![0, 1] bcast_S1x32_S100000x32_0_1 (broadcastInDim S1x32 ![1] bcast_S32_S1x32_1
        (shapeCast S32 (extractStridedSlice S1x32 ![4, 0] (gam V0) slices_S5x32_S1x32_4_0) shapeCasts_S1x32_S32))))
    (broadcastInDim S100000x32 ![0, 1] bcast_S1x32_S100000x32_0_1 (broadcastInDim S1x32 ![1] bcast_S32_S1x32_1
      (shapeCast S32 (extractStridedSlice S1x32 ![4, 0] (bet V0) slices_S5x32_S1x32_4_0) shapeCasts_S1x32_S32)))

def pooled : FVec Ideal S2048x32 .f32 :=
  Host.scatterAdd (F := Ideal) scatter_S2048x32_S100000x1_S100000x32_1_0_0_1
    (broadcastInDim S2048x32 ![] bcast_S_S2048x32 (constant (F := Ideal) S_ .f32 0x00000000#32))
    (broadcastInDim S100000x1 ![0] bcast_S100000_S100000x1_0 (gid V0)) (out4 V0)

def final : FVec Ideal S2048x128 .f32 :=
  maximumf (addf (Host.dotGeneral (F := Ideal) dot_S2048x32_S32x128_S2048x128_1_0_0_1_n_n none (pooled V0) (fcw V0))
      (broadcastInDim S2048x128 ![0, 1] bcast_S1x128_S2048x128_0_1 (broadcastInDim S1x128 ![1] bcast_S128_S1x128_1 (fcb V0))))
    (broadcastInDim S2048x128 ![] bcast_S_S2048x128 (constant (F := Ideal) S_ .f32 0x00000000#32))

theorem pooled_apply (g : Fin 2048) (k : Fin 32) :
    pooled V0 (ix2 g k)
      = 0 + ∑ n : Fin 100000, if (gid V0 (ix1 n)).toInt = (g.val : Int) then out4 V0 (ix2 n k) else 0 := by
  unfold pooled
  rw [poolScatter_apply, scalarbc_apply, Ideal.ofBits_zero_f32]

theorem pre0_mlpAt (n : Fin 100000) (j : Fin 32) :
    pre0 V0 (ix2 n j) = Cert.Layer.mlpAt (fun n d => agg0 V0 (ix2 n d)) (fun d k => w1a V0 (ix2 d k))
      (fun k => b1a V0 (ix1 k)) (fun k j => w2a V0 (ix2 k j)) (fun j => b2a V0 (ix1 j)) n j :=
  mlp78_apply (agg0 V0) (w1a V0) (b1a V0) (w2a V0) (b2a V0) n j
theorem out0_bnRef (n : Fin 100000) (j : Fin 32) :
    out0 V0 (ix2 n j) = Cert.Layer.bnRef (fun n j => pre0 V0 (ix2 n j)) (fun j => gam V0 (ix2 (0 : Fin 5) j))
      (fun j => bet V0 (ix2 (0 : Fin 5) j)) cN cEps n j :=
  bnL_bnRef 0 (by decide) (gam V0) (bet V0) _ _ (pre0 V0) (res_main_v36 V0) (res_main_v33 V0)
    (mean_apply (pre0 V0)) (center_apply (pre0 V0) _) n j

theorem pre1_mlpAt (n : Fin 100000) (j : Fin 32) :
    pre1 V0 (ix2 n j) = Cert.Layer.mlpAt (fun n d => agg1 V0 (ix2 n d)) (fun d k => w1s V0 (ix3 (0 : Fin 4) d k))
      (fun k => b1s V0 (ix2 (0 : Fin 4) k)) (fun k j => w2s V0 (ix3 (0 : Fin 4) k j)) (fun j => b2s V0 (ix2 (0 : Fin 4) j)) n j :=
  mlpL_apply 0 (by decide) (w1s V0) (w2s V0) (b1s V0) (b2s V0) _ _ _ _ (agg1 V0) n j
theorem out1_bnRef (n : Fin 100000) (j : Fin 32) :
    out1 V0 (ix2 n j) = Cert.Layer.bnRef (fun n j => pre1 V0 (ix2 n j)) (fun j => gam V0 (ix2 (1 : Fin 5) j))
      (fun j => bet V0 (ix2 (1 : Fin 5) j)) cN cEps n j :=
  bnL_bnRef 1 (by decide) (gam V0) (bet V0) _ _ (pre1 V0) (res_main_v96 V0) (res_main_v93 V0)
    (mean_apply (pre1 V0)) (center_apply (pre1 V0) _) n j

theorem pre2_mlpAt (n : Fin 100000) (j : Fin 32) :
    pre2 V0 (ix2 n j) = Cert.Layer.mlpAt (fun n d => agg2 V0 (ix2 n d)) (fun d k => w1s V0 (ix3 (1 : Fin 4) d k))
      (fun k => b1s V0 (ix2 (1 : Fin 4) k)) (fun k j => w2s V0 (ix3 (1 : Fin 4) k j)) (fun j => b2s V0 (ix2 (1 : Fin 4) j)) n j :=
  mlpL_apply 1 (by decide) (w1s V0) (w2s V0) (b1s V0) (b2s V0) _ _ _ _ (agg2 V0) n j
theorem out2_bnRef (n : Fin 100000) (j : Fin 32) :
    out2 V0 (ix2 n j) = Cert.Layer.bnRef (fun n j => pre2 V0 (ix2 n j)) (fun j => gam V0 (ix2 (2 : Fin 5) j))
      (fun j => bet V0 (ix2 (2 : Fin 5) j)) cN cEps n j :=
  bnL_bnRef 2 (by decide) (gam V0) (bet V0) _ _ (pre2 V0) (res_main_v156 V0) (res_main_v153 V0)
    (mean_apply (pre2 V0)) (center_apply (pre2 V0) _) n j

theorem pre3_mlpAt (n : Fin 100000) (j : Fin 32) :
    pre3 V0 (ix2 n j) = Cert.Layer.mlpAt (fun n d => agg3 V0 (ix2 n d)) (fun d k => w1s V0 (ix3 (2 : Fin 4) d k))
      (fun k => b1s V0 (ix2 (2 : Fin 4) k)) (fun k j => w2s V0 (ix3 (2 : Fin 4) k j)) (fun j => b2s V0 (ix2 (2 : Fin 4) j)) n j :=
  mlpL_apply 2 (by decide) (w1s V0) (w2s V0) (b1s V0) (b2s V0) _ _ _ _ (agg3 V0) n j
theorem out3_bnRef (n : Fin 100000) (j : Fin 32) :
    out3 V0 (ix2 n j) = Cert.Layer.bnRef (fun n j => pre3 V0 (ix2 n j)) (fun j => gam V0 (ix2 (3 : Fin 5) j))
      (fun j => bet V0 (ix2 (3 : Fin 5) j)) cN cEps n j :=
  bnL_bnRef 3 (by decide) (gam V0) (bet V0) _ _ (pre3 V0) (res_main_v216 V0) (res_main_v213 V0)
    (mean_apply (pre3 V0)) (center_apply (pre3 V0) _) n j

theorem pre4_mlpAt (n : Fin 100000) (j : Fin 32) :
    pre4 V0 (ix2 n j) = Cert.Layer.mlpAt (fun n d => agg4 V0 (ix2 n d)) (fun d k => w1s V0 (ix3 (3 : Fin 4) d k))
      (fun k => b1s V0 (ix2 (3 : Fin 4) k)) (fun k j => w2s V0 (ix3 (3 : Fin 4) k j)) (fun j => b2s V0 (ix2 (3 : Fin 4) j)) n j :=
  mlpL_apply 3 (by decide) (w1s V0) (w2s V0) (b1s V0) (b2s V0) _ _ _ _ (agg4 V0) n j
theorem out4_bnRef (n : Fin 100000) (j : Fin 32) :
    out4 V0 (ix2 n j) = Cert.Layer.bnRef (fun n j => pre4 V0 (ix2 n j)) (fun j => gam V0 (ix2 (4 : Fin 5) j))
      (fun j => bet V0 (ix2 (4 : Fin 5) j)) cN cEps n j :=
  bnL_bnRef 4 (by decide) (gam V0) (bet V0) _ _ (pre4 V0) (res_main_v276 V0) (res_main_v273 V0)
    (mean_apply (pre4 V0)) (center_apply (pre4 V0) _) n j

theorem final_fcAt (g : Fin 2048) (o : Fin 128) :
    final V0 (ix2 g o) = Cert.Layer.fcAt (fun g k => pooled V0 (ix2 g k)) (fun k o => fcw V0 (ix2 k o))
      (fun o => fcb V0 (ix1 o)) g o :=
  by unfold final; rw [maximumf_apply, addf_apply, dotfc_apply, rowbc128_apply, scalarbc_apply, Ideal.ofBits_zero_f32]; rfl

end Cert.ReferenceIdeal.RefRead

end
-- ==== Proof.BridgeLayer.lean ====
import proofs.«421428_j45019847197002_2_alg».proof.Proof.Layer
import proofs.«421428_j45019847197002_2_alg».proof.Proof.IdealFin
import Idealize.ShloMosaic.PureOps.Ideal
import Idealize.ShloMosaic.PureOps.Ideal.Laws
import Idealize.ShloMosaic.Lib.ValueIdx
import Idealize.ShloMosaic.Lib.WordArith

noncomputable section

namespace Cert.Bridge

open Idealize.ShloMosaic Idealize.ShloMosaic.ValueIdx
open Cert.IdealFin Cert.Layer
open scoped BigOperators

theorem layer_join (pre : Fin 100000 → Fin 32 → EReal) (hpre : ∀ n j, IsFinS (pre n j))
    (Hk : Fin 100000 → Fin 32 → EReal) (Sk Qk meanK varK γ β : Fin 32 → EReal)
    (Ok Or : Fin 100000 → Fin 32 → EReal) (cN eps : EReal) (hc : cN = ((100000 : ℝ) : EReal))
    (hH : ∀ n j, Hk n j = pre n j)
    (hS : ∀ j, Sk j = ∑ n, Hk n j) (hQ : ∀ j, Qk j = ∑ n, Hk n j * Hk n j)
    (hmean : ∀ j, meanK j = Ideal.div (Sk j) cN)
    (hvar : ∀ j, varK j = Ideal.div (Qk j) cN - meanK j * meanK j)
    (hOk : ∀ n j, Ok n j = (Hk n j - meanK j) * Ideal.rsqrt (max (varK j) 0 + eps) * γ j + β j)
    (hOr : ∀ n j, Or n j = bnRef pre γ β cN eps n j) :
    ∀ n j, Ok n j = Or n j := by
  intro n j
  have eS : ∀ j, Sk j = ∑ n, pre n j := fun j => by
    rw [hS]; exact Finset.sum_congr rfl fun n _ => hH n j
  have eQ : ∀ j, Qk j = ∑ n, pre n j * pre n j := fun j => by
    rw [hQ]; exact Finset.sum_congr rfl fun n _ => by rw [hH]
  rw [hOk, hOr, ← bn_eq hpre γ β hc eps n j, hvar, hmean, eQ, eS, hH]
  rfl

theorem layer_join_fin (pre : Fin 100000 → Fin 32 → EReal) (hpre : ∀ n j, IsFinS (pre n j))
    (γ β : Fin 32 → EReal) (Or : Fin 100000 → Fin 32 → EReal) (cN eps : EReal)
    (hc : cN = ((100000 : ℝ) : EReal)) (hγ : ∀ j, IsFinS (γ j)) (hβ : ∀ j, IsFinS (β j))
    (heps : ∃ e : ℝ, 0 < e ∧ eps = (e : EReal))
    (hOr : ∀ n j, Or n j = bnRef pre γ β cN eps n j) :
    ∀ n j, IsFinS (Or n j) := by
  intro n j
  rw [hOr]
  exact bnRef_fin hpre hγ hβ hc heps n j

theorem pool_join (h hR : Fin 100000 → Fin 32 → EReal) (hh : ∀ n k, h n k = hR n k) (ids : Fin 100000 → BitVec 32)
    (W : Fin 32 → Fin 128 → EReal) (b : Fin 128 → EReal) (Ok Or : Fin 2048 → Fin 128 → EReal)
    (hOk : ∀ g o, Ok g o
      = fcAt (fun g k => ∑ n, (if ids n = BitVec.ofNat 32 g.val then (1 : EReal) else 0) * h n k) W b g o)
    (hOr : ∀ g o, Or g o
      = fcAt (fun g k => 0 + ∑ n, (if (ids n).toInt = (g.val : ℤ) then hR n k else 0)) W b g o) :
    ∀ g o, Ok g o = Or g o := by
  intro g o
  rw [hOk, hOr]
  refine fcAt_congr W b g (fun k => ?_) o
  show (∑ n, (if ids n = BitVec.ofNat 32 g.val then (1 : EReal) else 0) * h n k)
      = 0 + ∑ n, (if (ids n).toInt = (g.val : ℤ) then hR n k else 0)
  rw [zero_add]
  refine Finset.sum_congr rfl fun n _ => ?_
  have hg := WordArith.toInt_ofNat_small g.val (by have := g.isLt; omega)
  rw [boole_mul, hh]
  exact if_congr ⟨fun e => e ▸ hg, fun e => BitVec.eq_of_toInt_eq (e.trans hg.symm)⟩ rfl rfl

end Cert.Bridge

end
-- ==== Proof.BridgeArgs.lean ====
import proofs.«421428_j45019847197002_2_alg».proof.KernelIdeal
import proofs.«421428_j45019847197002_2_alg».proof.Proof.RefRead
import proofs.«421428_j45019847197002_2_alg».proof.Proof.IdealFin
import proofs.«421428_j45019847197002_2_alg».proof.Proof.Layer
import Idealize.ShloMosaic.Lib.ValueIdx
import Idealize.ShloMosaic.Lib.ValueLayout

noncomputable section

namespace Cert.Bridge

open Idealize.ShloMosaic Idealize.ShloMosaic.TcCoe Idealize.ShloMosaic.ValueIdx Idealize.SL.Sem
open Cert.IdealFin Cert.KernelIdeal Cert.ReferenceIdeal.RefRead

structure ArgsAt (W : Valuation Cert.KernelIdeal.τ Cert.KernelIdeal.sig (Elt Ideal))
    (V0 : Valuation Cert.ReferenceIdeal.τ Cert.ReferenceIdeal.sig (Elt Ideal)) : Prop where
  a2 : (W (Proc.devRef .tc main_arg2) : IVec S100000 32) = gid V0
  a7 : (W (Proc.devRef .tc main_arg7) : FVec Ideal S4x32x32 .f32) = w1s V0
  a8 : (W (Proc.devRef .tc main_arg8) : FVec Ideal S4x32 .f32) = b1s V0
  a9 : (W (Proc.devRef .tc main_arg9) : FVec Ideal S4x32x32 .f32) = w2s V0
  a10 : (W (Proc.devRef .tc main_arg10) : FVec Ideal S4x32 .f32) = b2s V0
  a11 : (W (Proc.devRef .tc main_arg11) : FVec Ideal S5x32 .f32) = gam V0
  a12 : (W (Proc.devRef .tc main_arg12) : FVec Ideal S5x32 .f32) = bet V0
  a13 : (W (Proc.devRef .tc main_arg13) : FVec Ideal S32x128 .f32) = fcw V0
  a14 : (W (Proc.devRef .tc main_arg14) : FVec Ideal S128 .f32) = fcb V0
  src : (W (Proc.devRef .tc main_v1) : IVec S3200000 32) = esrc V0
  dst : (W (Proc.devRef .tc main_v3) : IVec S3200000 32) = edst V0

theorem ArgsAt.of_eq {W W' : Valuation Cert.KernelIdeal.τ Cert.KernelIdeal.sig (Elt Ideal)}
    {V0 : Valuation Cert.ReferenceIdeal.τ Cert.ReferenceIdeal.sig (Elt Ideal)} (h : ArgsAt W V0)
    (e2 : W' (Proc.devRef .tc main_arg2) = W (Proc.devRef .tc main_arg2))
    (e7 : W' (Proc.devRef .tc main_arg7) = W (Proc.devRef .tc main_arg7))
    (e8 : W' (Proc.devRef .tc main_arg8) = W (Proc.devRef .tc main_arg8))
    (e9 : W' (Proc.devRef .tc main_arg9) = W (Proc.devRef .tc main_arg9))
    (e10 : W' (Proc.devRef .tc main_arg10) = W (Proc.devRef .tc main_arg10))
    (e11 : W' (Proc.devRef .tc main_arg11) = W (Proc.devRef .tc main_arg11))
    (e12 : W' (Proc.devRef .tc main_arg12) = W (Proc.devRef .tc main_arg12))
    (e13 : W' (Proc.devRef .tc main_arg13) = W (Proc.devRef .tc main_arg13))
    (e14 : W' (Proc.devRef .tc main_arg14) = W (Proc.devRef .tc main_arg14))
    (es : W' (Proc.devRef .tc main_v1) = W (Proc.devRef .tc main_v1))
    (ed : W' (Proc.devRef .tc main_v3) = W (Proc.devRef .tc main_v3)) : ArgsAt W' V0 :=
  ⟨e2.trans h.a2, e7.trans h.a7, e8.trans h.a8, e9.trans h.a9, e10.trans h.a10, e11.trans h.a11, e12.trans h.a12,
    e13.trans h.a13, e14.trans h.a14, es.trans h.src, ed.trans h.dst⟩

structure FinArgs (V0 : Valuation Cert.ReferenceIdeal.τ Cert.ReferenceIdeal.sig (Elt Ideal)) : Prop where
  xin : IsFin (xin V0)
  w1a : IsFin (w1a V0)
  b1a : IsFin (b1a V0)
  w2a : IsFin (w2a V0)
  b2a : IsFin (b2a V0)
  w1s : IsFin (w1s V0)
  b1s : IsFin (b1s V0)
  w2s : IsFin (w2s V0)
  b2s : IsFin (b2s V0)
  gam : IsFin (gam V0)
  bet : IsFin (bet V0)
  fcw : IsFin (fcw V0)
  fcb : IsFin (fcb V0)

theorem row1_apply {α : Type} (v : S32.Idx → α) (h : S32.ShapeCasts S1x32) (j : Fin 32) :
    shapeCast S1x32 v h (ix2 (0 : Fin 1) j) = v (ix1 j) :=
  shapeCast_a_1a_apply v h (0 : Fin 1) j

theorem mlpAt_congr5 {D : ℕ} {agg agg' : Fin 100000 → Fin D → EReal} {W1 W1' : Fin D → Fin 32 → EReal}
    {b1 b1' : Fin 32 → EReal} {W2 W2' : Fin 32 → Fin 32 → EReal} {b2 b2' : Fin 32 → EReal}
    (h0 : ∀ n d, agg n d = agg' n d) (h1 : ∀ d k, W1 d k = W1' d k) (h2 : ∀ k, b1 k = b1' k)
    (h3 : ∀ k j, W2 k j = W2' k j) (h4 : ∀ j, b2 j = b2' j) (n : Fin 100000) (j : Fin 32) :
    Cert.Layer.mlpAt agg W1 b1 W2 b2 n j = Cert.Layer.mlpAt agg' W1' b1' W2' b2' n j := by
  rw [funext₂ h0, funext₂ h1, funext h2, funext₂ h3, funext h4]

theorem cN_eq : Cert.ReferenceIdeal.RefRead.cN = ((100000 : ℝ) : EReal) := ofBits_f32_rows
theorem cEps_pos : ∃ e : ℝ, 0 < e ∧ Cert.ReferenceIdeal.RefRead.cEps = (e : EReal) := ofBits_f32_eps_pos

end Cert.Bridge

end
-- ==== Proof.AggEq.lean ====
import proofs.«421428_j45019847197002_2_alg».proof.Proof.KIHost
import proofs.«421428_j45019847197002_2_alg».proof.Proof.RefRead

set_option maxRecDepth 16384

noncomputable section

namespace Cert.Bridge

open Cert.KernelIdeal Cert.KernelIdeal.Gen Cert.KernelIdeal.Host Idealize.ShloMosaic Idealize.ShloMosaic.TcCoe Idealize.ShloMosaic.StableHlo

theorem ho0_agg' (W : Valuation τ sig (Elt Ideal)) :
    (StableHlo.after hostOps0 W (Proc.devRef .tc main_v14) : FVec Ideal S100000x78 .f32)
      = Cert.ReferenceIdeal.RefRead.aggr78
          (StableHlo.after hostOps0 W (Proc.devRef .tc main_v1) : IVec S3200000 32)
          (StableHlo.after hostOps0 W (Proc.devRef .tc main_v3) : IVec S3200000 32)
          (W (Proc.devRef .tc main_arg0) : FVec Ideal S100000x78 .f32) := by
  rw [ho0_v1, ho0_v3]
  exact ho0_v14 W

theorem ho2_agg (W : Valuation τ sig (Elt Ideal)) :
    (StableHlo.after hostOps2 W (Proc.devRef .tc main_v41) : FVec Ideal S100000x32 .f32)
      = Cert.ReferenceIdeal.RefRead.aggr32
          (W (Proc.devRef .tc main_v1) : IVec S3200000 32)
          (W (Proc.devRef .tc main_v3) : IVec S3200000 32)
          (W (Proc.devRef .tc main_v30) : FVec Ideal S100000x32 .f32) :=
  ho2_v41 W

theorem ho4_agg (W : Valuation τ sig (Elt Ideal)) :
    (StableHlo.after hostOps4 W (Proc.devRef .tc main_v76) : FVec Ideal S100000x32 .f32)
      = Cert.ReferenceIdeal.RefRead.aggr32
          (W (Proc.devRef .tc main_v1) : IVec S3200000 32)
          (W (Proc.devRef .tc main_v3) : IVec S3200000 32)
          (W (Proc.devRef .tc main_v65) : FVec Ideal S100000x32 .f32) :=
  ho4_v76 W

theorem ho6_agg (W : Valuation τ sig (Elt Ideal)) :
    (StableHlo.after hostOps6 W (Proc.devRef .tc main_v111) : FVec Ideal S100000x32 .f32)
      = Cert.ReferenceIdeal.RefRead.aggr32
          (W (Proc.devRef .tc main_v1) : IVec S3200000 32)
          (W (Proc.devRef .tc main_v3) : IVec S3200000 32)
          (W (Proc.devRef .tc main_v100) : FVec Ideal S100000x32 .f32) :=
  ho6_v111 W

theorem ho8_agg (W : Valuation τ sig (Elt Ideal)) :
    (StableHlo.after hostOps8 W (Proc.devRef .tc main_v146) : FVec Ideal S100000x32 .f32)
      = Cert.ReferenceIdeal.RefRead.aggr32
          (W (Proc.devRef .tc main_v1) : IVec S3200000 32)
          (W (Proc.devRef .tc main_v3) : IVec S3200000 32)
          (W (Proc.devRef .tc main_v135) : FVec Ideal S100000x32 .f32) :=
  ho8_v146 W

end Cert.Bridge
-- ==== Proof.KIMlp0Val.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp0
import proofs.«421428_j45019847197002_2_alg».proof.Proof.ValMlp
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window)
open Cert.KernelIdeal.ValMlp
open scoped BigOperators

variable {F : FTy → Type} [FloatOps F]

theorem idx0 : ∀ t : Fin cfg0.N,
    (win0_0.index t (0 : Fin 2) = t.val ∧ win0_0.index t (1 : Fin 2) = 0
      ∧ win0_5.index t (0 : Fin 2) = t.val ∧ win0_5.index t (1 : Fin 2) = 0)
    ∧ ∀ a : Fin 2, win0_1.index t a = 0 ∧ win0_2.index t a = 0 ∧ win0_3.index t a = 0 ∧ win0_4.index t a = 0
      ∧ win0_6.index t a = 0 ∧ win0_7.index t a = 0 :=
  (by decide +kernel : ∀ t : Fin grid0.N, _)

section
variable (t : Fin cfg0.N)

theorem emb0_0 (r : Fin 10000) (d : Fin 78) (n : Fin 100000) (hn : n.val = t.val * 10000 + r.val) :
    ((cfg0.win 0).blk t).view.emb (ix2 r d) = ix2 n d :=
  Shape.idx_ext₂ (by show win0_0.index t (0 : Fin 2) * 10000 + 1 * r.val = n.val; rw [(idx0 t).1.1, hn]; omega)
    (by show win0_0.index t (1 : Fin 2) * 78 + 1 * d.val = d.val; rw [(idx0 t).1.2.1]; omega)

theorem emb0_5 (r : Fin 10000) (d : Fin 32) (n : Fin 100000) (hn : n.val = t.val * 10000 + r.val) :
    ((cfg0.win 5).blk t).view.emb (ix2 r d) = ix2 n d :=
  Shape.idx_ext₂ (by show win0_5.index t (0 : Fin 2) * 10000 + 1 * r.val = n.val; rw [(idx0 t).1.2.2.1, hn]; omega)
    (by show win0_5.index t (1 : Fin 2) * 32 + 1 * d.val = d.val; rw [(idx0 t).1.2.2.2]; omega)

theorem read0_0 (X : Vec F S100000x78 .f32) (r : Fin 10000) (d : Fin 78) (n : Fin 100000) (hn : n.val = t.val * 10000 + r.val) :
    (((cfg0.win 0).blk t).view.read (Elt F) X : Vec F S10000x78 .f32) (ix2 r d) = X (ix2 n d) := by
  rw [View.read_apply]; show X _ = X _; exact congrArg X (emb0_0 t r d n hn)

theorem read0_5 (X : Vec F S100000x32 .f32) (r : Fin 10000) (d : Fin 32) (n : Fin 100000) (hn : n.val = t.val * 10000 + r.val) :
    (((cfg0.win 5).blk t).view.read (Elt F) X : Vec F S10000x32 .f32) (ix2 r d) = X (ix2 n d) := by
  rw [View.read_apply]; show X _ = X _; exact congrArg X (emb0_5 t r d n hn)

theorem read0_1 (X : Vec F S78x32 .f32) : (((cfg0.win 1).blk t).view.read (Elt F) X : Vec F S78x32 .f32) = X := by
  funext y; rw [View.read_apply]; show X _ = X _
  exact congrArg X (funext fun a => Fin.ext (Window.rect_emb_val_of_index_zero win0_1 t a ((idx0 t).2 a).1 y))

theorem read0_2 (X : Vec F S1x32 .f32) : (((cfg0.win 2).blk t).view.read (Elt F) X : Vec F S1x32 .f32) = X := by
  funext y; rw [View.read_apply]; show X _ = X _
  exact congrArg X (funext fun a => Fin.ext (Window.rect_emb_val_of_index_zero win0_2 t a ((idx0 t).2 a).2.1 y))

theorem read0_3 (X : Vec F S32x32 .f32) : (((cfg0.win 3).blk t).view.read (Elt F) X : Vec F S32x32 .f32) = X := by
  funext y; rw [View.read_apply]; show X _ = X _
  exact congrArg X (funext fun a => Fin.ext (Window.rect_emb_val_of_index_zero win0_3 t a ((idx0 t).2 a).2.2.1 y))

theorem read0_4 (X : Vec F S1x32 .f32) : (((cfg0.win 4).blk t).view.read (Elt F) X : Vec F S1x32 .f32) = X := by
  funext y; rw [View.read_apply]; show X _ = X _
  exact congrArg X (funext fun a => Fin.ext (Window.rect_emb_val_of_index_zero win0_4 t a ((idx0 t).2 a).2.2.2.1 y))

theorem emb0_6 (y : S1x32.Idx) : ((cfg0.win 6).blk t).view.emb y = y :=
  funext fun a => Fin.ext (Window.rect_emb_val_of_index_zero win0_6 t a ((idx0 t).2 a).2.2.2.2.1 y)
theorem emb0_7 (y : S1x32.Idx) : ((cfg0.win 7).blk t).view.emb y = y :=
  funext fun a => Fin.ext (Window.rect_emb_val_of_index_zero win0_7 t a ((idx0 t).2 a).2.2.2.2.2 y)

theorem read0_6 (X : Vec F S1x32 .f32) : (((cfg0.win 6).blk t).view.read (Elt F) X : Vec F S1x32 .f32) = X := by
  funext y; rw [View.read_apply]; show X _ = X _; exact congrArg X (emb0_6 t y)

theorem read0_7 (X : Vec F S1x32 .f32) : (((cfg0.win 7).blk t).view.read (Elt F) X : Vec F S1x32 .f32) = X := by
  funext y; rw [View.read_apply]; show X _ = X _; exact congrArg X (emb0_7 t y)

end

theorem cover0_5 (i : S100000x32.Idx) :
    ∃ t : Fin cfg0.N, (cfg0.win 5).flush t = true ∧ i ∈ ((cfg0.win 5).blk t).view.set := by
  have hi : (i 0).val < 100000 := (i 0).isLt
  have hN : cfg0.N = 10 := N_0
  refine ⟨⟨(i 0).val / 10000, by rw [hN]; omega⟩, flush0_5 _, ?_⟩
  have h := emb0_5 ⟨(i 0).val / 10000, by rw [hN]; omega⟩ ⟨(i 0).val % 10000, Nat.mod_lt _ (by decide)⟩ (i 1) (i 0)
    (by show (i 0).val = (i 0).val / 10000 * 10000 + (i 0).val % 10000; omega)
  exact Eq.mp (congrArg (· ∈ _) (h.trans (eq_ix2 i).symm)) (View.emb_mem_set _ _)

theorem cover0_6 (i : S1x32.Idx) :
    ∃ t : Fin cfg0.N, (cfg0.win 6).flush t = true ∧ i ∈ ((cfg0.win 6).blk t).view.set :=
  ⟨t0_9, (flush0_6 t0_9).mpr rfl, emb0_6 t0_9 i ▸ View.emb_mem_set _ i⟩

theorem cover0_7 (i : S1x32.Idx) :
    ∃ t : Fin cfg0.N, (cfg0.win 7).flush t = true ∧ i ∈ ((cfg0.win 7).blk t).view.set :=
  ⟨t0_9, (flush0_7 t0_9).mpr rfl, emb0_7 t0_9 i ▸ View.emb_mem_set _ i⟩

section Region0Val
variable (V : (c : Dev nD) → (b : Ref sig .tc) → Buf (Elt Ideal) ((c : Thread nD τ).loc b)) (c : Dev nD)

abbrev arr0_0 : FVec Ideal S100000x78 .f32 := V c (Pipeline.arrRef spec0 0)
abbrev arr0_1 : FVec Ideal S78x32 .f32 := V c (Pipeline.arrRef spec0 1)
abbrev arr0_2 : FVec Ideal S1x32 .f32 := V c (Pipeline.arrRef spec0 2)
abbrev arr0_3 : FVec Ideal S32x32 .f32 := V c (Pipeline.arrRef spec0 3)
abbrev arr0_4 : FVec Ideal S1x32 .f32 := V c (Pipeline.arrRef spec0 4)

abbrev hArr0 : FVec Ideal S100000x32 .f32 :=
  mlpArr (arr0_0 V c) (arr0_1 V c) (arr0_2 V c) (arr0_3 V c) (arr0_4 V c)

abbrev sArr0 : FVec Ideal S1x32 .f32 := fun i => ∑ n : Fin 100000, hArr0 V c (ix2 n (i 1))

abbrev qArr0 : FVec Ideal S1x32 .f32 :=
  fun i => ∑ n : Fin 100000, hArr0 V c (ix2 n (i 1)) * hArr0 V c (ix2 n (i 1))

theorem hblk0_apply (t : Fin cfg0.N) (r : Fin 10000) (j : Fin 32) (n : Fin 100000)
    (hn : n.val = t.val * 10000 + r.val) : hblk0 (F := Ideal) V c t (ix2 r j) = hArr0 V c (ix2 n j) := by
  unfold hblk0
  exact hpay0_of_blocks _ _ _ _ _ _ n r _ _ _ _ (fun d => read0_0 (F := Ideal) t (arr0_0 V c) r d n hn)
    (read0_1 (F := Ideal) t (arr0_1 V c)) (read0_2 (F := Ideal) t (arr0_2 V c)) (read0_3 (F := Ideal) t (arr0_3 V c))
    (read0_4 (F := Ideal) t (arr0_4 V c)) j

theorem accS0_last (j : Fin 32) (h9 : 9 < cfg0.N) :
    accS0 (F := Ideal) V c 9 h9 (ix2 0 j) = ∑ n : Fin 100000, hArr0 V c (ix2 n j) :=
  carried_total (accS0 (F := Ideal) V c) k0_pay2
    (fun n h a => k0_pay5 (iblk0 V c 0 ⟨n, h⟩) (iblk0 V c 1 ⟨n, h⟩) (iblk0 V c 2 ⟨n, h⟩) (iblk0 V c 3 ⟨n, h⟩) (iblk0 V c 4 ⟨n, h⟩) a)
    (fun n j => hArr0 V c (ix2 n j)) j (pay_z0a_apply j) (fun _ => rfl) (fun _ _ => rfl)
    (fun n h a => (pay_S0_apply _ _ _ _ _ _ _).trans (congrArg (a (ix2 0 j) + ·)
      (blockSum_eq _ n (lt_of_lt_of_eq h N_0) _ fun r m hm => hblk0_apply V c ⟨n, h⟩ r j m hm))) h9

theorem accQ0_last (j : Fin 32) (h9 : 9 < cfg0.N) :
    accQ0 (F := Ideal) V c 9 h9 (ix2 0 j) = ∑ n : Fin 100000, hArr0 V c (ix2 n j) * hArr0 V c (ix2 n j) :=
  carried_total (accQ0 (F := Ideal) V c) k0_pay3 (fun n h a => k0_pay1 (hblk0 (F := Ideal) V c ⟨n, h⟩) a)
    (fun n j => hArr0 V c (ix2 n j) * hArr0 V c (ix2 n j)) j (pay_z0b_apply j) (fun _ => rfl) (fun _ _ => rfl)
    (fun n h a => (pay_Q0_apply _ _ _).trans (congrArg (a (ix2 0 j) + ·)
      (blockSum_eq _ n (lt_of_lt_of_eq h N_0) _ fun r m hm => by rw [hblk0_apply V c ⟨n, h⟩ r j m hm]))) h9

theorem flushed0_5_eq (t : Fin cfg0.N) :
    (dat0 V c).flushed 5 t = ((cfg0.win 5).blk t).view.read (Elt Ideal) (hArr0 V c) := by
  show (cfg0.win 5).cut (grid0.coords t) ((dat0 V c).after 5 t) = _
  rw [after0_5]
  funext y
  obtain ⟨r, j, rfl⟩ : ∃ (r : Fin 10000) (j : Fin 32), y = ix2 r j := ⟨y 0, y 1, eq_ix2 y⟩
  have hN : cfg0.N = 10 := N_0
  have ht := t.isLt
  have hr := r.isLt
  exact (hblk0_apply V c t r j ⟨t.val * 10000 + r.val, by omega⟩ rfl).trans (read0_5 (F := Ideal) t (hArr0 V c) r j _ rfl).symm

theorem flushed0_6_eq (t : Fin cfg0.N) (hf : (cfg0.win 6).flush t = true) :
    (dat0 V c).flushed 6 t = ((cfg0.win 6).blk t).view.read (Elt Ideal) (sArr0 V c) := by
  obtain ⟨n, hn⟩ := t
  have hN : cfg0.N = 10 := N_0
  obtain rfl : n = 9 := by have : n % 10 = 9 := (flush0_6 ⟨n, hn⟩).mp hf; omega
  show (cfg0.win 6).cut (grid0.coords _) ((dat0 V c).after 6 _) = _
  rw [after0_6, read0_6 (F := Ideal)]
  exact row_ext fun j => accS0_last V c j hn

theorem flushed0_7_eq (t : Fin cfg0.N) (hf : (cfg0.win 7).flush t = true) :
    (dat0 V c).flushed 7 t = ((cfg0.win 7).blk t).view.read (Elt Ideal) (qArr0 V c) := by
  obtain ⟨n, hn⟩ := t
  have hN : cfg0.N = 10 := N_0
  obtain rfl : n = 9 := by have : n % 10 = 9 := (flush0_7 ⟨n, hn⟩).mp hf; omega
  show (cfg0.win 7).cut (grid0.coords _) ((dat0 V c).after 7 _) = _
  rw [after0_7, read0_7 (F := Ideal)]
  exact row_ext fun j => accQ0_last V c j hn

abbrev outH0 : FVec Ideal S100000x32 .f32 := (dat0 V c).arrAt 5 cfg0.N
abbrev outS0 : FVec Ideal S1x32 .f32 := (dat0 V c).arrAt 6 cfg0.N
abbrev outQ0 : FVec Ideal S1x32 .f32 := (dat0 V c).arrAt 7 cfg0.N

theorem final0_5 : outH0 V c = hArr0 V c :=
  (dat0 V c).arrAt_eq_of_cover 5 (hArr0 V c) (fun t _ => flushed0_5_eq V c t) cover0_5

theorem final0_6 : outS0 V c = sArr0 V c :=
  (dat0 V c).arrAt_eq_of_cover 6 (sArr0 V c) (flushed0_6_eq V c) cover0_6

theorem final0_7 : outQ0 V c = qArr0 V c :=
  (dat0 V c).arrAt_eq_of_cover 7 (qArr0 V c) (flushed0_7_eq V c) cover0_7

theorem mlp0_h (n : Fin 100000) (j : Fin 32) :
    outH0 V c (ix2 n j)
      = Cert.Layer.mlpAt (fun n d => arr0_0 V c (ix2 n d)) (fun d k => arr0_1 V c (ix2 d k)) (fun k => arr0_2 V c (ix2 0 k))
          (fun k j => arr0_3 V c (ix2 k j)) (fun j => arr0_4 V c (ix2 0 j)) n j :=
  congrFun (final0_5 V c) (ix2 n j)

theorem mlp0_S (j : Fin 32) : outS0 V c (ix2 0 j) = ∑ n : Fin 100000, outH0 V c (ix2 n j) := by
  rw [final0_5]
  exact congrFun (final0_6 V c) (ix2 0 j)

theorem mlp0_Q (j : Fin 32) :
    outQ0 V c (ix2 0 j) = ∑ n : Fin 100000, outH0 V c (ix2 n j) * outH0 V c (ix2 n j) := by
  rw [final0_5]
  exact congrFun (final0_7 V c) (ix2 0 j)

end Region0Val

end Cert.KernelIdeal.Gen

end
-- ==== Proof.ValBn.lean ====
import proofs.«421428_j45019847197002_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValBn

open Idealize.ShloMosaic Idealize.SL.Sem Idealize.ShloMosaic.ValueIdx Cert.KernelIdeal Cert.KernelIdeal.Gen

-- The regions' payloads are one function: every operation in it is read entry by entry.
theorem pay_apply {pay : Vec Ideal S10000x32 .f32 → Vec Ideal S1x32 .f32 → Vec Ideal S1x32 .f32 → Vec Ideal S1x32 .f32 →
      Vec Ideal S1x32 .f32 → FVec Ideal S10000x32 .f32} (e : pay = k1_pay1 (F := Ideal))
    (h : FVec Ideal S10000x32 .f32) (var mean gamma beta : FVec Ideal S1x32 .f32) (r : Fin 10000) (j : Fin 32) :
    pay h var mean gamma beta (ix2 r j)
      = (h (ix2 r j) - mean (ix2 0 j))
          * Ideal.rsqrt (max (var (ix2 0 j)) 0 + Ideal.ofBits .f32 0x3727C5AC#32)
          * gamma (ix2 0 j) + beta (ix2 0 j) := by
  subst e
  unfold k1_pay1
  simp only [shapeCast_self]
  rw [addf_apply, mulf_apply, mulf_apply, subf_apply]
  simp only [broadcastTo_1b_ab_apply]
  show (h (ix2 r j) - mean (ix2 0 j))
        * Ideal.rsqrt (max (var (ix2 0 j)) (Ideal.ofBits .f32 0x00000000#32) + Ideal.ofBits .f32 0x3727C5AC#32)
        * gamma (ix2 0 j) + beta (ix2 0 j) = _
  rw [Ideal.ofBits_zero_f32]

-- An entry of a one-row array is named by its column alone.
theorem row_congr {α : Type} (f : S1x32.Idx → α) {x x' : S1x32.Idx} (h : (x 1).val = (x' 1).val) : f x = f x' := by
  refine congrArg f (funext fun a => ?_)
  match a with
  | ⟨0, _⟩ => exact Subsingleton.elim (α := Fin 1) _ _
  | ⟨1, _⟩ => exact Fin.ext h

end Cert.KernelIdeal.ValBn

end
-- ==== Proof.KIBn1Val.lean ====
import proofs.«421428_j45019847197002_2_alg».proof.Proof.KIBn1
import proofs.«421428_j45019847197002_2_alg».proof.Proof.ValBn
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

theorem idx1_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (1 : Fin 2) = 0 ∧ win1_2.index t (1 : Fin 2) = 0
    ∧ win1_3.index t (1 : Fin 2) = 0 ∧ win1_4.index t (1 : Fin 2) = 0 :=
  (by decide +kernel : ∀ t : Fin grid1.N, _)

def pt1 (n : Fin 100000) : Fin cfg1.N :=
  ⟨n.val / 10000, by have h : cfg1.N = 10 := N_1; rw [h]; have := n.isLt; omega⟩

-- Row n of the array lies in the block of point n / 10000.
theorem bn1_cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  refine ⟨pt1 (i 0 : Fin 100000), flush1_5 _, ?_⟩
  obtain ⟨-, -, e0, e1, -⟩ := idx1_facts (pt1 (i 0 : Fin 100000))
  have hp : (pt1 (i 0 : Fin 100000)).val = (i 0).val / 10000 := rfl
  rw [show ((cfg1.win 5).blk (pt1 (i 0 : Fin 100000))).view.set = (win1_5.rect (pt1 (i 0 : Fin 100000))).set from View.set_slice_whole _ _,
    Rect.mem_set_unit]
  intro a
  match a with
  | ⟨0, _⟩ => show win1_5.index (pt1 (i 0 : Fin 100000)) (0 : Fin 2) * 10000 ≤ (i 0).val ∧ (i 0).val < win1_5.index (pt1 (i 0 : Fin 100000)) (0 : Fin 2) * 10000 + 10000; omega
  | ⟨1, _⟩ => show win1_5.index (pt1 (i 0 : Fin 100000)) (1 : Fin 2) * 32 ≤ (i 1).val ∧ (i 1).val < win1_5.index (pt1 (i 0 : Fin 100000)) (1 : Fin 2) * 32 + 32; omega

section Region1
variable (V : (c : Dev nD) → (b : Ref sig .tc) → Buf (Elt F) ((c : Thread nD τ).loc b))

abbrev bn1_h (c : Dev nD) : Vec F S100000x32 .f32 := V c (Pipeline.arrRef spec1 0)
abbrev bn1_mean (c : Dev nD) : Vec F S1x32 .f32 := V c (Pipeline.arrRef spec1 1)
abbrev bn1_var (c : Dev nD) : Vec F S1x32 .f32 := V c (Pipeline.arrRef spec1 2)
abbrev bn1_gamma (c : Dev nD) : Vec F S1x32 .f32 := V c (Pipeline.arrRef spec1 3)
abbrev bn1_beta (c : Dev nD) : Vec F S1x32 .f32 := V c (Pipeline.arrRef spec1 4)

end Region1

section Region1
variable (V : (c : Dev nD) → (b : Ref sig .tc) → Buf (Elt Ideal) ((c : Thread nD τ).loc b))

-- Entry (r, k) of point t's block is the normalised entry at the array index i = (10000 t + r, k).
theorem bn1_at (c : Dev nD) (t : Fin cfg1.N) (r : Fin 10000) (k : Fin 32) (i : S100000x32.Idx)
    (hi0 : (i 0).val = t.val * 10000 + r.val) (hi1 : (i 1).val = k.val) :
    k1_pay1 (iblk1 V c 0 t) (iblk1 V c 2 t) (iblk1 V c 1 t) (iblk1 V c 3 t) (iblk1 V c 4 t) (ix2 r k)
      = (bn1_h V c i - bn1_mean V c (ix2 0 (i 1)))
          * Ideal.rsqrt (max (bn1_var V c (ix2 0 (i 1))) 0 + Ideal.ofBits .f32 0x3727C5AC#32)
          * bn1_gamma V c (ix2 0 (i 1)) + bn1_beta V c (ix2 0 (i 1)) := by
  obtain ⟨e00, e01, -, -, e11, e21, e31, e41⟩ := idx1_facts t
  refine (ValBn.pay_apply (pay := k1_pay1) rfl _ _ _ _ _ r k).trans ?_
  have h0 : iblk1 V c 0 t (ix2 r k) = bn1_h V c i := by
    show V c (Pipeline.arrRef spec1 0) (((cfg1.win 0).blk t).view.emb (ix2 r k)) = V c (Pipeline.arrRef spec1 0) i
    refine congrArg (V c (Pipeline.arrRef spec1 0)) ?_
    funext a; apply Fin.ext
    match a with
    | ⟨0, _⟩ => show win1_0.index t (0 : Fin 2) * 10000 + 1 * r.val = (i 0).val; omega
    | ⟨1, _⟩ => show win1_0.index t (1 : Fin 2) * 32 + 1 * k.val = (i 1).val; omega
  have h1 : iblk1 V c 1 t (ix2 0 k) = bn1_mean V c (ix2 0 (i 1)) :=
    ValBn.row_congr (V c (Pipeline.arrRef spec1 1)) (x := ((cfg1.win 1).blk t).view.emb (ix2 0 k))
      (by show win1_1.index t (1 : Fin 2) * 32 + 1 * k.val = (i 1).val; omega)
  have h2 : iblk1 V c 2 t (ix2 0 k) = bn1_var V c (ix2 0 (i 1)) :=
    ValBn.row_congr (V c (Pipeline.arrRef spec1 2)) (x := ((cfg1.win 2).blk t).view.emb (ix2 0 k))
      (by show win1_2.index t (1 : Fin 2) * 32 + 1 * k.val = (i 1).val; omega)
  have h3 : iblk1 V c 3 t (ix2 0 k) = bn1_gamma V c (ix2 0 (i 1)) :=
    ValBn.row_congr (V c (Pipeline.arrRef spec1 3)) (x := ((cfg1.win 3).blk t).view.emb (ix2 0 k))
      (by show win1_3.index t (1 : Fin 2) * 32 + 1 * k.val = (i 1).val; omega)
  have h4 : iblk1 V c 4 t (ix2 0 k) = bn1_beta V c (ix2 0 (i 1)) :=
    ValBn.row_congr (V c (Pipeline.arrRef spec1 4)) (x := ((cfg1.win 4).blk t).view.emb (ix2 0 k))
      (by show win1_4.index t (1 : Fin 2) * 32 + 1 * k.val = (i 1).val; omega)
  rw [h0, h1, h2, h3, h4]

-- The grid points' blocks cover the array, and each block holds the normalised entries of its rows.
theorem bn1_arr_ideal (c : Dev nD) (n : Fin 100000) (j : Fin 32) :
    (dat1 (F := Ideal) V c).arrAt 5 cfg1.N (ix2 n j)
      = (bn1_h V c (ix2 n j) - bn1_mean V c (ix2 0 j))
          * Ideal.rsqrt (max (bn1_var V c (ix2 0 j)) 0 + Ideal.ofBits .f32 0x3727C5AC#32)
          * bn1_gamma V c (ix2 0 j) + bn1_beta V c (ix2 0 j) := by
  refine (dat1 (F := Ideal) V c).arrAt_forall_of_cover 5
    (fun (i : S100000x32.Idx) (v : Elt Ideal .f32) => v = (bn1_h V c i - bn1_mean V c (ix2 0 (i 1)))
      * Ideal.rsqrt (max (bn1_var V c (ix2 0 (i 1))) 0 + Ideal.ofBits .f32 0x3727C5AC#32)
      * bn1_gamma V c (ix2 0 (i 1)) + bn1_beta V c (ix2 0 (i 1)))
    (fun t _ y => ?_) bn1_cover (ix2 n j)
  obtain ⟨-, -, e50, e51, -⟩ := idx1_facts t
  obtain ⟨r, k, rfl⟩ : ∃ r k, y = ix2 r k := ⟨y 0, y 1, eq_ix2 y⟩
  show (cfg1.win 5).cut (grid1.coords t) ((dat1 V c).after 5 t) (ix2 r k) = _
  rw [after1_5, out1_5_eq]
  exact bn1_at V c t r k _
    (by show win1_5.index t (0 : Fin 2) * 10000 + 1 * r.val = t.val * 10000 + r.val; omega)
    (by show win1_5.index t (1 : Fin 2) * 32 + 1 * k.val = k.val; omega)

end Region1

end Cert.KernelIdeal.Gen

end
-- ==== Proof.IdealFinOps.lean ====
import proofs.«421428_j45019847197002_2_alg».proof.Proof.IdealFin
import Idealize.ShloMosaic.PureOps.Ideal
import Idealize.ShloMosaic.PureOps.Ideal.Laws
import Idealize.ShloMosaic.PureOps.ShapeOps
import Idealize.ShloMosaic.PureOps.Contract
import Idealize.ShloMosaic.PureOps.Vector

noncomputable section

namespace Cert.IdealFinOps

open Idealize.ShloMosaic Cert.IdealFin
open scoped BigOperators

variable {s t u : Shape} {φ : FTy}

theorem isFin_gather {si : Shape} {w : Nat} (d : GatherDims s si t) {x : FVec Ideal s φ} (idx : IVec si w)
    (hx : IsFin x) : IsFin (Host.gather d x idx) :=
  fun j => hx (d.operandIdx j idx)

theorem isFin_broadcastInDim (dims : Fin s.rank → Fin t.rank) (h : s.BroadcastsInDim t dims) {v : FVec Ideal s φ}
    (hv : IsFin v) : IsFin (broadcastInDim t dims h v) :=
  fun j => hv _

theorem isFin_constant_zero : IsFin (constant (F := Ideal) s .f32 0x00000000#32) :=
  fun _ => (⟨0, by rw [ofBits_f32_zero]; rfl⟩ : IsFinS (Ideal.ofBits .f32 0x00000000#32))

theorem isFin_addf {a b : FVec Ideal s φ} (ha : IsFin a) (hb : IsFin b) : IsFin (addf a b) :=
  fun i => IsFinS.add (ha i) (hb i)

theorem isFin_scatterAdd {si : Shape} {w : Nat} (d : ScatterDims s si u) {x : FVec Ideal s φ} (idx : IVec si w)
    {upd : FVec Ideal u φ} (hx : IsFin x) (hu : IsFin upd) : IsFin (Host.scatterAdd d x idx upd) := by
  intro i
  show IsFinS (Ideal.hostScatterAdd d x idx upd i)
  unfold Ideal.hostScatterAdd
  exact IsFinS.add (hx i) (isFinS_sum _ fun j _ => hu j)

end Cert.IdealFinOps

end
-- ==== Proof.Bridge0.lean ====
import proofs.«421428_j45019847197002_2_alg».proof.Proof.KIVals
import proofs.«421428_j45019847197002_2_alg».proof.Proof.KIHostIdx
import proofs.«421428_j45019847197002_2_alg».proof.Proof.AggEq
import proofs.«421428_j45019847197002_2_alg».proof.Proof.KIMlp0Val
import proofs.«421428_j45019847197002_2_alg».proof.Proof.KIBn1Val
import proofs.«421428_j45019847197002_2_alg».proof.Proof.RefRead
import proofs.«421428_j45019847197002_2_alg».proof.Proof.BridgeLayer
import proofs.«421428_j45019847197002_2_alg».proof.Proof.BridgeArgs
import proofs.«421428_j45019847197002_2_alg».proof.Proof.IdealFinOps

set_option maxRecDepth 16384

noncomputable section

namespace Cert.Bridge

open Idealize.ShloMosaic Idealize.ShloMosaic.TcCoe Idealize.ShloMosaic.ValueIdx Idealize.SL.Sem
open Cert.IdealFin Cert.IdealFinOps Cert.Layer
open Cert.KernelIdeal Cert.KernelIdeal.Gen Cert.KernelIdeal.Host Cert.ReferenceIdeal.RefRead
open scoped BigOperators

structure Args0 (W : Valuation Cert.KernelIdeal.τ Cert.KernelIdeal.sig (Elt Ideal))
    (V0 : Valuation Cert.ReferenceIdeal.τ Cert.ReferenceIdeal.sig (Elt Ideal)) : Prop where
  a0 : (W (Proc.devRef .tc main_arg0) : FVec Ideal S100000x78 .f32) = xin V0
  a1 : (W (Proc.devRef .tc main_arg1) : IVec S2x3200000 32) = V0 (Proc.devRef .tc Cert.ReferenceIdeal.main_arg1)
  a2 : (W (Proc.devRef .tc main_arg2) : IVec S100000 32) = gid V0
  a3 : (W (Proc.devRef .tc main_arg3) : FVec Ideal S78x32 .f32) = w1a V0
  a4 : (W (Proc.devRef .tc main_arg4) : FVec Ideal S32 .f32) = b1a V0
  a5 : (W (Proc.devRef .tc main_arg5) : FVec Ideal S32x32 .f32) = w2a V0
  a6 : (W (Proc.devRef .tc main_arg6) : FVec Ideal S32 .f32) = b2a V0
  a7 : (W (Proc.devRef .tc main_arg7) : FVec Ideal S4x32x32 .f32) = w1s V0
  a8 : (W (Proc.devRef .tc main_arg8) : FVec Ideal S4x32 .f32) = b1s V0
  a9 : (W (Proc.devRef .tc main_arg9) : FVec Ideal S4x32x32 .f32) = w2s V0
  a10 : (W (Proc.devRef .tc main_arg10) : FVec Ideal S4x32 .f32) = b2s V0
  a11 : (W (Proc.devRef .tc main_arg11) : FVec Ideal S5x32 .f32) = gam V0
  a12 : (W (Proc.devRef .tc main_arg12) : FVec Ideal S5x32 .f32) = bet V0
  a13 : (W (Proc.devRef .tc main_arg13) : FVec Ideal S32x128 .f32) = fcw V0
  a14 : (W (Proc.devRef .tc main_arg14) : FVec Ideal S128 .f32) = fcb V0

section Layer0
variable (m : (ℓ : Loc nD τ sig) → Buf (Elt Ideal) ℓ) (ρ : Dev nD → PrngReg)
variable (V0 : Valuation Cert.ReferenceIdeal.τ Cert.ReferenceIdeal.sig (Elt Ideal)) (c : Dev nD)

def lay0_H (n : Fin 100000) (j : Fin 32) : EReal :=
  (U2 m ρ c (Pipeline.arrRef spec0 5) : FVec Ideal S100000x32 .f32) (ix2 n j)

def lay0_S (j : Fin 32) : EReal := (U2 m ρ c (Pipeline.arrRef spec0 6) : FVec Ideal S1x32 .f32) (ix2 (0 : Fin 1) j)
def lay0_Q (j : Fin 32) : EReal := (U2 m ρ c (Pipeline.arrRef spec0 7) : FVec Ideal S1x32 .f32) (ix2 (0 : Fin 1) j)

def lay0_mean (j : Fin 32) : EReal := (U3 m ρ c (Pipeline.arrRef spec1 1) : FVec Ideal S1x32 .f32) (ix2 (0 : Fin 1) j)
def lay0_var (j : Fin 32) : EReal := (U3 m ρ c (Pipeline.arrRef spec1 2) : FVec Ideal S1x32 .f32) (ix2 (0 : Fin 1) j)

def lay0_O (n : Fin 100000) (j : Fin 32) : EReal :=
  (U4 m ρ c (Pipeline.arrRef spec1 5) : FVec Ideal S100000x32 .f32) (ix2 n j)

def lay0_gamma (j : Fin 32) : EReal := gam V0 (ix2 (0 : Fin 5) j)
def lay0_beta (j : Fin 32) : EReal := bet V0 (ix2 (0 : Fin 5) j)

theorem lay0_kept1 (r : Ref sig .tc)
    (h : (∀ w, Pipeline.arrRef spec0 w ≠ r) ∧ r ∉ hostOps1_W ∧ ∀ w, Pipeline.arrRef spec1 w ≠ r) :
    B4 m ρ c (Proc.devRef .tc r) = B1 m ρ c (Proc.devRef .tc r) :=
  (B4_of_ne m ρ c r h.2.2).trans <| (B3_keep m ρ c r h.2.1).trans (B2_of_ne m ρ c r h.1)

theorem lay0_kept (r : Ref sig .tc)
    (h : r ∉ hostOps0_W ∧ (∀ w, Pipeline.arrRef spec0 w ≠ r) ∧ r ∉ hostOps1_W ∧ ∀ w, Pipeline.arrRef spec1 w ≠ r) :
    B4 m ρ c (Proc.devRef .tc r) = B0 m ρ c (Proc.devRef .tc r) :=
  (lay0_kept1 m ρ c r h.2).trans (B1_keep m ρ c r h.1)

theorem lay0_src (h0 : Args0 (B0 m ρ c) V0) :
    (StableHlo.after hostOps0 (B0 m ρ c) (Proc.devRef .tc main_v1) : IVec S3200000 32) = esrc V0 := by
  refine (ho0_v1 (F := Ideal) (B0 m ρ c)).trans ?_
  rw [h0.a1]
  rfl

theorem lay0_dst (h0 : Args0 (B0 m ρ c) V0) :
    (StableHlo.after hostOps0 (B0 m ρ c) (Proc.devRef .tc main_v3) : IVec S3200000 32) = edst V0 := by
  refine (ho0_v3 (F := Ideal) (B0 m ρ c)).trans ?_
  rw [h0.a1]
  rfl

theorem layer0_args (h0 : Args0 (B0 m ρ c) V0) : ArgsAt (B4 m ρ c) V0 :=
  ⟨(lay0_kept m ρ c main_arg2 (by decide)).trans h0.a2,
    (lay0_kept m ρ c main_arg7 (by decide)).trans h0.a7,
    (lay0_kept m ρ c main_arg8 (by decide)).trans h0.a8,
    (lay0_kept m ρ c main_arg9 (by decide)).trans h0.a9,
    (lay0_kept m ρ c main_arg10 (by decide)).trans h0.a10,
    (lay0_kept m ρ c main_arg11 (by decide)).trans h0.a11,
    (lay0_kept m ρ c main_arg12 (by decide)).trans h0.a12,
    (lay0_kept m ρ c main_arg13 (by decide)).trans h0.a13,
    (lay0_kept m ρ c main_arg14 (by decide)).trans h0.a14,
    (lay0_kept1 m ρ c main_v1 (by decide)).trans (lay0_src m ρ V0 c h0),
    (lay0_kept1 m ρ c main_v3 (by decide)).trans (lay0_dst m ρ V0 c h0)⟩

theorem lay0_agg (h0 : Args0 (B0 m ρ c) V0) : arr0_0 (U1 m ρ) c = agg0 V0 := by
  refine (ho0_agg' (B0 m ρ c)).trans ?_
  unfold agg0
  exact congr (congr (congrArg aggr78 (lay0_src m ρ V0 c h0)) (lay0_dst m ρ V0 c h0)) h0.a0

theorem lay0_hH (h0 : Args0 (B0 m ρ c) V0) (n : Fin 100000) (j : Fin 32) :
    lay0_H m ρ c n j = pre0 V0 (ix2 n j) := by
  refine (congrFun (B2_arr m ρ c 5) (ix2 n j)).trans ?_
  refine (mlp0_h (U1 m ρ) c n j).trans ?_
  refine Eq.trans ?_ (pre0_mlpAt V0 n j).symm
  refine mlpAt_congr5 (fun n d => congrFun (lay0_agg m ρ V0 c h0) (ix2 n d))
    (fun d k => (congrFun (B1_keep m ρ c main_arg3 (by decide)) (ix2 d k)).trans (congrFun h0.a3 _))
    (fun k => (ho0_b1_apply (B0 m ρ c) k).trans (congrFun h0.a4 _))
    (fun k j => (congrFun (B1_keep m ρ c main_arg5 (by decide)) (ix2 k j)).trans (congrFun h0.a5 _))
    (fun j => (ho0_b2_apply (B0 m ρ c) j).trans (congrFun h0.a6 _)) n j

theorem lay0_hS (j : Fin 32) : lay0_S m ρ c j = ∑ n, lay0_H m ρ c n j :=
  (congrFun (B2_arr m ρ c 6) (ix2 (0 : Fin 1) j)).trans <| (mlp0_S (U1 m ρ) c j).trans <|
    Finset.sum_congr rfl fun n _ => (congrFun (B2_arr m ρ c 5) (ix2 n j)).symm

theorem lay0_hQ (j : Fin 32) : lay0_Q m ρ c j = ∑ n, lay0_H m ρ c n j * lay0_H m ρ c n j := by
  have e : ∀ n, outH0 (U1 m ρ) c (ix2 n j) = lay0_H m ρ c n j := fun n => (congrFun (B2_arr m ρ c 5) (ix2 n j)).symm
  refine (congrFun (B2_arr m ρ c 7) (ix2 (0 : Fin 1) j)).trans ?_
  refine (mlp0_Q (U1 m ρ) c j).trans ?_
  exact Finset.sum_congr rfl fun n _ => by rw [e n]

theorem lay0_hmean (j : Fin 32) : lay0_mean m ρ c j = Ideal.div (lay0_S m ρ c j) cN :=
  ho1_mean_apply (B2 m ρ c) j

theorem lay0_hvar (j : Fin 32) :
    lay0_var m ρ c j = Ideal.div (lay0_Q m ρ c j) cN - lay0_mean m ρ c j * lay0_mean m ρ c j :=
  (ho1_var_apply (B2 m ρ c) j).trans
    (congrArg (fun t => Ideal.div (lay0_Q m ρ c j) cN - t * t) (ho1_mean_apply (B2 m ρ c) j).symm)

theorem lay0_hgamma (h0 : Args0 (B0 m ρ c) V0) (j : Fin 32) :
    bn1_gamma (U3 m ρ) c (ix2 (0 : Fin 1) j) = lay0_gamma V0 j :=
  (ho1_gamma_apply (B2 m ρ c) j).trans <|
    (congrFun (B2_of_ne m ρ c main_v16 (by decide)) (ix1 j)).trans <|
      (ho0_gamma_apply (B0 m ρ c) j).trans (congrFun h0.a11 _)

theorem lay0_hbeta (h0 : Args0 (B0 m ρ c) V0) (j : Fin 32) :
    bn1_beta (U3 m ρ) c (ix2 (0 : Fin 1) j) = lay0_beta V0 j :=
  (ho1_beta_apply (B2 m ρ c) j).trans <|
    (congrFun (B2_of_ne m ρ c main_v18 (by decide)) (ix1 j)).trans <|
      (ho0_beta_apply (B0 m ρ c) j).trans (congrFun h0.a12 _)

theorem lay0_hO (h0 : Args0 (B0 m ρ c) V0) (n : Fin 100000) (j : Fin 32) :
    lay0_O m ρ c n j
      = (lay0_H m ρ c n j - lay0_mean m ρ c j) * Ideal.rsqrt (max (lay0_var m ρ c j) 0 + cEps) * lay0_gamma V0 j
          + lay0_beta V0 j := by
  refine (congrFun (B4_arr m ρ c 5) (ix2 n j)).trans ?_
  refine (bn1_arr_ideal (U3 m ρ) c n j).trans ?_
  have eh : bn1_h (U3 m ρ) c (ix2 n j) = lay0_H m ρ c n j :=
    congrFun (B3_keep m ρ c (Pipeline.arrRef spec0 5) (by decide)) (ix2 n j)
  rw [eh, lay0_hgamma m ρ V0 c h0 j, lay0_hbeta m ρ V0 c h0 j]
  rfl

theorem lay0_agg_fin (hfin : FinArgs V0) : IsFin (agg0 V0) := by
  unfold agg0 aggr78
  exact isFin_addf hfin.xin (isFin_scatterAdd _ _ (isFin_broadcastInDim _ _ isFin_constant_zero) (isFin_gather _ _ hfin.xin))

theorem lay0_pre_fin (hfin : FinArgs V0) (n : Fin 100000) (j : Fin 32) : IsFinS (pre0 V0 (ix2 n j)) := by
  rw [pre0_mlpAt]
  exact mlpAt_fin (fun n d => lay0_agg_fin V0 hfin (ix2 n d)) (fun d k => hfin.w1a _) (fun k => hfin.b1a _)
    (fun k j => hfin.w2a _) (fun j => hfin.b2a _) n j

theorem layer0 (h0 : Args0 (B0 m ρ c) V0) (hfin : FinArgs V0) :
    (U4 m ρ c (Pipeline.arrRef spec1 5) : FVec Ideal S100000x32 .f32) = out0 V0 := by
  funext i
  obtain ⟨n, j, rfl⟩ : ∃ (n : Fin 100000) (j : Fin 32), i = ix2 n j := ⟨i 0, i 1, eq_ix2 i⟩
  exact layer_join (fun n j => pre0 V0 (ix2 n j)) (lay0_pre_fin V0 hfin)
    (lay0_H m ρ c) (lay0_S m ρ c) (lay0_Q m ρ c) (lay0_mean m ρ c) (lay0_var m ρ c) (lay0_gamma V0) (lay0_beta V0)
    (lay0_O m ρ c) (fun n j => out0 V0 (ix2 n j)) cN cEps cN_eq
    (lay0_hH m ρ V0 c h0) (lay0_hS m ρ c) (lay0_hQ m ρ c) (lay0_hmean m ρ c) (lay0_hvar m ρ c)
    (lay0_hO m ρ V0 c h0) (out0_bnRef V0) n j

theorem layer0_fin (hfin : FinArgs V0) : IsFin (out0 V0) := by
  intro i
  obtain ⟨n, j, rfl⟩ : ∃ (n : Fin 100000) (j : Fin 32), i = ix2 n j := ⟨i 0, i 1, eq_ix2 i⟩
  exact layer_join_fin (fun n j => pre0 V0 (ix2 n j)) (lay0_pre_fin V0 hfin) (lay0_gamma V0) (lay0_beta V0)
    (fun n j => out0 V0 (ix2 n j)) cN cEps cN_eq (fun j => hfin.gam _) (fun j => hfin.bet _) cEps_pos (out0_bnRef V0) n j

end Layer0

end Cert.Bridge

end
-- ==== Proof.KIMlp2Val.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp2
import proofs.«421428_j45019847197002_2_alg».proof.Proof.ValMlp
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window)
open Cert.KernelIdeal.ValMlp
open scoped BigOperators

variable {F : FTy → Type} [FloatOps F]

theorem idx2 : ∀ t : Fin cfg2.N,
    (win2_0.index t (0 : Fin 2) = t.val ∧ win2_0.index t (1 : Fin 2) = 0
      ∧ win2_5.index t (0 : Fin 2) = t.val ∧ win2_5.index t (1 : Fin 2) = 0)
    ∧ ∀ a : Fin 2, win2_1.index t a = 0 ∧ win2_2.index t a = 0 ∧ win2_3.index t a = 0 ∧ win2_4.index t a = 0
      ∧ win2_6.index t a = 0 ∧ win2_7.index t a = 0 :=
  (by decide +kernel : ∀ t : Fin grid2.N, _)

section
variable (t : Fin cfg2.N)

theorem emb2_0 (r : Fin 10000) (d : Fin 32) (n : Fin 100000) (hn : n.val = t.val * 10000 + r.val) :
    ((cfg2.win 0).blk t).view.emb (ix2 r d) = ix2 n d :=
  Shape.idx_ext₂ (by show win2_0.index t (0 : Fin 2) * 10000 + 1 * r.val = n.val; rw [(idx2 t).1.1, hn]; omega)
    (by show win2_0.index t (1 : Fin 2) * 32 + 1 * d.val = d.val; rw [(idx2 t).1.2.1]; omega)

theorem emb2_5 (r : Fin 10000) (d : Fin 32) (n : Fin 100000) (hn : n.val = t.val * 10000 + r.val) :
    ((cfg2.win 5).blk t).view.emb (ix2 r d) = ix2 n d :=
  Shape.idx_ext₂ (by show win2_5.index t (0 : Fin 2) * 10000 + 1 * r.val = n.val; rw [(idx2 t).1.2.2.1, hn]; omega)
    (by show win2_5.index t (1 : Fin 2) * 32 + 1 * d.val = d.val; rw [(idx2 t).1.2.2.2]; omega)

theorem read2_0 (X : Vec F S100000x32 .f32) (r : Fin 10000) (d : Fin 32) (n : Fin 100000) (hn : n.val = t.val * 10000 + r.val) :
    (((cfg2.win 0).blk t).view.read (Elt F) X : Vec F S10000x32 .f32) (ix2 r d) = X (ix2 n d) := by
  rw [View.read_apply]; show X _ = X _; exact congrArg X (emb2_0 t r d n hn)

theorem read2_5 (X : Vec F S100000x32 .f32) (r : Fin 10000) (d : Fin 32) (n : Fin 100000) (hn : n.val = t.val * 10000 + r.val) :
    (((cfg2.win 5).blk t).view.read (Elt F) X : Vec F S10000x32 .f32) (ix2 r d) = X (ix2 n d) := by
  rw [View.read_apply]; show X _ = X _; exact congrArg X (emb2_5 t r d n hn)

theorem read2_1 (X : Vec F S32x32 .f32) : (((cfg2.win 1).blk t).view.read (Elt F) X : Vec F S32x32 .f32) = X := by
  funext y; rw [View.read_apply]; show X _ = X _
  exact congrArg X (funext fun a => Fin.ext (Window.rect_emb_val_of_index_zero win2_1 t a ((idx2 t).2 a).1 y))

theorem read2_2 (X : Vec F S1x32 .f32) : (((cfg2.win 2).blk t).view.read (Elt F) X : Vec F S1x32 .f32) = X := by
  funext y; rw [View.read_apply]; show X _ = X _
  exact congrArg X (funext fun a => Fin.ext (Window.rect_emb_val_of_index_zero win2_2 t a ((idx2 t).2 a).2.1 y))

theorem read2_3 (X : Vec F S32x32 .f32) : (((cfg2.win 3).blk t).view.read (Elt F) X : Vec F S32x32 .f32) = X := by
  funext y; rw [View.read_apply]; show X _ = X _
  exact congrArg X (funext fun a => Fin.ext (Window.rect_emb_val_of_index_zero win2_3 t a ((idx2 t).2 a).2.2.1 y))

theorem read2_4 (X : Vec F S1x32 .f32) : (((cfg2.win 4).blk t).view.read (Elt F) X : Vec F S1x32 .f32) = X := by
  funext y; rw [View.read_apply]; show X _ = X _
  exact congrArg X (funext fun a => Fin.ext (Window.rect_emb_val_of_index_zero win2_4 t a ((idx2 t).2 a).2.2.2.1 y))

theorem emb2_6 (y : S1x32.Idx) : ((cfg2.win 6).blk t).view.emb y = y :=
  funext fun a => Fin.ext (Window.rect_emb_val_of_index_zero win2_6 t a ((idx2 t).2 a).2.2.2.2.1 y)
theorem emb2_7 (y : S1x32.Idx) : ((cfg2.win 7).blk t).view.emb y = y :=
  funext fun a => Fin.ext (Window.rect_emb_val_of_index_zero win2_7 t a ((idx2 t).2 a).2.2.2.2.2 y)

theorem read2_6 (X : Vec F S1x32 .f32) : (((cfg2.win 6).blk t).view.read (Elt F) X : Vec F S1x32 .f32) = X := by
  funext y; rw [View.read_apply]; show X _ = X _; exact congrArg X (emb2_6 t y)

theorem read2_7 (X : Vec F S1x32 .f32) : (((cfg2.win 7).blk t).view.read (Elt F) X : Vec F S1x32 .f32) = X := by
  funext y; rw [View.read_apply]; show X _ = X _; exact congrArg X (emb2_7 t y)

end

theorem cover2_5 (i : S100000x32.Idx) :
    ∃ t : Fin cfg2.N, (cfg2.win 5).flush t = true ∧ i ∈ ((cfg2.win 5).blk t).view.set := by
  have hi : (i 0).val < 100000 := (i 0).isLt
  have hN : cfg2.N = 10 := N_2
  refine ⟨⟨(i 0).val / 10000, by rw [hN]; omega⟩, flush2_5 _, ?_⟩
  have h := emb2_5 ⟨(i 0).val / 10000, by rw [hN]; omega⟩ ⟨(i 0).val % 10000, Nat.mod_lt _ (by decide)⟩ (i 1) (i 0)
    (by show (i 0).val = (i 0).val / 10000 * 10000 + (i 0).val % 10000; omega)
  exact Eq.mp (congrArg (· ∈ _) (h.trans (eq_ix2 i).symm)) (View.emb_mem_set _ _)

theorem cover2_6 (i : S1x32.Idx) :
    ∃ t : Fin cfg2.N, (cfg2.win 6).flush t = true ∧ i ∈ ((cfg2.win 6).blk t).view.set :=
  ⟨t2_9, (flush2_6 t2_9).mpr rfl, emb2_6 t2_9 i ▸ View.emb_mem_set _ i⟩

theorem cover2_7 (i : S1x32.Idx) :
    ∃ t : Fin cfg2.N, (cfg2.win 7).flush t = true ∧ i ∈ ((cfg2.win 7).blk t).view.set :=
  ⟨t2_9, (flush2_7 t2_9).mpr rfl, emb2_7 t2_9 i ▸ View.emb_mem_set _ i⟩

section Region2Val
variable (V : (c : Dev nD) → (b : Ref sig .tc) → Buf (Elt Ideal) ((c : Thread nD τ).loc b)) (c : Dev nD)

abbrev arr2_0 : FVec Ideal S100000x32 .f32 := V c (Pipeline.arrRef spec2 0)
abbrev arr2_1 : FVec Ideal S32x32 .f32 := V c (Pipeline.arrRef spec2 1)
abbrev arr2_2 : FVec Ideal S1x32 .f32 := V c (Pipeline.arrRef spec2 2)
abbrev arr2_3 : FVec Ideal S32x32 .f32 := V c (Pipeline.arrRef spec2 3)
abbrev arr2_4 : FVec Ideal S1x32 .f32 := V c (Pipeline.arrRef spec2 4)

abbrev hArr2 : FVec Ideal S100000x32 .f32 :=
  mlpArr (arr2_0 V c) (arr2_1 V c) (arr2_2 V c) (arr2_3 V c) (arr2_4 V c)

abbrev sArr2 : FVec Ideal S1x32 .f32 := fun i => ∑ n : Fin 100000, hArr2 V c (ix2 n (i 1))

abbrev qArr2 : FVec Ideal S1x32 .f32 :=
  fun i => ∑ n : Fin 100000, hArr2 V c (ix2 n (i 1)) * hArr2 V c (ix2 n (i 1))

theorem hblk2_apply (t : Fin cfg2.N) (r : Fin 10000) (j : Fin 32) (n : Fin 100000)
    (hn : n.val = t.val * 10000 + r.val) : hblk2 (F := Ideal) V c t (ix2 r j) = hArr2 V c (ix2 n j) := by
  unfold hblk2
  exact hpay_of_blocks _ _ _ _ _ _ n r _ _ _ _ (fun d => read2_0 (F := Ideal) t (arr2_0 V c) r d n hn)
    (read2_1 (F := Ideal) t (arr2_1 V c)) (read2_2 (F := Ideal) t (arr2_2 V c)) (read2_3 (F := Ideal) t (arr2_3 V c))
    (read2_4 (F := Ideal) t (arr2_4 V c)) j

theorem accS2_last (j : Fin 32) (h9 : 9 < cfg2.N) :
    accS2 (F := Ideal) V c 9 h9 (ix2 0 j) = ∑ n : Fin 100000, hArr2 V c (ix2 n j) :=
  carried_total (accS2 (F := Ideal) V c) k2_pay3
    (fun n h a => k2_pay1 (k2_pay6 (iblk2 V c 0 ⟨n, h⟩) (iblk2 V c 1 ⟨n, h⟩) (iblk2 V c 2 ⟨n, h⟩) (iblk2 V c 3 ⟨n, h⟩) (iblk2 V c 4 ⟨n, h⟩) a))
    (fun n j => hArr2 V c (ix2 n j)) j (pay_za_apply j) (fun _ => rfl) (fun _ _ => rfl)
    (fun n h a => (pay_S_apply _ _ _ _ _ _ _).trans (congrArg (a (ix2 0 j) + ·)
      (blockSum_eq _ n (lt_of_lt_of_eq h N_2) _ fun r m hm => hblk2_apply V c ⟨n, h⟩ r j m hm))) h9

theorem accQ2_last (j : Fin 32) (h9 : 9 < cfg2.N) :
    accQ2 (F := Ideal) V c 9 h9 (ix2 0 j) = ∑ n : Fin 100000, hArr2 V c (ix2 n j) * hArr2 V c (ix2 n j) :=
  carried_total (accQ2 (F := Ideal) V c) k2_pay4 (fun n h a => k2_pay2 (hblk2 (F := Ideal) V c ⟨n, h⟩) a)
    (fun n j => hArr2 V c (ix2 n j) * hArr2 V c (ix2 n j)) j (pay_zb_apply j) (fun _ => rfl) (fun _ _ => rfl)
    (fun n h a => (pay_Q_apply _ _ _).trans (congrArg (a (ix2 0 j) + ·)
      (blockSum_eq _ n (lt_of_lt_of_eq h N_2) _ fun r m hm => by rw [hblk2_apply V c ⟨n, h⟩ r j m hm]))) h9

theorem flushed2_5_eq (t : Fin cfg2.N) :
    (dat2 V c).flushed 5 t = ((cfg2.win 5).blk t).view.read (Elt Ideal) (hArr2 V c) := by
  show (cfg2.win 5).cut (grid2.coords t) ((dat2 V c).after 5 t) = _
  rw [after2_5]
  funext y
  obtain ⟨r, j, rfl⟩ : ∃ (r : Fin 10000) (j : Fin 32), y = ix2 r j := ⟨y 0, y 1, eq_ix2 y⟩
  have hN : cfg2.N = 10 := N_2
  have ht := t.isLt
  have hr := r.isLt
  exact (hblk2_apply V c t r j ⟨t.val * 10000 + r.val, by omega⟩ rfl).trans (read2_5 (F := Ideal) t (hArr2 V c) r j _ rfl).symm

theorem flushed2_6_eq (t : Fin cfg2.N) (hf : (cfg2.win 6).flush t = true) :
    (dat2 V c).flushed 6 t = ((cfg2.win 6).blk t).view.read (Elt Ideal) (sArr2 V c) := by
  obtain ⟨n, hn⟩ := t
  have hN : cfg2.N = 10 := N_2
  obtain rfl : n = 9 := by have : n % 10 = 9 := (flush2_6 ⟨n, hn⟩).mp hf; omega
  show (cfg2.win 6).cut (grid2.coords _) ((dat2 V c).after 6 _) = _
  rw [after2_6, read2_6 (F := Ideal)]
  exact row_ext fun j => accS2_last V c j hn

theorem flushed2_7_eq (t : Fin cfg2.N) (hf : (cfg2.win 7).flush t = true) :
    (dat2 V c).flushed 7 t = ((cfg2.win 7).blk t).view.read (Elt Ideal) (qArr2 V c) := by
  obtain ⟨n, hn⟩ := t
  have hN : cfg2.N = 10 := N_2
  obtain rfl : n = 9 := by have : n % 10 = 9 := (flush2_7 ⟨n, hn⟩).mp hf; omega
  show (cfg2.win 7).cut (grid2.coords _) ((dat2 V c).after 7 _) = _
  rw [after2_7, read2_7 (F := Ideal)]
  exact row_ext fun j => accQ2_last V c j hn

abbrev outH2 : FVec Ideal S100000x32 .f32 := (dat2 V c).arrAt 5 cfg2.N
abbrev outS2 : FVec Ideal S1x32 .f32 := (dat2 V c).arrAt 6 cfg2.N
abbrev outQ2 : FVec Ideal S1x32 .f32 := (dat2 V c).arrAt 7 cfg2.N

theorem final2_5 : outH2 V c = hArr2 V c :=
  (dat2 V c).arrAt_eq_of_cover 5 (hArr2 V c) (fun t _ => flushed2_5_eq V c t) cover2_5

theorem final2_6 : outS2 V c = sArr2 V c :=
  (dat2 V c).arrAt_eq_of_cover 6 (sArr2 V c) (flushed2_6_eq V c) cover2_6

theorem final2_7 : outQ2 V c = qArr2 V c :=
  (dat2 V c).arrAt_eq_of_cover 7 (qArr2 V c) (flushed2_7_eq V c) cover2_7

theorem mlp2_h (n : Fin 100000) (j : Fin 32) :
    outH2 V c (ix2 n j)
      = Cert.Layer.mlpAt (fun n d => arr2_0 V c (ix2 n d)) (fun d k => arr2_1 V c (ix2 d k)) (fun k => arr2_2 V c (ix2 0 k))
          (fun k j => arr2_3 V c (ix2 k j)) (fun j => arr2_4 V c (ix2 0 j)) n j :=
  congrFun (final2_5 V c) (ix2 n j)

theorem mlp2_S (j : Fin 32) : outS2 V c (ix2 0 j) = ∑ n : Fin 100000, outH2 V c (ix2 n j) := by
  rw [final2_5]
  exact congrFun (final2_6 V c) (ix2 0 j)

theorem mlp2_Q (j : Fin 32) :
    outQ2 V c (ix2 0 j) = ∑ n : Fin 100000, outH2 V c (ix2 n j) * outH2 V c (ix2 n j) := by
  rw [final2_5]
  exact congrFun (final2_7 V c) (ix2 0 j)

end Region2Val

end Cert.KernelIdeal.Gen

end
-- ==== Proof.KIBn3Val.lean ====
import proofs.«421428_j45019847197002_2_alg».proof.Proof.KIBn3
import proofs.«421428_j45019847197002_2_alg».proof.Proof.ValBn
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

theorem idx3_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (1 : Fin 2) = 0 ∧ win3_2.index t (1 : Fin 2) = 0
    ∧ win3_3.index t (1 : Fin 2) = 0 ∧ win3_4.index t (1 : Fin 2) = 0 :=
  (by decide +kernel : ∀ t : Fin grid3.N, _)

def pt3 (n : Fin 100000) : Fin cfg3.N :=
  ⟨n.val / 10000, by have h : cfg3.N = 10 := N_3; rw [h]; have := n.isLt; omega⟩

-- Row n of the array lies in the block of point n / 10000.
theorem bn3_cover (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  refine ⟨pt3 (i 0 : Fin 100000), flush3_5 _, ?_⟩
  obtain ⟨-, -, e0, e1, -⟩ := idx3_facts (pt3 (i 0 : Fin 100000))
  have hp : (pt3 (i 0 : Fin 100000)).val = (i 0).val / 10000 := rfl
  rw [show ((cfg3.win 5).blk (pt3 (i 0 : Fin 100000))).view.set = (win3_5.rect (pt3 (i 0 : Fin 100000))).set from View.set_slice_whole _ _,
    Rect.mem_set_unit]
  intro a
  match a with
  | ⟨0, _⟩ => show win3_5.index (pt3 (i 0 : Fin 100000)) (0 : Fin 2) * 10000 ≤ (i 0).val ∧ (i 0).val < win3_5.index (pt3 (i 0 : Fin 100000)) (0 : Fin 2) * 10000 + 10000; omega
  | ⟨1, _⟩ => show win3_5.index (pt3 (i 0 : Fin 100000)) (1 : Fin 2) * 32 ≤ (i 1).val ∧ (i 1).val < win3_5.index (pt3 (i 0 : Fin 100000)) (1 : Fin 2) * 32 + 32; omega

section Region3
variable (V : (c : Dev nD) → (b : Ref sig .tc) → Buf (Elt F) ((c : Thread nD τ).loc b))

abbrev bn3_h (c : Dev nD) : Vec F S100000x32 .f32 := V c (Pipeline.arrRef spec3 0)
abbrev bn3_mean (c : Dev nD) : Vec F S1x32 .f32 := V c (Pipeline.arrRef spec3 1)
abbrev bn3_var (c : Dev nD) : Vec F S1x32 .f32 := V c (Pipeline.arrRef spec3 2)
abbrev bn3_gamma (c : Dev nD) : Vec F S1x32 .f32 := V c (Pipeline.arrRef spec3 3)
abbrev bn3_beta (c : Dev nD) : Vec F S1x32 .f32 := V c (Pipeline.arrRef spec3 4)

end Region3

section Region3
variable (V : (c : Dev nD) → (b : Ref sig .tc) → Buf (Elt Ideal) ((c : Thread nD τ).loc b))

-- Entry (r, k) of point t's block is the normalised entry at the array index i = (10000 t + r, k).
theorem bn3_at (c : Dev nD) (t : Fin cfg3.N) (r : Fin 10000) (k : Fin 32) (i : S100000x32.Idx)
    (hi0 : (i 0).val = t.val * 10000 + r.val) (hi1 : (i 1).val = k.val) :
    k3_pay1 (iblk3 V c 0 t) (iblk3 V c 2 t) (iblk3 V c 1 t) (iblk3 V c 3 t) (iblk3 V c 4 t) (ix2 r k)
      = (bn3_h V c i - bn3_mean V c (ix2 0 (i 1)))
          * Ideal.rsqrt (max (bn3_var V c (ix2 0 (i 1))) 0 + Ideal.ofBits .f32 0x3727C5AC#32)
          * bn3_gamma V c (ix2 0 (i 1)) + bn3_beta V c (ix2 0 (i 1)) := by
  obtain ⟨e00, e01, -, -, e11, e21, e31, e41⟩ := idx3_facts t
  refine (ValBn.pay_apply (pay := k3_pay1) rfl _ _ _ _ _ r k).trans ?_
  have h0 : iblk3 V c 0 t (ix2 r k) = bn3_h V c i := by
    show V c (Pipeline.arrRef spec3 0) (((cfg3.win 0).blk t).view.emb (ix2 r k)) = V c (Pipeline.arrRef spec3 0) i
    refine congrArg (V c (Pipeline.arrRef spec3 0)) ?_
    funext a; apply Fin.ext
    match a with
    | ⟨0, _⟩ => show win3_0.index t (0 : Fin 2) * 10000 + 1 * r.val = (i 0).val; omega
    | ⟨1, _⟩ => show win3_0.index t (1 : Fin 2) * 32 + 1 * k.val = (i 1).val; omega
  have h1 : iblk3 V c 1 t (ix2 0 k) = bn3_mean V c (ix2 0 (i 1)) :=
    ValBn.row_congr (V c (Pipeline.arrRef spec3 1)) (x := ((cfg3.win 1).blk t).view.emb (ix2 0 k))
      (by show win3_1.index t (1 : Fin 2) * 32 + 1 * k.val = (i 1).val; omega)
  have h2 : iblk3 V c 2 t (ix2 0 k) = bn3_var V c (ix2 0 (i 1)) :=
    ValBn.row_congr (V c (Pipeline.arrRef spec3 2)) (x := ((cfg3.win 2).blk t).view.emb (ix2 0 k))
      (by show win3_2.index t (1 : Fin 2) * 32 + 1 * k.val = (i 1).val; omega)
  have h3 : iblk3 V c 3 t (ix2 0 k) = bn3_gamma V c (ix2 0 (i 1)) :=
    ValBn.row_congr (V c (Pipeline.arrRef spec3 3)) (x := ((cfg3.win 3).blk t).view.emb (ix2 0 k))
      (by show win3_3.index t (1 : Fin 2) * 32 + 1 * k.val = (i 1).val; omega)
  have h4 : iblk3 V c 4 t (ix2 0 k) = bn3_beta V c (ix2 0 (i 1)) :=
    ValBn.row_congr (V c (Pipeline.arrRef spec3 4)) (x := ((cfg3.win 4).blk t).view.emb (ix2 0 k))
      (by show win3_4.index t (1 : Fin 2) * 32 + 1 * k.val = (i 1).val; omega)
  rw [h0, h1, h2, h3, h4]

-- The grid points' blocks cover the array, and each block holds the normalised entries of its rows.
theorem bn3_arr_ideal (c : Dev nD) (n : Fin 100000) (j : Fin 32) :
    (dat3 (F := Ideal) V c).arrAt 5 cfg3.N (ix2 n j)
      = (bn3_h V c (ix2 n j) - bn3_mean V c (ix2 0 j))
          * Ideal.rsqrt (max (bn3_var V c (ix2 0 j)) 0 + Ideal.ofBits .f32 0x3727C5AC#32)
          * bn3_gamma V c (ix2 0 j) + bn3_beta V c (ix2 0 j) := by
  refine (dat3 (F := Ideal) V c).arrAt_forall_of_cover 5
    (fun (i : S100000x32.Idx) (v : Elt Ideal .f32) => v = (bn3_h V c i - bn3_mean V c (ix2 0 (i 1)))
      * Ideal.rsqrt (max (bn3_var V c (ix2 0 (i 1))) 0 + Ideal.ofBits .f32 0x3727C5AC#32)
      * bn3_gamma V c (ix2 0 (i 1)) + bn3_beta V c (ix2 0 (i 1)))
    (fun t _ y => ?_) bn3_cover (ix2 n j)
  obtain ⟨-, -, e50, e51, -⟩ := idx3_facts t
  obtain ⟨r, k, rfl⟩ : ∃ r k, y = ix2 r k := ⟨y 0, y 1, eq_ix2 y⟩
  show (cfg3.win 5).cut (grid3.coords t) ((dat3 V c).after 5 t) (ix2 r k) = _
  rw [after3_5, out3_5_eq]
  exact bn3_at V c t r k _
    (by show win3_5.index t (0 : Fin 2) * 10000 + 1 * r.val = t.val * 10000 + r.val; omega)
    (by show win3_5.index t (1 : Fin 2) * 32 + 1 * k.val = k.val; omega)

end Region3

end Cert.KernelIdeal.Gen

end
-- ==== Proof.BridgeStep.lean ====
import proofs.«421428_j45019847197002_2_alg».proof.Proof.BridgeLayer
import proofs.«421428_j45019847197002_2_alg».proof.Proof.BridgeArgs
import proofs.«421428_j45019847197002_2_alg».proof.Proof.IdealFinOps

noncomputable section

namespace Cert.Bridge

open Idealize.ShloMosaic Idealize.ShloMosaic.TcCoe Idealize.ShloMosaic.ValueIdx Idealize.SL.Sem
open Cert.IdealFin Cert.IdealFinOps Cert.Layer Cert.KernelIdeal Cert.ReferenceIdeal.RefRead
open scoped BigOperators

variable {W W' : Valuation Cert.KernelIdeal.τ Cert.KernelIdeal.sig (Elt Ideal)}
  {V0 : Valuation Cert.ReferenceIdeal.τ Cert.ReferenceIdeal.sig (Elt Ideal)}

def argRefs : List (Ref Cert.KernelIdeal.sig .tc) :=
  [main_arg2, main_arg7, main_arg8, main_arg9, main_arg10, main_arg11, main_arg12, main_arg13, main_arg14, main_v1, main_v3]

-- The agreement with the reference's arguments only reads the buffers listed.
theorem ArgsAt.of_kept (h : ArgsAt W V0) (hk : ∀ r ∈ argRefs, W' (Proc.devRef .tc r) = W (Proc.devRef .tc r)) :
    ArgsAt W' V0 :=
  h.of_eq (hk _ (by decide)) (hk _ (by decide)) (hk _ (by decide)) (hk _ (by decide)) (hk _ (by decide)) (hk _ (by decide))
    (hk _ (by decide)) (hk _ (by decide)) (hk _ (by decide)) (hk _ (by decide)) (hk _ (by decide))

theorem aggr32_fin (s d : IVec S3200000 32) {x : FVec Ideal S100000x32 .f32} (hx : IsFin x) : IsFin (aggr32 s d x) := by
  unfold aggr32
  exact isFin_addf hx (isFin_scatterAdd _ _ (isFin_broadcastInDim _ _ isFin_constant_zero) (isFin_gather _ _ hx))

section Step
variable (l : Fin 4) (l5 : Fin 5) {prevR preR outR : FVec Ideal S100000x32 .f32}
  (hfin : FinArgs V0) (hprevfin : IsFin prevR)
  (hpre : ∀ n j, preR (ix2 n j) = mlpAt (fun n d => aggr32 (esrc V0) (edst V0) prevR (ix2 n d))
    (fun d k => w1s V0 (ix3 l d k)) (fun k => b1s V0 (ix2 l k)) (fun k j => w2s V0 (ix3 l k j)) (fun j => b2s V0 (ix2 l j)) n j)
  (hout : ∀ n j, outR (ix2 n j)
    = bnRef (fun n j => preR (ix2 n j)) (fun j => gam V0 (ix2 l5 j)) (fun j => bet V0 (ix2 l5 j)) cN cEps n j)
include hfin hprevfin hpre

theorem pre_fin (n : Fin 100000) (j : Fin 32) : IsFinS (preR (ix2 n j)) := by
  rw [hpre]
  exact mlpAt_fin (fun n d => aggr32_fin _ _ hprevfin (ix2 n d)) (fun d k => hfin.w1s _) (fun k => hfin.b1s _)
    (fun k j => hfin.w2s _) (fun j => hfin.b2s _) n j

include hout

-- A layer of the reference run maps real entries to real entries.
theorem layer_step_fin : IsFin outR := by
  intro i
  obtain ⟨n, j, rfl⟩ : ∃ (n : Fin 100000) (j : Fin 32), i = ix2 n j := ⟨i 0, i 1, eq_ix2 i⟩
  exact layer_join_fin (fun n j => preR (ix2 n j)) (pre_fin l hfin hprevfin hpre) (fun j => gam V0 (ix2 l5 j))
    (fun j => bet V0 (ix2 l5 j)) (fun n j => outR (ix2 n j)) cN cEps cN_eq (fun j => hfin.gam _) (fun j => hfin.bet _)
    cEps_pos hout n j

-- Stage by stage the kernel run's values are the reference's, and the two normalisations agree on real entries.
theorem layer_step (hargs : ArgsAt W V0)
    {prevK A Hd H6 h7 Od O8 : FVec Ideal S100000x32 .f32} {W1 W2 : FVec Ideal S32x32 .f32}
    {b1 b2 Sd Qd S6 Q6 mean7 var7 gamma7 beta7 : FVec Ideal S1x32 .f32} {g5 g6 t5 t6 : FVec Ideal S32 .f32}
    (hprev : prevK = prevR)
    (hA : A = aggr32 (W (Proc.devRef .tc main_v1)) (W (Proc.devRef .tc main_v3)) prevK)
    (hW1 : ∀ d k, W1 (ix2 d k) = (W (Proc.devRef .tc main_arg7) : FVec Ideal S4x32x32 .f32) (ix3 l d k))
    (hb1 : ∀ k, b1 (ix2 0 k) = (W (Proc.devRef .tc main_arg8) : FVec Ideal S4x32 .f32) (ix2 l k))
    (hW2 : ∀ k j, W2 (ix2 k j) = (W (Proc.devRef .tc main_arg9) : FVec Ideal S4x32x32 .f32) (ix3 l k j))
    (hb2 : ∀ j, b2 (ix2 0 j) = (W (Proc.devRef .tc main_arg10) : FVec Ideal S4x32 .f32) (ix2 l j))
    (hg2 : ∀ j, g5 (ix1 j) = (W (Proc.devRef .tc main_arg11) : FVec Ideal S5x32 .f32) (ix2 l5 j))
    (ht2 : ∀ j, t5 (ix1 j) = (W (Proc.devRef .tc main_arg12) : FVec Ideal S5x32 .f32) (ix2 l5 j))
    (hmlp : ∀ n j, Hd (ix2 n j) = mlpAt (fun n d => A (ix2 n d)) (fun d k => W1 (ix2 d k)) (fun k => b1 (ix2 0 k))
      (fun k j => W2 (ix2 k j)) (fun j => b2 (ix2 0 j)) n j)
    (hS : ∀ j, Sd (ix2 0 j) = ∑ n : Fin 100000, Hd (ix2 n j))
    (hQ : ∀ j, Qd (ix2 0 j) = ∑ n : Fin 100000, Hd (ix2 n j) * Hd (ix2 n j))
    (e5 : H6 = Hd) (e6 : S6 = Sd) (e7 : Q6 = Qd) (eg : g6 = g5) (et : t6 = t5)
    (hmean : ∀ j, mean7 (ix2 0 j) = Ideal.div (S6 (ix2 0 j)) cN)
    (hvar : ∀ j, var7 (ix2 0 j)
      = Ideal.div (Q6 (ix2 0 j)) cN - Ideal.div (S6 (ix2 0 j)) cN * Ideal.div (S6 (ix2 0 j)) cN)
    (hg3 : ∀ j, gamma7 (ix2 0 j) = g6 (ix1 j)) (ht3 : ∀ j, beta7 (ix2 0 j) = t6 (ix1 j)) (eh : h7 = H6)
    (hbn : ∀ n j, Od (ix2 n j) = (h7 (ix2 n j) - mean7 (ix2 0 j))
      * Ideal.rsqrt (max (var7 (ix2 0 j)) 0 + cEps) * gamma7 (ix2 0 j) + beta7 (ix2 0 j))
    (e8 : O8 = Od) : O8 = outR := by
  subst e5 e6 e7 eg et eh e8 hprev
  have hAeq : A = aggr32 (esrc V0) (edst V0) prevK :=
    hA.trans (congrFun (congr (congrArg aggr32 hargs.src) hargs.dst) prevK)
  funext i
  obtain ⟨n, j, rfl⟩ : ∃ (n : Fin 100000) (j : Fin 32), i = ix2 n j := ⟨i 0, i 1, eq_ix2 i⟩
  refine layer_join (fun n j => preR (ix2 n j)) (pre_fin l hfin hprevfin hpre) (fun n j => h7 (ix2 n j))
    (fun j => S6 (ix2 0 j)) (fun j => Q6 (ix2 0 j)) (fun j => mean7 (ix2 0 j)) (fun j => var7 (ix2 0 j))
    (fun j => gam V0 (ix2 l5 j)) (fun j => bet V0 (ix2 l5 j)) (fun n j => O8 (ix2 n j)) (fun n j => outR (ix2 n j))
    cN cEps cN_eq (fun n j => ?_) hS hQ hmean
    (fun j => (hvar j).trans (congrArg (fun t => Ideal.div (Q6 (ix2 0 j)) cN - t * t) (hmean j).symm))
    (fun n j => (hbn n j).trans ?_) hout n j
  · show h7 (ix2 n j) = preR (ix2 n j)
    rw [hmlp, hpre]
    exact mlpAt_congr5 (fun n d => congrFun hAeq (ix2 n d)) (fun d k => (hW1 d k).trans (congrFun hargs.a7 _))
      (fun k => (hb1 k).trans (congrFun hargs.a8 _)) (fun k j => (hW2 k j).trans (congrFun hargs.a9 _))
      (fun j => (hb2 j).trans (congrFun hargs.a10 _)) n j
  · rw [(hg3 j).trans ((hg2 j).trans (congrFun hargs.a11 _)), (ht3 j).trans ((ht2 j).trans (congrFun hargs.a12 _))]

end Step

end Cert.Bridge

end
-- ==== Proof.Bridge1.lean ====
import proofs.«421428_j45019847197002_2_alg».proof.Proof.KIVals
import proofs.«421428_j45019847197002_2_alg».proof.Proof.KIHostIdx
import proofs.«421428_j45019847197002_2_alg».proof.Proof.AggEq
import proofs.«421428_j45019847197002_2_alg».proof.Proof.KIMlp2Val
import proofs.«421428_j45019847197002_2_alg».proof.Proof.KIBn3Val
import proofs.«421428_j45019847197002_2_alg».proof.Proof.BridgeStep

set_option maxRecDepth 16384

noncomputable section

namespace Cert.Bridge

open Idealize.ShloMosaic Idealize.ShloMosaic.TcCoe Idealize.ShloMosaic.ValueIdx Idealize.SL.Sem
open Cert.IdealFin Cert.Layer
open Cert.KernelIdeal Cert.KernelIdeal.Gen Cert.KernelIdeal.Host Cert.ReferenceIdeal.RefRead

section Layer1
variable (m : (ℓ : Loc nD τ sig) → Buf (Elt Ideal) ℓ) (ρ : Dev nD → PrngReg)
variable (V0 : Valuation Cert.ReferenceIdeal.τ Cert.ReferenceIdeal.sig (Elt Ideal)) (c : Dev nD)

-- No stretch of the layer writes an argument buffer, and none is an array of its two calls.
theorem layer1_args (hargs : ArgsAt (B4 m ρ c) V0) : ArgsAt (B8 m ρ c) V0 :=
  hargs.of_kept fun r hr =>
    (B8_of_ne m ρ c r ((by decide : ∀ r ∈ argRefs, ∀ w, Pipeline.arrRef spec3 w ≠ r) r hr)).trans <|
      (B7_keep m ρ c r ((by decide : ∀ r ∈ argRefs, r ∉ hostOps3_W) r hr)).trans <|
        (B6_of_ne m ρ c r ((by decide : ∀ r ∈ argRefs, ∀ w, Pipeline.arrRef spec2 w ≠ r) r hr)).trans
          (B5_keep m ρ c r ((by decide : ∀ r ∈ argRefs, r ∉ hostOps2_W) r hr))

theorem layer1 (hargs : ArgsAt (B4 m ρ c) V0) (hfin : FinArgs V0)
    (hprev : (U4 m ρ c (Pipeline.arrRef spec1 5) : FVec Ideal S100000x32 .f32) = out0 V0) (hprevfin : IsFin (out0 V0)) :
    (U8 m ρ c (Pipeline.arrRef spec3 5) : FVec Ideal S100000x32 .f32) = out1 V0 :=
  layer_step 0 1 hfin hprevfin (pre1_mlpAt V0) (out1_bnRef V0) hargs hprev (ho2_agg (B4 m ρ c))
    (ho2_W1_apply (B4 m ρ c)) (ho2_b1_apply (B4 m ρ c)) (ho2_W2_apply (B4 m ρ c)) (ho2_b2_apply (B4 m ρ c))
    (ho2_gamma_apply (B4 m ρ c)) (ho2_beta_apply (B4 m ρ c))
    (mlp2_h (U5 m ρ) c) (mlp2_S (U5 m ρ) c) (mlp2_Q (U5 m ρ) c)
    (B6_arr m ρ c 5) (B6_arr m ρ c 6) (B6_arr m ρ c 7)
    (B6_of_ne m ρ c main_v51 (by decide)) (B6_of_ne m ρ c main_v53 (by decide))
    (ho3_mean_apply (B6 m ρ c)) (ho3_var_apply (B6 m ρ c)) (ho3_gamma_apply (B6 m ρ c)) (ho3_beta_apply (B6 m ρ c))
    (B7_keep m ρ c (Pipeline.arrRef spec2 5) (by decide)) (bn3_arr_ideal (U7 m ρ) c) (B8_arr m ρ c 5)

theorem layer1_fin (hfin : FinArgs V0) (hprevfin : IsFin (out0 V0)) : IsFin (out1 V0) :=
  layer_step_fin 0 1 hfin hprevfin (pre1_mlpAt V0) (out1_bnRef V0)

end Layer1

end Cert.Bridge

end
-- ==== Proof.KIMlp4Val.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp4
import proofs.«421428_j45019847197002_2_alg».proof.Proof.ValMlp
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window)
open Cert.KernelIdeal.ValMlp
open scoped BigOperators

variable {F : FTy → Type} [FloatOps F]

theorem idx4 : ∀ t : Fin cfg4.N,
    (win4_0.index t (0 : Fin 2) = t.val ∧ win4_0.index t (1 : Fin 2) = 0
      ∧ win4_5.index t (0 : Fin 2) = t.val ∧ win4_5.index t (1 : Fin 2) = 0)
    ∧ ∀ a : Fin 2, win4_1.index t a = 0 ∧ win4_2.index t a = 0 ∧ win4_3.index t a = 0 ∧ win4_4.index t a = 0
      ∧ win4_6.index t a = 0 ∧ win4_7.index t a = 0 :=
  (by decide +kernel : ∀ t : Fin grid4.N, _)

section
variable (t : Fin cfg4.N)

theorem emb4_0 (r : Fin 10000) (d : Fin 32) (n : Fin 100000) (hn : n.val = t.val * 10000 + r.val) :
    ((cfg4.win 0).blk t).view.emb (ix2 r d) = ix2 n d :=
  Shape.idx_ext₂ (by show win4_0.index t (0 : Fin 2) * 10000 + 1 * r.val = n.val; rw [(idx4 t).1.1, hn]; omega)
    (by show win4_0.index t (1 : Fin 2) * 32 + 1 * d.val = d.val; rw [(idx4 t).1.2.1]; omega)

theorem emb4_5 (r : Fin 10000) (d : Fin 32) (n : Fin 100000) (hn : n.val = t.val * 10000 + r.val) :
    ((cfg4.win 5).blk t).view.emb (ix2 r d) = ix2 n d :=
  Shape.idx_ext₂ (by show win4_5.index t (0 : Fin 2) * 10000 + 1 * r.val = n.val; rw [(idx4 t).1.2.2.1, hn]; omega)
    (by show win4_5.index t (1 : Fin 2) * 32 + 1 * d.val = d.val; rw [(idx4 t).1.2.2.2]; omega)

theorem read4_0 (X : Vec F S100000x32 .f32) (r : Fin 10000) (d : Fin 32) (n : Fin 100000) (hn : n.val = t.val * 10000 + r.val) :
    (((cfg4.win 0).blk t).view.read (Elt F) X : Vec F S10000x32 .f32) (ix2 r d) = X (ix2 n d) := by
  rw [View.read_apply]; show X _ = X _; exact congrArg X (emb4_0 t r d n hn)

theorem read4_5 (X : Vec F S100000x32 .f32) (r : Fin 10000) (d : Fin 32) (n : Fin 100000) (hn : n.val = t.val * 10000 + r.val) :
    (((cfg4.win 5).blk t).view.read (Elt F) X : Vec F S10000x32 .f32) (ix2 r d) = X (ix2 n d) := by
  rw [View.read_apply]; show X _ = X _; exact congrArg X (emb4_5 t r d n hn)

theorem read4_1 (X : Vec F S32x32 .f32) : (((cfg4.win 1).blk t).view.read (Elt F) X : Vec F S32x32 .f32) = X := by
  funext y; rw [View.read_apply]; show X _ = X _
  exact congrArg X (funext fun a => Fin.ext (Window.rect_emb_val_of_index_zero win4_1 t a ((idx4 t).2 a).1 y))

theorem read4_2 (X : Vec F S1x32 .f32) : (((cfg4.win 2).blk t).view.read (Elt F) X : Vec F S1x32 .f32) = X := by
  funext y; rw [View.read_apply]; show X _ = X _
  exact congrArg X (funext fun a => Fin.ext (Window.rect_emb_val_of_index_zero win4_2 t a ((idx4 t).2 a).2.1 y))

theorem read4_3 (X : Vec F S32x32 .f32) : (((cfg4.win 3).blk t).view.read (Elt F) X : Vec F S32x32 .f32) = X := by
  funext y; rw [View.read_apply]; show X _ = X _
  exact congrArg X (funext fun a => Fin.ext (Window.rect_emb_val_of_index_zero win4_3 t a ((idx4 t).2 a).2.2.1 y))

theorem read4_4 (X : Vec F S1x32 .f32) : (((cfg4.win 4).blk t).view.read (Elt F) X : Vec F S1x32 .f32) = X := by
  funext y; rw [View.read_apply]; show X _ = X _
  exact congrArg X (funext fun a => Fin.ext (Window.rect_emb_val_of_index_zero win4_4 t a ((idx4 t).2 a).2.2.2.1 y))

theorem emb4_6 (y : S1x32.Idx) : ((cfg4.win 6).blk t).view.emb y = y :=
  funext fun a => Fin.ext (Window.rect_emb_val_of_index_zero win4_6 t a ((idx4 t).2 a).2.2.2.2.1 y)
theorem emb4_7 (y : S1x32.Idx) : ((cfg4.win 7).blk t).view.emb y = y :=
  funext fun a => Fin.ext (Window.rect_emb_val_of_index_zero win4_7 t a ((idx4 t).2 a).2.2.2.2.2 y)

theorem read4_6 (X : Vec F S1x32 .f32) : (((cfg4.win 6).blk t).view.read (Elt F) X : Vec F S1x32 .f32) = X := by
  funext y; rw [View.read_apply]; show X _ = X _; exact congrArg X (emb4_6 t y)

theorem read4_7 (X : Vec F S1x32 .f32) : (((cfg4.win 7).blk t).view.read (Elt F) X : Vec F S1x32 .f32) = X := by
  funext y; rw [View.read_apply]; show X _ = X _; exact congrArg X (emb4_7 t y)

end

theorem cover4_5 (i : S100000x32.Idx) :
    ∃ t : Fin cfg4.N, (cfg4.win 5).flush t = true ∧ i ∈ ((cfg4.win 5).blk t).view.set := by
  have hi : (i 0).val < 100000 := (i 0).isLt
  have hN : cfg4.N = 10 := N_4
  refine ⟨⟨(i 0).val / 10000, by rw [hN]; omega⟩, flush4_5 _, ?_⟩
  have h := emb4_5 ⟨(i 0).val / 10000, by rw [hN]; omega⟩ ⟨(i 0).val % 10000, Nat.mod_lt _ (by decide)⟩ (i 1) (i 0)
    (by show (i 0).val = (i 0).val / 10000 * 10000 + (i 0).val % 10000; omega)
  exact Eq.mp (congrArg (· ∈ _) (h.trans (eq_ix2 i).symm)) (View.emb_mem_set _ _)

theorem cover4_6 (i : S1x32.Idx) :
    ∃ t : Fin cfg4.N, (cfg4.win 6).flush t = true ∧ i ∈ ((cfg4.win 6).blk t).view.set :=
  ⟨t4_9, (flush4_6 t4_9).mpr rfl, emb4_6 t4_9 i ▸ View.emb_mem_set _ i⟩

theorem cover4_7 (i : S1x32.Idx) :
    ∃ t : Fin cfg4.N, (cfg4.win 7).flush t = true ∧ i ∈ ((cfg4.win 7).blk t).view.set :=
  ⟨t4_9, (flush4_7 t4_9).mpr rfl, emb4_7 t4_9 i ▸ View.emb_mem_set _ i⟩

section Region4Val
variable (V : (c : Dev nD) → (b : Ref sig .tc) → Buf (Elt Ideal) ((c : Thread nD τ).loc b)) (c : Dev nD)

abbrev arr4_0 : FVec Ideal S100000x32 .f32 := V c (Pipeline.arrRef spec4 0)
abbrev arr4_1 : FVec Ideal S32x32 .f32 := V c (Pipeline.arrRef spec4 1)
abbrev arr4_2 : FVec Ideal S1x32 .f32 := V c (Pipeline.arrRef spec4 2)
abbrev arr4_3 : FVec Ideal S32x32 .f32 := V c (Pipeline.arrRef spec4 3)
abbrev arr4_4 : FVec Ideal S1x32 .f32 := V c (Pipeline.arrRef spec4 4)

abbrev hArr4 : FVec Ideal S100000x32 .f32 :=
  mlpArr (arr4_0 V c) (arr4_1 V c) (arr4_2 V c) (arr4_3 V c) (arr4_4 V c)

abbrev sArr4 : FVec Ideal S1x32 .f32 := fun i => ∑ n : Fin 100000, hArr4 V c (ix2 n (i 1))

abbrev qArr4 : FVec Ideal S1x32 .f32 :=
  fun i => ∑ n : Fin 100000, hArr4 V c (ix2 n (i 1)) * hArr4 V c (ix2 n (i 1))

theorem hblk4_apply (t : Fin cfg4.N) (r : Fin 10000) (j : Fin 32) (n : Fin 100000)
    (hn : n.val = t.val * 10000 + r.val) : hblk4 (F := Ideal) V c t (ix2 r j) = hArr4 V c (ix2 n j) := by
  unfold hblk4
  exact hpay_of_blocks _ _ _ _ _ _ n r _ _ _ _ (fun d => read4_0 (F := Ideal) t (arr4_0 V c) r d n hn)
    (read4_1 (F := Ideal) t (arr4_1 V c)) (read4_2 (F := Ideal) t (arr4_2 V c)) (read4_3 (F := Ideal) t (arr4_3 V c))
    (read4_4 (F := Ideal) t (arr4_4 V c)) j

theorem accS4_last (j : Fin 32) (h9 : 9 < cfg4.N) :
    accS4 (F := Ideal) V c 9 h9 (ix2 0 j) = ∑ n : Fin 100000, hArr4 V c (ix2 n j) :=
  carried_total (accS4 (F := Ideal) V c) k4_pay3
    (fun n h a => k4_pay1 (k4_pay6 (iblk4 V c 0 ⟨n, h⟩) (iblk4 V c 1 ⟨n, h⟩) (iblk4 V c 2 ⟨n, h⟩) (iblk4 V c 3 ⟨n, h⟩) (iblk4 V c 4 ⟨n, h⟩) a))
    (fun n j => hArr4 V c (ix2 n j)) j (pay_za_apply j) (fun _ => rfl) (fun _ _ => rfl)
    (fun n h a => (pay_S_apply _ _ _ _ _ _ _).trans (congrArg (a (ix2 0 j) + ·)
      (blockSum_eq _ n (lt_of_lt_of_eq h N_4) _ fun r m hm => hblk4_apply V c ⟨n, h⟩ r j m hm))) h9

theorem accQ4_last (j : Fin 32) (h9 : 9 < cfg4.N) :
    accQ4 (F := Ideal) V c 9 h9 (ix2 0 j) = ∑ n : Fin 100000, hArr4 V c (ix2 n j) * hArr4 V c (ix2 n j) :=
  carried_total (accQ4 (F := Ideal) V c) k4_pay4 (fun n h a => k4_pay2 (hblk4 (F := Ideal) V c ⟨n, h⟩) a)
    (fun n j => hArr4 V c (ix2 n j) * hArr4 V c (ix2 n j)) j (pay_zb_apply j) (fun _ => rfl) (fun _ _ => rfl)
    (fun n h a => (pay_Q_apply _ _ _).trans (congrArg (a (ix2 0 j) + ·)
      (blockSum_eq _ n (lt_of_lt_of_eq h N_4) _ fun r m hm => by rw [hblk4_apply V c ⟨n, h⟩ r j m hm]))) h9

theorem flushed4_5_eq (t : Fin cfg4.N) :
    (dat4 V c).flushed 5 t = ((cfg4.win 5).blk t).view.read (Elt Ideal) (hArr4 V c) := by
  show (cfg4.win 5).cut (grid4.coords t) ((dat4 V c).after 5 t) = _
  rw [after4_5]
  funext y
  obtain ⟨r, j, rfl⟩ : ∃ (r : Fin 10000) (j : Fin 32), y = ix2 r j := ⟨y 0, y 1, eq_ix2 y⟩
  have hN : cfg4.N = 10 := N_4
  have ht := t.isLt
  have hr := r.isLt
  exact (hblk4_apply V c t r j ⟨t.val * 10000 + r.val, by omega⟩ rfl).trans (read4_5 (F := Ideal) t (hArr4 V c) r j _ rfl).symm

theorem flushed4_6_eq (t : Fin cfg4.N) (hf : (cfg4.win 6).flush t = true) :
    (dat4 V c).flushed 6 t = ((cfg4.win 6).blk t).view.read (Elt Ideal) (sArr4 V c) := by
  obtain ⟨n, hn⟩ := t
  have hN : cfg4.N = 10 := N_4
  obtain rfl : n = 9 := by have : n % 10 = 9 := (flush4_6 ⟨n, hn⟩).mp hf; omega
  show (cfg4.win 6).cut (grid4.coords _) ((dat4 V c).after 6 _) = _
  rw [after4_6, read4_6 (F := Ideal)]
  exact row_ext fun j => accS4_last V c j hn

theorem flushed4_7_eq (t : Fin cfg4.N) (hf : (cfg4.win 7).flush t = true) :
    (dat4 V c).flushed 7 t = ((cfg4.win 7).blk t).view.read (Elt Ideal) (qArr4 V c) := by
  obtain ⟨n, hn⟩ := t
  have hN : cfg4.N = 10 := N_4
  obtain rfl : n = 9 := by have : n % 10 = 9 := (flush4_7 ⟨n, hn⟩).mp hf; omega
  show (cfg4.win 7).cut (grid4.coords _) ((dat4 V c).after 7 _) = _
  rw [after4_7, read4_7 (F := Ideal)]
  exact row_ext fun j => accQ4_last V c j hn

abbrev outH4 : FVec Ideal S100000x32 .f32 := (dat4 V c).arrAt 5 cfg4.N
abbrev outS4 : FVec Ideal S1x32 .f32 := (dat4 V c).arrAt 6 cfg4.N
abbrev outQ4 : FVec Ideal S1x32 .f32 := (dat4 V c).arrAt 7 cfg4.N

theorem final4_5 : outH4 V c = hArr4 V c :=
  (dat4 V c).arrAt_eq_of_cover 5 (hArr4 V c) (fun t _ => flushed4_5_eq V c t) cover4_5

theorem final4_6 : outS4 V c = sArr4 V c :=
  (dat4 V c).arrAt_eq_of_cover 6 (sArr4 V c) (flushed4_6_eq V c) cover4_6

theorem final4_7 : outQ4 V c = qArr4 V c :=
  (dat4 V c).arrAt_eq_of_cover 7 (qArr4 V c) (flushed4_7_eq V c) cover4_7

theorem mlp4_h (n : Fin 100000) (j : Fin 32) :
    outH4 V c (ix2 n j)
      = Cert.Layer.mlpAt (fun n d => arr4_0 V c (ix2 n d)) (fun d k => arr4_1 V c (ix2 d k)) (fun k => arr4_2 V c (ix2 0 k))
          (fun k j => arr4_3 V c (ix2 k j)) (fun j => arr4_4 V c (ix2 0 j)) n j :=
  congrFun (final4_5 V c) (ix2 n j)

theorem mlp4_S (j : Fin 32) : outS4 V c (ix2 0 j) = ∑ n : Fin 100000, outH4 V c (ix2 n j) := by
  rw [final4_5]
  exact congrFun (final4_6 V c) (ix2 0 j)

theorem mlp4_Q (j : Fin 32) :
    outQ4 V c (ix2 0 j) = ∑ n : Fin 100000, outH4 V c (ix2 n j) * outH4 V c (ix2 n j) := by
  rw [final4_5]
  exact congrFun (final4_7 V c) (ix2 0 j)

end Region4Val

end Cert.KernelIdeal.Gen

end
-- ==== Proof.KIBn5Val.lean ====
import proofs.«421428_j45019847197002_2_alg».proof.Proof.KIBn5
import proofs.«421428_j45019847197002_2_alg».proof.Proof.ValBn
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

theorem idx5_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (1 : Fin 2) = 0 ∧ win5_2.index t (1 : Fin 2) = 0
    ∧ win5_3.index t (1 : Fin 2) = 0 ∧ win5_4.index t (1 : Fin 2) = 0 :=
  (by decide +kernel : ∀ t : Fin grid5.N, _)

def pt5 (n : Fin 100000) : Fin cfg5.N :=
  ⟨n.val / 10000, by have h : cfg5.N = 10 := N_5; rw [h]; have := n.isLt; omega⟩

-- Row n of the array lies in the block of point n / 10000.
theorem bn5_cover (i : S100000x32.Idx) :
    ∃ t : Fin cfg5.N, (cfg5.win 5).flush t = true ∧ i ∈ ((cfg5.win 5).blk t).view.set := by
  have hi0 : (i 0).val < 100000 := (i 0).isLt
  have hi1 : (i 1).val < 32 := (i 1).isLt
  refine ⟨pt5 (i 0 : Fin 100000), flush5_5 _, ?_⟩
  obtain ⟨-, -, e0, e1, -⟩ := idx5_facts (pt5 (i 0 : Fin 100000))
  have hp : (pt5 (i 0 : Fin 100000)).val = (i 0).val / 10000 := rfl
  rw [show ((cfg5.win 5).blk (pt5 (i 0 : Fin 100000))).view.set = (win5_5.rect (pt5 (i 0 : Fin 100000))).set from View.set_slice_whole _ _,
    Rect.mem_set_unit]
  intro a
  match a with
  | ⟨0, _⟩ => show win5_5.index (pt5 (i 0 : Fin 100000)) (0 : Fin 2) * 10000 ≤ (i 0).val ∧ (i 0).val < win5_5.index (pt5 (i 0 : Fin 100000)) (0 : Fin 2) * 10000 + 10000; omega
  | ⟨1, _⟩ => show win5_5.index (pt5 (i 0 : Fin 100000)) (1 : Fin 2) * 32 ≤ (i 1).val ∧ (i 1).val < win5_5.index (pt5 (i 0 : Fin 100000)) (1 : Fin 2) * 32 + 32; omega

section Region5
variable (V : (c : Dev nD) → (b : Ref sig .tc) → Buf (Elt F) ((c : Thread nD τ).loc b))

abbrev bn5_h (c : Dev nD) : Vec F S100000x32 .f32 := V c (Pipeline.arrRef spec5 0)
abbrev bn5_mean (c : Dev nD) : Vec F S1x32 .f32 := V c (Pipeline.arrRef spec5 1)
abbrev bn5_var (c : Dev nD) : Vec F S1x32 .f32 := V c (Pipeline.arrRef spec5 2)
abbrev bn5_gamma (c : Dev nD) : Vec F S1x32 .f32 := V c (Pipeline.arrRef spec5 3)
abbrev bn5_beta (c : Dev nD) : Vec F S1x32 .f32 := V c (Pipeline.arrRef spec5 4)

end Region5

section Region5
variable (V : (c : Dev nD) → (b : Ref sig .tc) → Buf (Elt Ideal) ((c : Thread nD τ).loc b))

-- Entry (r, k) of point t's block is the normalised entry at the array index i = (10000 t + r, k).
theorem bn5_at (c : Dev nD) (t : Fin cfg5.N) (r : Fin 10000) (k : Fin 32) (i : S100000x32.Idx)
    (hi0 : (i 0).val = t.val * 10000 + r.val) (hi1 : (i 1).val = k.val) :
    k5_pay1 (iblk5 V c 0 t) (iblk5 V c 2 t) (iblk5 V c 1 t) (iblk5 V c 3 t) (iblk5 V c 4 t) (ix2 r k)
      = (bn5_h V c i - bn5_mean V c (ix2 0 (i 1)))
          * Ideal.rsqrt (max (bn5_var V c (ix2 0 (i 1))) 0 + Ideal.ofBits .f32 0x3727C5AC#32)
          * bn5_gamma V c (ix2 0 (i 1)) + bn5_beta V c (ix2 0 (i 1)) := by
  obtain ⟨e00, e01, -, -, e11, e21, e31, e41⟩ := idx5_facts t
  refine (ValBn.pay_apply (pay := k5_pay1) rfl _ _ _ _ _ r k).trans ?_
  have h0 : iblk5 V c 0 t (ix2 r k) = bn5_h V c i := by
    show V c (Pipeline.arrRef spec5 0) (((cfg5.win 0).blk t).view.emb (ix2 r k)) = V c (Pipeline.arrRef spec5 0) i
    refine congrArg (V c (Pipeline.arrRef spec5 0)) ?_
    funext a; apply Fin.ext
    match a with
    | ⟨0, _⟩ => show win5_0.index t (0 : Fin 2) * 10000 + 1 * r.val = (i 0).val; omega
    | ⟨1, _⟩ => show win5_0.index t (1 : Fin 2) * 32 + 1 * k.val = (i 1).val; omega
  have h1 : iblk5 V c 1 t (ix2 0 k) = bn5_mean V c (ix2 0 (i 1)) :=
    ValBn.row_congr (V c (Pipeline.arrRef spec5 1)) (x := ((cfg5.win 1).blk t).view.emb (ix2 0 k))
      (by show win5_1.index t (1 : Fin 2) * 32 + 1 * k.val = (i 1).val; omega)
  have h2 : iblk5 V c 2 t (ix2 0 k) = bn5_var V c (ix2 0 (i 1)) :=
    ValBn.row_congr (V c (Pipeline.arrRef spec5 2)) (x := ((cfg5.win 2).blk t).view.emb (ix2 0 k))
      (by show win5_2.index t (1 : Fin 2) * 32 + 1 * k.val = (i 1).val; omega)
  have h3 : iblk5 V c 3 t (ix2 0 k) = bn5_gamma V c (ix2 0 (i 1)) :=
    ValBn.row_congr (V c (Pipeline.arrRef spec5 3)) (x := ((cfg5.win 3).blk t).view.emb (ix2 0 k))
      (by show win5_3.index t (1 : Fin 2) * 32 + 1 * k.val = (i 1).val; omega)
  have h4 : iblk5 V c 4 t (ix2 0 k) = bn5_beta V c (ix2 0 (i 1)) :=
    ValBn.row_congr (V c (Pipeline.arrRef spec5 4)) (x := ((cfg5.win 4).blk t).view.emb (ix2 0 k))
      (by show win5_4.index t (1 : Fin 2) * 32 + 1 * k.val = (i 1).val; omega)
  rw [h0, h1, h2, h3, h4]

-- The grid points' blocks cover the array, and each block holds the normalised entries of its rows.
theorem bn5_arr_ideal (c : Dev nD) (n : Fin 100000) (j : Fin 32) :
    (dat5 (F := Ideal) V c).arrAt 5 cfg5.N (ix2 n j)
      = (bn5_h V c (ix2 n j) - bn5_mean V c (ix2 0 j))
          * Ideal.rsqrt (max (bn5_var V c (ix2 0 j)) 0 + Ideal.ofBits .f32 0x3727C5AC#32)
          * bn5_gamma V c (ix2 0 j) + bn5_beta V c (ix2 0 j) := by
  refine (dat5 (F := Ideal) V c).arrAt_forall_of_cover 5
    (fun (i : S100000x32.Idx) (v : Elt Ideal .f32) => v = (bn5_h V c i - bn5_mean V c (ix2 0 (i 1)))
      * Ideal.rsqrt (max (bn5_var V c (ix2 0 (i 1))) 0 + Ideal.ofBits .f32 0x3727C5AC#32)
      * bn5_gamma V c (ix2 0 (i 1)) + bn5_beta V c (ix2 0 (i 1)))
    (fun t _ y => ?_) bn5_cover (ix2 n j)
  obtain ⟨-, -, e50, e51, -⟩ := idx5_facts t
  obtain ⟨r, k, rfl⟩ : ∃ r k, y = ix2 r k := ⟨y 0, y 1, eq_ix2 y⟩
  show (cfg5.win 5).cut (grid5.coords t) ((dat5 V c).after 5 t) (ix2 r k) = _
  rw [after5_5, out5_5_eq]
  exact bn5_at V c t r k _
    (by show win5_5.index t (0 : Fin 2) * 10000 + 1 * r.val = t.val * 10000 + r.val; omega)
    (by show win5_5.index t (1 : Fin 2) * 32 + 1 * k.val = k.val; omega)

end Region5

end Cert.KernelIdeal.Gen

end
-- ==== Proof.Bridge2.lean ====
import proofs.«421428_j45019847197002_2_alg».proof.Proof.KIVals
import proofs.«421428_j45019847197002_2_alg».proof.Proof.KIHostIdx
import proofs.«421428_j45019847197002_2_alg».proof.Proof.AggEq
import proofs.«421428_j45019847197002_2_alg».proof.Proof.KIMlp4Val
import proofs.«421428_j45019847197002_2_alg».proof.Proof.KIBn5Val
import proofs.«421428_j45019847197002_2_alg».proof.Proof.BridgeStep

set_option maxRecDepth 16384

noncomputable section

namespace Cert.Bridge

open Idealize.ShloMosaic Idealize.ShloMosaic.TcCoe Idealize.ShloMosaic.ValueIdx Idealize.SL.Sem
open Cert.IdealFin Cert.Layer
open Cert.KernelIdeal Cert.KernelIdeal.Gen Cert.KernelIdeal.Host Cert.ReferenceIdeal.RefRead

section Layer2
variable (m : (ℓ : Loc nD τ sig) → Buf (Elt Ideal) ℓ) (ρ : Dev nD → PrngReg)
variable (V0 : Valuation Cert.ReferenceIdeal.τ Cert.ReferenceIdeal.sig (Elt Ideal)) (c : Dev nD)

-- No stretch of the layer writes an argument buffer, and none is an array of its two calls.
theorem layer2_args (hargs : ArgsAt (B8 m ρ c) V0) : ArgsAt (B12 m ρ c) V0 :=
  hargs.of_kept fun r hr =>
    (B12_of_ne m ρ c r ((by decide : ∀ r ∈ argRefs, ∀ w, Pipeline.arrRef spec5 w ≠ r) r hr)).trans <|
      (B11_keep m ρ c r ((by decide : ∀ r ∈ argRefs, r ∉ hostOps5_W) r hr)).trans <|
        (B10_of_ne m ρ c r ((by decide : ∀ r ∈ argRefs, ∀ w, Pipeline.arrRef spec4 w ≠ r) r hr)).trans
          (B9_keep m ρ c r ((by decide : ∀ r ∈ argRefs, r ∉ hostOps4_W) r hr))

theorem layer2 (hargs : ArgsAt (B8 m ρ c) V0) (hfin : FinArgs V0)
    (hprev : (U8 m ρ c (Pipeline.arrRef spec3 5) : FVec Ideal S100000x32 .f32) = out1 V0) (hprevfin : IsFin (out1 V0)) :
    (U12 m ρ c (Pipeline.arrRef spec5 5) : FVec Ideal S100000x32 .f32) = out2 V0 :=
  layer_step 1 2 hfin hprevfin (pre2_mlpAt V0) (out2_bnRef V0) hargs hprev (ho4_agg (B8 m ρ c))
    (ho4_W1_apply (B8 m ρ c)) (ho4_b1_apply (B8 m ρ c)) (ho4_W2_apply (B8 m ρ c)) (ho4_b2_apply (B8 m ρ c))
    (ho4_gamma_apply (B8 m ρ c)) (ho4_beta_apply (B8 m ρ c))
    (mlp4_h (U9 m ρ) c) (mlp4_S (U9 m ρ) c) (mlp4_Q (U9 m ρ) c)
    (B10_arr m ρ c 5) (B10_arr m ρ c 6) (B10_arr m ρ c 7)
    (B10_of_ne m ρ c main_v86 (by decide)) (B10_of_ne m ρ c main_v88 (by decide))
    (ho5_mean_apply (B10 m ρ c)) (ho5_var_apply (B10 m ρ c)) (ho5_gamma_apply (B10 m ρ c)) (ho5_beta_apply (B10 m ρ c))
    (B11_keep m ρ c (Pipeline.arrRef spec4 5) (by decide)) (bn5_arr_ideal (U11 m ρ) c) (B12_arr m ρ c 5)

theorem layer2_fin (hfin : FinArgs V0) (hprevfin : IsFin (out1 V0)) : IsFin (out2 V0) :=
  layer_step_fin 1 2 hfin hprevfin (pre2_mlpAt V0) (out2_bnRef V0)

end Layer2

end Cert.Bridge

end
-- ==== Proof.KIMlp6Val.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp6
import proofs.«421428_j45019847197002_2_alg».proof.Proof.ValMlp
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window)
open Cert.KernelIdeal.ValMlp
open scoped BigOperators

variable {F : FTy → Type} [FloatOps F]

theorem idx6 : ∀ t : Fin cfg6.N,
    (win6_0.index t (0 : Fin 2) = t.val ∧ win6_0.index t (1 : Fin 2) = 0
      ∧ win6_5.index t (0 : Fin 2) = t.val ∧ win6_5.index t (1 : Fin 2) = 0)
    ∧ ∀ a : Fin 2, win6_1.index t a = 0 ∧ win6_2.index t a = 0 ∧ win6_3.index t a = 0 ∧ win6_4.index t a = 0
      ∧ win6_6.index t a = 0 ∧ win6_7.index t a = 0 :=
  (by decide +kernel : ∀ t : Fin grid6.N, _)

section
variable (t : Fin cfg6.N)

theorem emb6_0 (r : Fin 10000) (d : Fin 32) (n : Fin 100000) (hn : n.val = t.val * 10000 + r.val) :
    ((cfg6.win 0).blk t).view.emb (ix2 r d) = ix2 n d :=
  Shape.idx_ext₂ (by show win6_0.index t (0 : Fin 2) * 10000 + 1 * r.val = n.val; rw [(idx6 t).1.1, hn]; omega)
    (by show win6_0.index t (1 : Fin 2) * 32 + 1 * d.val = d.val; rw [(idx6 t).1.2.1]; omega)

theorem emb6_5 (r : Fin 10000) (d : Fin 32) (n : Fin 100000) (hn : n.val = t.val * 10000 + r.val) :
    ((cfg6.win 5).blk t).view.emb (ix2 r d) = ix2 n d :=
  Shape.idx_ext₂ (by show win6_5.index t (0 : Fin 2) * 10000 + 1 * r.val = n.val; rw [(idx6 t).1.2.2.1, hn]; omega)
    (by show win6_5.index t (1 : Fin 2) * 32 + 1 * d.val = d.val; rw [(idx6 t).1.2.2.2]; omega)

theorem read6_0 (X : Vec F S100000x32 .f32) (r : Fin 10000) (d : Fin 32) (n : Fin 100000) (hn : n.val = t.val * 10000 + r.val) :
    (((cfg6.win 0).blk t).view.read (Elt F) X : Vec F S10000x32 .f32) (ix2 r d) = X (ix2 n d) := by
  rw [View.read_apply]; show X _ = X _; exact congrArg X (emb6_0 t r d n hn)

theorem read6_5 (X : Vec F S100000x32 .f32) (r : Fin 10000) (d : Fin 32) (n : Fin 100000) (hn : n.val = t.val * 10000 + r.val) :
    (((cfg6.win 5).blk t).view.read (Elt F) X : Vec F S10000x32 .f32) (ix2 r d) = X (ix2 n d) := by
  rw [View.read_apply]; show X _ = X _; exact congrArg X (emb6_5 t r d n hn)

theorem read6_1 (X : Vec F S32x32 .f32) : (((cfg6.win 1).blk t).view.read (Elt F) X : Vec F S32x32 .f32) = X := by
  funext y; rw [View.read_apply]; show X _ = X _
  exact congrArg X (funext fun a => Fin.ext (Window.rect_emb_val_of_index_zero win6_1 t a ((idx6 t).2 a).1 y))

theorem read6_2 (X : Vec F S1x32 .f32) : (((cfg6.win 2).blk t).view.read (Elt F) X : Vec F S1x32 .f32) = X := by
  funext y; rw [View.read_apply]; show X _ = X _
  exact congrArg X (funext fun a => Fin.ext (Window.rect_emb_val_of_index_zero win6_2 t a ((idx6 t).2 a).2.1 y))

theorem read6_3 (X : Vec F S32x32 .f32) : (((cfg6.win 3).blk t).view.read (Elt F) X : Vec F S32x32 .f32) = X := by
  funext y; rw [View.read_apply]; show X _ = X _
  exact congrArg X (funext fun a => Fin.ext (Window.rect_emb_val_of_index_zero win6_3 t a ((idx6 t).2 a).2.2.1 y))

theorem read6_4 (X : Vec F S1x32 .f32) : (((cfg6.win 4).blk t).view.read (Elt F) X : Vec F S1x32 .f32) = X := by
  funext y; rw [View.read_apply]; show X _ = X _
  exact congrArg X (funext fun a => Fin.ext (Window.rect_emb_val_of_index_zero win6_4 t a ((idx6 t).2 a).2.2.2.1 y))

theorem emb6_6 (y : S1x32.Idx) : ((cfg6.win 6).blk t).view.emb y = y :=
  funext fun a => Fin.ext (Window.rect_emb_val_of_index_zero win6_6 t a ((idx6 t).2 a).2.2.2.2.1 y)
theorem emb6_7 (y : S1x32.Idx) : ((cfg6.win 7).blk t).view.emb y = y :=
  funext fun a => Fin.ext (Window.rect_emb_val_of_index_zero win6_7 t a ((idx6 t).2 a).2.2.2.2.2 y)

theorem read6_6 (X : Vec F S1x32 .f32) : (((cfg6.win 6).blk t).view.read (Elt F) X : Vec F S1x32 .f32) = X := by
  funext y; rw [View.read_apply]; show X _ = X _; exact congrArg X (emb6_6 t y)

theorem read6_7 (X : Vec F S1x32 .f32) : (((cfg6.win 7).blk t).view.read (Elt F) X : Vec F S1x32 .f32) = X := by
  funext y; rw [View.read_apply]; show X _ = X _; exact congrArg X (emb6_7 t y)

end

theorem cover6_5 (i : S100000x32.Idx) :
    ∃ t : Fin cfg6.N, (cfg6.win 5).flush t = true ∧ i ∈ ((cfg6.win 5).blk t).view.set := by
  have hi : (i 0).val < 100000 := (i 0).isLt
  have hN : cfg6.N = 10 := N_6
  refine ⟨⟨(i 0).val / 10000, by rw [hN]; omega⟩, flush6_5 _, ?_⟩
  have h := emb6_5 ⟨(i 0).val / 10000, by rw [hN]; omega⟩ ⟨(i 0).val % 10000, Nat.mod_lt _ (by decide)⟩ (i 1) (i 0)
    (by show (i 0).val = (i 0).val / 10000 * 10000 + (i 0).val % 10000; omega)
  exact Eq.mp (congrArg (· ∈ _) (h.trans (eq_ix2 i).symm)) (View.emb_mem_set _ _)

theorem cover6_6 (i : S1x32.Idx) :
    ∃ t : Fin cfg6.N, (cfg6.win 6).flush t = true ∧ i ∈ ((cfg6.win 6).blk t).view.set :=
  ⟨t6_9, (flush6_6 t6_9).mpr rfl, emb6_6 t6_9 i ▸ View.emb_mem_set _ i⟩

theorem cover6_7 (i : S1x32.Idx) :
    ∃ t : Fin cfg6.N, (cfg6.win 7).flush t = true ∧ i ∈ ((cfg6.win 7).blk t).view.set :=
  ⟨t6_9, (flush6_7 t6_9).mpr rfl, emb6_7 t6_9 i ▸ View.emb_mem_set _ i⟩

section Region6Val
variable (V : (c : Dev nD) → (b : Ref sig .tc) → Buf (Elt Ideal) ((c : Thread nD τ).loc b)) (c : Dev nD)

abbrev arr6_0 : FVec Ideal S100000x32 .f32 := V c (Pipeline.arrRef spec6 0)
abbrev arr6_1 : FVec Ideal S32x32 .f32 := V c (Pipeline.arrRef spec6 1)
abbrev arr6_2 : FVec Ideal S1x32 .f32 := V c (Pipeline.arrRef spec6 2)
abbrev arr6_3 : FVec Ideal S32x32 .f32 := V c (Pipeline.arrRef spec6 3)
abbrev arr6_4 : FVec Ideal S1x32 .f32 := V c (Pipeline.arrRef spec6 4)

abbrev hArr6 : FVec Ideal S100000x32 .f32 :=
  mlpArr (arr6_0 V c) (arr6_1 V c) (arr6_2 V c) (arr6_3 V c) (arr6_4 V c)

abbrev sArr6 : FVec Ideal S1x32 .f32 := fun i => ∑ n : Fin 100000, hArr6 V c (ix2 n (i 1))

abbrev qArr6 : FVec Ideal S1x32 .f32 :=
  fun i => ∑ n : Fin 100000, hArr6 V c (ix2 n (i 1)) * hArr6 V c (ix2 n (i 1))

theorem hblk6_apply (t : Fin cfg6.N) (r : Fin 10000) (j : Fin 32) (n : Fin 100000)
    (hn : n.val = t.val * 10000 + r.val) : hblk6 (F := Ideal) V c t (ix2 r j) = hArr6 V c (ix2 n j) := by
  unfold hblk6
  exact hpay_of_blocks _ _ _ _ _ _ n r _ _ _ _ (fun d => read6_0 (F := Ideal) t (arr6_0 V c) r d n hn)
    (read6_1 (F := Ideal) t (arr6_1 V c)) (read6_2 (F := Ideal) t (arr6_2 V c)) (read6_3 (F := Ideal) t (arr6_3 V c))
    (read6_4 (F := Ideal) t (arr6_4 V c)) j

theorem accS6_last (j : Fin 32) (h9 : 9 < cfg6.N) :
    accS6 (F := Ideal) V c 9 h9 (ix2 0 j) = ∑ n : Fin 100000, hArr6 V c (ix2 n j) :=
  carried_total (accS6 (F := Ideal) V c) k6_pay3
    (fun n h a => k6_pay1 (k6_pay6 (iblk6 V c 0 ⟨n, h⟩) (iblk6 V c 1 ⟨n, h⟩) (iblk6 V c 2 ⟨n, h⟩) (iblk6 V c 3 ⟨n, h⟩) (iblk6 V c 4 ⟨n, h⟩) a))
    (fun n j => hArr6 V c (ix2 n j)) j (pay_za_apply j) (fun _ => rfl) (fun _ _ => rfl)
    (fun n h a => (pay_S_apply _ _ _ _ _ _ _).trans (congrArg (a (ix2 0 j) + ·)
      (blockSum_eq _ n (lt_of_lt_of_eq h N_6) _ fun r m hm => hblk6_apply V c ⟨n, h⟩ r j m hm))) h9

theorem accQ6_last (j : Fin 32) (h9 : 9 < cfg6.N) :
    accQ6 (F := Ideal) V c 9 h9 (ix2 0 j) = ∑ n : Fin 100000, hArr6 V c (ix2 n j) * hArr6 V c (ix2 n j) :=
  carried_total (accQ6 (F := Ideal) V c) k6_pay4 (fun n h a => k6_pay2 (hblk6 (F := Ideal) V c ⟨n, h⟩) a)
    (fun n j => hArr6 V c (ix2 n j) * hArr6 V c (ix2 n j)) j (pay_zb_apply j) (fun _ => rfl) (fun _ _ => rfl)
    (fun n h a => (pay_Q_apply _ _ _).trans (congrArg (a (ix2 0 j) + ·)
      (blockSum_eq _ n (lt_of_lt_of_eq h N_6) _ fun r m hm => by rw [hblk6_apply V c ⟨n, h⟩ r j m hm]))) h9

theorem flushed6_5_eq (t : Fin cfg6.N) :
    (dat6 V c).flushed 5 t = ((cfg6.win 5).blk t).view.read (Elt Ideal) (hArr6 V c) := by
  show (cfg6.win 5).cut (grid6.coords t) ((dat6 V c).after 5 t) = _
  rw [after6_5]
  funext y
  obtain ⟨r, j, rfl⟩ : ∃ (r : Fin 10000) (j : Fin 32), y = ix2 r j := ⟨y 0, y 1, eq_ix2 y⟩
  have hN : cfg6.N = 10 := N_6
  have ht := t.isLt
  have hr := r.isLt
  exact (hblk6_apply V c t r j ⟨t.val * 10000 + r.val, by omega⟩ rfl).trans (read6_5 (F := Ideal) t (hArr6 V c) r j _ rfl).symm

theorem flushed6_6_eq (t : Fin cfg6.N) (hf : (cfg6.win 6).flush t = true) :
    (dat6 V c).flushed 6 t = ((cfg6.win 6).blk t).view.read (Elt Ideal) (sArr6 V c) := by
  obtain ⟨n, hn⟩ := t
  have hN : cfg6.N = 10 := N_6
  obtain rfl : n = 9 := by have : n % 10 = 9 := (flush6_6 ⟨n, hn⟩).mp hf; omega
  show (cfg6.win 6).cut (grid6.coords _) ((dat6 V c).after 6 _) = _
  rw [after6_6, read6_6 (F := Ideal)]
  exact row_ext fun j => accS6_last V c j hn

theorem flushed6_7_eq (t : Fin cfg6.N) (hf : (cfg6.win 7).flush t = true) :
    (dat6 V c).flushed 7 t = ((cfg6.win 7).blk t).view.read (Elt Ideal) (qArr6 V c) := by
  obtain ⟨n, hn⟩ := t
  have hN : cfg6.N = 10 := N_6
  obtain rfl : n = 9 := by have : n % 10 = 9 := (flush6_7 ⟨n, hn⟩).mp hf; omega
  show (cfg6.win 7).cut (grid6.coords _) ((dat6 V c).after 7 _) = _
  rw [after6_7, read6_7 (F := Ideal)]
  exact row_ext fun j => accQ6_last V c j hn

abbrev outH6 : FVec Ideal S100000x32 .f32 := (dat6 V c).arrAt 5 cfg6.N
abbrev outS6 : FVec Ideal S1x32 .f32 := (dat6 V c).arrAt 6 cfg6.N
abbrev outQ6 : FVec Ideal S1x32 .f32 := (dat6 V c).arrAt 7 cfg6.N

theorem final6_5 : outH6 V c = hArr6 V c :=
  (dat6 V c).arrAt_eq_of_cover 5 (hArr6 V c) (fun t _ => flushed6_5_eq V c t) cover6_5

theorem final6_6 : outS6 V c = sArr6 V c :=
  (dat6 V c).arrAt_eq_of_cover 6 (sArr6 V c) (flushed6_6_eq V c) cover6_6

theorem final6_7 : outQ6 V c = qArr6 V c :=
  (dat6 V c).arrAt_eq_of_cover 7 (qArr6 V c) (flushed6_7_eq V c) cover6_7

theorem mlp6_h (n : Fin 100000) (j : Fin 32) :
    outH6 V c (ix2 n j)
      = Cert.Layer.mlpAt (fun n d => arr6_0 V c (ix2 n d)) (fun d k => arr6_1 V c (ix2 d k)) (fun k => arr6_2 V c (ix2 0 k))
          (fun k j => arr6_3 V c (ix2 k j)) (fun j => arr6_4 V c (ix2 0 j)) n j :=
  congrFun (final6_5 V c) (ix2 n j)

theorem mlp6_S (j : Fin 32) : outS6 V c (ix2 0 j) = ∑ n : Fin 100000, outH6 V c (ix2 n j) := by
  rw [final6_5]
  exact congrFun (final6_6 V c) (ix2 0 j)

theorem mlp6_Q (j : Fin 32) :
    outQ6 V c (ix2 0 j) = ∑ n : Fin 100000, outH6 V c (ix2 n j) * outH6 V c (ix2 n j) := by
  rw [final6_5]
  exact congrFun (final6_7 V c) (ix2 0 j)

end Region6Val

end Cert.KernelIdeal.Gen

end
-- ==== Proof.KIBn7Val.lean ====
import proofs.«421428_j45019847197002_2_alg».proof.Proof.KIBn7
import proofs.«421428_j45019847197002_2_alg».proof.Proof.ValBn
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

theorem idx7_facts : ∀ t : Fin cfg7.N,
    win7_0.index t (0 : Fin 2) = t.val ∧ win7_0.index t (1 : Fin 2) = 0
    ∧ win7_5.index t (0 : Fin 2) = t.val ∧ win7_5.index t (1 : Fin 2) = 0
    ∧ win7_1.index t (1 : Fin 2) = 0 ∧ win7_2.index t (1 : Fin 2) = 0
    ∧ win7_3.index t (1 : Fin 2) = 0 ∧ win7_4.index t (1 : Fin 2) = 0 :=
  (by decide +kernel : ∀ t : Fin grid7.N, _)

def pt7 (n : Fin 100000) : Fin cfg7.N :=
  ⟨n.val / 10000, by have h : cfg7.N = 10 := N_7; rw [h]; have := n.isLt; omega⟩

-- Row n of the array lies in the block of point n / 10000.
theorem bn7_cover (i : S100000x32.Idx) :
    ∃ t : Fin cfg7.N, (cfg7.win 5).flush t = true ∧ i ∈ ((cfg7.win 5).blk t).view.set := by
  have hi0 : (i 0).val < 100000 := (i 0).isLt
  have hi1 : (i 1).val < 32 := (i 1).isLt
  refine ⟨pt7 (i 0 : Fin 100000), flush7_5 _, ?_⟩
  obtain ⟨-, -, e0, e1, -⟩ := idx7_facts (pt7 (i 0 : Fin 100000))
  have hp : (pt7 (i 0 : Fin 100000)).val = (i 0).val / 10000 := rfl
  rw [show ((cfg7.win 5).blk (pt7 (i 0 : Fin 100000))).view.set = (win7_5.rect (pt7 (i 0 : Fin 100000))).set from View.set_slice_whole _ _,
    Rect.mem_set_unit]
  intro a
  match a with
  | ⟨0, _⟩ => show win7_5.index (pt7 (i 0 : Fin 100000)) (0 : Fin 2) * 10000 ≤ (i 0).val ∧ (i 0).val < win7_5.index (pt7 (i 0 : Fin 100000)) (0 : Fin 2) * 10000 + 10000; omega
  | ⟨1, _⟩ => show win7_5.index (pt7 (i 0 : Fin 100000)) (1 : Fin 2) * 32 ≤ (i 1).val ∧ (i 1).val < win7_5.index (pt7 (i 0 : Fin 100000)) (1 : Fin 2) * 32 + 32; omega

section Region7
variable (V : (c : Dev nD) → (b : Ref sig .tc) → Buf (Elt F) ((c : Thread nD τ).loc b))

abbrev bn7_h (c : Dev nD) : Vec F S100000x32 .f32 := V c (Pipeline.arrRef spec7 0)
abbrev bn7_mean (c : Dev nD) : Vec F S1x32 .f32 := V c (Pipeline.arrRef spec7 1)
abbrev bn7_var (c : Dev nD) : Vec F S1x32 .f32 := V c (Pipeline.arrRef spec7 2)
abbrev bn7_gamma (c : Dev nD) : Vec F S1x32 .f32 := V c (Pipeline.arrRef spec7 3)
abbrev bn7_beta (c : Dev nD) : Vec F S1x32 .f32 := V c (Pipeline.arrRef spec7 4)

end Region7

section Region7
variable (V : (c : Dev nD) → (b : Ref sig .tc) → Buf (Elt Ideal) ((c : Thread nD τ).loc b))

-- Entry (r, k) of point t's block is the normalised entry at the array index i = (10000 t + r, k).
theorem bn7_at (c : Dev nD) (t : Fin cfg7.N) (r : Fin 10000) (k : Fin 32) (i : S100000x32.Idx)
    (hi0 : (i 0).val = t.val * 10000 + r.val) (hi1 : (i 1).val = k.val) :
    k7_pay1 (iblk7 V c 0 t) (iblk7 V c 2 t) (iblk7 V c 1 t) (iblk7 V c 3 t) (iblk7 V c 4 t) (ix2 r k)
      = (bn7_h V c i - bn7_mean V c (ix2 0 (i 1)))
          * Ideal.rsqrt (max (bn7_var V c (ix2 0 (i 1))) 0 + Ideal.ofBits .f32 0x3727C5AC#32)
          * bn7_gamma V c (ix2 0 (i 1)) + bn7_beta V c (ix2 0 (i 1)) := by
  obtain ⟨e00, e01, -, -, e11, e21, e31, e41⟩ := idx7_facts t
  refine (ValBn.pay_apply (pay := k7_pay1) rfl _ _ _ _ _ r k).trans ?_
  have h0 : iblk7 V c 0 t (ix2 r k) = bn7_h V c i := by
    show V c (Pipeline.arrRef spec7 0) (((cfg7.win 0).blk t).view.emb (ix2 r k)) = V c (Pipeline.arrRef spec7 0) i
    refine congrArg (V c (Pipeline.arrRef spec7 0)) ?_
    funext a; apply Fin.ext
    match a with
    | ⟨0, _⟩ => show win7_0.index t (0 : Fin 2) * 10000 + 1 * r.val = (i 0).val; omega
    | ⟨1, _⟩ => show win7_0.index t (1 : Fin 2) * 32 + 1 * k.val = (i 1).val; omega
  have h1 : iblk7 V c 1 t (ix2 0 k) = bn7_mean V c (ix2 0 (i 1)) :=
    ValBn.row_congr (V c (Pipeline.arrRef spec7 1)) (x := ((cfg7.win 1).blk t).view.emb (ix2 0 k))
      (by show win7_1.index t (1 : Fin 2) * 32 + 1 * k.val = (i 1).val; omega)
  have h2 : iblk7 V c 2 t (ix2 0 k) = bn7_var V c (ix2 0 (i 1)) :=
    ValBn.row_congr (V c (Pipeline.arrRef spec7 2)) (x := ((cfg7.win 2).blk t).view.emb (ix2 0 k))
      (by show win7_2.index t (1 : Fin 2) * 32 + 1 * k.val = (i 1).val; omega)
  have h3 : iblk7 V c 3 t (ix2 0 k) = bn7_gamma V c (ix2 0 (i 1)) :=
    ValBn.row_congr (V c (Pipeline.arrRef spec7 3)) (x := ((cfg7.win 3).blk t).view.emb (ix2 0 k))
      (by show win7_3.index t (1 : Fin 2) * 32 + 1 * k.val = (i 1).val; omega)
  have h4 : iblk7 V c 4 t (ix2 0 k) = bn7_beta V c (ix2 0 (i 1)) :=
    ValBn.row_congr (V c (Pipeline.arrRef spec7 4)) (x := ((cfg7.win 4).blk t).view.emb (ix2 0 k))
      (by show win7_4.index t (1 : Fin 2) * 32 + 1 * k.val = (i 1).val; omega)
  rw [h0, h1, h2, h3, h4]

-- The grid points' blocks cover the array, and each block holds the normalised entries of its rows.
theorem bn7_arr_ideal (c : Dev nD) (n : Fin 100000) (j : Fin 32) :
    (dat7 (F := Ideal) V c).arrAt 5 cfg7.N (ix2 n j)
      = (bn7_h V c (ix2 n j) - bn7_mean V c (ix2 0 j))
          * Ideal.rsqrt (max (bn7_var V c (ix2 0 j)) 0 + Ideal.ofBits .f32 0x3727C5AC#32)
          * bn7_gamma V c (ix2 0 j) + bn7_beta V c (ix2 0 j) := by
  refine (dat7 (F := Ideal) V c).arrAt_forall_of_cover 5
    (fun (i : S100000x32.Idx) (v : Elt Ideal .f32) => v = (bn7_h V c i - bn7_mean V c (ix2 0 (i 1)))
      * Ideal.rsqrt (max (bn7_var V c (ix2 0 (i 1))) 0 + Ideal.ofBits .f32 0x3727C5AC#32)
      * bn7_gamma V c (ix2 0 (i 1)) + bn7_beta V c (ix2 0 (i 1)))
    (fun t _ y => ?_) bn7_cover (ix2 n j)
  obtain ⟨-, -, e50, e51, -⟩ := idx7_facts t
  obtain ⟨r, k, rfl⟩ : ∃ r k, y = ix2 r k := ⟨y 0, y 1, eq_ix2 y⟩
  show (cfg7.win 5).cut (grid7.coords t) ((dat7 V c).after 5 t) (ix2 r k) = _
  rw [after7_5, out7_5_eq]
  exact bn7_at V c t r k _
    (by show win7_5.index t (0 : Fin 2) * 10000 + 1 * r.val = t.val * 10000 + r.val; omega)
    (by show win7_5.index t (1 : Fin 2) * 32 + 1 * k.val = k.val; omega)

end Region7

end Cert.KernelIdeal.Gen

end
-- ==== Proof.Bridge3.lean ====
import proofs.«421428_j45019847197002_2_alg».proof.Proof.KIVals
import proofs.«421428_j45019847197002_2_alg».proof.Proof.KIHostIdx
import proofs.«421428_j45019847197002_2_alg».proof.Proof.AggEq
import proofs.«421428_j45019847197002_2_alg».proof.Proof.KIMlp6Val
import proofs.«421428_j45019847197002_2_alg».proof.Proof.KIBn7Val
import proofs.«421428_j45019847197002_2_alg».proof.Proof.BridgeStep

set_option maxRecDepth 16384

noncomputable section

namespace Cert.Bridge

open Idealize.ShloMosaic Idealize.ShloMosaic.TcCoe Idealize.ShloMosaic.ValueIdx Idealize.SL.Sem
open Cert.IdealFin Cert.Layer
open Cert.KernelIdeal Cert.KernelIdeal.Gen Cert.KernelIdeal.Host Cert.ReferenceIdeal.RefRead

section Layer3
variable (m : (ℓ : Loc nD τ sig) → Buf (Elt Ideal) ℓ) (ρ : Dev nD → PrngReg)
variable (V0 : Valuation Cert.ReferenceIdeal.τ Cert.ReferenceIdeal.sig (Elt Ideal)) (c : Dev nD)

-- No stretch of the layer writes an argument buffer, and none is an array of its two calls.
theorem layer3_args (hargs : ArgsAt (B12 m ρ c) V0) : ArgsAt (B16 m ρ c) V0 :=
  hargs.of_kept fun r hr =>
    (B16_of_ne m ρ c r ((by decide : ∀ r ∈ argRefs, ∀ w, Pipeline.arrRef spec7 w ≠ r) r hr)).trans <|
      (B15_keep m ρ c r ((by decide : ∀ r ∈ argRefs, r ∉ hostOps7_W) r hr)).trans <|
        (B14_of_ne m ρ c r ((by decide : ∀ r ∈ argRefs, ∀ w, Pipeline.arrRef spec6 w ≠ r) r hr)).trans
          (B13_keep m ρ c r ((by decide : ∀ r ∈ argRefs, r ∉ hostOps6_W) r hr))

theorem layer3 (hargs : ArgsAt (B12 m ρ c) V0) (hfin : FinArgs V0)
    (hprev : (U12 m ρ c (Pipeline.arrRef spec5 5) : FVec Ideal S100000x32 .f32) = out2 V0) (hprevfin : IsFin (out2 V0)) :
    (U16 m ρ c (Pipeline.arrRef spec7 5) : FVec Ideal S100000x32 .f32) = out3 V0 :=
  layer_step 2 3 hfin hprevfin (pre3_mlpAt V0) (out3_bnRef V0) hargs hprev (ho6_agg (B12 m ρ c))
    (ho6_W1_apply (B12 m ρ c)) (ho6_b1_apply (B12 m ρ c)) (ho6_W2_apply (B12 m ρ c)) (ho6_b2_apply (B12 m ρ c))
    (ho6_gamma_apply (B12 m ρ c)) (ho6_beta_apply (B12 m ρ c))
    (mlp6_h (U13 m ρ) c) (mlp6_S (U13 m ρ) c) (mlp6_Q (U13 m ρ) c)
    (B14_arr m ρ c 5) (B14_arr m ρ c 6) (B14_arr m ρ c 7)
    (B14_of_ne m ρ c main_v121 (by decide)) (B14_of_ne m ρ c main_v123 (by decide))
    (ho7_mean_apply (B14 m ρ c)) (ho7_var_apply (B14 m ρ c)) (ho7_gamma_apply (B14 m ρ c)) (ho7_beta_apply (B14 m ρ c))
    (B15_keep m ρ c (Pipeline.arrRef spec6 5) (by decide)) (bn7_arr_ideal (U15 m ρ) c) (B16_arr m ρ c 5)

theorem layer3_fin (hfin : FinArgs V0) (hprevfin : IsFin (out2 V0)) : IsFin (out3 V0) :=
  layer_step_fin 2 3 hfin hprevfin (pre3_mlpAt V0) (out3_bnRef V0)

end Layer3

end Cert.Bridge

end
-- ==== Proof.KIMlp8Val.lean ====
import proofs.«421428_j45019847197002_2_alg».proof.Proof.Gen.KernelIdeal.Launch
import proofs.«421428_j45019847197002_2_alg».proof.Proof.Gen.KernelIdeal.Skeleton
import proofs.«421428_j45019847197002_2_alg».proof.Proof.Gen.KernelIdeal.Points
import proofs.«421428_j45019847197002_2_alg».proof.Proof.KIMlp8
import proofs.«421428_j45019847197002_2_alg».proof.Proof.ValMlp
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window)
open Cert.KernelIdeal.ValMlp
open scoped BigOperators

variable {F : FTy → Type} [FloatOps F]

theorem idx8 : ∀ t : Fin cfg8.N,
    (win8_0.index t (0 : Fin 2) = t.val ∧ win8_0.index t (1 : Fin 2) = 0
      ∧ win8_5.index t (0 : Fin 2) = t.val ∧ win8_5.index t (1 : Fin 2) = 0)
    ∧ ∀ a : Fin 2, win8_1.index t a = 0 ∧ win8_2.index t a = 0 ∧ win8_3.index t a = 0 ∧ win8_4.index t a = 0
      ∧ win8_6.index t a = 0 ∧ win8_7.index t a = 0 :=
  (by decide +kernel : ∀ t : Fin grid8.N, _)

section
variable (t : Fin cfg8.N)

theorem emb8_0 (r : Fin 10000) (d : Fin 32) (n : Fin 100000) (hn : n.val = t.val * 10000 + r.val) :
    ((cfg8.win 0).blk t).view.emb (ix2 r d) = ix2 n d :=
  Shape.idx_ext₂ (by show win8_0.index t (0 : Fin 2) * 10000 + 1 * r.val = n.val; rw [(idx8 t).1.1, hn]; omega)
    (by show win8_0.index t (1 : Fin 2) * 32 + 1 * d.val = d.val; rw [(idx8 t).1.2.1]; omega)

theorem emb8_5 (r : Fin 10000) (d : Fin 32) (n : Fin 100000) (hn : n.val = t.val * 10000 + r.val) :
    ((cfg8.win 5).blk t).view.emb (ix2 r d) = ix2 n d :=
  Shape.idx_ext₂ (by show win8_5.index t (0 : Fin 2) * 10000 + 1 * r.val = n.val; rw [(idx8 t).1.2.2.1, hn]; omega)
    (by show win8_5.index t (1 : Fin 2) * 32 + 1 * d.val = d.val; rw [(idx8 t).1.2.2.2]; omega)

theorem read8_0 (X : Vec F S100000x32 .f32) (r : Fin 10000) (d : Fin 32) (n : Fin 100000) (hn : n.val = t.val * 10000 + r.val) :
    (((cfg8.win 0).blk t).view.read (Elt F) X : Vec F S10000x32 .f32) (ix2 r d) = X (ix2 n d) := by
  rw [View.read_apply]; show X _ = X _; exact congrArg X (emb8_0 t r d n hn)

theorem read8_5 (X : Vec F S100000x32 .f32) (r : Fin 10000) (d : Fin 32) (n : Fin 100000) (hn : n.val = t.val * 10000 + r.val) :
    (((cfg8.win 5).blk t).view.read (Elt F) X : Vec F S10000x32 .f32) (ix2 r d) = X (ix2 n d) := by
  rw [View.read_apply]; show X _ = X _; exact congrArg X (emb8_5 t r d n hn)

theorem read8_1 (X : Vec F S32x32 .f32) : (((cfg8.win 1).blk t).view.read (Elt F) X : Vec F S32x32 .f32) = X := by
  funext y; rw [View.read_apply]; show X _ = X _
  exact congrArg X (funext fun a => Fin.ext (Window.rect_emb_val_of_index_zero win8_1 t a ((idx8 t).2 a).1 y))

theorem read8_2 (X : Vec F S1x32 .f32) : (((cfg8.win 2).blk t).view.read (Elt F) X : Vec F S1x32 .f32) = X := by
  funext y; rw [View.read_apply]; show X _ = X _
  exact congrArg X (funext fun a => Fin.ext (Window.rect_emb_val_of_index_zero win8_2 t a ((idx8 t).2 a).2.1 y))

theorem read8_3 (X : Vec F S32x32 .f32) : (((cfg8.win 3).blk t).view.read (Elt F) X : Vec F S32x32 .f32) = X := by
  funext y; rw [View.read_apply]; show X _ = X _
  exact congrArg X (funext fun a => Fin.ext (Window.rect_emb_val_of_index_zero win8_3 t a ((idx8 t).2 a).2.2.1 y))

theorem read8_4 (X : Vec F S1x32 .f32) : (((cfg8.win 4).blk t).view.read (Elt F) X : Vec F S1x32 .f32) = X := by
  funext y; rw [View.read_apply]; show X _ = X _
  exact congrArg X (funext fun a => Fin.ext (Window.rect_emb_val_of_index_zero win8_4 t a ((idx8 t).2 a).2.2.2.1 y))

theorem emb8_6 (y : S1x32.Idx) : ((cfg8.win 6).blk t).view.emb y = y :=
  funext fun a => Fin.ext (Window.rect_emb_val_of_index_zero win8_6 t a ((idx8 t).2 a).2.2.2.2.1 y)
theorem emb8_7 (y : S1x32.Idx) : ((cfg8.win 7).blk t).view.emb y = y :=
  funext fun a => Fin.ext (Window.rect_emb_val_of_index_zero win8_7 t a ((idx8 t).2 a).2.2.2.2.2 y)

theorem read8_6 (X : Vec F S1x32 .f32) : (((cfg8.win 6).blk t).view.read (Elt F) X : Vec F S1x32 .f32) = X := by
  funext y; rw [View.read_apply]; show X _ = X _; exact congrArg X (emb8_6 t y)

theorem read8_7 (X : Vec F S1x32 .f32) : (((cfg8.win 7).blk t).view.read (Elt F) X : Vec F S1x32 .f32) = X := by
  funext y; rw [View.read_apply]; show X _ = X _; exact congrArg X (emb8_7 t y)

end

theorem cover8_5 (i : S100000x32.Idx) :
    ∃ t : Fin cfg8.N, (cfg8.win 5).flush t = true ∧ i ∈ ((cfg8.win 5).blk t).view.set := by
  have hi : (i 0).val < 100000 := (i 0).isLt
  have hN : cfg8.N = 10 := N_8
  refine ⟨⟨(i 0).val / 10000, by rw [hN]; omega⟩, flush8_5 _, ?_⟩
  have h := emb8_5 ⟨(i 0).val / 10000, by rw [hN]; omega⟩ ⟨(i 0).val % 10000, Nat.mod_lt _ (by decide)⟩ (i 1) (i 0)
    (by show (i 0).val = (i 0).val / 10000 * 10000 + (i 0).val % 10000; omega)
  exact Eq.mp (congrArg (· ∈ _) (h.trans (eq_ix2 i).symm)) (View.emb_mem_set _ _)

theorem cover8_6 (i : S1x32.Idx) :
    ∃ t : Fin cfg8.N, (cfg8.win 6).flush t = true ∧ i ∈ ((cfg8.win 6).blk t).view.set :=
  ⟨t8_9, (flush8_6 t8_9).mpr rfl, emb8_6 t8_9 i ▸ View.emb_mem_set _ i⟩

theorem cover8_7 (i : S1x32.Idx) :
    ∃ t : Fin cfg8.N, (cfg8.win 7).flush t = true ∧ i ∈ ((cfg8.win 7).blk t).view.set :=
  ⟨t8_9, (flush8_7 t8_9).mpr rfl, emb8_7 t8_9 i ▸ View.emb_mem_set _ i⟩

section Region8Val
variable (V : (c : Dev nD) → (b : Ref sig .tc) → Buf (Elt Ideal) ((c : Thread nD τ).loc b)) (c : Dev nD)

abbrev arr8_0 : FVec Ideal S100000x32 .f32 := V c (Pipeline.arrRef spec8 0)
abbrev arr8_1 : FVec Ideal S32x32 .f32 := V c (Pipeline.arrRef spec8 1)
abbrev arr8_2 : FVec Ideal S1x32 .f32 := V c (Pipeline.arrRef spec8 2)
abbrev arr8_3 : FVec Ideal S32x32 .f32 := V c (Pipeline.arrRef spec8 3)
abbrev arr8_4 : FVec Ideal S1x32 .f32 := V c (Pipeline.arrRef spec8 4)

abbrev hArr8 : FVec Ideal S100000x32 .f32 :=
  mlpArr (arr8_0 V c) (arr8_1 V c) (arr8_2 V c) (arr8_3 V c) (arr8_4 V c)

abbrev sArr8 : FVec Ideal S1x32 .f32 := fun i => ∑ n : Fin 100000, hArr8 V c (ix2 n (i 1))

abbrev qArr8 : FVec Ideal S1x32 .f32 :=
  fun i => ∑ n : Fin 100000, hArr8 V c (ix2 n (i 1)) * hArr8 V c (ix2 n (i 1))

theorem hblk8_apply (t : Fin cfg8.N) (r : Fin 10000) (j : Fin 32) (n : Fin 100000)
    (hn : n.val = t.val * 10000 + r.val) : hblk8 (F := Ideal) V c t (ix2 r j) = hArr8 V c (ix2 n j) := by
  unfold hblk8
  exact hpay_of_blocks _ _ _ _ _ _ n r _ _ _ _ (fun d => read8_0 (F := Ideal) t (arr8_0 V c) r d n hn)
    (read8_1 (F := Ideal) t (arr8_1 V c)) (read8_2 (F := Ideal) t (arr8_2 V c)) (read8_3 (F := Ideal) t (arr8_3 V c))
    (read8_4 (F := Ideal) t (arr8_4 V c)) j

theorem accS8_last (j : Fin 32) (h9 : 9 < cfg8.N) :
    accS8 (F := Ideal) V c 9 h9 (ix2 0 j) = ∑ n : Fin 100000, hArr8 V c (ix2 n j) :=
  carried_total (accS8 (F := Ideal) V c) k8_pay3
    (fun n h a => k8_pay1 (k8_pay6 (iblk8 V c 0 ⟨n, h⟩) (iblk8 V c 1 ⟨n, h⟩) (iblk8 V c 2 ⟨n, h⟩) (iblk8 V c 3 ⟨n, h⟩) (iblk8 V c 4 ⟨n, h⟩) a))
    (fun n j => hArr8 V c (ix2 n j)) j (pay_za_apply j) (fun _ => rfl) (fun _ _ => rfl)
    (fun n h a => (pay_S_apply _ _ _ _ _ _ _).trans (congrArg (a (ix2 0 j) + ·)
      (blockSum_eq _ n (lt_of_lt_of_eq h N_8) _ fun r m hm => hblk8_apply V c ⟨n, h⟩ r j m hm))) h9

theorem accQ8_last (j : Fin 32) (h9 : 9 < cfg8.N) :
    accQ8 (F := Ideal) V c 9 h9 (ix2 0 j) = ∑ n : Fin 100000, hArr8 V c (ix2 n j) * hArr8 V c (ix2 n j) :=
  carried_total (accQ8 (F := Ideal) V c) k8_pay4 (fun n h a => k8_pay2 (hblk8 (F := Ideal) V c ⟨n, h⟩) a)
    (fun n j => hArr8 V c (ix2 n j) * hArr8 V c (ix2 n j)) j (pay_zb_apply j) (fun _ => rfl) (fun _ _ => rfl)
    (fun n h a => (pay_Q_apply _ _ _).trans (congrArg (a (ix2 0 j) + ·)
      (blockSum_eq _ n (lt_of_lt_of_eq h N_8) _ fun r m hm => by rw [hblk8_apply V c ⟨n, h⟩ r j m hm]))) h9

theorem flushed8_5_eq (t : Fin cfg8.N) :
    (dat8 V c).flushed 5 t = ((cfg8.win 5).blk t).view.read (Elt Ideal) (hArr8 V c) := by
  show (cfg8.win 5).cut (grid8.coords t) ((dat8 V c).after 5 t) = _
  rw [after8_5]
  funext y
  obtain ⟨r, j, rfl⟩ : ∃ (r : Fin 10000) (j : Fin 32), y = ix2 r j := ⟨y 0, y 1, eq_ix2 y⟩
  have hN : cfg8.N = 10 := N_8
  have ht := t.isLt
  have hr := r.isLt
  exact (hblk8_apply V c t r j ⟨t.val * 10000 + r.val, by omega⟩ rfl).trans (read8_5 (F := Ideal) t (hArr8 V c) r j _ rfl).symm

theorem flushed8_6_eq (t : Fin cfg8.N) (hf : (cfg8.win 6).flush t = true) :
    (dat8 V c).flushed 6 t = ((cfg8.win 6).blk t).view.read (Elt Ideal) (sArr8 V c) := by
  obtain ⟨n, hn⟩ := t
  have hN : cfg8.N = 10 := N_8
  obtain rfl : n = 9 := by have : n % 10 = 9 := (flush8_6 ⟨n, hn⟩).mp hf; omega
  show (cfg8.win 6).cut (grid8.coords _) ((dat8 V c).after 6 _) = _
  rw [after8_6, read8_6 (F := Ideal)]
  exact row_ext fun j => accS8_last V c j hn

theorem flushed8_7_eq (t : Fin cfg8.N) (hf : (cfg8.win 7).flush t = true) :
    (dat8 V c).flushed 7 t = ((cfg8.win 7).blk t).view.read (Elt Ideal) (qArr8 V c) := by
  obtain ⟨n, hn⟩ := t
  have hN : cfg8.N = 10 := N_8
  obtain rfl : n = 9 := by have : n % 10 = 9 := (flush8_7 ⟨n, hn⟩).mp hf; omega
  show (cfg8.win 7).cut (grid8.coords _) ((dat8 V c).after 7 _) = _
  rw [after8_7, read8_7 (F := Ideal)]
  exact row_ext fun j => accQ8_last V c j hn

abbrev outH8 : FVec Ideal S100000x32 .f32 := (dat8 V c).arrAt 5 cfg8.N
abbrev outS8 : FVec Ideal S1x32 .f32 := (dat8 V c).arrAt 6 cfg8.N
abbrev outQ8 : FVec Ideal S1x32 .f32 := (dat8 V c).arrAt 7 cfg8.N

theorem final8_5 : outH8 V c = hArr8 V c :=
  (dat8 V c).arrAt_eq_of_cover 5 (hArr8 V c) (fun t _ => flushed8_5_eq V c t) cover8_5

theorem final8_6 : outS8 V c = sArr8 V c :=
  (dat8 V c).arrAt_eq_of_cover 6 (sArr8 V c) (flushed8_6_eq V c) cover8_6

theorem final8_7 : outQ8 V c = qArr8 V c :=
  (dat8 V c).arrAt_eq_of_cover 7 (qArr8 V c) (flushed8_7_eq V c) cover8_7

theorem mlp8_h (n : Fin 100000) (j : Fin 32) :
    outH8 V c (ix2 n j)
      = Cert.Layer.mlpAt (fun n d => arr8_0 V c (ix2 n d)) (fun d k => arr8_1 V c (ix2 d k)) (fun k => arr8_2 V c (ix2 0 k))
          (fun k j => arr8_3 V c (ix2 k j)) (fun j => arr8_4 V c (ix2 0 j)) n j :=
  congrFun (final8_5 V c) (ix2 n j)

theorem mlp8_S (j : Fin 32) : outS8 V c (ix2 0 j) = ∑ n : Fin 100000, outH8 V c (ix2 n j) := by
  rw [final8_5]
  exact congrFun (final8_6 V c) (ix2 0 j)

theorem mlp8_Q (j : Fin 32) :
    outQ8 V c (ix2 0 j) = ∑ n : Fin 100000, outH8 V c (ix2 n j) * outH8 V c (ix2 n j) := by
  rw [final8_5]
  exact congrFun (final8_7 V c) (ix2 0 j)

end Region8Val

end Cert.KernelIdeal.Gen

end
-- ==== Proof.KIBn9Val.lean ====
import proofs.«421428_j45019847197002_2_alg».proof.Proof.KIBn9
import proofs.«421428_j45019847197002_2_alg».proof.Proof.ValBn
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

theorem idx9_facts : ∀ t : Fin cfg9.N,
    win9_0.index t (0 : Fin 2) = t.val ∧ win9_0.index t (1 : Fin 2) = 0
    ∧ win9_5.index t (0 : Fin 2) = t.val ∧ win9_5.index t (1 : Fin 2) = 0
    ∧ win9_1.index t (1 : Fin 2) = 0 ∧ win9_2.index t (1 : Fin 2) = 0
    ∧ win9_3.index t (1 : Fin 2) = 0 ∧ win9_4.index t (1 : Fin 2) = 0 :=
  (by decide +kernel : ∀ t : Fin grid9.N, _)

def pt9 (n : Fin 100000) : Fin cfg9.N :=
  ⟨n.val / 10000, by have h : cfg9.N = 10 := N_9; rw [h]; have := n.isLt; omega⟩

-- Row n of the array lies in the block of point n / 10000.
theorem bn9_cover (i : S100000x32.Idx) :
    ∃ t : Fin cfg9.N, (cfg9.win 5).flush t = true ∧ i ∈ ((cfg9.win 5).blk t).view.set := by
  have hi0 : (i 0).val < 100000 := (i 0).isLt
  have hi1 : (i 1).val < 32 := (i 1).isLt
  refine ⟨pt9 (i 0 : Fin 100000), flush9_5 _, ?_⟩
  obtain ⟨-, -, e0, e1, -⟩ := idx9_facts (pt9 (i 0 : Fin 100000))
  have hp : (pt9 (i 0 : Fin 100000)).val = (i 0).val / 10000 := rfl
  rw [show ((cfg9.win 5).blk (pt9 (i 0 : Fin 100000))).view.set = (win9_5.rect (pt9 (i 0 : Fin 100000))).set from View.set_slice_whole _ _,
    Rect.mem_set_unit]
  intro a
  match a with
  | ⟨0, _⟩ => show win9_5.index (pt9 (i 0 : Fin 100000)) (0 : Fin 2) * 10000 ≤ (i 0).val ∧ (i 0).val < win9_5.index (pt9 (i 0 : Fin 100000)) (0 : Fin 2) * 10000 + 10000; omega
  | ⟨1, _⟩ => show win9_5.index (pt9 (i 0 : Fin 100000)) (1 : Fin 2) * 32 ≤ (i 1).val ∧ (i 1).val < win9_5.index (pt9 (i 0 : Fin 100000)) (1 : Fin 2) * 32 + 32; omega

section Region9
variable (V : (c : Dev nD) → (b : Ref sig .tc) → Buf (Elt F) ((c : Thread nD τ).loc b))

abbrev bn9_h (c : Dev nD) : Vec F S100000x32 .f32 := V c (Pipeline.arrRef spec9 0)
abbrev bn9_mean (c : Dev nD) : Vec F S1x32 .f32 := V c (Pipeline.arrRef spec9 1)
abbrev bn9_var (c : Dev nD) : Vec F S1x32 .f32 := V c (Pipeline.arrRef spec9 2)
abbrev bn9_gamma (c : Dev nD) : Vec F S1x32 .f32 := V c (Pipeline.arrRef spec9 3)
abbrev bn9_beta (c : Dev nD) : Vec F S1x32 .f32 := V c (Pipeline.arrRef spec9 4)

end Region9

section Region9
variable (V : (c : Dev nD) → (b : Ref sig .tc) → Buf (Elt Ideal) ((c : Thread nD τ).loc b))

-- Entry (r, k) of point t's block is the normalised entry at the array index i = (10000 t + r, k).
theorem bn9_at (c : Dev nD) (t : Fin cfg9.N) (r : Fin 10000) (k : Fin 32) (i : S100000x32.Idx)
    (hi0 : (i 0).val = t.val * 10000 + r.val) (hi1 : (i 1).val = k.val) :
    k9_pay1 (iblk9 V c 0 t) (iblk9 V c 2 t) (iblk9 V c 1 t) (iblk9 V c 3 t) (iblk9 V c 4 t) (ix2 r k)
      = (bn9_h V c i - bn9_mean V c (ix2 0 (i 1)))
          * Ideal.rsqrt (max (bn9_var V c (ix2 0 (i 1))) 0 + Ideal.ofBits .f32 0x3727C5AC#32)
          * bn9_gamma V c (ix2 0 (i 1)) + bn9_beta V c (ix2 0 (i 1)) := by
  obtain ⟨e00, e01, -, -, e11, e21, e31, e41⟩ := idx9_facts t
  refine (ValBn.pay_apply (pay := k9_pay1) rfl _ _ _ _ _ r k).trans ?_
  have h0 : iblk9 V c 0 t (ix2 r k) = bn9_h V c i := by
    show V c (Pipeline.arrRef spec9 0) (((cfg9.win 0).blk t).view.emb (ix2 r k)) = V c (Pipeline.arrRef spec9 0) i
    refine congrArg (V c (Pipeline.arrRef spec9 0)) ?_
    funext a; apply Fin.ext
    match a with
    | ⟨0, _⟩ => show win9_0.index t (0 : Fin 2) * 10000 + 1 * r.val = (i 0).val; omega
    | ⟨1, _⟩ => show win9_0.index t (1 : Fin 2) * 32 + 1 * k.val = (i 1).val; omega
  have h1 : iblk9 V c 1 t (ix2 0 k) = bn9_mean V c (ix2 0 (i 1)) :=
    ValBn.row_congr (V c (Pipeline.arrRef spec9 1)) (x := ((cfg9.win 1).blk t).view.emb (ix2 0 k))
      (by show win9_1.index t (1 : Fin 2) * 32 + 1 * k.val = (i 1).val; omega)
  have h2 : iblk9 V c 2 t (ix2 0 k) = bn9_var V c (ix2 0 (i 1)) :=
    ValBn.row_congr (V c (Pipeline.arrRef spec9 2)) (x := ((cfg9.win 2).blk t).view.emb (ix2 0 k))
      (by show win9_2.index t (1 : Fin 2) * 32 + 1 * k.val = (i 1).val; omega)
  have h3 : iblk9 V c 3 t (ix2 0 k) = bn9_gamma V c (ix2 0 (i 1)) :=
    ValBn.row_congr (V c (Pipeline.arrRef spec9 3)) (x := ((cfg9.win 3).blk t).view.emb (ix2 0 k))
      (by show win9_3.index t (1 : Fin 2) * 32 + 1 * k.val = (i 1).val; omega)
  have h4 : iblk9 V c 4 t (ix2 0 k) = bn9_beta V c (ix2 0 (i 1)) :=
    ValBn.row_congr (V c (Pipeline.arrRef spec9 4)) (x := ((cfg9.win 4).blk t).view.emb (ix2 0 k))
      (by show win9_4.index t (1 : Fin 2) * 32 + 1 * k.val = (i 1).val; omega)
  rw [h0, h1, h2, h3, h4]

-- The grid points' blocks cover the array, and each block holds the normalised entries of its rows.
theorem bn9_arr_ideal (c : Dev nD) (n : Fin 100000) (j : Fin 32) :
    (dat9 (F := Ideal) V c).arrAt 5 cfg9.N (ix2 n j)
      = (bn9_h V c (ix2 n j) - bn9_mean V c (ix2 0 j))
          * Ideal.rsqrt (max (bn9_var V c (ix2 0 j)) 0 + Ideal.ofBits .f32 0x3727C5AC#32)
          * bn9_gamma V c (ix2 0 j) + bn9_beta V c (ix2 0 j) := by
  refine (dat9 (F := Ideal) V c).arrAt_forall_of_cover 5
    (fun (i : S100000x32.Idx) (v : Elt Ideal .f32) => v = (bn9_h V c i - bn9_mean V c (ix2 0 (i 1)))
      * Ideal.rsqrt (max (bn9_var V c (ix2 0 (i 1))) 0 + Ideal.ofBits .f32 0x3727C5AC#32)
      * bn9_gamma V c (ix2 0 (i 1)) + bn9_beta V c (ix2 0 (i 1)))
    (fun t _ y => ?_) bn9_cover (ix2 n j)
  obtain ⟨-, -, e50, e51, -⟩ := idx9_facts t
  obtain ⟨r, k, rfl⟩ : ∃ r k, y = ix2 r k := ⟨y 0, y 1, eq_ix2 y⟩
  show (cfg9.win 5).cut (grid9.coords t) ((dat9 V c).after 5 t) (ix2 r k) = _
  rw [after9_5, out9_5_eq]
  exact bn9_at V c t r k _
    (by show win9_5.index t (0 : Fin 2) * 10000 + 1 * r.val = t.val * 10000 + r.val; omega)
    (by show win9_5.index t (1 : Fin 2) * 32 + 1 * k.val = k.val; omega)

end Region9

end Cert.KernelIdeal.Gen

end
-- ==== Proof.Bridge4.lean ====
import proofs.«421428_j45019847197002_2_alg».proof.Proof.KIVals
import proofs.«421428_j45019847197002_2_alg».proof.Proof.KIHostIdx
import proofs.«421428_j45019847197002_2_alg».proof.Proof.AggEq
import proofs.«421428_j45019847197002_2_alg».proof.Proof.KIMlp8Val
import proofs.«421428_j45019847197002_2_alg».proof.Proof.KIBn9Val
import proofs.«421428_j45019847197002_2_alg».proof.Proof.BridgeStep

set_option maxRecDepth 16384

noncomputable section

namespace Cert.Bridge

open Idealize.ShloMosaic Idealize.ShloMosaic.TcCoe Idealize.ShloMosaic.ValueIdx Idealize.SL.Sem
open Cert.IdealFin Cert.Layer
open Cert.KernelIdeal Cert.KernelIdeal.Gen Cert.KernelIdeal.Host Cert.ReferenceIdeal.RefRead

section Layer4
variable (m : (ℓ : Loc nD τ sig) → Buf (Elt Ideal) ℓ) (ρ : Dev nD → PrngReg)
variable (V0 : Valuation Cert.ReferenceIdeal.τ Cert.ReferenceIdeal.sig (Elt Ideal)) (c : Dev nD)

-- No stretch of the layer writes an argument buffer, and none is an array of its two calls.
theorem layer4_args (hargs : ArgsAt (B16 m ρ c) V0) : ArgsAt (B20 m ρ c) V0 :=
  hargs.of_kept fun r hr =>
    (B20_of_ne m ρ c r ((by decide : ∀ r ∈ argRefs, ∀ w, Pipeline.arrRef spec9 w ≠ r) r hr)).trans <|
      (B19_keep m ρ c r ((by decide : ∀ r ∈ argRefs, r ∉ hostOps9_W) r hr)).trans <|
        (B18_of_ne m ρ c r ((by decide : ∀ r ∈ argRefs, ∀ w, Pipeline.arrRef spec8 w ≠ r) r hr)).trans
          (B17_keep m ρ c r ((by decide : ∀ r ∈ argRefs, r ∉ hostOps8_W) r hr))

theorem layer4 (hargs : ArgsAt (B16 m ρ c) V0) (hfin : FinArgs V0)
    (hprev : (U16 m ρ c (Pipeline.arrRef spec7 5) : FVec Ideal S100000x32 .f32) = out3 V0) (hprevfin : IsFin (out3 V0)) :
    (U20 m ρ c (Pipeline.arrRef spec9 5) : FVec Ideal S100000x32 .f32) = out4 V0 :=
  layer_step 3 4 hfin hprevfin (pre4_mlpAt V0) (out4_bnRef V0) hargs hprev (ho8_agg (B16 m ρ c))
    (ho8_W1_apply (B16 m ρ c)) (ho8_b1_apply (B16 m ρ c)) (ho8_W2_apply (B16 m ρ c)) (ho8_b2_apply (B16 m ρ c))
    (ho8_gamma_apply (B16 m ρ c)) (ho8_beta_apply (B16 m ρ c))
    (mlp8_h (U17 m ρ) c) (mlp8_S (U17 m ρ) c) (mlp8_Q (U17 m ρ) c)
    (B18_arr m ρ c 5) (B18_arr m ρ c 6) (B18_arr m ρ c 7)
    (B18_of_ne m ρ c main_v156 (by decide)) (B18_of_ne m ρ c main_v158 (by decide))
    (ho9_mean_apply (B18 m ρ c)) (ho9_var_apply (B18 m ρ c)) (ho9_gamma_apply (B18 m ρ c)) (ho9_beta_apply (B18 m ρ c))
    (B19_keep m ρ c (Pipeline.arrRef spec8 5) (by decide)) (bn9_arr_ideal (U19 m ρ) c) (B20_arr m ρ c 5)

theorem layer4_fin (hfin : FinArgs V0) (hprevfin : IsFin (out3 V0)) : IsFin (out4 V0) :=
  layer_step_fin 3 4 hfin hprevfin (pre4_mlpAt V0) (out4_bnRef V0)

end Layer4

end Cert.Bridge

end
-- ==== Proof.PreFin.lean ====
import proofs.«421428_j45019847197002_2_alg».proof.Pre_finite_inputs
import proofs.«421428_j45019847197002_2_alg».proof.Proof.IdealFin
import Idealize.ShloMosaic.Lib.ReduceAll
import Idealize.ShloMosaic.Lib.ValueIdx
import Idealize.ShloMosaic.PureOps.Ideal

noncomputable section

namespace Cert.PreFin

open Idealize.ShloMosaic Idealize.ShloMosaic.ValueIdx
open Cert.IdealFin Cert.Pre_finite_inputs

instance subsingleton_scalar_idx : Subsingleton S_.Idx := ⟨fun a b => funext fun d => d.elim0⟩

theorem ofBits_f32_inf : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_f32_inf] at h
  unfold Ideal.cmp at h
  induction x using EReal.rec with
  | bot => simp at h
  | coe r => exact ⟨r, rfl⟩
  | top => simp at h

theorem isFin_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
        (cmpf .olt (Host.absf a) (broadcastInDim S ![] hb (constant (F := Ideal) S_ .f32 0x7F800000#32)))
        (constantI S_ 1 1#1) hr hu ix0 = 1#1) :
    IsFin a := by
  intro i
  have hi := Host.reduce_andi_all _ _ hr hu ix0 e i
  exact real_of_abs_lt_inf (a i) hi

theorem fin_of_pre [Cert.Pre_finite_inputs.Facts]
    (a0 : FVec Ideal S100000x78 .f32) (a1 : IVec S2x3200000 32) (a2 : IVec S100000 32)
    (a3 : FVec Ideal S78x32 .f32) (a4 : FVec Ideal S32 .f32) (a5 : FVec Ideal S32x32 .f32)
    (a6 : FVec Ideal S32 .f32) (a7 : FVec Ideal S4x32x32 .f32) (a8 : FVec Ideal S4x32 .f32)
    (a9 : FVec Ideal S4x32x32 .f32) (a10 : FVec Ideal S4x32 .f32) (a11 a12 : FVec Ideal S5x32 .f32)
    (a13 : FVec Ideal S32x128 .f32) (a14 : FVec Ideal S128 .f32)
    (h : Cert.Pre_finite_inputs.fn (F := Ideal) a0 a1 a2 a3 a4 a5 a6 a7 a8 a9 a10 a11 a12 a13 a14 = (fun _ => 1#1)) :
    IsFin a0 ∧ IsFin a3 ∧ IsFin a4 ∧ IsFin a5 ∧ IsFin a6 ∧ IsFin a7 ∧ IsFin a8 ∧ IsFin a9 ∧ IsFin a10
      ∧ IsFin a11 ∧ IsFin a12 ∧ IsFin a13 ∧ IsFin a14 := by
  have h0 := congrFun h ix0
  dsimp only [fn, fn_part1, fn_part2, fn_part3, Idealize.ShloMosaic.andi] at h0
  simp only [IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  exact ⟨isFin_of_all a0 _ _ _ e0, isFin_of_all a3 _ _ _ e3, isFin_of_all a4 _ _ _ e4, isFin_of_all a5 _ _ _ e5,
    isFin_of_all a6 _ _ _ e6, isFin_of_all a7 _ _ _ e7, isFin_of_all a8 _ _ _ e8, isFin_of_all a9 _ _ _ e9,
    isFin_of_all a10 _ _ _ e10, isFin_of_all a11 _ _ _ e11, isFin_of_all a12 _ _ _ e12, isFin_of_all a13 _ _ _ e13,
    isFin_of_all a14 _ _ _ e14⟩

end Cert.PreFin

end
-- ==== Proof.BridgeFinal.lean ====
import proofs.«421428_j45019847197002_2_alg».proof.Proof.KIVals
import proofs.«421428_j45019847197002_2_alg».proof.Proof.KIHost
import proofs.«421428_j45019847197002_2_alg».proof.Proof.KIHostIdx
import proofs.«421428_j45019847197002_2_alg».proof.Proof.KIPool10Val
import proofs.«421428_j45019847197002_2_alg».proof.Proof.RefRead
import proofs.«421428_j45019847197002_2_alg».proof.Proof.BridgeLayer
import proofs.«421428_j45019847197002_2_alg».proof.Proof.BridgeArgs
import proofs.«421428_j45019847197002_2_alg».proof.Proof.Bridge0
import proofs.«421428_j45019847197002_2_alg».proof.Proof.Bridge1
import proofs.«421428_j45019847197002_2_alg».proof.Proof.Bridge2
import proofs.«421428_j45019847197002_2_alg».proof.Proof.Bridge3
import proofs.«421428_j45019847197002_2_alg».proof.Proof.Bridge4
import proofs.«421428_j45019847197002_2_alg».proof.Proof.PreFin
import proofs.«421428_j45019847197002_2_alg».proof.Defs
import proofs.«421428_j45019847197002_2_alg».proof.Proof.Gen.KernelIdeal
import proofs.«421428_j45019847197002_2_alg».proof.Proof.Gen.ReferenceIdeal
import proofs.«421428_j45019847197002_2_alg».proof.Proof.Gen.Pre_finite_inputs
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.IdealFin Cert.Layer Cert.KernelIdeal Cert.KernelIdeal.Gen Cert.ReferenceIdeal.RefRead
open scoped BigOperators

theorem pool_core (V : (c : Dev nD) → (b : Ref sig .tc) → Buf (Elt Ideal) ((c : Thread nD τ).loc b)) (c : Dev nD)
    (hR : Fin 100000 → Fin 32 → EReal) (ids : Fin 100000 → BitVec 32) (W : Fin 32 → Fin 128 → EReal)
    (b : Fin 128 → EReal) (Or : Fin 2048 → Fin 128 → EReal)
    (hh : ∀ n k, pool10_h (F := Ideal) V c (ix2 n k) = hR n k)
    (hids : ∀ n : Fin 100000, pool10_ids (F := Ideal) V c (ix2 n 0) = ids n)
    (hw : ∀ k o, pool10_w (F := Ideal) V c (ix2 k o) = W k o)
    (hb : ∀ o : Fin 128, pool10_b (F := Ideal) V c (ix2 0 o) = b o)
    (hOr : ∀ g o, Or g o
      = fcAt (fun g k => 0 + ∑ n, (if (ids n).toInt = (g.val : ℤ) then hR n k else 0)) W b g o)
    (g : Fin 2048) (o : Fin 128) :
    (dat10 (F := Ideal) V c).arrAt 4 cfg10.N (ix2 g o) = Or g o := by
  refine pool_join (fun n k => pool10_h (F := Ideal) V c (ix2 n k)) hR hh ids W b
    (fun g o => (dat10 (F := Ideal) V c).arrAt 4 cfg10.N (ix2 g o)) Or ?_ hOr g o
  intro g o
  rw [pool10_arr V c g o]
  simp only [hids, hw, hb]

section Run
variable (m : (ℓ : Loc nD τ sig) → Buf (Elt Ideal) ℓ) (ρ : Dev nD → PrngReg)
variable (V0 : Valuation Cert.ReferenceIdeal.τ Cert.ReferenceIdeal.sig (Elt Ideal)) (c : Dev nD)

theorem final_pooled (g : Fin 2048) (o : Fin 128) :
    final V0 (ix2 g o)
      = fcAt (fun g k => 0 + ∑ n : Fin 100000, (if (gid V0 (ix1 n)).toInt = (g.val : ℤ) then out4 V0 (ix2 n k) else 0))
          (fun k o => fcw V0 (ix2 k o)) (fun o => fcb V0 (ix1 o)) g o := by
  rw [final_fcAt V0 g o]
  simp only [pooled_apply]

theorem pool_eq (hargs : ArgsAt (B20 m ρ c) V0)
    (h4 : (U20 m ρ c main_v170 : FVec Ideal S100000x32 .f32) = out4 V0) :
    (B22 m ρ c (Proc.devRef .tc main_v173) : FVec Ideal S2048x128 .f32) = final V0 := by
  funext i
  obtain ⟨g, o, rfl⟩ : ∃ (g : Fin 2048) (o : Fin 128), i = ix2 g o := ⟨i 0, i 1, eq_ix2 i⟩
  refine (congrFun (B22_arr m ρ c 4) (ix2 g o)).trans ?_
  refine pool_core (U21 m ρ) c (fun n k => out4 V0 (ix2 n k)) (fun n => gid V0 (ix1 n)) (fun k o => fcw V0 (ix2 k o))
    (fun o => fcb V0 (ix1 o)) (fun g o => final V0 (ix2 g o)) ?_ ?_ ?_ ?_ (final_pooled V0) g o
  · intro n k
    exact congrFun ((B21_keep m ρ c main_v170 (by decide)).trans h4) (ix2 n k)
  · intro n
    exact (Cert.KernelIdeal.Host.ho10_v171_apply (B20 m ρ c) n).trans (congrFun hargs.a2 (ix1 n))
  · intro k o
    exact congrFun ((B21_keep m ρ c main_arg13 (by decide)).trans hargs.a13) (ix2 k o)
  · intro o
    exact (Cert.KernelIdeal.Host.ho10_v172_apply (B20 m ρ c) o).trans (congrFun hargs.a14 (ix1 o))

end Run

theorem final_eq
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.ReferenceIdeal.nD)
    (hA0 : Args0 (B0 m g c) (StableHlo.launchContents m' c)) :
    final (StableHlo.launchContents m' c) = B22 m g c (Proc.devRef .tc Cert.KernelIdeal.main_v173) := by
  obtain ⟨f0, f3, f4, f5, f6, f7, f8, f9, f10, f11, f12, f13, f14⟩ :=
    Cert.PreFin.fin_of_pre _ _ _ _ _ _ _ _ _ _ _ _ _ _ _ (hpre c)
  have hfin : FinArgs (StableHlo.launchContents m' c) :=
    ⟨hA0.a0 ▸ f0, hA0.a3 ▸ f3, hA0.a4 ▸ f4, hA0.a5 ▸ f5, hA0.a6 ▸ f6, hA0.a7 ▸ f7, hA0.a8 ▸ f8, hA0.a9 ▸ f9,
      hA0.a10 ▸ f10, hA0.a11 ▸ f11, hA0.a12 ▸ f12, hA0.a13 ▸ f13, hA0.a14 ▸ f14⟩
  have hA4 : ArgsAt (B4 m g c) (StableHlo.launchContents m' c) := layer0_args m g (StableHlo.launchContents m' c) c hA0
  have l0 := layer0 m g (StableHlo.launchContents m' c) c hA0 hfin
  have f0 := layer0_fin (StableHlo.launchContents m' c) hfin
  have l1 := layer1 m g (StableHlo.launchContents m' c) c hA4 hfin l0 f0
  have f1 := layer1_fin (StableHlo.launchContents m' c) hfin f0
  have hA8 := layer1_args m g (StableHlo.launchContents m' c) c hA4
  have l2 := layer2 m g (StableHlo.launchContents m' c) c hA8 hfin l1 f1
  have f2 := layer2_fin (StableHlo.launchContents m' c) hfin f1
  have hA12 := layer2_args m g (StableHlo.launchContents m' c) c hA8
  have l3 := layer3 m g (StableHlo.launchContents m' c) c hA12 hfin l2 f2
  have f3 := layer3_fin (StableHlo.launchContents m' c) hfin f2
  have hA16 := layer3_args m g (StableHlo.launchContents m' c) c hA12
  have l4 := layer4 m g (StableHlo.launchContents m' c) c hA16 hfin l3 f3
  have hA20 := layer4_args m g (StableHlo.launchContents m' c) c hA16
  exact (pool_eq m g (StableHlo.launchContents m' c) c hA20 l4).symm

end Cert.Bridge

end
-- ==== Proof.lean ====
import proofs.«421428_j45019847197002_2_alg».proof.Defs
import proofs.«421428_j45019847197002_2_alg».proof.Proof.Gen.Kernel
import proofs.«421428_j45019847197002_2_alg».proof.Proof.Gen.KernelIdeal
import proofs.«421428_j45019847197002_2_alg».proof.Proof.Gen.ReferenceIdeal
import proofs.«421428_j45019847197002_2_alg».proof.Proof.Gen.Pre_finite_inputs
import proofs.«421428_j45019847197002_2_alg».proof.Proof.Gen.ReferenceIdeal.Run
import proofs.«421428_j45019847197002_2_alg».proof.Proof.KBRun
import proofs.«421428_j45019847197002_2_alg».proof.Proof.KIRun
import proofs.«421428_j45019847197002_2_alg».proof.Proof.BridgeFinal

noncomputable section

namespace Cert.Proof

open Idealize.ShloMosaic Idealize.ShloMosaic.TcCoe Idealize.SL.Sem

theorem frame_k : @Cert.frame_Kernel Cert.Kernel.Gen.facts Cert.Pre_finite_inputs.Gen.facts := fun m ρ _ =>
  (θ_run Cert.Kernel.defs _ _).mono (fun r h c => by
    refine ⟨?_, ?_, ?_, ?_, ?_, ?_, ?_, ?_, ?_, ?_, ?_, ?_, ?_, ?_, ?_⟩ <;>
      exact (h c _ (Cert.Kernel.Gen.mem_uc _ (by decide))).trans (Cert.Kernel.Gen.B22_arg m ρ c _ (by decide)))
    (Cert.Kernel.Gen.run_main (F := Bits) m ρ)

theorem frame_ki : @Cert.frame_KernelIdeal Cert.KernelIdeal.Gen.facts Cert.Pre_finite_inputs.Gen.facts := fun m ρ _ =>
  (θ_run Cert.KernelIdeal.defs _ _).mono (fun r h c => by
    refine ⟨?_, ?_, ?_, ?_, ?_, ?_, ?_, ?_, ?_, ?_, ?_, ?_, ?_, ?_, ?_⟩ <;>
      exact (h c _ (Cert.KernelIdeal.Gen.mem_uc _ (by decide))).trans (Cert.KernelIdeal.Gen.B22_arg m ρ c _ (by decide)))
    (Cert.KernelIdeal.Gen.run_main (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m g m' g' hpre hagree
  refine ⟨fun c => Cert.KernelIdeal.Gen.B22 m g c (Proc.devRef .tc Cert.KernelIdeal.main_v173), ?_, ?_⟩
  · exact (θ_run Cert.KernelIdeal.defs _ _).mono (fun r h c => by
      refine ⟨h c _ (Cert.KernelIdeal.Gen.mem_uc _ (by decide)), ?_, ?_, ?_, ?_, ?_, ?_, ?_, ?_, ?_, ?_, ?_, ?_, ?_, ?_, ?_⟩ <;>
        exact (h c _ (Cert.KernelIdeal.Gen.mem_uc _ (by decide))).trans (Cert.KernelIdeal.Gen.B22_arg m g c _ (by decide)))
      (Cert.KernelIdeal.Gen.run_main (F := Ideal) m g)
  · exact (θ_run Cert.ReferenceIdeal.defs _ _).mono (fun r h c => ⟨(h c).1.trans (Cert.Bridge.final_eq m g m' hpre c
        (let ⟨h0, h1, h2, h3, h4, h5, h6, h7, h8, h9, h10, h11, h12, h13, h14⟩ := hagree c
        ⟨h0.symm, h1.symm, h2.symm, h3.symm, h4.symm, h5.symm, h6.symm, h7.symm, h8.symm, h9.symm, h10.symm, h11.symm, h12.symm, h13.symm, h14.symm⟩)), (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
